-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128 : Shape := ⟨2, ![128, 128]⟩
abbrev S50257x768 : Shape := ⟨2, ![50257, 768]⟩
abbrev S_ : Shape := ⟨0, ![]⟩

class Facts : Prop where
  bcast_S_S50257x768 : S_.BroadcastsInDim S50257x768 (![] : Fin 0 → Fin S50257x768.rank)
  reducesTo_S50257x768_S_d0_1 : S50257x768.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : IVec S128x128 32) (main_arg1 : FVec F S50257x768 .f32) : IVec S_ 1 :=
  let main_v0 : FVec F S50257x768 .f32 := Host.absf main_arg1
  let main_cst : FVec F S_ .f32 := constant S_ .f32 0x7F800000#32
  let main_v1 : FVec F S50257x768 .f32 := broadcastInDim S50257x768 ![] bcast_S_S50257x768 main_cst
  let main_v2 : IVec S50257x768 1 := cmpf .olt main_v0 main_v1
  let main_c : IVec S_ 1 := constantI S_ 1 1#1
  let main_v3 : IVec S_ 1 := (fun x v => Host.reduce IntOp.andi x v reducesTo_S50257x768_S_d0_1 h_S_) main_v2 main_c
  let main_c_0 : IVec S_ 32 := constantI S_ 32 0#32
  let main_v4 : IVec S128x128 32 := broadcastInDim S128x128 ![] bcast_S_S128x128 main_c_0
  let main_v5 : IVec S128x128 1 := cmpi .sge main_arg0 main_v4
  let main_c_1 : IVec S_ 32 := constantI S_ 32 50257#32
  let main_v6 : IVec S128x128 32 := broadcastInDim S128x128 ![] bcast_S_S128x128 main_c_1
  let main_v7 : IVec S128x128 1 := cmpi .slt main_arg0 main_v6
  let main_v8 : IVec S128x128 1 := andi main_v5 main_v7
  let main_c_2 : IVec S_ 1 := constantI S_ 1 1#1
  let main_v9 : IVec S_ 1 := (fun x v => Host.reduce IntOp.andi x v reducesTo_S128x128_S_d0_1 h_S_) main_v8 main_c_2
  let main_v10 : IVec S_ 1 := andi main_v3 main_v9
  main_v10
-- ==== Kernel.lean ====
abbrev S128x128 : Shape := ⟨2, ![128, 128]⟩
abbrev S50257x768 : Shape := ⟨2, ![50257, 768]⟩
abbrev S128x128x768 : Shape := ⟨3, ![128, 128, 768]⟩
abbrev S1x128x768 : Shape := ⟨3, ![1, 128, 768]⟩
abbrev S16x768 : Shape := ⟨2, ![16, 768]⟩
abbrev S16 : Shape := ⟨1, ![16]⟩
abbrev S1x1 : Shape := ⟨2, ![1, 1]⟩
abbrev S1 : Shape := ⟨1, ![1]⟩
abbrev S_ : Shape := ⟨0, ![]⟩
abbrev S1x768 : Shape := ⟨2, ![1, 768]⟩
abbrev S768 : Shape := ⟨1, ![768]⟩
abbrev S1x16x768 : Shape := ⟨3, ![1, 16, 768]⟩
abbrev S128x1x768 : Shape := ⟨3, ![128, 1, 768]⟩
abbrev S128x448x768 : Shape := ⟨3, ![128, 448, 768]⟩
abbrev S128x576x768 : Shape := ⟨3, ![128, 576, 768]⟩
abbrev S128x24x24x3x16x16 : Shape := ⟨6, ![128, 24, 24, 3, 16, 16]⟩
abbrev S128x3x24x16x24x16 : Shape := ⟨6, ![128, 3, 24, 16, 24, 16]⟩
abbrev S128x3x384x384 : Shape := ⟨4, ![128, 3, 384, 384]⟩
abbrev S1x3x384x384 : Shape := ⟨4, ![1, 3, 384, 384]⟩
abbrev S3x384x384 : Shape := ⟨3, ![3, 384, 384]⟩
abbrev S3x384 : Shape := ⟨2, ![3, 384]⟩
abbrev S3x384x1 : Shape := ⟨3, ![3, 384, 1]⟩
abbrev S3x1 : Shape := ⟨2, ![3, 1]⟩
abbrev S3x1x1 : Shape := ⟨3, ![3, 1, 1]⟩
abbrev S1x1x1 : Shape := ⟨3, ![1, 1, 1]⟩

abbrev nBuf : Space → Nat
  | .hbm => 14
  | .vmem => 9
  | .smem => 1
  | _ => 0

abbrev bufTy : (tb : Table) → Fin (tcTables nBuf tb) → BufTy
  | .hbm, ⟨0, _⟩ => ⟨S50257x768, .f32⟩
  | .hbm, ⟨1, _⟩ => ⟨S128x128x768, .f32⟩
  | .hbm, ⟨2, _⟩ => ⟨S128x1x768, .f32⟩
  | .hbm, ⟨3, _⟩ => ⟨S128x448x768, .f32⟩
  | .hbm, ⟨4, _⟩ => ⟨S128x576x768, .f32⟩
  | .hbm, ⟨5, _⟩ => ⟨S128x24x24x3x16x16, .f32⟩
  | .hbm, ⟨6, _⟩ => ⟨S128x3x24x16x24x16, .f32⟩
  | .hbm, ⟨7, _⟩ => ⟨S128x3x384x384, .f32⟩
  | .hbm, ⟨8, _⟩ => ⟨S128x3x384x384, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x128x768, .f32⟩
  | .local _ .vmem, ⟨1, _⟩ => ⟨S1x128x768, .f32⟩
  | .local _ .vmem, ⟨2, _⟩ => ⟨S16x768, .f32⟩
  | .local _ .vmem, ⟨3, _⟩ => ⟨S1x3x384x384, .f32⟩
  | .local _ .vmem, ⟨4, _⟩ => ⟨S1x3x384x384, .f32⟩
  | .local _ .vmem, ⟨5, _⟩ => ⟨S1x3x384x384, .f32⟩
  | .local _ .vmem, ⟨6, _⟩ => ⟨S1x3x384x384, .f32⟩
  | .local _ .vmem, ⟨7, _⟩ => ⟨S1x1, .f32⟩
  | .local _ .vmem, ⟨8, _⟩ => ⟨S1x1, .f32⟩
  | .local _ .smem, ⟨0, _⟩ => ⟨S128x128, .i32⟩
  | _, _ => ⟨S50257x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg1 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7_0 : Ref sig .tc := ⟨.hbm, 8, rfl⟩
abbrev main_v7_1 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_scratch0 : Ref sig .tc := ⟨.vmem, 8, rfl⟩
abbrev cc0_sem0_0 : DmaSem sig := 0
abbrev cc0_sem0_1 : DmaSem sig := 1
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (v1 : BitVec 32) : Fin 2 → Nat :=
  let c0_i32_2 : BitVec 32 := 0#32
  ![v1.toNat, 0]

def k0_off3 (i : grid0.Coords) : Fin 2 → Nat :=
  let arg0 : BitVec 32 := BitVec.ofNat 32 (i 0).val
  let v8 : Index := Scalar.indexCast arg0
  let c1 : Index := 1#32
  ![v8.toNat, 1]
def k0_off4 (v9 : BitVec 32) : Fin 2 → Nat :=
  let c0_i32_5 : BitVec 32 := 0#32
  ![v9.toNat, 0]

def k0_off5 (i : grid0.Coords) : Fin 2 → Nat :=
  let arg0 : BitVec 32 := BitVec.ofNat 32 (i 0).val
  let v16 : Index := Scalar.indexCast arg0
  let c2 : Index := 2#32
  ![v16.toNat, 2]
def k0_off6 (v17 : BitVec 32) : Fin 2 → Nat :=
  let c0_i32_8 : BitVec 32 := 0#32
  ![v17.toNat, 0]

def k0_off7 (i : grid0.Coords) : Fin 2 → Nat :=
  let arg0 : BitVec 32 := BitVec.ofNat 32 (i 0).val
  let v24 : Index := Scalar.indexCast arg0
  let c3 : Index := 3#32
  ![v24.toNat, 3]
def k0_off8 (v25 : BitVec 32) : Fin 2 → Nat :=
  let c0_i32_11 : BitVec 32 := 0#32
  ![v25.toNat, 0]

def k0_off9 (i : grid0.Coords) : Fin 2 → Nat :=
  let arg0 : BitVec 32 := BitVec.ofNat 32 (i 0).val
  let v32 : Index := Scalar.indexCast arg0
  let c4 : Index := 4#32
  ![v32.toNat, 4]
def k0_off10 (v33 : BitVec 32) : Fin 2 → Nat :=
  let c0_i32_14 : BitVec 32 := 0#32
  ![v33.toNat, 0]

def k0_off11 (i : grid0.Coords) : Fin 2 → Nat :=
  let arg0 : BitVec 32 := BitVec.ofNat 32 (i 0).val
  let v40 : Index := Scalar.indexCast arg0
  let c5 : Index := 5#32
  ![v40.toNat, 5]
def k0_off12 (v41 : BitVec 32) : Fin 2 → Nat :=
  let c0_i32_17 : BitVec 32 := 0#32
  ![v41.toNat, 0]

def k0_off13 (i : grid0.Coords) : Fin 2 → Nat :=
  let arg0 : BitVec 32 := BitVec.ofNat 32 (i 0).val
  let v48 : Index := Scalar.indexCast arg0
  let c6 : Index := 6#32
  ![v48.toNat, 6]
def k0_off14 (v49 : BitVec 32) : Fin 2 → Nat :=
  let c0_i32_20 : BitVec 32 := 0#32
  ![v49.toNat, 0]

def k0_off15 (i : grid0.Coords) : Fin 2 → Nat :=
  let arg0 : BitVec 32 := BitVec.ofNat 32 (i 0).val
  let v56 : Index := Scalar.indexCast arg0
  let c7 : Index := 7#32
  ![v56.toNat, 7]
def k0_off16 (v57 : BitVec 32) : Fin 2 → Nat :=
  let c0_i32_23 : BitVec 32 := 0#32
  ![v57.toNat, 0]

def k0_off17 (i : grid0.Coords) : Fin 2 → Nat :=
  let arg0 : BitVec 32 := BitVec.ofNat 32 (i 0).val
  let v64 : Index := Scalar.indexCast arg0
  let c8 : Index := 8#32
  ![v64.toNat, 8]
def k0_off18 (v65 : BitVec 32) : Fin 2 → Nat :=
  let c0_i32_26 : BitVec 32 := 0#32
  ![v65.toNat, 0]

def k0_off19 (i : grid0.Coords) : Fin 2 → Nat :=
  let arg0 : BitVec 32 := BitVec.ofNat 32 (i 0).val
  let v72 : Index := Scalar.indexCast arg0
  let c9 : Index := 9#32
  ![v72.toNat, 9]
def k0_off20 (v73 : BitVec 32) : Fin 2 → Nat :=
  let c0_i32_29 : BitVec 32 := 0#32
  ![v73.toNat, 0]

def k0_off21 (i : grid0.Coords) : Fin 2 → Nat :=
  let arg0 : BitVec 32 := BitVec.ofNat 32 (i 0).val
  let v80 : Index := Scalar.indexCast arg0
  let c10 : Index := 10#32
  ![v80.toNat, 10]
def k0_off22 (v81 : BitVec 32) : Fin 2 → Nat :=
  let c0_i32_32 : BitVec 32 := 0#32
  ![v81.toNat, 0]

def k0_off23 (i : grid0.Coords) : Fin 2 → Nat :=
  let arg0 : BitVec 32 := BitVec.ofNat 32 (i 0).val
  let v88 : Index := Scalar.indexCast arg0
  let c11 : Index := 11#32
  ![v88.toNat, 11]
def k0_off24 (v89 : BitVec 32) : Fin 2 → Nat :=
  let c0_i32_35 : BitVec 32 := 0#32
  ![v89.toNat, 0]

def k0_off25 (i : grid0.Coords) : Fin 2 → Nat :=
  let arg0 : BitVec 32 := BitVec.ofNat 32 (i 0).val
  let v96 : Index := Scalar.indexCast arg0
  let c12 : Index := 12#32
  ![v96.toNat, 12]
def k0_off26 (v97 : BitVec 32) : Fin 2 → Nat :=
  let c0_i32_38 : BitVec 32 := 0#32
  ![v97.toNat, 0]

def k0_off27 (i : grid0.Coords) : Fin 2 → Nat :=
  let arg0 : BitVec 32 := BitVec.ofNat 32 (i 0).val
  let v104 : Index := Scalar.indexCast arg0
  let c13 : Index := 13#32
  ![v104.toNat, 13]
def k0_off28 (v105 : BitVec 32) : Fin 2 → Nat :=
  let c0_i32_41 : BitVec 32 := 0#32
  ![v105.toNat, 0]

def k0_off29 (i : grid0.Coords) : Fin 2 → Nat :=
  let arg0 : BitVec 32 := BitVec.ofNat 32 (i 0).val
  let v112 : Index := Scalar.indexCast arg0
  let c14 : Index := 14#32
  ![v112.toNat, 14]
def k0_off30 (v113 : BitVec 32) : Fin 2 → Nat :=
  let c0_i32_44 : BitVec 32 := 0#32
  ![v113.toNat, 0]

def k0_off31 (i : grid0.Coords) : Fin 2 → Nat :=
  let arg0 : BitVec 32 := BitVec.ofNat 32 (i 0).val
  let v120 : Index := Scalar.indexCast arg0
  let c15 : Index := 15#32
  ![v120.toNat, 15]
def k0_off32 (v121 : BitVec 32) : Fin 2 → Nat :=
  let c0_i32_47 : BitVec 32 := 0#32
  ![v121.toNat, 0]

def k0_chk16 (v121 : BitVec 32) : Prop :=
  (∀ a, (k0_off32 v121) a + S1x768.size a ≤ S50257x768.size a)
instance k0_chk16.dec : ∀ (v121 : BitVec 32), Decidable (k0_chk16 v121) := fun v121 => decidable_of_iff' _ (Iff.of_eq (k0_chk16.eq_1 v121))
theorem k0_off32_inb : ∀ (v121 : BitVec 32) (k0_hw16 : k0_chk16 v121), ∀ a, (k0_off32 v121) a + S1x768.size a ≤ S50257x768.size a := fun v121 k0_hw16 => k0_hw16

def k0_off33 (v1 : BitVec 32) : Fin 2 → Nat :=
  let c0_i32_51 : BitVec 32 := 0#32
  ![v1.toNat, 0]

def k0_chk1 (v1 : BitVec 32) : Prop :=
  (∀ a, (k0_off2 v1) a + S1x768.size a ≤ S50257x768.size a) ∧
  (∀ a, (k0_off33 v1) a + S1x768.size a ≤ S50257x768.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x768.size a ≤ S50257x768.size a := fun v1 k0_hw1 => k0_hw1.1
theorem k0_off33_inb : ∀ (v1 : BitVec 32) (k0_hw1 : k0_chk1 v1), ∀ a, (k0_off33 v1) a + S1x768.size a ≤ S50257x768.size a := fun v1 k0_hw1 => k0_hw1.2

def k0_off34 (v9 : BitVec 32) : Fin 2 → Nat :=
  let c0_i32_55 : BitVec 32 := 0#32
  ![v9.toNat, 0]

def k0_chk2 (v9 : BitVec 32) : Prop :=
  (∀ a, (k0_off4 v9) a + S1x768.size a ≤ S50257x768.size a) ∧
  (∀ a, (k0_off34 v9) a + S1x768.size a ≤ S50257x768.size a)
instance k0_chk2.dec : ∀ (v9 : BitVec 32), Decidable (k0_chk2 v9) := fun v9 => decidable_of_iff' _ (Iff.of_eq (k0_chk2.eq_1 v9))
theorem k0_off4_inb : ∀ (v9 : BitVec 32) (k0_hw2 : k0_chk2 v9), ∀ a, (k0_off4 v9) a + S1x768.size a ≤ S50257x768.size a := fun v9 k0_hw2 => k0_hw2.1
theorem k0_off34_inb : ∀ (v9 : BitVec 32) (k0_hw2 : k0_chk2 v9), ∀ a, (k0_off34 v9) a + S1x768.size a ≤ S50257x768.size a := fun v9 k0_hw2 => k0_hw2.2

def k0_off35 (v17 : BitVec 32) : Fin 2 → Nat :=
  let c0_i32_59 : BitVec 32 := 0#32
  ![v17.toNat, 0]

def k0_chk3 (v17 : BitVec 32) : Prop :=
  (∀ a, (k0_off6 v17) a + S1x768.size a ≤ S50257x768.size a) ∧
  (∀ a, (k0_off35 v17) a + S1x768.size a ≤ S50257x768.size a)
instance k0_chk3.dec : ∀ (v17 : BitVec 32), Decidable (k0_chk3 v17) := fun v17 => decidable_of_iff' _ (Iff.of_eq (k0_chk3.eq_1 v17))
theorem k0_off6_inb : ∀ (v17 : BitVec 32) (k0_hw3 : k0_chk3 v17), ∀ a, (k0_off6 v17) a + S1x768.size a ≤ S50257x768.size a := fun v17 k0_hw3 => k0_hw3.1
theorem k0_off35_inb : ∀ (v17 : BitVec 32) (k0_hw3 : k0_chk3 v17), ∀ a, (k0_off35 v17) a + S1x768.size a ≤ S50257x768.size a := fun v17 k0_hw3 => k0_hw3.2

def k0_off36 (v25 : BitVec 32) : Fin 2 → Nat :=
  let c0_i32_63 : BitVec 32 := 0#32
  ![v25.toNat, 0]

def k0_chk4 (v25 : BitVec 32) : Prop :=
  (∀ a, (k0_off8 v25) a + S1x768.size a ≤ S50257x768.size a) ∧
  (∀ a, (k0_off36 v25) a + S1x768.size a ≤ S50257x768.size a)
instance k0_chk4.dec : ∀ (v25 : BitVec 32), Decidable (k0_chk4 v25) := fun v25 => decidable_of_iff' _ (Iff.of_eq (k0_chk4.eq_1 v25))
theorem k0_off8_inb : ∀ (v25 : BitVec 32) (k0_hw4 : k0_chk4 v25), ∀ a, (k0_off8 v25) a + S1x768.size a ≤ S50257x768.size a := fun v25 k0_hw4 => k0_hw4.1
theorem k0_off36_inb : ∀ (v25 : BitVec 32) (k0_hw4 : k0_chk4 v25), ∀ a, (k0_off36 v25) a + S1x768.size a ≤ S50257x768.size a := fun v25 k0_hw4 => k0_hw4.2

def k0_off37 (v33 : BitVec 32) : Fin 2 → Nat :=
  let c0_i32_67 : BitVec 32 := 0#32
  ![v33.toNat, 0]

def k0_chk5 (v33 : BitVec 32) : Prop :=
  (∀ a, (k0_off10 v33) a + S1x768.size a ≤ S50257x768.size a) ∧
  (∀ a, (k0_off37 v33) a + S1x768.size a ≤ S50257x768.size a)
instance k0_chk5.dec : ∀ (v33 : BitVec 32), Decidable (k0_chk5 v33) := fun v33 => decidable_of_iff' _ (Iff.of_eq (k0_chk5.eq_1 v33))
theorem k0_off10_inb : ∀ (v33 : BitVec 32) (k0_hw5 : k0_chk5 v33), ∀ a, (k0_off10 v33) a + S1x768.size a ≤ S50257x768.size a := fun v33 k0_hw5 => k0_hw5.1
theorem k0_off37_inb : ∀ (v33 : BitVec 32) (k0_hw5 : k0_chk5 v33), ∀ a, (k0_off37 v33) a + S1x768.size a ≤ S50257x768.size a := fun v33 k0_hw5 => k0_hw5.2

def k0_off38 (v41 : BitVec 32) : Fin 2 → Nat :=
  let c0_i32_71 : BitVec 32 := 0#32
  ![v41.toNat, 0]

def k0_chk6 (v41 : BitVec 32) : Prop :=
  (∀ a, (k0_off12 v41) a + S1x768.size a ≤ S50257x768.size a) ∧
  (∀ a, (k0_off38 v41) a + S1x768.size a ≤ S50257x768.size a)
instance k0_chk6.dec : ∀ (v41 : BitVec 32), Decidable (k0_chk6 v41) := fun v41 => decidable_of_iff' _ (Iff.of_eq (k0_chk6.eq_1 v41))
theorem k0_off12_inb : ∀ (v41 : BitVec 32) (k0_hw6 : k0_chk6 v41), ∀ a, (k0_off12 v41) a + S1x768.size a ≤ S50257x768.size a := fun v41 k0_hw6 => k0_hw6.1
theorem k0_off38_inb : ∀ (v41 : BitVec 32) (k0_hw6 : k0_chk6 v41), ∀ a, (k0_off38 v41) a + S1x768.size a ≤ S50257x768.size a := fun v41 k0_hw6 => k0_hw6.2

def k0_off39 (v49 : BitVec 32) : Fin 2 → Nat :=
  let c0_i32_75 : BitVec 32 := 0#32
  ![v49.toNat, 0]

def k0_chk7 (v49 : BitVec 32) : Prop :=
  (∀ a, (k0_off14 v49) a + S1x768.size a ≤ S50257x768.size a) ∧
  (∀ a, (k0_off39 v49) a + S1x768.size a ≤ S50257x768.size a)
instance k0_chk7.dec : ∀ (v49 : BitVec 32), Decidable (k0_chk7 v49) := fun v49 => decidable_of_iff' _ (Iff.of_eq (k0_chk7.eq_1 v49))
theorem k0_off14_inb : ∀ (v49 : BitVec 32) (k0_hw7 : k0_chk7 v49), ∀ a, (k0_off14 v49) a + S1x768.size a ≤ S50257x768.size a := fun v49 k0_hw7 => k0_hw7.1
theorem k0_off39_inb : ∀ (v49 : BitVec 32) (k0_hw7 : k0_chk7 v49), ∀ a, (k0_off39 v49) a + S1x768.size a ≤ S50257x768.size a := fun v49 k0_hw7 => k0_hw7.2

def k0_off40 (v57 : BitVec 32) : Fin 2 → Nat :=
  let c0_i32_79 : BitVec 32 := 0#32
  ![v57.toNat, 0]

def k0_chk8 (v57 : BitVec 32) : Prop :=
  (∀ a, (k0_off16 v57) a + S1x768.size a ≤ S50257x768.size a) ∧
  (∀ a, (k0_off40 v57) a + S1x768.size a ≤ S50257x768.size a)
instance k0_chk8.dec : ∀ (v57 : BitVec 32), Decidable (k0_chk8 v57) := fun v57 => decidable_of_iff' _ (Iff.of_eq (k0_chk8.eq_1 v57))
theorem k0_off16_inb : ∀ (v57 : BitVec 32) (k0_hw8 : k0_chk8 v57), ∀ a, (k0_off16 v57) a + S1x768.size a ≤ S50257x768.size a := fun v57 k0_hw8 => k0_hw8.1
theorem k0_off40_inb : ∀ (v57 : BitVec 32) (k0_hw8 : k0_chk8 v57), ∀ a, (k0_off40 v57) a + S1x768.size a ≤ S50257x768.size a := fun v57 k0_hw8 => k0_hw8.2

def k0_off41 (v65 : BitVec 32) : Fin 2 → Nat :=
  let c0_i32_83 : BitVec 32 := 0#32
  ![v65.toNat, 0]

def k0_chk9 (v65 : BitVec 32) : Prop :=
  (∀ a, (k0_off18 v65) a + S1x768.size a ≤ S50257x768.size a) ∧
  (∀ a, (k0_off41 v65) a + S1x768.size a ≤ S50257x768.size a)
instance k0_chk9.dec : ∀ (v65 : BitVec 32), Decidable (k0_chk9 v65) := fun v65 => decidable_of_iff' _ (Iff.of_eq (k0_chk9.eq_1 v65))
theorem k0_off18_inb : ∀ (v65 : BitVec 32) (k0_hw9 : k0_chk9 v65), ∀ a, (k0_off18 v65) a + S1x768.size a ≤ S50257x768.size a := fun v65 k0_hw9 => k0_hw9.1
theorem k0_off41_inb : ∀ (v65 : BitVec 32) (k0_hw9 : k0_chk9 v65), ∀ a, (k0_off41 v65) a + S1x768.size a ≤ S50257x768.size a := fun v65 k0_hw9 => k0_hw9.2

def k0_off42 (v73 : BitVec 32) : Fin 2 → Nat :=
  let c0_i32_87 : BitVec 32 := 0#32
  ![v73.toNat, 0]

def k0_chk10 (v73 : BitVec 32) : Prop :=
  (∀ a, (k0_off20 v73) a + S1x768.size a ≤ S50257x768.size a) ∧
  (∀ a, (k0_off42 v73) a + S1x768.size a ≤ S50257x768.size a)
instance k0_chk10.dec : ∀ (v73 : BitVec 32), Decidable (k0_chk10 v73) := fun v73 => decidable_of_iff' _ (Iff.of_eq (k0_chk10.eq_1 v73))
theorem k0_off20_inb : ∀ (v73 : BitVec 32) (k0_hw10 : k0_chk10 v73), ∀ a, (k0_off20 v73) a + S1x768.size a ≤ S50257x768.size a := fun v73 k0_hw10 => k0_hw10.1
theorem k0_off42_inb : ∀ (v73 : BitVec 32) (k0_hw10 : k0_chk10 v73), ∀ a, (k0_off42 v73) a + S1x768.size a ≤ S50257x768.size a := fun v73 k0_hw10 => k0_hw10.2

def k0_off43 (v81 : BitVec 32) : Fin 2 → Nat :=
  let c0_i32_91 : BitVec 32 := 0#32
  ![v81.toNat, 0]

def k0_chk11 (v81 : BitVec 32) : Prop :=
  (∀ a, (k0_off22 v81) a + S1x768.size a ≤ S50257x768.size a) ∧
  (∀ a, (k0_off43 v81) a + S1x768.size a ≤ S50257x768.size a)
instance k0_chk11.dec : ∀ (v81 : BitVec 32), Decidable (k0_chk11 v81) := fun v81 => decidable_of_iff' _ (Iff.of_eq (k0_chk11.eq_1 v81))
theorem k0_off22_inb : ∀ (v81 : BitVec 32) (k0_hw11 : k0_chk11 v81), ∀ a, (k0_off22 v81) a + S1x768.size a ≤ S50257x768.size a := fun v81 k0_hw11 => k0_hw11.1
theorem k0_off43_inb : ∀ (v81 : BitVec 32) (k0_hw11 : k0_chk11 v81), ∀ a, (k0_off43 v81) a + S1x768.size a ≤ S50257x768.size a := fun v81 k0_hw11 => k0_hw11.2

def k0_off44 (v89 : BitVec 32) : Fin 2 → Nat :=
  let c0_i32_95 : BitVec 32 := 0#32
  ![v89.toNat, 0]

def k0_chk12 (v89 : BitVec 32) : Prop :=
  (∀ a, (k0_off24 v89) a + S1x768.size a ≤ S50257x768.size a) ∧
  (∀ a, (k0_off44 v89) a + S1x768.size a ≤ S50257x768.size a)
instance k0_chk12.dec : ∀ (v89 : BitVec 32), Decidable (k0_chk12 v89) := fun v89 => decidable_of_iff' _ (Iff.of_eq (k0_chk12.eq_1 v89))
theorem k0_off24_inb : ∀ (v89 : BitVec 32) (k0_hw12 : k0_chk12 v89), ∀ a, (k0_off24 v89) a + S1x768.size a ≤ S50257x768.size a := fun v89 k0_hw12 => k0_hw12.1
theorem k0_off44_inb : ∀ (v89 : BitVec 32) (k0_hw12 : k0_chk12 v89), ∀ a, (k0_off44 v89) a + S1x768.size a ≤ S50257x768.size a := fun v89 k0_hw12 => k0_hw12.2

def k0_off45 (v97 : BitVec 32) : Fin 2 → Nat :=
  let c0_i32_99 : BitVec 32 := 0#32
  ![v97.toNat, 0]

def k0_chk13 (v97 : BitVec 32) : Prop :=
  (∀ a, (k0_off26 v97) a + S1x768.size a ≤ S50257x768.size a) ∧
  (∀ a, (k0_off45 v97) a + S1x768.size a ≤ S50257x768.size a)
instance k0_chk13.dec : ∀ (v97 : BitVec 32), Decidable (k0_chk13 v97) := fun v97 => decidable_of_iff' _ (Iff.of_eq (k0_chk13.eq_1 v97))
theorem k0_off26_inb : ∀ (v97 : BitVec 32) (k0_hw13 : k0_chk13 v97), ∀ a, (k0_off26 v97) a + S1x768.size a ≤ S50257x768.size a := fun v97 k0_hw13 => k0_hw13.1
theorem k0_off45_inb : ∀ (v97 : BitVec 32) (k0_hw13 : k0_chk13 v97), ∀ a, (k0_off45 v97) a + S1x768.size a ≤ S50257x768.size a := fun v97 k0_hw13 => k0_hw13.2

def k0_off46 (v105 : BitVec 32) : Fin 2 → Nat :=
  let c0_i32_103 : BitVec 32 := 0#32
  ![v105.toNat, 0]

def k0_chk14 (v105 : BitVec 32) : Prop :=
  (∀ a, (k0_off28 v105) a + S1x768.size a ≤ S50257x768.size a) ∧
  (∀ a, (k0_off46 v105) a + S1x768.size a ≤ S50257x768.size a)
instance k0_chk14.dec : ∀ (v105 : BitVec 32), Decidable (k0_chk14 v105) := fun v105 => decidable_of_iff' _ (Iff.of_eq (k0_chk14.eq_1 v105))
theorem k0_off28_inb : ∀ (v105 : BitVec 32) (k0_hw14 : k0_chk14 v105), ∀ a, (k0_off28 v105) a + S1x768.size a ≤ S50257x768.size a := fun v105 k0_hw14 => k0_hw14.1
theorem k0_off46_inb : ∀ (v105 : BitVec 32) (k0_hw14 : k0_chk14 v105), ∀ a, (k0_off46 v105) a + S1x768.size a ≤ S50257x768.size a := fun v105 k0_hw14 => k0_hw14.2

def k0_off47 (v113 : BitVec 32) : Fin 2 → Nat :=
  let c0_i32_107 : BitVec 32 := 0#32
  ![v113.toNat, 0]

def k0_chk15 (v113 : BitVec 32) : Prop :=
  (∀ a, (k0_off30 v113) a + S1x768.size a ≤ S50257x768.size a) ∧
  (∀ a, (k0_off47 v113) a + S1x768.size a ≤ S50257x768.size a)
instance k0_chk15.dec : ∀ (v113 : BitVec 32), Decidable (k0_chk15 v113) := fun v113 => decidable_of_iff' _ (Iff.of_eq (k0_chk15.eq_1 v113))
theorem k0_off30_inb : ∀ (v113 : BitVec 32) (k0_hw15 : k0_chk15 v113), ∀ a, (k0_off30 v113) a + S1x768.size a ≤ S50257x768.size a := fun v113 k0_hw15 => k0_hw15.1
theorem k0_off47_inb : ∀ (v113 : BitVec 32) (k0_hw15 : k0_chk15 v113), ∀ a, (k0_off47 v113) a + S1x768.size a ≤ S50257x768.size a := fun v113 k0_hw15 => k0_hw15.2

def k0_off48 (i : grid0.Coords) : Fin 2 → Nat :=
  let arg0 : BitVec 32 := BitVec.ofNat 32 (i 0).val
  let v229 : Index := Scalar.indexCast arg0
  let c16 : Index := 16#32
  ![v229.toNat, 16]
def k0_off49 (v230 : BitVec 32) : Fin 2 → Nat :=
  let c0_i32_120 : BitVec 32 := 0#32
  ![v230.toNat, 0]

def k0_off50 (i : grid0.Coords) : Fin 2 → Nat :=
  let arg0 : BitVec 32 := BitVec.ofNat 32 (i 0).val
  let v237 : Index := Scalar.indexCast arg0
  let c17 : Index := 17#32
  ![v237.toNat, 17]
def k0_off51 (v238 : BitVec 32) : Fin 2 → Nat :=
  let c0_i32_124 : BitVec 32 := 0#32
  ![v238.toNat, 0]

def k0_off52 (i : grid0.Coords) : Fin 2 → Nat :=
  let arg0 : BitVec 32 := BitVec.ofNat 32 (i 0).val
  let v245 : Index := Scalar.indexCast arg0
  let c18 : Index := 18#32
  ![v245.toNat, 18]
def k0_off53 (v246 : BitVec 32) : Fin 2 → Nat :=
  let c0_i32_128 : BitVec 32 := 0#32
  ![v246.toNat, 0]

def k0_off54 (i : grid0.Coords) : Fin 2 → Nat :=
  let arg0 : BitVec 32 := BitVec.ofNat 32 (i 0).val
  let v253 : Index := Scalar.indexCast arg0
  let c19 : Index := 19#32
  ![v253.toNat, 19]
def k0_off55 (v254 : BitVec 32) : Fin 2 → Nat :=
  let c0_i32_132 : BitVec 32 := 0#32
  ![v254.toNat, 0]

def k0_off56 (i : grid0.Coords) : Fin 2 → Nat :=
  let arg0 : BitVec 32 := BitVec.ofNat 32 (i 0).val
  let v261 : Index := Scalar.indexCast arg0
  let c20 : Index := 20#32
  ![v261.toNat, 20]
def k0_off57 (v262 : BitVec 32) : Fin 2 → Nat :=
  let c0_i32_136 : BitVec 32 := 0#32
  ![v262.toNat, 0]

def k0_off58 (i : grid0.Coords) : Fin 2 → Nat :=
  let arg0 : BitVec 32 := BitVec.ofNat 32 (i 0).val
  let v269 : Index := Scalar.indexCast arg0
  let c21 : Index := 21#32
  ![v269.toNat, 21]
def k0_off59 (v270 : BitVec 32) : Fin 2 → Nat :=
  let c0_i32_140 : BitVec 32 := 0#32
  ![v270.toNat, 0]

def k0_off60 (i : grid0.Coords) : Fin 2 → Nat :=
  let arg0 : BitVec 32 := BitVec.ofNat 32 (i 0).val
  let v277 : Index := Scalar.indexCast arg0
  let c22 : Index := 22#32
  ![v277.toNat, 22]
def k0_off61 (v278 : BitVec 32) : Fin 2 → Nat :=
  let c0_i32_144 : BitVec 32 := 0#32
  ![v278.toNat, 0]

def k0_off62 (i : grid0.Coords) : Fin 2 → Nat :=
  let arg0 : BitVec 32 := BitVec.ofNat 32 (i 0).val
  let v285 : Index := Scalar.indexCast arg0
  let c23 : Index := 23#32
  ![v285.toNat, 23]
def k0_off63 (v286 : BitVec 32) : Fin 2 → Nat :=
  let c0_i32_148 : BitVec 32 := 0#32
  ![v286.toNat, 0]

def k0_off64 (i : grid0.Coords) : Fin 2 → Nat :=
  let arg0 : BitVec 32 := BitVec.ofNat 32 (i 0).val
  let v293 : Index := Scalar.indexCast arg0
  let c24 : Index := 24#32
  ![v293.toNat, 24]
def k0_off65 (v294 : BitVec 32) : Fin 2 → Nat :=
  let c0_i32_152 : BitVec 32 := 0#32
  ![v294.toNat, 0]

def k0_off66 (i : grid0.Coords) : Fin 2 → Nat :=
  let arg0 : BitVec 32 := BitVec.ofNat 32 (i 0).val
  let v301 : Index := Scalar.indexCast arg0
  let c25 : Index := 25#32
  ![v301.toNat, 25]
def k0_off67 (v302 : BitVec 32) : Fin 2 → Nat :=
  let c0_i32_156 : BitVec 32 := 0#32
  ![v302.toNat, 0]

def k0_off68 (i : grid0.Coords) : Fin 2 → Nat :=
  let arg0 : BitVec 32 := BitVec.ofNat 32 (i 0).val
  let v309 : Index := Scalar.indexCast arg0
  let c26 : Index := 26#32
  ![v309.toNat, 26]
def k0_off69 (v310 : BitVec 32) : Fin 2 → Nat :=
  let c0_i32_160 : BitVec 32 := 0#32
  ![v310.toNat, 0]

def k0_off70 (i : grid0.Coords) : Fin 2 → Nat :=
  let arg0 : BitVec 32 := BitVec.ofNat 32 (i 0).val
  let v317 : Index := Scalar.indexCast arg0
  let c27 : Index := 27#32
  ![v317.toNat, 27]
def k0_off71 (v318 : BitVec 32) : Fin 2 → Nat :=
  let c0_i32_164 : BitVec 32 := 0#32
  ![v318.toNat, 0]

def k0_off72 (i : grid0.Coords) : Fin 2 → Nat :=
  let arg0 : BitVec 32 := BitVec.ofNat 32 (i 0).val
  let v325 : Index := Scalar.indexCast arg0
  let c28 : Index := 28#32
  ![v325.toNat, 28]
def k0_off73 (v326 : BitVec 32) : Fin 2 → Nat :=
  let c0_i32_168 : BitVec 32 := 0#32
  ![v326.toNat, 0]

def k0_off74 (i : grid0.Coords) : Fin 2 → Nat :=
  let arg0 : BitVec 32 := BitVec.ofNat 32 (i 0).val
  let v333 : Index := Scalar.indexCast arg0
  let c29 : Index := 29#32
  ![v333.toNat, 29]
def k0_off75 (v334 : BitVec 32) : Fin 2 → Nat :=
  let c0_i32_172 : BitVec 32 := 0#32
  ![v334.toNat, 0]

def k0_off76 (i : grid0.Coords) : Fin 2 → Nat :=
  let arg0 : BitVec 32 := BitVec.ofNat 32 (i 0).val
  let v341 : Index := Scalar.indexCast arg0
  let c30 : Index := 30#32
  ![v341.toNat, 30]
def k0_off77 (v342 : BitVec 32) : Fin 2 → Nat :=
  let c0_i32_176 : BitVec 32 := 0#32
  ![v342.toNat, 0]

def k0_off78 (i : grid0.Coords) : Fin 2 → Nat :=
  let arg0 : BitVec 32 := BitVec.ofNat 32 (i 0).val
  let v349 : Index := Scalar.indexCast arg0
  let c31 : Index := 31#32
  ![v349.toNat, 31]
def k0_off79 (v350 : BitVec 32) : Fin 2 → Nat :=
  let c0_i32_180 : BitVec 32 := 0#32
  ![v350.toNat, 0]

def k0_chk32 (v350 : BitVec 32) : Prop :=
  (∀ a, (k0_off79 v350) a + S1x768.size a ≤ S50257x768.size a)
instance k0_chk32.dec : ∀ (v350 : BitVec 32), Decidable (k0_chk32 v350) := fun v350 => decidable_of_iff' _ (Iff.of_eq (k0_chk32.eq_1 v350))
theorem k0_off79_inb : ∀ (v350 : BitVec 32) (k0_hw32 : k0_chk32 v350), ∀ a, (k0_off79 v350) a + S1x768.size a ≤ S50257x768.size a := fun v350 k0_hw32 => k0_hw32

def k0_off80 (v230 : BitVec 32) : Fin 2 → Nat :=
  let c0_i32_184 : BitVec 32 := 0#32
  ![v230.toNat, 0]

def k0_chk17 (v230 : BitVec 32) : Prop :=
  (∀ a, (k0_off49 v230) a + S1x768.size a ≤ S50257x768.size a) ∧
  (∀ a, (k0_off80 v230) a + S1x768.size a ≤ S50257x768.size a)
instance k0_chk17.dec : ∀ (v230 : BitVec 32), Decidable (k0_chk17 v230) := fun v230 => decidable_of_iff' _ (Iff.of_eq (k0_chk17.eq_1 v230))
theorem k0_off49_inb : ∀ (v230 : BitVec 32) (k0_hw17 : k0_chk17 v230), ∀ a, (k0_off49 v230) a + S1x768.size a ≤ S50257x768.size a := fun v230 k0_hw17 => k0_hw17.1
theorem k0_off80_inb : ∀ (v230 : BitVec 32) (k0_hw17 : k0_chk17 v230), ∀ a, (k0_off80 v230) a + S1x768.size a ≤ S50257x768.size a := fun v230 k0_hw17 => k0_hw17.2

def k0_off81 (v238 : BitVec 32) : Fin 2 → Nat :=
  let c0_i32_188 : BitVec 32 := 0#32
  ![v238.toNat, 0]

def k0_chk18 (v238 : BitVec 32) : Prop :=
  (∀ a, (k0_off51 v238) a + S1x768.size a ≤ S50257x768.size a) ∧
  (∀ a, (k0_off81 v238) a + S1x768.size a ≤ S50257x768.size a)
instance k0_chk18.dec : ∀ (v238 : BitVec 32), Decidable (k0_chk18 v238) := fun v238 => decidable_of_iff' _ (Iff.of_eq (k0_chk18.eq_1 v238))
theorem k0_off51_inb : ∀ (v238 : BitVec 32) (k0_hw18 : k0_chk18 v238), ∀ a, (k0_off51 v238) a + S1x768.size a ≤ S50257x768.size a := fun v238 k0_hw18 => k0_hw18.1
theorem k0_off81_inb : ∀ (v238 : BitVec 32) (k0_hw18 : k0_chk18 v238), ∀ a, (k0_off81 v238) a + S1x768.size a ≤ S50257x768.size a := fun v238 k0_hw18 => k0_hw18.2

def k0_off82 (v246 : BitVec 32) : Fin 2 → Nat :=
  let c0_i32_192 : BitVec 32 := 0#32
  ![v246.toNat, 0]

def k0_chk19 (v246 : BitVec 32) : Prop :=
  (∀ a, (k0_off53 v246) a + S1x768.size a ≤ S50257x768.size a) ∧
  (∀ a, (k0_off82 v246) a + S1x768.size a ≤ S50257x768.size a)
instance k0_chk19.dec : ∀ (v246 : BitVec 32), Decidable (k0_chk19 v246) := fun v246 => decidable_of_iff' _ (Iff.of_eq (k0_chk19.eq_1 v246))
theorem k0_off53_inb : ∀ (v246 : BitVec 32) (k0_hw19 : k0_chk19 v246), ∀ a, (k0_off53 v246) a + S1x768.size a ≤ S50257x768.size a := fun v246 k0_hw19 => k0_hw19.1
theorem k0_off82_inb : ∀ (v246 : BitVec 32) (k0_hw19 : k0_chk19 v246), ∀ a, (k0_off82 v246) a + S1x768.size a ≤ S50257x768.size a := fun v246 k0_hw19 => k0_hw19.2

def k0_off83 (v254 : BitVec 32) : Fin 2 → Nat :=
  let c0_i32_196 : BitVec 32 := 0#32
  ![v254.toNat, 0]

def k0_chk20 (v254 : BitVec 32) : Prop :=
  (∀ a, (k0_off55 v254) a + S1x768.size a ≤ S50257x768.size a) ∧
  (∀ a, (k0_off83 v254) a + S1x768.size a ≤ S50257x768.size a)
instance k0_chk20.dec : ∀ (v254 : BitVec 32), Decidable (k0_chk20 v254) := fun v254 => decidable_of_iff' _ (Iff.of_eq (k0_chk20.eq_1 v254))
theorem k0_off55_inb : ∀ (v254 : BitVec 32) (k0_hw20 : k0_chk20 v254), ∀ a, (k0_off55 v254) a + S1x768.size a ≤ S50257x768.size a := fun v254 k0_hw20 => k0_hw20.1
theorem k0_off83_inb : ∀ (v254 : BitVec 32) (k0_hw20 : k0_chk20 v254), ∀ a, (k0_off83 v254) a + S1x768.size a ≤ S50257x768.size a := fun v254 k0_hw20 => k0_hw20.2

def k0_off84 (v262 : BitVec 32) : Fin 2 → Nat :=
  let c0_i32_200 : BitVec 32 := 0#32
  ![v262.toNat, 0]

def k0_chk21 (v262 : BitVec 32) : Prop :=
  (∀ a, (k0_off57 v262) a + S1x768.size a ≤ S50257x768.size a) ∧
  (∀ a, (k0_off84 v262) a + S1x768.size a ≤ S50257x768.size a)
instance k0_chk21.dec : ∀ (v262 : BitVec 32), Decidable (k0_chk21 v262) := fun v262 => decidable_of_iff' _ (Iff.of_eq (k0_chk21.eq_1 v262))
theorem k0_off57_inb : ∀ (v262 : BitVec 32) (k0_hw21 : k0_chk21 v262), ∀ a, (k0_off57 v262) a + S1x768.size a ≤ S50257x768.size a := fun v262 k0_hw21 => k0_hw21.1
theorem k0_off84_inb : ∀ (v262 : BitVec 32) (k0_hw21 : k0_chk21 v262), ∀ a, (k0_off84 v262) a + S1x768.size a ≤ S50257x768.size a := fun v262 k0_hw21 => k0_hw21.2

def k0_off85 (v270 : BitVec 32) : Fin 2 → Nat :=
  let c0_i32_204 : BitVec 32 := 0#32
  ![v270.toNat, 0]

def k0_chk22 (v270 : BitVec 32) : Prop :=
  (∀ a, (k0_off59 v270) a + S1x768.size a ≤ S50257x768.size a) ∧
  (∀ a, (k0_off85 v270) a + S1x768.size a ≤ S50257x768.size a)
instance k0_chk22.dec : ∀ (v270 : BitVec 32), Decidable (k0_chk22 v270) := fun v270 => decidable_of_iff' _ (Iff.of_eq (k0_chk22.eq_1 v270))
theorem k0_off59_inb : ∀ (v270 : BitVec 32) (k0_hw22 : k0_chk22 v270), ∀ a, (k0_off59 v270) a + S1x768.size a ≤ S50257x768.size a := fun v270 k0_hw22 => k0_hw22.1
theorem k0_off85_inb : ∀ (v270 : BitVec 32) (k0_hw22 : k0_chk22 v270), ∀ a, (k0_off85 v270) a + S1x768.size a ≤ S50257x768.size a := fun v270 k0_hw22 => k0_hw22.2

def k0_off86 (v278 : BitVec 32) : Fin 2 → Nat :=
  let c0_i32_208 : BitVec 32 := 0#32
  ![v278.toNat, 0]

def k0_chk23 (v278 : BitVec 32) : Prop :=
  (∀ a, (k0_off61 v278) a + S1x768.size a ≤ S50257x768.size a) ∧
  (∀ a, (k0_off86 v278) a + S1x768.size a ≤ S50257x768.size a)
instance k0_chk23.dec : ∀ (v278 : BitVec 32), Decidable (k0_chk23 v278) := fun v278 => decidable_of_iff' _ (Iff.of_eq (k0_chk23.eq_1 v278))
theorem k0_off61_inb : ∀ (v278 : BitVec 32) (k0_hw23 : k0_chk23 v278), ∀ a, (k0_off61 v278) a + S1x768.size a ≤ S50257x768.size a := fun v278 k0_hw23 => k0_hw23.1
theorem k0_off86_inb : ∀ (v278 : BitVec 32) (k0_hw23 : k0_chk23 v278), ∀ a, (k0_off86 v278) a + S1x768.size a ≤ S50257x768.size a := fun v278 k0_hw23 => k0_hw23.2

def k0_off87 (v286 : BitVec 32) : Fin 2 → Nat :=
  let c0_i32_212 : BitVec 32 := 0#32
  ![v286.toNat, 0]

def k0_chk24 (v286 : BitVec 32) : Prop :=
  (∀ a, (k0_off63 v286) a + S1x768.size a ≤ S50257x768.size a) ∧
  (∀ a, (k0_off87 v286) a + S1x768.size a ≤ S50257x768.size a)
instance k0_chk24.dec : ∀ (v286 : BitVec 32), Decidable (k0_chk24 v286) := fun v286 => decidable_of_iff' _ (Iff.of_eq (k0_chk24.eq_1 v286))
theorem k0_off63_inb : ∀ (v286 : BitVec 32) (k0_hw24 : k0_chk24 v286), ∀ a, (k0_off63 v286) a + S1x768.size a ≤ S50257x768.size a := fun v286 k0_hw24 => k0_hw24.1
theorem k0_off87_inb : ∀ (v286 : BitVec 32) (k0_hw24 : k0_chk24 v286), ∀ a, (k0_off87 v286) a + S1x768.size a ≤ S50257x768.size a := fun v286 k0_hw24 => k0_hw24.2

def k0_off88 (v294 : BitVec 32) : Fin 2 → Nat :=
  let c0_i32_216 : BitVec 32 := 0#32
  ![v294.toNat, 0]

def k0_chk25 (v294 : BitVec 32) : Prop :=
  (∀ a, (k0_off65 v294) a + S1x768.size a ≤ S50257x768.size a) ∧
  (∀ a, (k0_off88 v294) a + S1x768.size a ≤ S50257x768.size a)
instance k0_chk25.dec : ∀ (v294 : BitVec 32), Decidable (k0_chk25 v294) := fun v294 => decidable_of_iff' _ (Iff.of_eq (k0_chk25.eq_1 v294))
theorem k0_off65_inb : ∀ (v294 : BitVec 32) (k0_hw25 : k0_chk25 v294), ∀ a, (k0_off65 v294) a + S1x768.size a ≤ S50257x768.size a := fun v294 k0_hw25 => k0_hw25.1
theorem k0_off88_inb : ∀ (v294 : BitVec 32) (k0_hw25 : k0_chk25 v294), ∀ a, (k0_off88 v294) a + S1x768.size a ≤ S50257x768.size a := fun v294 k0_hw25 => k0_hw25.2

def k0_off89 (v302 : BitVec 32) : Fin 2 → Nat :=
  let c0_i32_220 : BitVec 32 := 0#32
  ![v302.toNat, 0]

def k0_chk26 (v302 : BitVec 32) : Prop :=
  (∀ a, (k0_off67 v302) a + S1x768.size a ≤ S50257x768.size a) ∧
  (∀ a, (k0_off89 v302) a + S1x768.size a ≤ S50257x768.size a)
instance k0_chk26.dec : ∀ (v302 : BitVec 32), Decidable (k0_chk26 v302) := fun v302 => decidable_of_iff' _ (Iff.of_eq (k0_chk26.eq_1 v302))
theorem k0_off67_inb : ∀ (v302 : BitVec 32) (k0_hw26 : k0_chk26 v302), ∀ a, (k0_off67 v302) a + S1x768.size a ≤ S50257x768.size a := fun v302 k0_hw26 => k0_hw26.1
theorem k0_off89_inb : ∀ (v302 : BitVec 32) (k0_hw26 : k0_chk26 v302), ∀ a, (k0_off89 v302) a + S1x768.size a ≤ S50257x768.size a := fun v302 k0_hw26 => k0_hw26.2

def k0_off90 (v310 : BitVec 32) : Fin 2 → Nat :=
  let c0_i32_224 : BitVec 32 := 0#32
  ![v310.toNat, 0]

def k0_chk27 (v310 : BitVec 32) : Prop :=
  (∀ a, (k0_off69 v310) a + S1x768.size a ≤ S50257x768.size a) ∧
  (∀ a, (k0_off90 v310) a + S1x768.size a ≤ S50257x768.size a)
instance k0_chk27.dec : ∀ (v310 : BitVec 32), Decidable (k0_chk27 v310) := fun v310 => decidable_of_iff' _ (Iff.of_eq (k0_chk27.eq_1 v310))
theorem k0_off69_inb : ∀ (v310 : BitVec 32) (k0_hw27 : k0_chk27 v310), ∀ a, (k0_off69 v310) a + S1x768.size a ≤ S50257x768.size a := fun v310 k0_hw27 => k0_hw27.1
theorem k0_off90_inb : ∀ (v310 : BitVec 32) (k0_hw27 : k0_chk27 v310), ∀ a, (k0_off90 v310) a + S1x768.size a ≤ S50257x768.size a := fun v310 k0_hw27 => k0_hw27.2

def k0_off91 (v318 : BitVec 32) : Fin 2 → Nat :=
  let c0_i32_228 : BitVec 32 := 0#32
  ![v318.toNat, 0]

def k0_chk28 (v318 : BitVec 32) : Prop :=
  (∀ a, (k0_off71 v318) a + S1x768.size a ≤ S50257x768.size a) ∧
  (∀ a, (k0_off91 v318) a + S1x768.size a ≤ S50257x768.size a)
instance k0_chk28.dec : ∀ (v318 : BitVec 32), Decidable (k0_chk28 v318) := fun v318 => decidable_of_iff' _ (Iff.of_eq (k0_chk28.eq_1 v318))
theorem k0_off71_inb : ∀ (v318 : BitVec 32) (k0_hw28 : k0_chk28 v318), ∀ a, (k0_off71 v318) a + S1x768.size a ≤ S50257x768.size a := fun v318 k0_hw28 => k0_hw28.1
theorem k0_off91_inb : ∀ (v318 : BitVec 32) (k0_hw28 : k0_chk28 v318), ∀ a, (k0_off91 v318) a + S1x768.size a ≤ S50257x768.size a := fun v318 k0_hw28 => k0_hw28.2

def k0_off92 (v326 : BitVec 32) : Fin 2 → Nat :=
  let c0_i32_232 : BitVec 32 := 0#32
  ![v326.toNat, 0]

def k0_chk29 (v326 : BitVec 32) : Prop :=
  (∀ a, (k0_off73 v326) a + S1x768.size a ≤ S50257x768.size a) ∧
  (∀ a, (k0_off92 v326) a + S1x768.size a ≤ S50257x768.size a)
instance k0_chk29.dec : ∀ (v326 : BitVec 32), Decidable (k0_chk29 v326) := fun v326 => decidable_of_iff' _ (Iff.of_eq (k0_chk29.eq_1 v326))
theorem k0_off73_inb : ∀ (v326 : BitVec 32) (k0_hw29 : k0_chk29 v326), ∀ a, (k0_off73 v326) a + S1x768.size a ≤ S50257x768.size a := fun v326 k0_hw29 => k0_hw29.1
theorem k0_off92_inb : ∀ (v326 : BitVec 32) (k0_hw29 : k0_chk29 v326), ∀ a, (k0_off92 v326) a + S1x768.size a ≤ S50257x768.size a := fun v326 k0_hw29 => k0_hw29.2

def k0_off93 (v334 : BitVec 32) : Fin 2 → Nat :=
  let c0_i32_236 : BitVec 32 := 0#32
  ![v334.toNat, 0]

def k0_chk30 (v334 : BitVec 32) : Prop :=
  (∀ a, (k0_off75 v334) a + S1x768.size a ≤ S50257x768.size a) ∧
  (∀ a, (k0_off93 v334) a + S1x768.size a ≤ S50257x768.size a)
instance k0_chk30.dec : ∀ (v334 : BitVec 32), Decidable (k0_chk30 v334) := fun v334 => decidable_of_iff' _ (Iff.of_eq (k0_chk30.eq_1 v334))
theorem k0_off75_inb : ∀ (v334 : BitVec 32) (k0_hw30 : k0_chk30 v334), ∀ a, (k0_off75 v334) a + S1x768.size a ≤ S50257x768.size a := fun v334 k0_hw30 => k0_hw30.1
theorem k0_off93_inb : ∀ (v334 : BitVec 32) (k0_hw30 : k0_chk30 v334), ∀ a, (k0_off93 v334) a + S1x768.size a ≤ S50257x768.size a := fun v334 k0_hw30 => k0_hw30.2

def k0_off94 (v342 : BitVec 32) : Fin 2 → Nat :=
  let c0_i32_240 : BitVec 32 := 0#32
  ![v342.toNat, 0]

def k0_chk31 (v342 : BitVec 32) : Prop :=
  (∀ a, (k0_off77 v342) a + S1x768.size a ≤ S50257x768.size a) ∧
  (∀ a, (k0_off94 v342) a + S1x768.size a ≤ S50257x768.size a)
instance k0_chk31.dec : ∀ (v342 : BitVec 32), Decidable (k0_chk31 v342) := fun v342 => decidable_of_iff' _ (Iff.of_eq (k0_chk31.eq_1 v342))
theorem k0_off77_inb : ∀ (v342 : BitVec 32) (k0_hw31 : k0_chk31 v342), ∀ a, (k0_off77 v342) a + S1x768.size a ≤ S50257x768.size a := fun v342 k0_hw31 => k0_hw31.1
theorem k0_off94_inb : ∀ (v342 : BitVec 32) (k0_hw31 : k0_chk31 v342), ∀ a, (k0_off94 v342) a + S1x768.size a ≤ S50257x768.size a := fun v342 k0_hw31 => k0_hw31.2

def k0_off95 (i : grid0.Coords) : Fin 2 → Nat :=
  let arg0 : BitVec 32 := BitVec.ofNat 32 (i 0).val
  let v458 : Index := Scalar.indexCast arg0
  let c32 : Index := 32#32
  ![v458.toNat, 32]
def k0_off96 (v459 : BitVec 32) : Fin 2 → Nat :=
  let c0_i32_253 : BitVec 32 := 0#32
  ![v459.toNat, 0]

def k0_off97 (i : grid0.Coords) : Fin 2 → Nat :=
  let arg0 : BitVec 32 := BitVec.ofNat 32 (i 0).val
  let v466 : Index := Scalar.indexCast arg0
  let c33 : Index := 33#32
  ![v466.toNat, 33]
def k0_off98 (v467 : BitVec 32) : Fin 2 → Nat :=
  let c0_i32_257 : BitVec 32 := 0#32
  ![v467.toNat, 0]

def k0_off99 (i : grid0.Coords) : Fin 2 → Nat :=
  let arg0 : BitVec 32 := BitVec.ofNat 32 (i 0).val
  let v474 : Index := Scalar.indexCast arg0
  let c34 : Index := 34#32
  ![v474.toNat, 34]
def k0_off100 (v475 : BitVec 32) : Fin 2 → Nat :=
  let c0_i32_261 : BitVec 32 := 0#32
  ![v475.toNat, 0]

def k0_off101 (i : grid0.Coords) : Fin 2 → Nat :=
  let arg0 : BitVec 32 := BitVec.ofNat 32 (i 0).val
  let v482 : Index := Scalar.indexCast arg0
  let c35 : Index := 35#32
  ![v482.toNat, 35]
def k0_off102 (v483 : BitVec 32) : Fin 2 → Nat :=
  let c0_i32_265 : BitVec 32 := 0#32
  ![v483.toNat, 0]

def k0_off103 (i : grid0.Coords) : Fin 2 → Nat :=
  let arg0 : BitVec 32 := BitVec.ofNat 32 (i 0).val
  let v490 : Index := Scalar.indexCast arg0
  let c36 : Index := 36#32
  ![v490.toNat, 36]
def k0_off104 (v491 : BitVec 32) : Fin 2 → Nat :=
  let c0_i32_269 : BitVec 32 := 0#32
  ![v491.toNat, 0]

def k0_off105 (i : grid0.Coords) : Fin 2 → Nat :=
  let arg0 : BitVec 32 := BitVec.ofNat 32 (i 0).val
  let v498 : Index := Scalar.indexCast arg0
  let c37 : Index := 37#32
  ![v498.toNat, 37]
def k0_off106 (v499 : BitVec 32) : Fin 2 → Nat :=
  let c0_i32_273 : BitVec 32 := 0#32
  ![v499.toNat, 0]

def k0_off107 (i : grid0.Coords) : Fin 2 → Nat :=
  let arg0 : BitVec 32 := BitVec.ofNat 32 (i 0).val
  let v506 : Index := Scalar.indexCast arg0
  let c38 : Index := 38#32
  ![v506.toNat, 38]
def k0_off108 (v507 : BitVec 32) : Fin 2 → Nat :=
  let c0_i32_277 : BitVec 32 := 0#32
  ![v507.toNat, 0]

def k0_off109 (i : grid0.Coords) : Fin 2 → Nat :=
  let arg0 : BitVec 32 := BitVec.ofNat 32 (i 0).val
  let v514 : Index := Scalar.indexCast arg0
  let c39 : Index := 39#32
  ![v514.toNat, 39]
def k0_off110 (v515 : BitVec 32) : Fin 2 → Nat :=
  let c0_i32_281 : BitVec 32 := 0#32
  ![v515.toNat, 0]

def k0_off111 (i : grid0.Coords) : Fin 2 → Nat :=
  let arg0 : BitVec 32 := BitVec.ofNat 32 (i 0).val
  let v522 : Index := Scalar.indexCast arg0
  let c40 : Index := 40#32
  ![v522.toNat, 40]
def k0_off112 (v523 : BitVec 32) : Fin 2 → Nat :=
  let c0_i32_285 : BitVec 32 := 0#32
  ![v523.toNat, 0]

def k0_off113 (i : grid0.Coords) : Fin 2 → Nat :=
  let arg0 : BitVec 32 := BitVec.ofNat 32 (i 0).val
  let v530 : Index := Scalar.indexCast arg0
  let c41 : Index := 41#32
  ![v530.toNat, 41]
def k0_off114 (v531 : BitVec 32) : Fin 2 → Nat :=
  let c0_i32_289 : BitVec 32 := 0#32
  ![v531.toNat, 0]

def k0_off115 (i : grid0.Coords) : Fin 2 → Nat :=
  let arg0 : BitVec 32 := BitVec.ofNat 32 (i 0).val
  let v538 : Index := Scalar.indexCast arg0
  let c42 : Index := 42#32
  ![v538.toNat, 42]
def k0_off116 (v539 : BitVec 32) : Fin 2 → Nat :=
  let c0_i32_293 : BitVec 32 := 0#32
  ![v539.toNat, 0]

def k0_off117 (i : grid0.Coords) : Fin 2 → Nat :=
  let arg0 : BitVec 32 := BitVec.ofNat 32 (i 0).val
  let v546 : Index := Scalar.indexCast arg0
  let c43 : Index := 43#32
  ![v546.toNat, 43]
def k0_off118 (v547 : BitVec 32) : Fin 2 → Nat :=
  let c0_i32_297 : BitVec 32 := 0#32
  ![v547.toNat, 0]

def k0_off119 (i : grid0.Coords) : Fin 2 → Nat :=
  let arg0 : BitVec 32 := BitVec.ofNat 32 (i 0).val
  let v554 : Index := Scalar.indexCast arg0
  let c44 : Index := 44#32
  ![v554.toNat, 44]
def k0_off120 (v555 : BitVec 32) : Fin 2 → Nat :=
  let c0_i32_301 : BitVec 32 := 0#32
  ![v555.toNat, 0]

def k0_off121 (i : grid0.Coords) : Fin 2 → Nat :=
  let arg0 : BitVec 32 := BitVec.ofNat 32 (i 0).val
  let v562 : Index := Scalar.indexCast arg0
  let c45 : Index := 45#32
  ![v562.toNat, 45]
def k0_off122 (v563 : BitVec 32) : Fin 2 → Nat :=
  let c0_i32_305 : BitVec 32 := 0#32
  ![v563.toNat, 0]

def k0_off123 (i : grid0.Coords) : Fin 2 → Nat :=
  let arg0 : BitVec 32 := BitVec.ofNat 32 (i 0).val
  let v570 : Index := Scalar.indexCast arg0
  let c46 : Index := 46#32
  ![v570.toNat, 46]
def k0_off124 (v571 : BitVec 32) : Fin 2 → Nat :=
  let c0_i32_309 : BitVec 32 := 0#32
  ![v571.toNat, 0]

def k0_off125 (i : grid0.Coords) : Fin 2 → Nat :=
  let arg0 : BitVec 32 := BitVec.ofNat 32 (i 0).val
  let v578 : Index := Scalar.indexCast arg0
  let c47 : Index := 47#32
  ![v578.toNat, 47]
def k0_off126 (v579 : BitVec 32) : Fin 2 → Nat :=
  let c0_i32_313 : BitVec 32 := 0#32
  ![v579.toNat, 0]

def k0_chk48 (v579 : BitVec 32) : Prop :=
  (∀ a, (k0_off126 v579) a + S1x768.size a ≤ S50257x768.size a)
instance k0_chk48.dec : ∀ (v579 : BitVec 32), Decidable (k0_chk48 v579) := fun v579 => decidable_of_iff' _ (Iff.of_eq (k0_chk48.eq_1 v579))
theorem k0_off126_inb : ∀ (v579 : BitVec 32) (k0_hw48 : k0_chk48 v579), ∀ a, (k0_off126 v579) a + S1x768.size a ≤ S50257x768.size a := fun v579 k0_hw48 => k0_hw48

def k0_off127 (v459 : BitVec 32) : Fin 2 → Nat :=
  let c0_i32_317 : BitVec 32 := 0#32
  ![v459.toNat, 0]

def k0_chk33 (v459 : BitVec 32) : Prop :=
  (∀ a, (k0_off96 v459) a + S1x768.size a ≤ S50257x768.size a) ∧
  (∀ a, (k0_off127 v459) a + S1x768.size a ≤ S50257x768.size a)
instance k0_chk33.dec : ∀ (v459 : BitVec 32), Decidable (k0_chk33 v459) := fun v459 => decidable_of_iff' _ (Iff.of_eq (k0_chk33.eq_1 v459))
theorem k0_off96_inb : ∀ (v459 : BitVec 32) (k0_hw33 : k0_chk33 v459), ∀ a, (k0_off96 v459) a + S1x768.size a ≤ S50257x768.size a := fun v459 k0_hw33 => k0_hw33.1
theorem k0_off127_inb : ∀ (v459 : BitVec 32) (k0_hw33 : k0_chk33 v459), ∀ a, (k0_off127 v459) a + S1x768.size a ≤ S50257x768.size a := fun v459 k0_hw33 => k0_hw33.2

def k0_off128 (v467 : BitVec 32) : Fin 2 → Nat :=
  let c0_i32_321 : BitVec 32 := 0#32
  ![v467.toNat, 0]

def k0_chk34 (v467 : BitVec 32) : Prop :=
  (∀ a, (k0_off98 v467) a + S1x768.size a ≤ S50257x768.size a) ∧
  (∀ a, (k0_off128 v467) a + S1x768.size a ≤ S50257x768.size a)
instance k0_chk34.dec : ∀ (v467 : BitVec 32), Decidable (k0_chk34 v467) := fun v467 => decidable_of_iff' _ (Iff.of_eq (k0_chk34.eq_1 v467))
theorem k0_off98_inb : ∀ (v467 : BitVec 32) (k0_hw34 : k0_chk34 v467), ∀ a, (k0_off98 v467) a + S1x768.size a ≤ S50257x768.size a := fun v467 k0_hw34 => k0_hw34.1
theorem k0_off128_inb : ∀ (v467 : BitVec 32) (k0_hw34 : k0_chk34 v467), ∀ a, (k0_off128 v467) a + S1x768.size a ≤ S50257x768.size a := fun v467 k0_hw34 => k0_hw34.2

def k0_off129 (v475 : BitVec 32) : Fin 2 → Nat :=
  let c0_i32_325 : BitVec 32 := 0#32
  ![v475.toNat, 0]

def k0_chk35 (v475 : BitVec 32) : Prop :=
  (∀ a, (k0_off100 v475) a + S1x768.size a ≤ S50257x768.size a) ∧
  (∀ a, (k0_off129 v475) a + S1x768.size a ≤ S50257x768.size a)
instance k0_chk35.dec : ∀ (v475 : BitVec 32), Decidable (k0_chk35 v475) := fun v475 => decidable_of_iff' _ (Iff.of_eq (k0_chk35.eq_1 v475))
theorem k0_off100_inb : ∀ (v475 : BitVec 32) (k0_hw35 : k0_chk35 v475), ∀ a, (k0_off100 v475) a + S1x768.size a ≤ S50257x768.size a := fun v475 k0_hw35 => k0_hw35.1
theorem k0_off129_inb : ∀ (v475 : BitVec 32) (k0_hw35 : k0_chk35 v475), ∀ a, (k0_off129 v475) a + S1x768.size a ≤ S50257x768.size a := fun v475 k0_hw35 => k0_hw35.2

def k0_off130 (v483 : BitVec 32) : Fin 2 → Nat :=
  let c0_i32_329 : BitVec 32 := 0#32
  ![v483.toNat, 0]

def k0_chk36 (v483 : BitVec 32) : Prop :=
  (∀ a, (k0_off102 v483) a + S1x768.size a ≤ S50257x768.size a) ∧
  (∀ a, (k0_off130 v483) a + S1x768.size a ≤ S50257x768.size a)
instance k0_chk36.dec : ∀ (v483 : BitVec 32), Decidable (k0_chk36 v483) := fun v483 => decidable_of_iff' _ (Iff.of_eq (k0_chk36.eq_1 v483))
theorem k0_off102_inb : ∀ (v483 : BitVec 32) (k0_hw36 : k0_chk36 v483), ∀ a, (k0_off102 v483) a + S1x768.size a ≤ S50257x768.size a := fun v483 k0_hw36 => k0_hw36.1
theorem k0_off130_inb : ∀ (v483 : BitVec 32) (k0_hw36 : k0_chk36 v483), ∀ a, (k0_off130 v483) a + S1x768.size a ≤ S50257x768.size a := fun v483 k0_hw36 => k0_hw36.2

def k0_off131 (v491 : BitVec 32) : Fin 2 → Nat :=
  let c0_i32_333 : BitVec 32 := 0#32
  ![v491.toNat, 0]

def k0_chk37 (v491 : BitVec 32) : Prop :=
  (∀ a, (k0_off104 v491) a + S1x768.size a ≤ S50257x768.size a) ∧
  (∀ a, (k0_off131 v491) a + S1x768.size a ≤ S50257x768.size a)
instance k0_chk37.dec : ∀ (v491 : BitVec 32), Decidable (k0_chk37 v491) := fun v491 => decidable_of_iff' _ (Iff.of_eq (k0_chk37.eq_1 v491))
theorem k0_off104_inb : ∀ (v491 : BitVec 32) (k0_hw37 : k0_chk37 v491), ∀ a, (k0_off104 v491) a + S1x768.size a ≤ S50257x768.size a := fun v491 k0_hw37 => k0_hw37.1
theorem k0_off131_inb : ∀ (v491 : BitVec 32) (k0_hw37 : k0_chk37 v491), ∀ a, (k0_off131 v491) a + S1x768.size a ≤ S50257x768.size a := fun v491 k0_hw37 => k0_hw37.2

def k0_off132 (v499 : BitVec 32) : Fin 2 → Nat :=
  let c0_i32_337 : BitVec 32 := 0#32
  ![v499.toNat, 0]

def k0_chk38 (v499 : BitVec 32) : Prop :=
  (∀ a, (k0_off106 v499) a + S1x768.size a ≤ S50257x768.size a) ∧
  (∀ a, (k0_off132 v499) a + S1x768.size a ≤ S50257x768.size a)
instance k0_chk38.dec : ∀ (v499 : BitVec 32), Decidable (k0_chk38 v499) := fun v499 => decidable_of_iff' _ (Iff.of_eq (k0_chk38.eq_1 v499))
theorem k0_off106_inb : ∀ (v499 : BitVec 32) (k0_hw38 : k0_chk38 v499), ∀ a, (k0_off106 v499) a + S1x768.size a ≤ S50257x768.size a := fun v499 k0_hw38 => k0_hw38.1
theorem k0_off132_inb : ∀ (v499 : BitVec 32) (k0_hw38 : k0_chk38 v499), ∀ a, (k0_off132 v499) a + S1x768.size a ≤ S50257x768.size a := fun v499 k0_hw38 => k0_hw38.2

def k0_off133 (v507 : BitVec 32) : Fin 2 → Nat :=
  let c0_i32_341 : BitVec 32 := 0#32
  ![v507.toNat, 0]

def k0_chk39 (v507 : BitVec 32) : Prop :=
  (∀ a, (k0_off108 v507) a + S1x768.size a ≤ S50257x768.size a) ∧
  (∀ a, (k0_off133 v507) a + S1x768.size a ≤ S50257x768.size a)
instance k0_chk39.dec : ∀ (v507 : BitVec 32), Decidable (k0_chk39 v507) := fun v507 => decidable_of_iff' _ (Iff.of_eq (k0_chk39.eq_1 v507))
theorem k0_off108_inb : ∀ (v507 : BitVec 32) (k0_hw39 : k0_chk39 v507), ∀ a, (k0_off108 v507) a + S1x768.size a ≤ S50257x768.size a := fun v507 k0_hw39 => k0_hw39.1
theorem k0_off133_inb : ∀ (v507 : BitVec 32) (k0_hw39 : k0_chk39 v507), ∀ a, (k0_off133 v507) a + S1x768.size a ≤ S50257x768.size a := fun v507 k0_hw39 => k0_hw39.2

def k0_off134 (v515 : BitVec 32) : Fin 2 → Nat :=
  let c0_i32_345 : BitVec 32 := 0#32
  ![v515.toNat, 0]

def k0_chk40 (v515 : BitVec 32) : Prop :=
  (∀ a, (k0_off110 v515) a + S1x768.size a ≤ S50257x768.size a) ∧
  (∀ a, (k0_off134 v515) a + S1x768.size a ≤ S50257x768.size a)
instance k0_chk40.dec : ∀ (v515 : BitVec 32), Decidable (k0_chk40 v515) := fun v515 => decidable_of_iff' _ (Iff.of_eq (k0_chk40.eq_1 v515))
theorem k0_off110_inb : ∀ (v515 : BitVec 32) (k0_hw40 : k0_chk40 v515), ∀ a, (k0_off110 v515) a + S1x768.size a ≤ S50257x768.size a := fun v515 k0_hw40 => k0_hw40.1
theorem k0_off134_inb : ∀ (v515 : BitVec 32) (k0_hw40 : k0_chk40 v515), ∀ a, (k0_off134 v515) a + S1x768.size a ≤ S50257x768.size a := fun v515 k0_hw40 => k0_hw40.2

def k0_off135 (v523 : BitVec 32) : Fin 2 → Nat :=
  let c0_i32_349 : BitVec 32 := 0#32
  ![v523.toNat, 0]

def k0_chk41 (v523 : BitVec 32) : Prop :=
  (∀ a, (k0_off112 v523) a + S1x768.size a ≤ S50257x768.size a) ∧
  (∀ a, (k0_off135 v523) a + S1x768.size a ≤ S50257x768.size a)
instance k0_chk41.dec : ∀ (v523 : BitVec 32), Decidable (k0_chk41 v523) := fun v523 => decidable_of_iff' _ (Iff.of_eq (k0_chk41.eq_1 v523))
theorem k0_off112_inb : ∀ (v523 : BitVec 32) (k0_hw41 : k0_chk41 v523), ∀ a, (k0_off112 v523) a + S1x768.size a ≤ S50257x768.size a := fun v523 k0_hw41 => k0_hw41.1
theorem k0_off135_inb : ∀ (v523 : BitVec 32) (k0_hw41 : k0_chk41 v523), ∀ a, (k0_off135 v523) a + S1x768.size a ≤ S50257x768.size a := fun v523 k0_hw41 => k0_hw41.2

def k0_off136 (v531 : BitVec 32) : Fin 2 → Nat :=
  let c0_i32_353 : BitVec 32 := 0#32
  ![v531.toNat, 0]

def k0_chk42 (v531 : BitVec 32) : Prop :=
  (∀ a, (k0_off114 v531) a + S1x768.size a ≤ S50257x768.size a) ∧
  (∀ a, (k0_off136 v531) a + S1x768.size a ≤ S50257x768.size a)
instance k0_chk42.dec : ∀ (v531 : BitVec 32), Decidable (k0_chk42 v531) := fun v531 => decidable_of_iff' _ (Iff.of_eq (k0_chk42.eq_1 v531))
theorem k0_off114_inb : ∀ (v531 : BitVec 32) (k0_hw42 : k0_chk42 v531), ∀ a, (k0_off114 v531) a + S1x768.size a ≤ S50257x768.size a := fun v531 k0_hw42 => k0_hw42.1
theorem k0_off136_inb : ∀ (v531 : BitVec 32) (k0_hw42 : k0_chk42 v531), ∀ a, (k0_off136 v531) a + S1x768.size a ≤ S50257x768.size a := fun v531 k0_hw42 => k0_hw42.2

def k0_off137 (v539 : BitVec 32) : Fin 2 → Nat :=
  let c0_i32_357 : BitVec 32 := 0#32
  ![v539.toNat, 0]

def k0_chk43 (v539 : BitVec 32) : Prop :=
  (∀ a, (k0_off116 v539) a + S1x768.size a ≤ S50257x768.size a) ∧
  (∀ a, (k0_off137 v539) a + S1x768.size a ≤ S50257x768.size a)
instance k0_chk43.dec : ∀ (v539 : BitVec 32), Decidable (k0_chk43 v539) := fun v539 => decidable_of_iff' _ (Iff.of_eq (k0_chk43.eq_1 v539))
theorem k0_off116_inb : ∀ (v539 : BitVec 32) (k0_hw43 : k0_chk43 v539), ∀ a, (k0_off116 v539) a + S1x768.size a ≤ S50257x768.size a := fun v539 k0_hw43 => k0_hw43.1
theorem k0_off137_inb : ∀ (v539 : BitVec 32) (k0_hw43 : k0_chk43 v539), ∀ a, (k0_off137 v539) a + S1x768.size a ≤ S50257x768.size a := fun v539 k0_hw43 => k0_hw43.2

def k0_off138 (v547 : BitVec 32) : Fin 2 → Nat :=
  let c0_i32_361 : BitVec 32 := 0#32
  ![v547.toNat, 0]

def k0_chk44 (v547 : BitVec 32) : Prop :=
  (∀ a, (k0_off118 v547) a + S1x768.size a ≤ S50257x768.size a) ∧
  (∀ a, (k0_off138 v547) a + S1x768.size a ≤ S50257x768.size a)
instance k0_chk44.dec : ∀ (v547 : BitVec 32), Decidable (k0_chk44 v547) := fun v547 => decidable_of_iff' _ (Iff.of_eq (k0_chk44.eq_1 v547))
theorem k0_off118_inb : ∀ (v547 : BitVec 32) (k0_hw44 : k0_chk44 v547), ∀ a, (k0_off118 v547) a + S1x768.size a ≤ S50257x768.size a := fun v547 k0_hw44 => k0_hw44.1
theorem k0_off138_inb : ∀ (v547 : BitVec 32) (k0_hw44 : k0_chk44 v547), ∀ a, (k0_off138 v547) a + S1x768.size a ≤ S50257x768.size a := fun v547 k0_hw44 => k0_hw44.2

def k0_off139 (v555 : BitVec 32) : Fin 2 → Nat :=
  let c0_i32_365 : BitVec 32 := 0#32
  ![v555.toNat, 0]

def k0_chk45 (v555 : BitVec 32) : Prop :=
  (∀ a, (k0_off120 v555) a + S1x768.size a ≤ S50257x768.size a) ∧
  (∀ a, (k0_off139 v555) a + S1x768.size a ≤ S50257x768.size a)
instance k0_chk45.dec : ∀ (v555 : BitVec 32), Decidable (k0_chk45 v555) := fun v555 => decidable_of_iff' _ (Iff.of_eq (k0_chk45.eq_1 v555))
theorem k0_off120_inb : ∀ (v555 : BitVec 32) (k0_hw45 : k0_chk45 v555), ∀ a, (k0_off120 v555) a + S1x768.size a ≤ S50257x768.size a := fun v555 k0_hw45 => k0_hw45.1
theorem k0_off139_inb : ∀ (v555 : BitVec 32) (k0_hw45 : k0_chk45 v555), ∀ a, (k0_off139 v555) a + S1x768.size a ≤ S50257x768.size a := fun v555 k0_hw45 => k0_hw45.2

def k0_off140 (v563 : BitVec 32) : Fin 2 → Nat :=
  let c0_i32_369 : BitVec 32 := 0#32
  ![v563.toNat, 0]

def k0_chk46 (v563 : BitVec 32) : Prop :=
  (∀ a, (k0_off122 v563) a + S1x768.size a ≤ S50257x768.size a) ∧
  (∀ a, (k0_off140 v563) a + S1x768.size a ≤ S50257x768.size a)
instance k0_chk46.dec : ∀ (v563 : BitVec 32), Decidable (k0_chk46 v563) := fun v563 => decidable_of_iff' _ (Iff.of_eq (k0_chk46.eq_1 v563))
theorem k0_off122_inb : ∀ (v563 : BitVec 32) (k0_hw46 : k0_chk46 v563), ∀ a, (k0_off122 v563) a + S1x768.size a ≤ S50257x768.size a := fun v563 k0_hw46 => k0_hw46.1
theorem k0_off140_inb : ∀ (v563 : BitVec 32) (k0_hw46 : k0_chk46 v563), ∀ a, (k0_off140 v563) a + S1x768.size a ≤ S50257x768.size a := fun v563 k0_hw46 => k0_hw46.2

def k0_off141 (v571 : BitVec 32) : Fin 2 → Nat :=
  let c0_i32_373 : BitVec 32 := 0#32
  ![v571.toNat, 0]

def k0_chk47 (v571 : BitVec 32) : Prop :=
  (∀ a, (k0_off124 v571) a + S1x768.size a ≤ S50257x768.size a) ∧
  (∀ a, (k0_off141 v571) a + S1x768.size a ≤ S50257x768.size a)
instance k0_chk47.dec : ∀ (v571 : BitVec 32), Decidable (k0_chk47 v571) := fun v571 => decidable_of_iff' _ (Iff.of_eq (k0_chk47.eq_1 v571))
theorem k0_off124_inb : ∀ (v571 : BitVec 32) (k0_hw47 : k0_chk47 v571), ∀ a, (k0_off124 v571) a + S1x768.size a ≤ S50257x768.size a := fun v571 k0_hw47 => k0_hw47.1
theorem k0_off141_inb : ∀ (v571 : BitVec 32) (k0_hw47 : k0_chk47 v571), ∀ a, (k0_off141 v571) a + S1x768.size a ≤ S50257x768.size a := fun v571 k0_hw47 => k0_hw47.2

def k0_off142 (i : grid0.Coords) : Fin 2 → Nat :=
  let arg0 : BitVec 32 := BitVec.ofNat 32 (i 0).val
  let v687 : Index := Scalar.indexCast arg0
  let c48 : Index := 48#32
  ![v687.toNat, 48]
def k0_off143 (v688 : BitVec 32) : Fin 2 → Nat :=
  let c0_i32_386 : BitVec 32 := 0#32
  ![v688.toNat, 0]

def k0_off144 (i : grid0.Coords) : Fin 2 → Nat :=
  let arg0 : BitVec 32 := BitVec.ofNat 32 (i 0).val
  let v695 : Index := Scalar.indexCast arg0
  let c49 : Index := 49#32
  ![v695.toNat, 49]
def k0_off145 (v696 : BitVec 32) : Fin 2 → Nat :=
  let c0_i32_390 : BitVec 32 := 0#32
  ![v696.toNat, 0]

def k0_off146 (i : grid0.Coords) : Fin 2 → Nat :=
  let arg0 : BitVec 32 := BitVec.ofNat 32 (i 0).val
  let v703 : Index := Scalar.indexCast arg0
  let c50 : Index := 50#32
  ![v703.toNat, 50]
def k0_off147 (v704 : BitVec 32) : Fin 2 → Nat :=
  let c0_i32_394 : BitVec 32 := 0#32
  ![v704.toNat, 0]

def k0_off148 (i : grid0.Coords) : Fin 2 → Nat :=
  let arg0 : BitVec 32 := BitVec.ofNat 32 (i 0).val
  let v711 : Index := Scalar.indexCast arg0
  let c51 : Index := 51#32
  ![v711.toNat, 51]
def k0_off149 (v712 : BitVec 32) : Fin 2 → Nat :=
  let c0_i32_398 : BitVec 32 := 0#32
  ![v712.toNat, 0]

def k0_off150 (i : grid0.Coords) : Fin 2 → Nat :=
  let arg0 : BitVec 32 := BitVec.ofNat 32 (i 0).val
  let v719 : Index := Scalar.indexCast arg0
  let c52 : Index := 52#32
  ![v719.toNat, 52]
def k0_off151 (v720 : BitVec 32) : Fin 2 → Nat :=
  let c0_i32_402 : BitVec 32 := 0#32
  ![v720.toNat, 0]

def k0_off152 (i : grid0.Coords) : Fin 2 → Nat :=
  let arg0 : BitVec 32 := BitVec.ofNat 32 (i 0).val
  let v727 : Index := Scalar.indexCast arg0
  let c53 : Index := 53#32
  ![v727.toNat, 53]
def k0_off153 (v728 : BitVec 32) : Fin 2 → Nat :=
  let c0_i32_406 : BitVec 32 := 0#32
  ![v728.toNat, 0]

def k0_off154 (i : grid0.Coords) : Fin 2 → Nat :=
  let arg0 : BitVec 32 := BitVec.ofNat 32 (i 0).val
  let v735 : Index := Scalar.indexCast arg0
  let c54 : Index := 54#32
  ![v735.toNat, 54]
def k0_off155 (v736 : BitVec 32) : Fin 2 → Nat :=
  let c0_i32_410 : BitVec 32 := 0#32
  ![v736.toNat, 0]

def k0_off156 (i : grid0.Coords) : Fin 2 → Nat :=
  let arg0 : BitVec 32 := BitVec.ofNat 32 (i 0).val
  let v743 : Index := Scalar.indexCast arg0
  let c55 : Index := 55#32
  ![v743.toNat, 55]
def k0_off157 (v744 : BitVec 32) : Fin 2 → Nat :=
  let c0_i32_414 : BitVec 32 := 0#32
  ![v744.toNat, 0]

def k0_off158 (i : grid0.Coords) : Fin 2 → Nat :=
  let arg0 : BitVec 32 := BitVec.ofNat 32 (i 0).val
  let v751 : Index := Scalar.indexCast arg0
  let c56 : Index := 56#32
  ![v751.toNat, 56]
def k0_off159 (v752 : BitVec 32) : Fin 2 → Nat :=
  let c0_i32_418 : BitVec 32 := 0#32
  ![v752.toNat, 0]

def k0_off160 (i : grid0.Coords) : Fin 2 → Nat :=
  let arg0 : BitVec 32 := BitVec.ofNat 32 (i 0).val
  let v759 : Index := Scalar.indexCast arg0
  let c57 : Index := 57#32
  ![v759.toNat, 57]
def k0_off161 (v760 : BitVec 32) : Fin 2 → Nat :=
  let c0_i32_422 : BitVec 32 := 0#32
  ![v760.toNat, 0]

def k0_off162 (i : grid0.Coords) : Fin 2 → Nat :=
  let arg0 : BitVec 32 := BitVec.ofNat 32 (i 0).val
  let v767 : Index := Scalar.indexCast arg0
  let c58 : Index := 58#32
  ![v767.toNat, 58]
def k0_off163 (v768 : BitVec 32) : Fin 2 → Nat :=
  let c0_i32_426 : BitVec 32 := 0#32
  ![v768.toNat, 0]

def k0_off164 (i : grid0.Coords) : Fin 2 → Nat :=
  let arg0 : BitVec 32 := BitVec.ofNat 32 (i 0).val
  let v775 : Index := Scalar.indexCast arg0
  let c59 : Index := 59#32
  ![v775.toNat, 59]
def k0_off165 (v776 : BitVec 32) : Fin 2 → Nat :=
  let c0_i32_430 : BitVec 32 := 0#32
  ![v776.toNat, 0]

def k0_off166 (i : grid0.Coords) : Fin 2 → Nat :=
  let arg0 : BitVec 32 := BitVec.ofNat 32 (i 0).val
  let v783 : Index := Scalar.indexCast arg0
  let c60 : Index := 60#32
  ![v783.toNat, 60]
def k0_off167 (v784 : BitVec 32) : Fin 2 → Nat :=
  let c0_i32_434 : BitVec 32 := 0#32
  ![v784.toNat, 0]

def k0_off168 (i : grid0.Coords) : Fin 2 → Nat :=
  let arg0 : BitVec 32 := BitVec.ofNat 32 (i 0).val
  let v791 : Index := Scalar.indexCast arg0
  let c61 : Index := 61#32
  ![v791.toNat, 61]
def k0_off169 (v792 : BitVec 32) : Fin 2 → Nat :=
  let c0_i32_438 : BitVec 32 := 0#32
  ![v792.toNat, 0]

def k0_off170 (i : grid0.Coords) : Fin 2 → Nat :=
  let arg0 : BitVec 32 := BitVec.ofNat 32 (i 0).val
  let v799 : Index := Scalar.indexCast arg0
  let c62 : Index := 62#32
  ![v799.toNat, 62]
def k0_off171 (v800 : BitVec 32) : Fin 2 → Nat :=
  let c0_i32_442 : BitVec 32 := 0#32
  ![v800.toNat, 0]

def k0_off172 (i : grid0.Coords) : Fin 2 → Nat :=
  let arg0 : BitVec 32 := BitVec.ofNat 32 (i 0).val
  let v807 : Index := Scalar.indexCast arg0
  let c63 : Index := 63#32
  ![v807.toNat, 63]
def k0_off173 (v808 : BitVec 32) : Fin 2 → Nat :=
  let c0_i32_446 : BitVec 32 := 0#32
  ![v808.toNat, 0]

def k0_chk64 (v808 : BitVec 32) : Prop :=
  (∀ a, (k0_off173 v808) a + S1x768.size a ≤ S50257x768.size a)
instance k0_chk64.dec : ∀ (v808 : BitVec 32), Decidable (k0_chk64 v808) := fun v808 => decidable_of_iff' _ (Iff.of_eq (k0_chk64.eq_1 v808))
theorem k0_off173_inb : ∀ (v808 : BitVec 32) (k0_hw64 : k0_chk64 v808), ∀ a, (k0_off173 v808) a + S1x768.size a ≤ S50257x768.size a := fun v808 k0_hw64 => k0_hw64

def k0_off174 (v688 : BitVec 32) : Fin 2 → Nat :=
  let c0_i32_450 : BitVec 32 := 0#32
  ![v688.toNat, 0]

def k0_chk49 (v688 : BitVec 32) : Prop :=
  (∀ a, (k0_off143 v688) a + S1x768.size a ≤ S50257x768.size a) ∧
  (∀ a, (k0_off174 v688) a + S1x768.size a ≤ S50257x768.size a)
instance k0_chk49.dec : ∀ (v688 : BitVec 32), Decidable (k0_chk49 v688) := fun v688 => decidable_of_iff' _ (Iff.of_eq (k0_chk49.eq_1 v688))
theorem k0_off143_inb : ∀ (v688 : BitVec 32) (k0_hw49 : k0_chk49 v688), ∀ a, (k0_off143 v688) a + S1x768.size a ≤ S50257x768.size a := fun v688 k0_hw49 => k0_hw49.1
theorem k0_off174_inb : ∀ (v688 : BitVec 32) (k0_hw49 : k0_chk49 v688), ∀ a, (k0_off174 v688) a + S1x768.size a ≤ S50257x768.size a := fun v688 k0_hw49 => k0_hw49.2

def k0_off175 (v696 : BitVec 32) : Fin 2 → Nat :=
  let c0_i32_454 : BitVec 32 := 0#32
  ![v696.toNat, 0]

def k0_chk50 (v696 : BitVec 32) : Prop :=
  (∀ a, (k0_off145 v696) a + S1x768.size a ≤ S50257x768.size a) ∧
  (∀ a, (k0_off175 v696) a + S1x768.size a ≤ S50257x768.size a)
instance k0_chk50.dec : ∀ (v696 : BitVec 32), Decidable (k0_chk50 v696) := fun v696 => decidable_of_iff' _ (Iff.of_eq (k0_chk50.eq_1 v696))
theorem k0_off145_inb : ∀ (v696 : BitVec 32) (k0_hw50 : k0_chk50 v696), ∀ a, (k0_off145 v696) a + S1x768.size a ≤ S50257x768.size a := fun v696 k0_hw50 => k0_hw50.1
theorem k0_off175_inb : ∀ (v696 : BitVec 32) (k0_hw50 : k0_chk50 v696), ∀ a, (k0_off175 v696) a + S1x768.size a ≤ S50257x768.size a := fun v696 k0_hw50 => k0_hw50.2

def k0_off176 (v704 : BitVec 32) : Fin 2 → Nat :=
  let c0_i32_458 : BitVec 32 := 0#32
  ![v704.toNat, 0]

def k0_chk51 (v704 : BitVec 32) : Prop :=
  (∀ a, (k0_off147 v704) a + S1x768.size a ≤ S50257x768.size a) ∧
  (∀ a, (k0_off176 v704) a + S1x768.size a ≤ S50257x768.size a)
instance k0_chk51.dec : ∀ (v704 : BitVec 32), Decidable (k0_chk51 v704) := fun v704 => decidable_of_iff' _ (Iff.of_eq (k0_chk51.eq_1 v704))
theorem k0_off147_inb : ∀ (v704 : BitVec 32) (k0_hw51 : k0_chk51 v704), ∀ a, (k0_off147 v704) a + S1x768.size a ≤ S50257x768.size a := fun v704 k0_hw51 => k0_hw51.1
theorem k0_off176_inb : ∀ (v704 : BitVec 32) (k0_hw51 : k0_chk51 v704), ∀ a, (k0_off176 v704) a + S1x768.size a ≤ S50257x768.size a := fun v704 k0_hw51 => k0_hw51.2

def k0_off177 (v712 : BitVec 32) : Fin 2 → Nat :=
  let c0_i32_462 : BitVec 32 := 0#32
  ![v712.toNat, 0]

def k0_chk52 (v712 : BitVec 32) : Prop :=
  (∀ a, (k0_off149 v712) a + S1x768.size a ≤ S50257x768.size a) ∧
  (∀ a, (k0_off177 v712) a + S1x768.size a ≤ S50257x768.size a)
instance k0_chk52.dec : ∀ (v712 : BitVec 32), Decidable (k0_chk52 v712) := fun v712 => decidable_of_iff' _ (Iff.of_eq (k0_chk52.eq_1 v712))
theorem k0_off149_inb : ∀ (v712 : BitVec 32) (k0_hw52 : k0_chk52 v712), ∀ a, (k0_off149 v712) a + S1x768.size a ≤ S50257x768.size a := fun v712 k0_hw52 => k0_hw52.1
theorem k0_off177_inb : ∀ (v712 : BitVec 32) (k0_hw52 : k0_chk52 v712), ∀ a, (k0_off177 v712) a + S1x768.size a ≤ S50257x768.size a := fun v712 k0_hw52 => k0_hw52.2

def k0_off178 (v720 : BitVec 32) : Fin 2 → Nat :=
  let c0_i32_466 : BitVec 32 := 0#32
  ![v720.toNat, 0]

def k0_chk53 (v720 : BitVec 32) : Prop :=
  (∀ a, (k0_off151 v720) a + S1x768.size a ≤ S50257x768.size a) ∧
  (∀ a, (k0_off178 v720) a + S1x768.size a ≤ S50257x768.size a)
instance k0_chk53.dec : ∀ (v720 : BitVec 32), Decidable (k0_chk53 v720) := fun v720 => decidable_of_iff' _ (Iff.of_eq (k0_chk53.eq_1 v720))
theorem k0_off151_inb : ∀ (v720 : BitVec 32) (k0_hw53 : k0_chk53 v720), ∀ a, (k0_off151 v720) a + S1x768.size a ≤ S50257x768.size a := fun v720 k0_hw53 => k0_hw53.1
theorem k0_off178_inb : ∀ (v720 : BitVec 32) (k0_hw53 : k0_chk53 v720), ∀ a, (k0_off178 v720) a + S1x768.size a ≤ S50257x768.size a := fun v720 k0_hw53 => k0_hw53.2

def k0_off179 (v728 : BitVec 32) : Fin 2 → Nat :=
  let c0_i32_470 : BitVec 32 := 0#32
  ![v728.toNat, 0]

def k0_chk54 (v728 : BitVec 32) : Prop :=
  (∀ a, (k0_off153 v728) a + S1x768.size a ≤ S50257x768.size a) ∧
  (∀ a, (k0_off179 v728) a + S1x768.size a ≤ S50257x768.size a)
instance k0_chk54.dec : ∀ (v728 : BitVec 32), Decidable (k0_chk54 v728) := fun v728 => decidable_of_iff' _ (Iff.of_eq (k0_chk54.eq_1 v728))
theorem k0_off153_inb : ∀ (v728 : BitVec 32) (k0_hw54 : k0_chk54 v728), ∀ a, (k0_off153 v728) a + S1x768.size a ≤ S50257x768.size a := fun v728 k0_hw54 => k0_hw54.1
theorem k0_off179_inb : ∀ (v728 : BitVec 32) (k0_hw54 : k0_chk54 v728), ∀ a, (k0_off179 v728) a + S1x768.size a ≤ S50257x768.size a := fun v728 k0_hw54 => k0_hw54.2

def k0_off180 (v736 : BitVec 32) : Fin 2 → Nat :=
  let c0_i32_474 : BitVec 32 := 0#32
  ![v736.toNat, 0]

def k0_chk55 (v736 : BitVec 32) : Prop :=
  (∀ a, (k0_off155 v736) a + S1x768.size a ≤ S50257x768.size a) ∧
  (∀ a, (k0_off180 v736) a + S1x768.size a ≤ S50257x768.size a)
instance k0_chk55.dec : ∀ (v736 : BitVec 32), Decidable (k0_chk55 v736) := fun v736 => decidable_of_iff' _ (Iff.of_eq (k0_chk55.eq_1 v736))
theorem k0_off155_inb : ∀ (v736 : BitVec 32) (k0_hw55 : k0_chk55 v736), ∀ a, (k0_off155 v736) a + S1x768.size a ≤ S50257x768.size a := fun v736 k0_hw55 => k0_hw55.1
theorem k0_off180_inb : ∀ (v736 : BitVec 32) (k0_hw55 : k0_chk55 v736), ∀ a, (k0_off180 v736) a + S1x768.size a ≤ S50257x768.size a := fun v736 k0_hw55 => k0_hw55.2

def k0_off181 (v744 : BitVec 32) : Fin 2 → Nat :=
  let c0_i32_478 : BitVec 32 := 0#32
  ![v744.toNat, 0]

def k0_chk56 (v744 : BitVec 32) : Prop :=
  (∀ a, (k0_off157 v744) a + S1x768.size a ≤ S50257x768.size a) ∧
  (∀ a, (k0_off181 v744) a + S1x768.size a ≤ S50257x768.size a)
instance k0_chk56.dec : ∀ (v744 : BitVec 32), Decidable (k0_chk56 v744) := fun v744 => decidable_of_iff' _ (Iff.of_eq (k0_chk56.eq_1 v744))
theorem k0_off157_inb : ∀ (v744 : BitVec 32) (k0_hw56 : k0_chk56 v744), ∀ a, (k0_off157 v744) a + S1x768.size a ≤ S50257x768.size a := fun v744 k0_hw56 => k0_hw56.1
theorem k0_off181_inb : ∀ (v744 : BitVec 32) (k0_hw56 : k0_chk56 v744), ∀ a, (k0_off181 v744) a + S1x768.size a ≤ S50257x768.size a := fun v744 k0_hw56 => k0_hw56.2

def k0_off182 (v752 : BitVec 32) : Fin 2 → Nat :=
  let c0_i32_482 : BitVec 32 := 0#32
  ![v752.toNat, 0]

def k0_chk57 (v752 : BitVec 32) : Prop :=
  (∀ a, (k0_off159 v752) a + S1x768.size a ≤ S50257x768.size a) ∧
  (∀ a, (k0_off182 v752) a + S1x768.size a ≤ S50257x768.size a)
instance k0_chk57.dec : ∀ (v752 : BitVec 32), Decidable (k0_chk57 v752) := fun v752 => decidable_of_iff' _ (Iff.of_eq (k0_chk57.eq_1 v752))
theorem k0_off159_inb : ∀ (v752 : BitVec 32) (k0_hw57 : k0_chk57 v752), ∀ a, (k0_off159 v752) a + S1x768.size a ≤ S50257x768.size a := fun v752 k0_hw57 => k0_hw57.1
theorem k0_off182_inb : ∀ (v752 : BitVec 32) (k0_hw57 : k0_chk57 v752), ∀ a, (k0_off182 v752) a + S1x768.size a ≤ S50257x768.size a := fun v752 k0_hw57 => k0_hw57.2

def k0_off183 (v760 : BitVec 32) : Fin 2 → Nat :=
  let c0_i32_486 : BitVec 32 := 0#32
  ![v760.toNat, 0]

def k0_chk58 (v760 : BitVec 32) : Prop :=
  (∀ a, (k0_off161 v760) a + S1x768.size a ≤ S50257x768.size a) ∧
  (∀ a, (k0_off183 v760) a + S1x768.size a ≤ S50257x768.size a)
instance k0_chk58.dec : ∀ (v760 : BitVec 32), Decidable (k0_chk58 v760) := fun v760 => decidable_of_iff' _ (Iff.of_eq (k0_chk58.eq_1 v760))
theorem k0_off161_inb : ∀ (v760 : BitVec 32) (k0_hw58 : k0_chk58 v760), ∀ a, (k0_off161 v760) a + S1x768.size a ≤ S50257x768.size a := fun v760 k0_hw58 => k0_hw58.1
theorem k0_off183_inb : ∀ (v760 : BitVec 32) (k0_hw58 : k0_chk58 v760), ∀ a, (k0_off183 v760) a + S1x768.size a ≤ S50257x768.size a := fun v760 k0_hw58 => k0_hw58.2

def k0_off184 (v768 : BitVec 32) : Fin 2 → Nat :=
  let c0_i32_490 : BitVec 32 := 0#32
  ![v768.toNat, 0]

def k0_chk59 (v768 : BitVec 32) : Prop :=
  (∀ a, (k0_off163 v768) a + S1x768.size a ≤ S50257x768.size a) ∧
  (∀ a, (k0_off184 v768) a + S1x768.size a ≤ S50257x768.size a)
instance k0_chk59.dec : ∀ (v768 : BitVec 32), Decidable (k0_chk59 v768) := fun v768 => decidable_of_iff' _ (Iff.of_eq (k0_chk59.eq_1 v768))
theorem k0_off163_inb : ∀ (v768 : BitVec 32) (k0_hw59 : k0_chk59 v768), ∀ a, (k0_off163 v768) a + S1x768.size a ≤ S50257x768.size a := fun v768 k0_hw59 => k0_hw59.1
theorem k0_off184_inb : ∀ (v768 : BitVec 32) (k0_hw59 : k0_chk59 v768), ∀ a, (k0_off184 v768) a + S1x768.size a ≤ S50257x768.size a := fun v768 k0_hw59 => k0_hw59.2

def k0_off185 (v776 : BitVec 32) : Fin 2 → Nat :=
  let c0_i32_494 : BitVec 32 := 0#32
  ![v776.toNat, 0]

def k0_chk60 (v776 : BitVec 32) : Prop :=
  (∀ a, (k0_off165 v776) a + S1x768.size a ≤ S50257x768.size a) ∧
  (∀ a, (k0_off185 v776) a + S1x768.size a ≤ S50257x768.size a)
instance k0_chk60.dec : ∀ (v776 : BitVec 32), Decidable (k0_chk60 v776) := fun v776 => decidable_of_iff' _ (Iff.of_eq (k0_chk60.eq_1 v776))
theorem k0_off165_inb : ∀ (v776 : BitVec 32) (k0_hw60 : k0_chk60 v776), ∀ a, (k0_off165 v776) a + S1x768.size a ≤ S50257x768.size a := fun v776 k0_hw60 => k0_hw60.1
theorem k0_off185_inb : ∀ (v776 : BitVec 32) (k0_hw60 : k0_chk60 v776), ∀ a, (k0_off185 v776) a + S1x768.size a ≤ S50257x768.size a := fun v776 k0_hw60 => k0_hw60.2

def k0_off186 (v784 : BitVec 32) : Fin 2 → Nat :=
  let c0_i32_498 : BitVec 32 := 0#32
  ![v784.toNat, 0]

def k0_chk61 (v784 : BitVec 32) : Prop :=
  (∀ a, (k0_off167 v784) a + S1x768.size a ≤ S50257x768.size a) ∧
  (∀ a, (k0_off186 v784) a + S1x768.size a ≤ S50257x768.size a)
instance k0_chk61.dec : ∀ (v784 : BitVec 32), Decidable (k0_chk61 v784) := fun v784 => decidable_of_iff' _ (Iff.of_eq (k0_chk61.eq_1 v784))
theorem k0_off167_inb : ∀ (v784 : BitVec 32) (k0_hw61 : k0_chk61 v784), ∀ a, (k0_off167 v784) a + S1x768.size a ≤ S50257x768.size a := fun v784 k0_hw61 => k0_hw61.1
theorem k0_off186_inb : ∀ (v784 : BitVec 32) (k0_hw61 : k0_chk61 v784), ∀ a, (k0_off186 v784) a + S1x768.size a ≤ S50257x768.size a := fun v784 k0_hw61 => k0_hw61.2

def k0_off187 (v792 : BitVec 32) : Fin 2 → Nat :=
  let c0_i32_502 : BitVec 32 := 0#32
  ![v792.toNat, 0]

def k0_chk62 (v792 : BitVec 32) : Prop :=
  (∀ a, (k0_off169 v792) a + S1x768.size a ≤ S50257x768.size a) ∧
  (∀ a, (k0_off187 v792) a + S1x768.size a ≤ S50257x768.size a)
instance k0_chk62.dec : ∀ (v792 : BitVec 32), Decidable (k0_chk62 v792) := fun v792 => decidable_of_iff' _ (Iff.of_eq (k0_chk62.eq_1 v792))
theorem k0_off169_inb : ∀ (v792 : BitVec 32) (k0_hw62 : k0_chk62 v792), ∀ a, (k0_off169 v792) a + S1x768.size a ≤ S50257x768.size a := fun v792 k0_hw62 => k0_hw62.1
theorem k0_off187_inb : ∀ (v792 : BitVec 32) (k0_hw62 : k0_chk62 v792), ∀ a, (k0_off187 v792) a + S1x768.size a ≤ S50257x768.size a := fun v792 k0_hw62 => k0_hw62.2

def k0_off188 (v800 : BitVec 32) : Fin 2 → Nat :=
  let c0_i32_506 : BitVec 32 := 0#32
  ![v800.toNat, 0]

def k0_chk63 (v800 : BitVec 32) : Prop :=
  (∀ a, (k0_off171 v800) a + S1x768.size a ≤ S50257x768.size a) ∧
  (∀ a, (k0_off188 v800) a + S1x768.size a ≤ S50257x768.size a)
instance k0_chk63.dec : ∀ (v800 : BitVec 32), Decidable (k0_chk63 v800) := fun v800 => decidable_of_iff' _ (Iff.of_eq (k0_chk63.eq_1 v800))
theorem k0_off171_inb : ∀ (v800 : BitVec 32) (k0_hw63 : k0_chk63 v800), ∀ a, (k0_off171 v800) a + S1x768.size a ≤ S50257x768.size a := fun v800 k0_hw63 => k0_hw63.1
theorem k0_off188_inb : ∀ (v800 : BitVec 32) (k0_hw63 : k0_chk63 v800), ∀ a, (k0_off188 v800) a + S1x768.size a ≤ S50257x768.size a := fun v800 k0_hw63 => k0_hw63.2

def k0_off189 (i : grid0.Coords) : Fin 2 → Nat :=
  let arg0 : BitVec 32 := BitVec.ofNat 32 (i 0).val
  let v916 : Index := Scalar.indexCast arg0
  let c64 : Index := 64#32
  ![v916.toNat, 64]
def k0_off190 (v917 : BitVec 32) : Fin 2 → Nat :=
  let c0_i32_519 : BitVec 32 := 0#32
  ![v917.toNat, 0]

def k0_off191 (i : grid0.Coords) : Fin 2 → Nat :=
  let arg0 : BitVec 32 := BitVec.ofNat 32 (i 0).val
  let v924 : Index := Scalar.indexCast arg0
  let c65 : Index := 65#32
  ![v924.toNat, 65]
def k0_off192 (v925 : BitVec 32) : Fin 2 → Nat :=
  let c0_i32_523 : BitVec 32 := 0#32
  ![v925.toNat, 0]

def k0_off193 (i : grid0.Coords) : Fin 2 → Nat :=
  let arg0 : BitVec 32 := BitVec.ofNat 32 (i 0).val
  let v932 : Index := Scalar.indexCast arg0
  let c66 : Index := 66#32
  ![v932.toNat, 66]
def k0_off194 (v933 : BitVec 32) : Fin 2 → Nat :=
  let c0_i32_527 : BitVec 32 := 0#32
  ![v933.toNat, 0]

def k0_off195 (i : grid0.Coords) : Fin 2 → Nat :=
  let arg0 : BitVec 32 := BitVec.ofNat 32 (i 0).val
  let v940 : Index := Scalar.indexCast arg0
  let c67 : Index := 67#32
  ![v940.toNat, 67]
def k0_off196 (v941 : BitVec 32) : Fin 2 → Nat :=
  let c0_i32_531 : BitVec 32 := 0#32
  ![v941.toNat, 0]

def k0_off197 (i : grid0.Coords) : Fin 2 → Nat :=
  let arg0 : BitVec 32 := BitVec.ofNat 32 (i 0).val
  let v948 : Index := Scalar.indexCast arg0
  let c68 : Index := 68#32
  ![v948.toNat, 68]
def k0_off198 (v949 : BitVec 32) : Fin 2 → Nat :=
  let c0_i32_535 : BitVec 32 := 0#32
  ![v949.toNat, 0]

def k0_off199 (i : grid0.Coords) : Fin 2 → Nat :=
  let arg0 : BitVec 32 := BitVec.ofNat 32 (i 0).val
  let v956 : Index := Scalar.indexCast arg0
  let c69 : Index := 69#32
  ![v956.toNat, 69]
def k0_off200 (v957 : BitVec 32) : Fin 2 → Nat :=
  let c0_i32_539 : BitVec 32 := 0#32
  ![v957.toNat, 0]

def k0_off201 (i : grid0.Coords) : Fin 2 → Nat :=
  let arg0 : BitVec 32 := BitVec.ofNat 32 (i 0).val
  let v964 : Index := Scalar.indexCast arg0
  let c70 : Index := 70#32
  ![v964.toNat, 70]
def k0_off202 (v965 : BitVec 32) : Fin 2 → Nat :=
  let c0_i32_543 : BitVec 32 := 0#32
  ![v965.toNat, 0]

def k0_off203 (i : grid0.Coords) : Fin 2 → Nat :=
  let arg0 : BitVec 32 := BitVec.ofNat 32 (i 0).val
  let v972 : Index := Scalar.indexCast arg0
  let c71 : Index := 71#32
  ![v972.toNat, 71]
def k0_off204 (v973 : BitVec 32) : Fin 2 → Nat :=
  let c0_i32_547 : BitVec 32 := 0#32
  ![v973.toNat, 0]

def k0_off205 (i : grid0.Coords) : Fin 2 → Nat :=
  let arg0 : BitVec 32 := BitVec.ofNat 32 (i 0).val
  let v980 : Index := Scalar.indexCast arg0
  let c72 : Index := 72#32
  ![v980.toNat, 72]
def k0_off206 (v981 : BitVec 32) : Fin 2 → Nat :=
  let c0_i32_551 : BitVec 32 := 0#32
  ![v981.toNat, 0]

def k0_off207 (i : grid0.Coords) : Fin 2 → Nat :=
  let arg0 : BitVec 32 := BitVec.ofNat 32 (i 0).val
  let v988 : Index := Scalar.indexCast arg0
  let c73 : Index := 73#32
  ![v988.toNat, 73]
def k0_off208 (v989 : BitVec 32) : Fin 2 → Nat :=
  let c0_i32_555 : BitVec 32 := 0#32
  ![v989.toNat, 0]

def k0_off209 (i : grid0.Coords) : Fin 2 → Nat :=
  let arg0 : BitVec 32 := BitVec.ofNat 32 (i 0).val
  let v996 : Index := Scalar.indexCast arg0
  let c74 : Index := 74#32
  ![v996.toNat, 74]
def k0_off210 (v997 : BitVec 32) : Fin 2 → Nat :=
  let c0_i32_559 : BitVec 32 := 0#32
  ![v997.toNat, 0]

def k0_off211 (i : grid0.Coords) : Fin 2 → Nat :=
  let arg0 : BitVec 32 := BitVec.ofNat 32 (i 0).val
  let v1004 : Index := Scalar.indexCast arg0
  let c75 : Index := 75#32
  ![v1004.toNat, 75]
def k0_off212 (v1005 : BitVec 32) : Fin 2 → Nat :=
  let c0_i32_563 : BitVec 32 := 0#32
  ![v1005.toNat, 0]

def k0_off213 (i : grid0.Coords) : Fin 2 → Nat :=
  let arg0 : BitVec 32 := BitVec.ofNat 32 (i 0).val
  let v1012 : Index := Scalar.indexCast arg0
  let c76 : Index := 76#32
  ![v1012.toNat, 76]
def k0_off214 (v1013 : BitVec 32) : Fin 2 → Nat :=
  let c0_i32_567 : BitVec 32 := 0#32
  ![v1013.toNat, 0]

def k0_off215 (i : grid0.Coords) : Fin 2 → Nat :=
  let arg0 : BitVec 32 := BitVec.ofNat 32 (i 0).val
  let v1020 : Index := Scalar.indexCast arg0
  let c77 : Index := 77#32
  ![v1020.toNat, 77]
def k0_off216 (v1021 : BitVec 32) : Fin 2 → Nat :=
  let c0_i32_571 : BitVec 32 := 0#32
  ![v1021.toNat, 0]

def k0_off217 (i : grid0.Coords) : Fin 2 → Nat :=
  let arg0 : BitVec 32 := BitVec.ofNat 32 (i 0).val
  let v1028 : Index := Scalar.indexCast arg0
  let c78 : Index := 78#32
  ![v1028.toNat, 78]
def k0_off218 (v1029 : BitVec 32) : Fin 2 → Nat :=
  let c0_i32_575 : BitVec 32 := 0#32
  ![v1029.toNat, 0]

def k0_off219 (i : grid0.Coords) : Fin 2 → Nat :=
  let arg0 : BitVec 32 := BitVec.ofNat 32 (i 0).val
  let v1036 : Index := Scalar.indexCast arg0
  let c79 : Index := 79#32
  ![v1036.toNat, 79]
def k0_off220 (v1037 : BitVec 32) : Fin 2 → Nat :=
  let c0_i32_579 : BitVec 32 := 0#32
  ![v1037.toNat, 0]

def k0_chk80 (v1037 : BitVec 32) : Prop :=
  (∀ a, (k0_off220 v1037) a + S1x768.size a ≤ S50257x768.size a)
instance k0_chk80.dec : ∀ (v1037 : BitVec 32), Decidable (k0_chk80 v1037) := fun v1037 => decidable_of_iff' _ (Iff.of_eq (k0_chk80.eq_1 v1037))
theorem k0_off220_inb : ∀ (v1037 : BitVec 32) (k0_hw80 : k0_chk80 v1037), ∀ a, (k0_off220 v1037) a + S1x768.size a ≤ S50257x768.size a := fun v1037 k0_hw80 => k0_hw80

def k0_off221 (v917 : BitVec 32) : Fin 2 → Nat :=
  let c0_i32_583 : BitVec 32 := 0#32
  ![v917.toNat, 0]

def k0_chk65 (v917 : BitVec 32) : Prop :=
  (∀ a, (k0_off190 v917) a + S1x768.size a ≤ S50257x768.size a) ∧
  (∀ a, (k0_off221 v917) a + S1x768.size a ≤ S50257x768.size a)
instance k0_chk65.dec : ∀ (v917 : BitVec 32), Decidable (k0_chk65 v917) := fun v917 => decidable_of_iff' _ (Iff.of_eq (k0_chk65.eq_1 v917))
theorem k0_off190_inb : ∀ (v917 : BitVec 32) (k0_hw65 : k0_chk65 v917), ∀ a, (k0_off190 v917) a + S1x768.size a ≤ S50257x768.size a := fun v917 k0_hw65 => k0_hw65.1
theorem k0_off221_inb : ∀ (v917 : BitVec 32) (k0_hw65 : k0_chk65 v917), ∀ a, (k0_off221 v917) a + S1x768.size a ≤ S50257x768.size a := fun v917 k0_hw65 => k0_hw65.2

def k0_off222 (v925 : BitVec 32) : Fin 2 → Nat :=
  let c0_i32_587 : BitVec 32 := 0#32
  ![v925.toNat, 0]

def k0_chk66 (v925 : BitVec 32) : Prop :=
  (∀ a, (k0_off192 v925) a + S1x768.size a ≤ S50257x768.size a) ∧
  (∀ a, (k0_off222 v925) a + S1x768.size a ≤ S50257x768.size a)
instance k0_chk66.dec : ∀ (v925 : BitVec 32), Decidable (k0_chk66 v925) := fun v925 => decidable_of_iff' _ (Iff.of_eq (k0_chk66.eq_1 v925))
theorem k0_off192_inb : ∀ (v925 : BitVec 32) (k0_hw66 : k0_chk66 v925), ∀ a, (k0_off192 v925) a + S1x768.size a ≤ S50257x768.size a := fun v925 k0_hw66 => k0_hw66.1
theorem k0_off222_inb : ∀ (v925 : BitVec 32) (k0_hw66 : k0_chk66 v925), ∀ a, (k0_off222 v925) a + S1x768.size a ≤ S50257x768.size a := fun v925 k0_hw66 => k0_hw66.2

def k0_off223 (v933 : BitVec 32) : Fin 2 → Nat :=
  let c0_i32_591 : BitVec 32 := 0#32
  ![v933.toNat, 0]

def k0_chk67 (v933 : BitVec 32) : Prop :=
  (∀ a, (k0_off194 v933) a + S1x768.size a ≤ S50257x768.size a) ∧
  (∀ a, (k0_off223 v933) a + S1x768.size a ≤ S50257x768.size a)
instance k0_chk67.dec : ∀ (v933 : BitVec 32), Decidable (k0_chk67 v933) := fun v933 => decidable_of_iff' _ (Iff.of_eq (k0_chk67.eq_1 v933))
theorem k0_off194_inb : ∀ (v933 : BitVec 32) (k0_hw67 : k0_chk67 v933), ∀ a, (k0_off194 v933) a + S1x768.size a ≤ S50257x768.size a := fun v933 k0_hw67 => k0_hw67.1
theorem k0_off223_inb : ∀ (v933 : BitVec 32) (k0_hw67 : k0_chk67 v933), ∀ a, (k0_off223 v933) a + S1x768.size a ≤ S50257x768.size a := fun v933 k0_hw67 => k0_hw67.2

def k0_off224 (v941 : BitVec 32) : Fin 2 → Nat :=
  let c0_i32_595 : BitVec 32 := 0#32
  ![v941.toNat, 0]

def k0_chk68 (v941 : BitVec 32) : Prop :=
  (∀ a, (k0_off196 v941) a + S1x768.size a ≤ S50257x768.size a) ∧
  (∀ a, (k0_off224 v941) a + S1x768.size a ≤ S50257x768.size a)
instance k0_chk68.dec : ∀ (v941 : BitVec 32), Decidable (k0_chk68 v941) := fun v941 => decidable_of_iff' _ (Iff.of_eq (k0_chk68.eq_1 v941))
theorem k0_off196_inb : ∀ (v941 : BitVec 32) (k0_hw68 : k0_chk68 v941), ∀ a, (k0_off196 v941) a + S1x768.size a ≤ S50257x768.size a := fun v941 k0_hw68 => k0_hw68.1
theorem k0_off224_inb : ∀ (v941 : BitVec 32) (k0_hw68 : k0_chk68 v941), ∀ a, (k0_off224 v941) a + S1x768.size a ≤ S50257x768.size a := fun v941 k0_hw68 => k0_hw68.2

def k0_off225 (v949 : BitVec 32) : Fin 2 → Nat :=
  let c0_i32_599 : BitVec 32 := 0#32
  ![v949.toNat, 0]

def k0_chk69 (v949 : BitVec 32) : Prop :=
  (∀ a, (k0_off198 v949) a + S1x768.size a ≤ S50257x768.size a) ∧
  (∀ a, (k0_off225 v949) a + S1x768.size a ≤ S50257x768.size a)
instance k0_chk69.dec : ∀ (v949 : BitVec 32), Decidable (k0_chk69 v949) := fun v949 => decidable_of_iff' _ (Iff.of_eq (k0_chk69.eq_1 v949))
theorem k0_off198_inb : ∀ (v949 : BitVec 32) (k0_hw69 : k0_chk69 v949), ∀ a, (k0_off198 v949) a + S1x768.size a ≤ S50257x768.size a := fun v949 k0_hw69 => k0_hw69.1
theorem k0_off225_inb : ∀ (v949 : BitVec 32) (k0_hw69 : k0_chk69 v949), ∀ a, (k0_off225 v949) a + S1x768.size a ≤ S50257x768.size a := fun v949 k0_hw69 => k0_hw69.2

def k0_off226 (v957 : BitVec 32) : Fin 2 → Nat :=
  let c0_i32_603 : BitVec 32 := 0#32
  ![v957.toNat, 0]

def k0_chk70 (v957 : BitVec 32) : Prop :=
  (∀ a, (k0_off200 v957) a + S1x768.size a ≤ S50257x768.size a) ∧
  (∀ a, (k0_off226 v957) a + S1x768.size a ≤ S50257x768.size a)
instance k0_chk70.dec : ∀ (v957 : BitVec 32), Decidable (k0_chk70 v957) := fun v957 => decidable_of_iff' _ (Iff.of_eq (k0_chk70.eq_1 v957))
theorem k0_off200_inb : ∀ (v957 : BitVec 32) (k0_hw70 : k0_chk70 v957), ∀ a, (k0_off200 v957) a + S1x768.size a ≤ S50257x768.size a := fun v957 k0_hw70 => k0_hw70.1
theorem k0_off226_inb : ∀ (v957 : BitVec 32) (k0_hw70 : k0_chk70 v957), ∀ a, (k0_off226 v957) a + S1x768.size a ≤ S50257x768.size a := fun v957 k0_hw70 => k0_hw70.2

def k0_off227 (v965 : BitVec 32) : Fin 2 → Nat :=
  let c0_i32_607 : BitVec 32 := 0#32
  ![v965.toNat, 0]

def k0_chk71 (v965 : BitVec 32) : Prop :=
  (∀ a, (k0_off202 v965) a + S1x768.size a ≤ S50257x768.size a) ∧
  (∀ a, (k0_off227 v965) a + S1x768.size a ≤ S50257x768.size a)
instance k0_chk71.dec : ∀ (v965 : BitVec 32), Decidable (k0_chk71 v965) := fun v965 => decidable_of_iff' _ (Iff.of_eq (k0_chk71.eq_1 v965))
theorem k0_off202_inb : ∀ (v965 : BitVec 32) (k0_hw71 : k0_chk71 v965), ∀ a, (k0_off202 v965) a + S1x768.size a ≤ S50257x768.size a := fun v965 k0_hw71 => k0_hw71.1
theorem k0_off227_inb : ∀ (v965 : BitVec 32) (k0_hw71 : k0_chk71 v965), ∀ a, (k0_off227 v965) a + S1x768.size a ≤ S50257x768.size a := fun v965 k0_hw71 => k0_hw71.2

def k0_off228 (v973 : BitVec 32) : Fin 2 → Nat :=
  let c0_i32_611 : BitVec 32 := 0#32
  ![v973.toNat, 0]

def k0_chk72 (v973 : BitVec 32) : Prop :=
  (∀ a, (k0_off204 v973) a + S1x768.size a ≤ S50257x768.size a) ∧
  (∀ a, (k0_off228 v973) a + S1x768.size a ≤ S50257x768.size a)
instance k0_chk72.dec : ∀ (v973 : BitVec 32), Decidable (k0_chk72 v973) := fun v973 => decidable_of_iff' _ (Iff.of_eq (k0_chk72.eq_1 v973))
theorem k0_off204_inb : ∀ (v973 : BitVec 32) (k0_hw72 : k0_chk72 v973), ∀ a, (k0_off204 v973) a + S1x768.size a ≤ S50257x768.size a := fun v973 k0_hw72 => k0_hw72.1
theorem k0_off228_inb : ∀ (v973 : BitVec 32) (k0_hw72 : k0_chk72 v973), ∀ a, (k0_off228 v973) a + S1x768.size a ≤ S50257x768.size a := fun v973 k0_hw72 => k0_hw72.2

def k0_off229 (v981 : BitVec 32) : Fin 2 → Nat :=
  let c0_i32_615 : BitVec 32 := 0#32
  ![v981.toNat, 0]

def k0_chk73 (v981 : BitVec 32) : Prop :=
  (∀ a, (k0_off206 v981) a + S1x768.size a ≤ S50257x768.size a) ∧
  (∀ a, (k0_off229 v981) a + S1x768.size a ≤ S50257x768.size a)
instance k0_chk73.dec : ∀ (v981 : BitVec 32), Decidable (k0_chk73 v981) := fun v981 => decidable_of_iff' _ (Iff.of_eq (k0_chk73.eq_1 v981))
theorem k0_off206_inb : ∀ (v981 : BitVec 32) (k0_hw73 : k0_chk73 v981), ∀ a, (k0_off206 v981) a + S1x768.size a ≤ S50257x768.size a := fun v981 k0_hw73 => k0_hw73.1
theorem k0_off229_inb : ∀ (v981 : BitVec 32) (k0_hw73 : k0_chk73 v981), ∀ a, (k0_off229 v981) a + S1x768.size a ≤ S50257x768.size a := fun v981 k0_hw73 => k0_hw73.2

def k0_off230 (v989 : BitVec 32) : Fin 2 → Nat :=
  let c0_i32_619 : BitVec 32 := 0#32
  ![v989.toNat, 0]

def k0_chk74 (v989 : BitVec 32) : Prop :=
  (∀ a, (k0_off208 v989) a + S1x768.size a ≤ S50257x768.size a) ∧
  (∀ a, (k0_off230 v989) a + S1x768.size a ≤ S50257x768.size a)
instance k0_chk74.dec : ∀ (v989 : BitVec 32), Decidable (k0_chk74 v989) := fun v989 => decidable_of_iff' _ (Iff.of_eq (k0_chk74.eq_1 v989))
theorem k0_off208_inb : ∀ (v989 : BitVec 32) (k0_hw74 : k0_chk74 v989), ∀ a, (k0_off208 v989) a + S1x768.size a ≤ S50257x768.size a := fun v989 k0_hw74 => k0_hw74.1
theorem k0_off230_inb : ∀ (v989 : BitVec 32) (k0_hw74 : k0_chk74 v989), ∀ a, (k0_off230 v989) a + S1x768.size a ≤ S50257x768.size a := fun v989 k0_hw74 => k0_hw74.2

def k0_off231 (v997 : BitVec 32) : Fin 2 → Nat :=
  let c0_i32_623 : BitVec 32 := 0#32
  ![v997.toNat, 0]

def k0_chk75 (v997 : BitVec 32) : Prop :=
  (∀ a, (k0_off210 v997) a + S1x768.size a ≤ S50257x768.size a) ∧
  (∀ a, (k0_off231 v997) a + S1x768.size a ≤ S50257x768.size a)
instance k0_chk75.dec : ∀ (v997 : BitVec 32), Decidable (k0_chk75 v997) := fun v997 => decidable_of_iff' _ (Iff.of_eq (k0_chk75.eq_1 v997))
theorem k0_off210_inb : ∀ (v997 : BitVec 32) (k0_hw75 : k0_chk75 v997), ∀ a, (k0_off210 v997) a + S1x768.size a ≤ S50257x768.size a := fun v997 k0_hw75 => k0_hw75.1
theorem k0_off231_inb : ∀ (v997 : BitVec 32) (k0_hw75 : k0_chk75 v997), ∀ a, (k0_off231 v997) a + S1x768.size a ≤ S50257x768.size a := fun v997 k0_hw75 => k0_hw75.2

def k0_off232 (v1005 : BitVec 32) : Fin 2 → Nat :=
  let c0_i32_627 : BitVec 32 := 0#32
  ![v1005.toNat, 0]

def k0_chk76 (v1005 : BitVec 32) : Prop :=
  (∀ a, (k0_off212 v1005) a + S1x768.size a ≤ S50257x768.size a) ∧
  (∀ a, (k0_off232 v1005) a + S1x768.size a ≤ S50257x768.size a)
instance k0_chk76.dec : ∀ (v1005 : BitVec 32), Decidable (k0_chk76 v1005) := fun v1005 => decidable_of_iff' _ (Iff.of_eq (k0_chk76.eq_1 v1005))
theorem k0_off212_inb : ∀ (v1005 : BitVec 32) (k0_hw76 : k0_chk76 v1005), ∀ a, (k0_off212 v1005) a + S1x768.size a ≤ S50257x768.size a := fun v1005 k0_hw76 => k0_hw76.1
theorem k0_off232_inb : ∀ (v1005 : BitVec 32) (k0_hw76 : k0_chk76 v1005), ∀ a, (k0_off232 v1005) a + S1x768.size a ≤ S50257x768.size a := fun v1005 k0_hw76 => k0_hw76.2

def k0_off233 (v1013 : BitVec 32) : Fin 2 → Nat :=
  let c0_i32_631 : BitVec 32 := 0#32
  ![v1013.toNat, 0]

def k0_chk77 (v1013 : BitVec 32) : Prop :=
  (∀ a, (k0_off214 v1013) a + S1x768.size a ≤ S50257x768.size a) ∧
  (∀ a, (k0_off233 v1013) a + S1x768.size a ≤ S50257x768.size a)
instance k0_chk77.dec : ∀ (v1013 : BitVec 32), Decidable (k0_chk77 v1013) := fun v1013 => decidable_of_iff' _ (Iff.of_eq (k0_chk77.eq_1 v1013))
theorem k0_off214_inb : ∀ (v1013 : BitVec 32) (k0_hw77 : k0_chk77 v1013), ∀ a, (k0_off214 v1013) a + S1x768.size a ≤ S50257x768.size a := fun v1013 k0_hw77 => k0_hw77.1
theorem k0_off233_inb : ∀ (v1013 : BitVec 32) (k0_hw77 : k0_chk77 v1013), ∀ a, (k0_off233 v1013) a + S1x768.size a ≤ S50257x768.size a := fun v1013 k0_hw77 => k0_hw77.2

def k0_off234 (v1021 : BitVec 32) : Fin 2 → Nat :=
  let c0_i32_635 : BitVec 32 := 0#32
  ![v1021.toNat, 0]

def k0_chk78 (v1021 : BitVec 32) : Prop :=
  (∀ a, (k0_off216 v1021) a + S1x768.size a ≤ S50257x768.size a) ∧
  (∀ a, (k0_off234 v1021) a + S1x768.size a ≤ S50257x768.size a)
instance k0_chk78.dec : ∀ (v1021 : BitVec 32), Decidable (k0_chk78 v1021) := fun v1021 => decidable_of_iff' _ (Iff.of_eq (k0_chk78.eq_1 v1021))
theorem k0_off216_inb : ∀ (v1021 : BitVec 32) (k0_hw78 : k0_chk78 v1021), ∀ a, (k0_off216 v1021) a + S1x768.size a ≤ S50257x768.size a := fun v1021 k0_hw78 => k0_hw78.1
theorem k0_off234_inb : ∀ (v1021 : BitVec 32) (k0_hw78 : k0_chk78 v1021), ∀ a, (k0_off234 v1021) a + S1x768.size a ≤ S50257x768.size a := fun v1021 k0_hw78 => k0_hw78.2

def k0_off235 (v1029 : BitVec 32) : Fin 2 → Nat :=
  let c0_i32_639 : BitVec 32 := 0#32
  ![v1029.toNat, 0]

def k0_chk79 (v1029 : BitVec 32) : Prop :=
  (∀ a, (k0_off218 v1029) a + S1x768.size a ≤ S50257x768.size a) ∧
  (∀ a, (k0_off235 v1029) a + S1x768.size a ≤ S50257x768.size a)
instance k0_chk79.dec : ∀ (v1029 : BitVec 32), Decidable (k0_chk79 v1029) := fun v1029 => decidable_of_iff' _ (Iff.of_eq (k0_chk79.eq_1 v1029))
theorem k0_off218_inb : ∀ (v1029 : BitVec 32) (k0_hw79 : k0_chk79 v1029), ∀ a, (k0_off218 v1029) a + S1x768.size a ≤ S50257x768.size a := fun v1029 k0_hw79 => k0_hw79.1
theorem k0_off235_inb : ∀ (v1029 : BitVec 32) (k0_hw79 : k0_chk79 v1029), ∀ a, (k0_off235 v1029) a + S1x768.size a ≤ S50257x768.size a := fun v1029 k0_hw79 => k0_hw79.2

def k0_off236 (i : grid0.Coords) : Fin 2 → Nat :=
  let arg0 : BitVec 32 := BitVec.ofNat 32 (i 0).val
  let v1145 : Index := Scalar.indexCast arg0
  let c80 : Index := 80#32
  ![v1145.toNat, 80]
def k0_off237 (v1146 : BitVec 32) : Fin 2 → Nat :=
  let c0_i32_652 : BitVec 32 := 0#32
  ![v1146.toNat, 0]

def k0_off238 (i : grid0.Coords) : Fin 2 → Nat :=
  let arg0 : BitVec 32 := BitVec.ofNat 32 (i 0).val
  let v1153 : Index := Scalar.indexCast arg0
  let c81 : Index := 81#32
  ![v1153.toNat, 81]
def k0_off239 (v1154 : BitVec 32) : Fin 2 → Nat :=
  let c0_i32_656 : BitVec 32 := 0#32
  ![v1154.toNat, 0]

def k0_off240 (i : grid0.Coords) : Fin 2 → Nat :=
  let arg0 : BitVec 32 := BitVec.ofNat 32 (i 0).val
  let v1161 : Index := Scalar.indexCast arg0
  let c82 : Index := 82#32
  ![v1161.toNat, 82]
def k0_off241 (v1162 : BitVec 32) : Fin 2 → Nat :=
  let c0_i32_660 : BitVec 32 := 0#32
  ![v1162.toNat, 0]

def k0_off242 (i : grid0.Coords) : Fin 2 → Nat :=
  let arg0 : BitVec 32 := BitVec.ofNat 32 (i 0).val
  let v1169 : Index := Scalar.indexCast arg0
  let c83 : Index := 83#32
  ![v1169.toNat, 83]
def k0_off243 (v1170 : BitVec 32) : Fin 2 → Nat :=
  let c0_i32_664 : BitVec 32 := 0#32
  ![v1170.toNat, 0]

def k0_off244 (i : grid0.Coords) : Fin 2 → Nat :=
  let arg0 : BitVec 32 := BitVec.ofNat 32 (i 0).val
  let v1177 : Index := Scalar.indexCast arg0
  let c84 : Index := 84#32
  ![v1177.toNat, 84]
def k0_off245 (v1178 : BitVec 32) : Fin 2 → Nat :=
  let c0_i32_668 : BitVec 32 := 0#32
  ![v1178.toNat, 0]

def k0_off246 (i : grid0.Coords) : Fin 2 → Nat :=
  let arg0 : BitVec 32 := BitVec.ofNat 32 (i 0).val
  let v1185 : Index := Scalar.indexCast arg0
  let c85 : Index := 85#32
  ![v1185.toNat, 85]
def k0_off247 (v1186 : BitVec 32) : Fin 2 → Nat :=
  let c0_i32_672 : BitVec 32 := 0#32
  ![v1186.toNat, 0]

def k0_off248 (i : grid0.Coords) : Fin 2 → Nat :=
  let arg0 : BitVec 32 := BitVec.ofNat 32 (i 0).val
  let v1193 : Index := Scalar.indexCast arg0
  let c86 : Index := 86#32
  ![v1193.toNat, 86]
def k0_off249 (v1194 : BitVec 32) : Fin 2 → Nat :=
  let c0_i32_676 : BitVec 32 := 0#32
  ![v1194.toNat, 0]

def k0_off250 (i : grid0.Coords) : Fin 2 → Nat :=
  let arg0 : BitVec 32 := BitVec.ofNat 32 (i 0).val
  let v1201 : Index := Scalar.indexCast arg0
  let c87 : Index := 87#32
  ![v1201.toNat, 87]
def k0_off251 (v1202 : BitVec 32) : Fin 2 → Nat :=
  let c0_i32_680 : BitVec 32 := 0#32
  ![v1202.toNat, 0]

def k0_off252 (i : grid0.Coords) : Fin 2 → Nat :=
  let arg0 : BitVec 32 := BitVec.ofNat 32 (i 0).val
  let v1209 : Index := Scalar.indexCast arg0
  let c88 : Index := 88#32
  ![v1209.toNat, 88]
def k0_off253 (v1210 : BitVec 32) : Fin 2 → Nat :=
  let c0_i32_684 : BitVec 32 := 0#32
  ![v1210.toNat, 0]

def k0_off254 (i : grid0.Coords) : Fin 2 → Nat :=
  let arg0 : BitVec 32 := BitVec.ofNat 32 (i 0).val
  let v1217 : Index := Scalar.indexCast arg0
  let c89 : Index := 89#32
  ![v1217.toNat, 89]
def k0_off255 (v1218 : BitVec 32) : Fin 2 → Nat :=
  let c0_i32_688 : BitVec 32 := 0#32
  ![v1218.toNat, 0]

def k0_off256 (i : grid0.Coords) : Fin 2 → Nat :=
  let arg0 : BitVec 32 := BitVec.ofNat 32 (i 0).val
  let v1225 : Index := Scalar.indexCast arg0
  let c90 : Index := 90#32
  ![v1225.toNat, 90]
def k0_off257 (v1226 : BitVec 32) : Fin 2 → Nat :=
  let c0_i32_692 : BitVec 32 := 0#32
  ![v1226.toNat, 0]

def k0_off258 (i : grid0.Coords) : Fin 2 → Nat :=
  let arg0 : BitVec 32 := BitVec.ofNat 32 (i 0).val
  let v1233 : Index := Scalar.indexCast arg0
  let c91 : Index := 91#32
  ![v1233.toNat, 91]
def k0_off259 (v1234 : BitVec 32) : Fin 2 → Nat :=
  let c0_i32_696 : BitVec 32 := 0#32
  ![v1234.toNat, 0]

def k0_off260 (i : grid0.Coords) : Fin 2 → Nat :=
  let arg0 : BitVec 32 := BitVec.ofNat 32 (i 0).val
  let v1241 : Index := Scalar.indexCast arg0
  let c92 : Index := 92#32
  ![v1241.toNat, 92]
def k0_off261 (v1242 : BitVec 32) : Fin 2 → Nat :=
  let c0_i32_700 : BitVec 32 := 0#32
  ![v1242.toNat, 0]

def k0_off262 (i : grid0.Coords) : Fin 2 → Nat :=
  let arg0 : BitVec 32 := BitVec.ofNat 32 (i 0).val
  let v1249 : Index := Scalar.indexCast arg0
  let c93 : Index := 93#32
  ![v1249.toNat, 93]
def k0_off263 (v1250 : BitVec 32) : Fin 2 → Nat :=
  let c0_i32_704 : BitVec 32 := 0#32
  ![v1250.toNat, 0]

def k0_off264 (i : grid0.Coords) : Fin 2 → Nat :=
  let arg0 : BitVec 32 := BitVec.ofNat 32 (i 0).val
  let v1257 : Index := Scalar.indexCast arg0
  let c94 : Index := 94#32
  ![v1257.toNat, 94]
def k0_off265 (v1258 : BitVec 32) : Fin 2 → Nat :=
  let c0_i32_708 : BitVec 32 := 0#32
  ![v1258.toNat, 0]

def k0_off266 (i : grid0.Coords) : Fin 2 → Nat :=
  let arg0 : BitVec 32 := BitVec.ofNat 32 (i 0).val
  let v1265 : Index := Scalar.indexCast arg0
  let c95 : Index := 95#32
  ![v1265.toNat, 95]
def k0_off267 (v1266 : BitVec 32) : Fin 2 → Nat :=
  let c0_i32_712 : BitVec 32 := 0#32
  ![v1266.toNat, 0]

def k0_chk96 (v1266 : BitVec 32) : Prop :=
  (∀ a, (k0_off267 v1266) a + S1x768.size a ≤ S50257x768.size a)
instance k0_chk96.dec : ∀ (v1266 : BitVec 32), Decidable (k0_chk96 v1266) := fun v1266 => decidable_of_iff' _ (Iff.of_eq (k0_chk96.eq_1 v1266))
theorem k0_off267_inb : ∀ (v1266 : BitVec 32) (k0_hw96 : k0_chk96 v1266), ∀ a, (k0_off267 v1266) a + S1x768.size a ≤ S50257x768.size a := fun v1266 k0_hw96 => k0_hw96

def k0_off268 (v1146 : BitVec 32) : Fin 2 → Nat :=
  let c0_i32_716 : BitVec 32 := 0#32
  ![v1146.toNat, 0]

def k0_chk81 (v1146 : BitVec 32) : Prop :=
  (∀ a, (k0_off237 v1146) a + S1x768.size a ≤ S50257x768.size a) ∧
  (∀ a, (k0_off268 v1146) a + S1x768.size a ≤ S50257x768.size a)
instance k0_chk81.dec : ∀ (v1146 : BitVec 32), Decidable (k0_chk81 v1146) := fun v1146 => decidable_of_iff' _ (Iff.of_eq (k0_chk81.eq_1 v1146))
theorem k0_off237_inb : ∀ (v1146 : BitVec 32) (k0_hw81 : k0_chk81 v1146), ∀ a, (k0_off237 v1146) a + S1x768.size a ≤ S50257x768.size a := fun v1146 k0_hw81 => k0_hw81.1
theorem k0_off268_inb : ∀ (v1146 : BitVec 32) (k0_hw81 : k0_chk81 v1146), ∀ a, (k0_off268 v1146) a + S1x768.size a ≤ S50257x768.size a := fun v1146 k0_hw81 => k0_hw81.2

def k0_off269 (v1154 : BitVec 32) : Fin 2 → Nat :=
  let c0_i32_720 : BitVec 32 := 0#32
  ![v1154.toNat, 0]

def k0_chk82 (v1154 : BitVec 32) : Prop :=
  (∀ a, (k0_off239 v1154) a + S1x768.size a ≤ S50257x768.size a) ∧
  (∀ a, (k0_off269 v1154) a + S1x768.size a ≤ S50257x768.size a)
instance k0_chk82.dec : ∀ (v1154 : BitVec 32), Decidable (k0_chk82 v1154) := fun v1154 => decidable_of_iff' _ (Iff.of_eq (k0_chk82.eq_1 v1154))
theorem k0_off239_inb : ∀ (v1154 : BitVec 32) (k0_hw82 : k0_chk82 v1154), ∀ a, (k0_off239 v1154) a + S1x768.size a ≤ S50257x768.size a := fun v1154 k0_hw82 => k0_hw82.1
theorem k0_off269_inb : ∀ (v1154 : BitVec 32) (k0_hw82 : k0_chk82 v1154), ∀ a, (k0_off269 v1154) a + S1x768.size a ≤ S50257x768.size a := fun v1154 k0_hw82 => k0_hw82.2

def k0_off270 (v1162 : BitVec 32) : Fin 2 → Nat :=
  let c0_i32_724 : BitVec 32 := 0#32
  ![v1162.toNat, 0]

def k0_chk83 (v1162 : BitVec 32) : Prop :=
  (∀ a, (k0_off241 v1162) a + S1x768.size a ≤ S50257x768.size a) ∧
  (∀ a, (k0_off270 v1162) a + S1x768.size a ≤ S50257x768.size a)
instance k0_chk83.dec : ∀ (v1162 : BitVec 32), Decidable (k0_chk83 v1162) := fun v1162 => decidable_of_iff' _ (Iff.of_eq (k0_chk83.eq_1 v1162))
theorem k0_off241_inb : ∀ (v1162 : BitVec 32) (k0_hw83 : k0_chk83 v1162), ∀ a, (k0_off241 v1162) a + S1x768.size a ≤ S50257x768.size a := fun v1162 k0_hw83 => k0_hw83.1
theorem k0_off270_inb : ∀ (v1162 : BitVec 32) (k0_hw83 : k0_chk83 v1162), ∀ a, (k0_off270 v1162) a + S1x768.size a ≤ S50257x768.size a := fun v1162 k0_hw83 => k0_hw83.2

def k0_off271 (v1170 : BitVec 32) : Fin 2 → Nat :=
  let c0_i32_728 : BitVec 32 := 0#32
  ![v1170.toNat, 0]

def k0_chk84 (v1170 : BitVec 32) : Prop :=
  (∀ a, (k0_off243 v1170) a + S1x768.size a ≤ S50257x768.size a) ∧
  (∀ a, (k0_off271 v1170) a + S1x768.size a ≤ S50257x768.size a)
instance k0_chk84.dec : ∀ (v1170 : BitVec 32), Decidable (k0_chk84 v1170) := fun v1170 => decidable_of_iff' _ (Iff.of_eq (k0_chk84.eq_1 v1170))
theorem k0_off243_inb : ∀ (v1170 : BitVec 32) (k0_hw84 : k0_chk84 v1170), ∀ a, (k0_off243 v1170) a + S1x768.size a ≤ S50257x768.size a := fun v1170 k0_hw84 => k0_hw84.1
theorem k0_off271_inb : ∀ (v1170 : BitVec 32) (k0_hw84 : k0_chk84 v1170), ∀ a, (k0_off271 v1170) a + S1x768.size a ≤ S50257x768.size a := fun v1170 k0_hw84 => k0_hw84.2

def k0_off272 (v1178 : BitVec 32) : Fin 2 → Nat :=
  let c0_i32_732 : BitVec 32 := 0#32
  ![v1178.toNat, 0]

def k0_chk85 (v1178 : BitVec 32) : Prop :=
  (∀ a, (k0_off245 v1178) a + S1x768.size a ≤ S50257x768.size a) ∧
  (∀ a, (k0_off272 v1178) a + S1x768.size a ≤ S50257x768.size a)
instance k0_chk85.dec : ∀ (v1178 : BitVec 32), Decidable (k0_chk85 v1178) := fun v1178 => decidable_of_iff' _ (Iff.of_eq (k0_chk85.eq_1 v1178))
theorem k0_off245_inb : ∀ (v1178 : BitVec 32) (k0_hw85 : k0_chk85 v1178), ∀ a, (k0_off245 v1178) a + S1x768.size a ≤ S50257x768.size a := fun v1178 k0_hw85 => k0_hw85.1
theorem k0_off272_inb : ∀ (v1178 : BitVec 32) (k0_hw85 : k0_chk85 v1178), ∀ a, (k0_off272 v1178) a + S1x768.size a ≤ S50257x768.size a := fun v1178 k0_hw85 => k0_hw85.2

def k0_off273 (v1186 : BitVec 32) : Fin 2 → Nat :=
  let c0_i32_736 : BitVec 32 := 0#32
  ![v1186.toNat, 0]

def k0_chk86 (v1186 : BitVec 32) : Prop :=
  (∀ a, (k0_off247 v1186) a + S1x768.size a ≤ S50257x768.size a) ∧
  (∀ a, (k0_off273 v1186) a + S1x768.size a ≤ S50257x768.size a)
instance k0_chk86.dec : ∀ (v1186 : BitVec 32), Decidable (k0_chk86 v1186) := fun v1186 => decidable_of_iff' _ (Iff.of_eq (k0_chk86.eq_1 v1186))
theorem k0_off247_inb : ∀ (v1186 : BitVec 32) (k0_hw86 : k0_chk86 v1186), ∀ a, (k0_off247 v1186) a + S1x768.size a ≤ S50257x768.size a := fun v1186 k0_hw86 => k0_hw86.1
theorem k0_off273_inb : ∀ (v1186 : BitVec 32) (k0_hw86 : k0_chk86 v1186), ∀ a, (k0_off273 v1186) a + S1x768.size a ≤ S50257x768.size a := fun v1186 k0_hw86 => k0_hw86.2

def k0_off274 (v1194 : BitVec 32) : Fin 2 → Nat :=
  let c0_i32_740 : BitVec 32 := 0#32
  ![v1194.toNat, 0]

def k0_chk87 (v1194 : BitVec 32) : Prop :=
  (∀ a, (k0_off249 v1194) a + S1x768.size a ≤ S50257x768.size a) ∧
  (∀ a, (k0_off274 v1194) a + S1x768.size a ≤ S50257x768.size a)
instance k0_chk87.dec : ∀ (v1194 : BitVec 32), Decidable (k0_chk87 v1194) := fun v1194 => decidable_of_iff' _ (Iff.of_eq (k0_chk87.eq_1 v1194))
theorem k0_off249_inb : ∀ (v1194 : BitVec 32) (k0_hw87 : k0_chk87 v1194), ∀ a, (k0_off249 v1194) a + S1x768.size a ≤ S50257x768.size a := fun v1194 k0_hw87 => k0_hw87.1
theorem k0_off274_inb : ∀ (v1194 : BitVec 32) (k0_hw87 : k0_chk87 v1194), ∀ a, (k0_off274 v1194) a + S1x768.size a ≤ S50257x768.size a := fun v1194 k0_hw87 => k0_hw87.2

def k0_off275 (v1202 : BitVec 32) : Fin 2 → Nat :=
  let c0_i32_744 : BitVec 32 := 0#32
  ![v1202.toNat, 0]

def k0_chk88 (v1202 : BitVec 32) : Prop :=
  (∀ a, (k0_off251 v1202) a + S1x768.size a ≤ S50257x768.size a) ∧
  (∀ a, (k0_off275 v1202) a + S1x768.size a ≤ S50257x768.size a)
instance k0_chk88.dec : ∀ (v1202 : BitVec 32), Decidable (k0_chk88 v1202) := fun v1202 => decidable_of_iff' _ (Iff.of_eq (k0_chk88.eq_1 v1202))
theorem k0_off251_inb : ∀ (v1202 : BitVec 32) (k0_hw88 : k0_chk88 v1202), ∀ a, (k0_off251 v1202) a + S1x768.size a ≤ S50257x768.size a := fun v1202 k0_hw88 => k0_hw88.1
theorem k0_off275_inb : ∀ (v1202 : BitVec 32) (k0_hw88 : k0_chk88 v1202), ∀ a, (k0_off275 v1202) a + S1x768.size a ≤ S50257x768.size a := fun v1202 k0_hw88 => k0_hw88.2

def k0_off276 (v1210 : BitVec 32) : Fin 2 → Nat :=
  let c0_i32_748 : BitVec 32 := 0#32
  ![v1210.toNat, 0]

def k0_chk89 (v1210 : BitVec 32) : Prop :=
  (∀ a, (k0_off253 v1210) a + S1x768.size a ≤ S50257x768.size a) ∧
  (∀ a, (k0_off276 v1210) a + S1x768.size a ≤ S50257x768.size a)
instance k0_chk89.dec : ∀ (v1210 : BitVec 32), Decidable (k0_chk89 v1210) := fun v1210 => decidable_of_iff' _ (Iff.of_eq (k0_chk89.eq_1 v1210))
theorem k0_off253_inb : ∀ (v1210 : BitVec 32) (k0_hw89 : k0_chk89 v1210), ∀ a, (k0_off253 v1210) a + S1x768.size a ≤ S50257x768.size a := fun v1210 k0_hw89 => k0_hw89.1
theorem k0_off276_inb : ∀ (v1210 : BitVec 32) (k0_hw89 : k0_chk89 v1210), ∀ a, (k0_off276 v1210) a + S1x768.size a ≤ S50257x768.size a := fun v1210 k0_hw89 => k0_hw89.2

def k0_off277 (v1218 : BitVec 32) : Fin 2 → Nat :=
  let c0_i32_752 : BitVec 32 := 0#32
  ![v1218.toNat, 0]

def k0_chk90 (v1218 : BitVec 32) : Prop :=
  (∀ a, (k0_off255 v1218) a + S1x768.size a ≤ S50257x768.size a) ∧
  (∀ a, (k0_off277 v1218) a + S1x768.size a ≤ S50257x768.size a)
instance k0_chk90.dec : ∀ (v1218 : BitVec 32), Decidable (k0_chk90 v1218) := fun v1218 => decidable_of_iff' _ (Iff.of_eq (k0_chk90.eq_1 v1218))
theorem k0_off255_inb : ∀ (v1218 : BitVec 32) (k0_hw90 : k0_chk90 v1218), ∀ a, (k0_off255 v1218) a + S1x768.size a ≤ S50257x768.size a := fun v1218 k0_hw90 => k0_hw90.1
theorem k0_off277_inb : ∀ (v1218 : BitVec 32) (k0_hw90 : k0_chk90 v1218), ∀ a, (k0_off277 v1218) a + S1x768.size a ≤ S50257x768.size a := fun v1218 k0_hw90 => k0_hw90.2

def k0_off278 (v1226 : BitVec 32) : Fin 2 → Nat :=
  let c0_i32_756 : BitVec 32 := 0#32
  ![v1226.toNat, 0]

def k0_chk91 (v1226 : BitVec 32) : Prop :=
  (∀ a, (k0_off257 v1226) a + S1x768.size a ≤ S50257x768.size a) ∧
  (∀ a, (k0_off278 v1226) a + S1x768.size a ≤ S50257x768.size a)
instance k0_chk91.dec : ∀ (v1226 : BitVec 32), Decidable (k0_chk91 v1226) := fun v1226 => decidable_of_iff' _ (Iff.of_eq (k0_chk91.eq_1 v1226))
theorem k0_off257_inb : ∀ (v1226 : BitVec 32) (k0_hw91 : k0_chk91 v1226), ∀ a, (k0_off257 v1226) a + S1x768.size a ≤ S50257x768.size a := fun v1226 k0_hw91 => k0_hw91.1
theorem k0_off278_inb : ∀ (v1226 : BitVec 32) (k0_hw91 : k0_chk91 v1226), ∀ a, (k0_off278 v1226) a + S1x768.size a ≤ S50257x768.size a := fun v1226 k0_hw91 => k0_hw91.2

def k0_off279 (v1234 : BitVec 32) : Fin 2 → Nat :=
  let c0_i32_760 : BitVec 32 := 0#32
  ![v1234.toNat, 0]

def k0_chk92 (v1234 : BitVec 32) : Prop :=
  (∀ a, (k0_off259 v1234) a + S1x768.size a ≤ S50257x768.size a) ∧
  (∀ a, (k0_off279 v1234) a + S1x768.size a ≤ S50257x768.size a)
instance k0_chk92.dec : ∀ (v1234 : BitVec 32), Decidable (k0_chk92 v1234) := fun v1234 => decidable_of_iff' _ (Iff.of_eq (k0_chk92.eq_1 v1234))
theorem k0_off259_inb : ∀ (v1234 : BitVec 32) (k0_hw92 : k0_chk92 v1234), ∀ a, (k0_off259 v1234) a + S1x768.size a ≤ S50257x768.size a := fun v1234 k0_hw92 => k0_hw92.1
theorem k0_off279_inb : ∀ (v1234 : BitVec 32) (k0_hw92 : k0_chk92 v1234), ∀ a, (k0_off279 v1234) a + S1x768.size a ≤ S50257x768.size a := fun v1234 k0_hw92 => k0_hw92.2

def k0_off280 (v1242 : BitVec 32) : Fin 2 → Nat :=
  let c0_i32_764 : BitVec 32 := 0#32
  ![v1242.toNat, 0]

def k0_chk93 (v1242 : BitVec 32) : Prop :=
  (∀ a, (k0_off261 v1242) a + S1x768.size a ≤ S50257x768.size a) ∧
  (∀ a, (k0_off280 v1242) a + S1x768.size a ≤ S50257x768.size a)
instance k0_chk93.dec : ∀ (v1242 : BitVec 32), Decidable (k0_chk93 v1242) := fun v1242 => decidable_of_iff' _ (Iff.of_eq (k0_chk93.eq_1 v1242))
theorem k0_off261_inb : ∀ (v1242 : BitVec 32) (k0_hw93 : k0_chk93 v1242), ∀ a, (k0_off261 v1242) a + S1x768.size a ≤ S50257x768.size a := fun v1242 k0_hw93 => k0_hw93.1
theorem k0_off280_inb : ∀ (v1242 : BitVec 32) (k0_hw93 : k0_chk93 v1242), ∀ a, (k0_off280 v1242) a + S1x768.size a ≤ S50257x768.size a := fun v1242 k0_hw93 => k0_hw93.2

def k0_off281 (v1250 : BitVec 32) : Fin 2 → Nat :=
  let c0_i32_768 : BitVec 32 := 0#32
  ![v1250.toNat, 0]

def k0_chk94 (v1250 : BitVec 32) : Prop :=
  (∀ a, (k0_off263 v1250) a + S1x768.size a ≤ S50257x768.size a) ∧
  (∀ a, (k0_off281 v1250) a + S1x768.size a ≤ S50257x768.size a)
instance k0_chk94.dec : ∀ (v1250 : BitVec 32), Decidable (k0_chk94 v1250) := fun v1250 => decidable_of_iff' _ (Iff.of_eq (k0_chk94.eq_1 v1250))
theorem k0_off263_inb : ∀ (v1250 : BitVec 32) (k0_hw94 : k0_chk94 v1250), ∀ a, (k0_off263 v1250) a + S1x768.size a ≤ S50257x768.size a := fun v1250 k0_hw94 => k0_hw94.1
theorem k0_off281_inb : ∀ (v1250 : BitVec 32) (k0_hw94 : k0_chk94 v1250), ∀ a, (k0_off281 v1250) a + S1x768.size a ≤ S50257x768.size a := fun v1250 k0_hw94 => k0_hw94.2

def k0_off282 (v1258 : BitVec 32) : Fin 2 → Nat :=
  let c0_i32_772 : BitVec 32 := 0#32
  ![v1258.toNat, 0]

def k0_chk95 (v1258 : BitVec 32) : Prop :=
  (∀ a, (k0_off265 v1258) a + S1x768.size a ≤ S50257x768.size a) ∧
  (∀ a, (k0_off282 v1258) a + S1x768.size a ≤ S50257x768.size a)
instance k0_chk95.dec : ∀ (v1258 : BitVec 32), Decidable (k0_chk95 v1258) := fun v1258 => decidable_of_iff' _ (Iff.of_eq (k0_chk95.eq_1 v1258))
theorem k0_off265_inb : ∀ (v1258 : BitVec 32) (k0_hw95 : k0_chk95 v1258), ∀ a, (k0_off265 v1258) a + S1x768.size a ≤ S50257x768.size a := fun v1258 k0_hw95 => k0_hw95.1
theorem k0_off282_inb : ∀ (v1258 : BitVec 32) (k0_hw95 : k0_chk95 v1258), ∀ a, (k0_off282 v1258) a + S1x768.size a ≤ S50257x768.size a := fun v1258 k0_hw95 => k0_hw95.2

def k0_off283 (i : grid0.Coords) : Fin 2 → Nat :=
  let arg0 : BitVec 32 := BitVec.ofNat 32 (i 0).val
  let v1374 : Index := Scalar.indexCast arg0
  let c96 : Index := 96#32
  ![v1374.toNat, 96]
def k0_off284 (v1375 : BitVec 32) : Fin 2 → Nat :=
  let c0_i32_785 : BitVec 32 := 0#32
  ![v1375.toNat, 0]

def k0_off285 (i : grid0.Coords) : Fin 2 → Nat :=
  let arg0 : BitVec 32 := BitVec.ofNat 32 (i 0).val
  let v1382 : Index := Scalar.indexCast arg0
  let c97 : Index := 97#32
  ![v1382.toNat, 97]
def k0_off286 (v1383 : BitVec 32) : Fin 2 → Nat :=
  let c0_i32_789 : BitVec 32 := 0#32
  ![v1383.toNat, 0]

def k0_off287 (i : grid0.Coords) : Fin 2 → Nat :=
  let arg0 : BitVec 32 := BitVec.ofNat 32 (i 0).val
  let v1390 : Index := Scalar.indexCast arg0
  let c98 : Index := 98#32
  ![v1390.toNat, 98]
def k0_off288 (v1391 : BitVec 32) : Fin 2 → Nat :=
  let c0_i32_793 : BitVec 32 := 0#32
  ![v1391.toNat, 0]

def k0_off289 (i : grid0.Coords) : Fin 2 → Nat :=
  let arg0 : BitVec 32 := BitVec.ofNat 32 (i 0).val
  let v1398 : Index := Scalar.indexCast arg0
  let c99 : Index := 99#32
  ![v1398.toNat, 99]
def k0_off290 (v1399 : BitVec 32) : Fin 2 → Nat :=
  let c0_i32_797 : BitVec 32 := 0#32
  ![v1399.toNat, 0]

def k0_off291 (i : grid0.Coords) : Fin 2 → Nat :=
  let arg0 : BitVec 32 := BitVec.ofNat 32 (i 0).val
  let v1406 : Index := Scalar.indexCast arg0
  let c100 : Index := 100#32
  ![v1406.toNat, 100]
def k0_off292 (v1407 : BitVec 32) : Fin 2 → Nat :=
  let c0_i32_801 : BitVec 32 := 0#32
  ![v1407.toNat, 0]

def k0_off293 (i : grid0.Coords) : Fin 2 → Nat :=
  let arg0 : BitVec 32 := BitVec.ofNat 32 (i 0).val
  let v1414 : Index := Scalar.indexCast arg0
  let c101 : Index := 101#32
  ![v1414.toNat, 101]
def k0_off294 (v1415 : BitVec 32) : Fin 2 → Nat :=
  let c0_i32_805 : BitVec 32 := 0#32
  ![v1415.toNat, 0]

def k0_off295 (i : grid0.Coords) : Fin 2 → Nat :=
  let arg0 : BitVec 32 := BitVec.ofNat 32 (i 0).val
  let v1422 : Index := Scalar.indexCast arg0
  let c102 : Index := 102#32
  ![v1422.toNat, 102]
def k0_off296 (v1423 : BitVec 32) : Fin 2 → Nat :=
  let c0_i32_809 : BitVec 32 := 0#32
  ![v1423.toNat, 0]

def k0_off297 (i : grid0.Coords) : Fin 2 → Nat :=
  let arg0 : BitVec 32 := BitVec.ofNat 32 (i 0).val
  let v1430 : Index := Scalar.indexCast arg0
  let c103 : Index := 103#32
  ![v1430.toNat, 103]
def k0_off298 (v1431 : BitVec 32) : Fin 2 → Nat :=
  let c0_i32_813 : BitVec 32 := 0#32
  ![v1431.toNat, 0]

def k0_off299 (i : grid0.Coords) : Fin 2 → Nat :=
  let arg0 : BitVec 32 := BitVec.ofNat 32 (i 0).val
  let v1438 : Index := Scalar.indexCast arg0
  let c104 : Index := 104#32
  ![v1438.toNat, 104]
def k0_off300 (v1439 : BitVec 32) : Fin 2 → Nat :=
  let c0_i32_817 : BitVec 32 := 0#32
  ![v1439.toNat, 0]

def k0_off301 (i : grid0.Coords) : Fin 2 → Nat :=
  let arg0 : BitVec 32 := BitVec.ofNat 32 (i 0).val
  let v1446 : Index := Scalar.indexCast arg0
  let c105 : Index := 105#32
  ![v1446.toNat, 105]
def k0_off302 (v1447 : BitVec 32) : Fin 2 → Nat :=
  let c0_i32_821 : BitVec 32 := 0#32
  ![v1447.toNat, 0]

def k0_off303 (i : grid0.Coords) : Fin 2 → Nat :=
  let arg0 : BitVec 32 := BitVec.ofNat 32 (i 0).val
  let v1454 : Index := Scalar.indexCast arg0
  let c106 : Index := 106#32
  ![v1454.toNat, 106]
def k0_off304 (v1455 : BitVec 32) : Fin 2 → Nat :=
  let c0_i32_825 : BitVec 32 := 0#32
  ![v1455.toNat, 0]

def k0_off305 (i : grid0.Coords) : Fin 2 → Nat :=
  let arg0 : BitVec 32 := BitVec.ofNat 32 (i 0).val
  let v1462 : Index := Scalar.indexCast arg0
  let c107 : Index := 107#32
  ![v1462.toNat, 107]
def k0_off306 (v1463 : BitVec 32) : Fin 2 → Nat :=
  let c0_i32_829 : BitVec 32 := 0#32
  ![v1463.toNat, 0]

def k0_off307 (i : grid0.Coords) : Fin 2 → Nat :=
  let arg0 : BitVec 32 := BitVec.ofNat 32 (i 0).val
  let v1470 : Index := Scalar.indexCast arg0
  let c108 : Index := 108#32
  ![v1470.toNat, 108]
def k0_off308 (v1471 : BitVec 32) : Fin 2 → Nat :=
  let c0_i32_833 : BitVec 32 := 0#32
  ![v1471.toNat, 0]

def k0_off309 (i : grid0.Coords) : Fin 2 → Nat :=
  let arg0 : BitVec 32 := BitVec.ofNat 32 (i 0).val
  let v1478 : Index := Scalar.indexCast arg0
  let c109 : Index := 109#32
  ![v1478.toNat, 109]
def k0_off310 (v1479 : BitVec 32) : Fin 2 → Nat :=
  let c0_i32_837 : BitVec 32 := 0#32
  ![v1479.toNat, 0]

def k0_off311 (i : grid0.Coords) : Fin 2 → Nat :=
  let arg0 : BitVec 32 := BitVec.ofNat 32 (i 0).val
  let v1486 : Index := Scalar.indexCast arg0
  let c110 : Index := 110#32
  ![v1486.toNat, 110]
def k0_off312 (v1487 : BitVec 32) : Fin 2 → Nat :=
  let c0_i32_841 : BitVec 32 := 0#32
  ![v1487.toNat, 0]

def k0_off313 (i : grid0.Coords) : Fin 2 → Nat :=
  let arg0 : BitVec 32 := BitVec.ofNat 32 (i 0).val
  let v1494 : Index := Scalar.indexCast arg0
  let c111 : Index := 111#32
  ![v1494.toNat, 111]
def k0_off314 (v1495 : BitVec 32) : Fin 2 → Nat :=
  let c0_i32_845 : BitVec 32 := 0#32
  ![v1495.toNat, 0]

def k0_chk112 (v1495 : BitVec 32) : Prop :=
  (∀ a, (k0_off314 v1495) a + S1x768.size a ≤ S50257x768.size a)
instance k0_chk112.dec : ∀ (v1495 : BitVec 32), Decidable (k0_chk112 v1495) := fun v1495 => decidable_of_iff' _ (Iff.of_eq (k0_chk112.eq_1 v1495))
theorem k0_off314_inb : ∀ (v1495 : BitVec 32) (k0_hw112 : k0_chk112 v1495), ∀ a, (k0_off314 v1495) a + S1x768.size a ≤ S50257x768.size a := fun v1495 k0_hw112 => k0_hw112

def k0_off315 (v1375 : BitVec 32) : Fin 2 → Nat :=
  let c0_i32_849 : BitVec 32 := 0#32
  ![v1375.toNat, 0]

def k0_chk97 (v1375 : BitVec 32) : Prop :=
  (∀ a, (k0_off284 v1375) a + S1x768.size a ≤ S50257x768.size a) ∧
  (∀ a, (k0_off315 v1375) a + S1x768.size a ≤ S50257x768.size a)
instance k0_chk97.dec : ∀ (v1375 : BitVec 32), Decidable (k0_chk97 v1375) := fun v1375 => decidable_of_iff' _ (Iff.of_eq (k0_chk97.eq_1 v1375))
theorem k0_off284_inb : ∀ (v1375 : BitVec 32) (k0_hw97 : k0_chk97 v1375), ∀ a, (k0_off284 v1375) a + S1x768.size a ≤ S50257x768.size a := fun v1375 k0_hw97 => k0_hw97.1
theorem k0_off315_inb : ∀ (v1375 : BitVec 32) (k0_hw97 : k0_chk97 v1375), ∀ a, (k0_off315 v1375) a + S1x768.size a ≤ S50257x768.size a := fun v1375 k0_hw97 => k0_hw97.2

def k0_off316 (v1383 : BitVec 32) : Fin 2 → Nat :=
  let c0_i32_853 : BitVec 32 := 0#32
  ![v1383.toNat, 0]

def k0_chk98 (v1383 : BitVec 32) : Prop :=
  (∀ a, (k0_off286 v1383) a + S1x768.size a ≤ S50257x768.size a) ∧
  (∀ a, (k0_off316 v1383) a + S1x768.size a ≤ S50257x768.size a)
instance k0_chk98.dec : ∀ (v1383 : BitVec 32), Decidable (k0_chk98 v1383) := fun v1383 => decidable_of_iff' _ (Iff.of_eq (k0_chk98.eq_1 v1383))
theorem k0_off286_inb : ∀ (v1383 : BitVec 32) (k0_hw98 : k0_chk98 v1383), ∀ a, (k0_off286 v1383) a + S1x768.size a ≤ S50257x768.size a := fun v1383 k0_hw98 => k0_hw98.1
theorem k0_off316_inb : ∀ (v1383 : BitVec 32) (k0_hw98 : k0_chk98 v1383), ∀ a, (k0_off316 v1383) a + S1x768.size a ≤ S50257x768.size a := fun v1383 k0_hw98 => k0_hw98.2

def k0_off317 (v1391 : BitVec 32) : Fin 2 → Nat :=
  let c0_i32_857 : BitVec 32 := 0#32
  ![v1391.toNat, 0]

def k0_chk99 (v1391 : BitVec 32) : Prop :=
  (∀ a, (k0_off288 v1391) a + S1x768.size a ≤ S50257x768.size a) ∧
  (∀ a, (k0_off317 v1391) a + S1x768.size a ≤ S50257x768.size a)
instance k0_chk99.dec : ∀ (v1391 : BitVec 32), Decidable (k0_chk99 v1391) := fun v1391 => decidable_of_iff' _ (Iff.of_eq (k0_chk99.eq_1 v1391))
theorem k0_off288_inb : ∀ (v1391 : BitVec 32) (k0_hw99 : k0_chk99 v1391), ∀ a, (k0_off288 v1391) a + S1x768.size a ≤ S50257x768.size a := fun v1391 k0_hw99 => k0_hw99.1
theorem k0_off317_inb : ∀ (v1391 : BitVec 32) (k0_hw99 : k0_chk99 v1391), ∀ a, (k0_off317 v1391) a + S1x768.size a ≤ S50257x768.size a := fun v1391 k0_hw99 => k0_hw99.2

def k0_off318 (v1399 : BitVec 32) : Fin 2 → Nat :=
  let c0_i32_861 : BitVec 32 := 0#32
  ![v1399.toNat, 0]

def k0_chk100 (v1399 : BitVec 32) : Prop :=
  (∀ a, (k0_off290 v1399) a + S1x768.size a ≤ S50257x768.size a) ∧
  (∀ a, (k0_off318 v1399) a + S1x768.size a ≤ S50257x768.size a)
instance k0_chk100.dec : ∀ (v1399 : BitVec 32), Decidable (k0_chk100 v1399) := fun v1399 => decidable_of_iff' _ (Iff.of_eq (k0_chk100.eq_1 v1399))
theorem k0_off290_inb : ∀ (v1399 : BitVec 32) (k0_hw100 : k0_chk100 v1399), ∀ a, (k0_off290 v1399) a + S1x768.size a ≤ S50257x768.size a := fun v1399 k0_hw100 => k0_hw100.1
theorem k0_off318_inb : ∀ (v1399 : BitVec 32) (k0_hw100 : k0_chk100 v1399), ∀ a, (k0_off318 v1399) a + S1x768.size a ≤ S50257x768.size a := fun v1399 k0_hw100 => k0_hw100.2

def k0_off319 (v1407 : BitVec 32) : Fin 2 → Nat :=
  let c0_i32_865 : BitVec 32 := 0#32
  ![v1407.toNat, 0]

def k0_chk101 (v1407 : BitVec 32) : Prop :=
  (∀ a, (k0_off292 v1407) a + S1x768.size a ≤ S50257x768.size a) ∧
  (∀ a, (k0_off319 v1407) a + S1x768.size a ≤ S50257x768.size a)
instance k0_chk101.dec : ∀ (v1407 : BitVec 32), Decidable (k0_chk101 v1407) := fun v1407 => decidable_of_iff' _ (Iff.of_eq (k0_chk101.eq_1 v1407))
theorem k0_off292_inb : ∀ (v1407 : BitVec 32) (k0_hw101 : k0_chk101 v1407), ∀ a, (k0_off292 v1407) a + S1x768.size a ≤ S50257x768.size a := fun v1407 k0_hw101 => k0_hw101.1
theorem k0_off319_inb : ∀ (v1407 : BitVec 32) (k0_hw101 : k0_chk101 v1407), ∀ a, (k0_off319 v1407) a + S1x768.size a ≤ S50257x768.size a := fun v1407 k0_hw101 => k0_hw101.2

def k0_off320 (v1415 : BitVec 32) : Fin 2 → Nat :=
  let c0_i32_869 : BitVec 32 := 0#32
  ![v1415.toNat, 0]

def k0_chk102 (v1415 : BitVec 32) : Prop :=
  (∀ a, (k0_off294 v1415) a + S1x768.size a ≤ S50257x768.size a) ∧
  (∀ a, (k0_off320 v1415) a + S1x768.size a ≤ S50257x768.size a)
instance k0_chk102.dec : ∀ (v1415 : BitVec 32), Decidable (k0_chk102 v1415) := fun v1415 => decidable_of_iff' _ (Iff.of_eq (k0_chk102.eq_1 v1415))
theorem k0_off294_inb : ∀ (v1415 : BitVec 32) (k0_hw102 : k0_chk102 v1415), ∀ a, (k0_off294 v1415) a + S1x768.size a ≤ S50257x768.size a := fun v1415 k0_hw102 => k0_hw102.1
theorem k0_off320_inb : ∀ (v1415 : BitVec 32) (k0_hw102 : k0_chk102 v1415), ∀ a, (k0_off320 v1415) a + S1x768.size a ≤ S50257x768.size a := fun v1415 k0_hw102 => k0_hw102.2

def k0_off321 (v1423 : BitVec 32) : Fin 2 → Nat :=
  let c0_i32_873 : BitVec 32 := 0#32
  ![v1423.toNat, 0]

def k0_chk103 (v1423 : BitVec 32) : Prop :=
  (∀ a, (k0_off296 v1423) a + S1x768.size a ≤ S50257x768.size a) ∧
  (∀ a, (k0_off321 v1423) a + S1x768.size a ≤ S50257x768.size a)
instance k0_chk103.dec : ∀ (v1423 : BitVec 32), Decidable (k0_chk103 v1423) := fun v1423 => decidable_of_iff' _ (Iff.of_eq (k0_chk103.eq_1 v1423))
theorem k0_off296_inb : ∀ (v1423 : BitVec 32) (k0_hw103 : k0_chk103 v1423), ∀ a, (k0_off296 v1423) a + S1x768.size a ≤ S50257x768.size a := fun v1423 k0_hw103 => k0_hw103.1
theorem k0_off321_inb : ∀ (v1423 : BitVec 32) (k0_hw103 : k0_chk103 v1423), ∀ a, (k0_off321 v1423) a + S1x768.size a ≤ S50257x768.size a := fun v1423 k0_hw103 => k0_hw103.2

def k0_off322 (v1431 : BitVec 32) : Fin 2 → Nat :=
  let c0_i32_877 : BitVec 32 := 0#32
  ![v1431.toNat, 0]

def k0_chk104 (v1431 : BitVec 32) : Prop :=
  (∀ a, (k0_off298 v1431) a + S1x768.size a ≤ S50257x768.size a) ∧
  (∀ a, (k0_off322 v1431) a + S1x768.size a ≤ S50257x768.size a)
instance k0_chk104.dec : ∀ (v1431 : BitVec 32), Decidable (k0_chk104 v1431) := fun v1431 => decidable_of_iff' _ (Iff.of_eq (k0_chk104.eq_1 v1431))
theorem k0_off298_inb : ∀ (v1431 : BitVec 32) (k0_hw104 : k0_chk104 v1431), ∀ a, (k0_off298 v1431) a + S1x768.size a ≤ S50257x768.size a := fun v1431 k0_hw104 => k0_hw104.1
theorem k0_off322_inb : ∀ (v1431 : BitVec 32) (k0_hw104 : k0_chk104 v1431), ∀ a, (k0_off322 v1431) a + S1x768.size a ≤ S50257x768.size a := fun v1431 k0_hw104 => k0_hw104.2

def k0_off323 (v1439 : BitVec 32) : Fin 2 → Nat :=
  let c0_i32_881 : BitVec 32 := 0#32
  ![v1439.toNat, 0]

def k0_chk105 (v1439 : BitVec 32) : Prop :=
  (∀ a, (k0_off300 v1439) a + S1x768.size a ≤ S50257x768.size a) ∧
  (∀ a, (k0_off323 v1439) a + S1x768.size a ≤ S50257x768.size a)
instance k0_chk105.dec : ∀ (v1439 : BitVec 32), Decidable (k0_chk105 v1439) := fun v1439 => decidable_of_iff' _ (Iff.of_eq (k0_chk105.eq_1 v1439))
theorem k0_off300_inb : ∀ (v1439 : BitVec 32) (k0_hw105 : k0_chk105 v1439), ∀ a, (k0_off300 v1439) a + S1x768.size a ≤ S50257x768.size a := fun v1439 k0_hw105 => k0_hw105.1
theorem k0_off323_inb : ∀ (v1439 : BitVec 32) (k0_hw105 : k0_chk105 v1439), ∀ a, (k0_off323 v1439) a + S1x768.size a ≤ S50257x768.size a := fun v1439 k0_hw105 => k0_hw105.2

def k0_off324 (v1447 : BitVec 32) : Fin 2 → Nat :=
  let c0_i32_885 : BitVec 32 := 0#32
  ![v1447.toNat, 0]

def k0_chk106 (v1447 : BitVec 32) : Prop :=
  (∀ a, (k0_off302 v1447) a + S1x768.size a ≤ S50257x768.size a) ∧
  (∀ a, (k0_off324 v1447) a + S1x768.size a ≤ S50257x768.size a)
instance k0_chk106.dec : ∀ (v1447 : BitVec 32), Decidable (k0_chk106 v1447) := fun v1447 => decidable_of_iff' _ (Iff.of_eq (k0_chk106.eq_1 v1447))
theorem k0_off302_inb : ∀ (v1447 : BitVec 32) (k0_hw106 : k0_chk106 v1447), ∀ a, (k0_off302 v1447) a + S1x768.size a ≤ S50257x768.size a := fun v1447 k0_hw106 => k0_hw106.1
theorem k0_off324_inb : ∀ (v1447 : BitVec 32) (k0_hw106 : k0_chk106 v1447), ∀ a, (k0_off324 v1447) a + S1x768.size a ≤ S50257x768.size a := fun v1447 k0_hw106 => k0_hw106.2

def k0_off325 (v1455 : BitVec 32) : Fin 2 → Nat :=
  let c0_i32_889 : BitVec 32 := 0#32
  ![v1455.toNat, 0]

def k0_chk107 (v1455 : BitVec 32) : Prop :=
  (∀ a, (k0_off304 v1455) a + S1x768.size a ≤ S50257x768.size a) ∧
  (∀ a, (k0_off325 v1455) a + S1x768.size a ≤ S50257x768.size a)
instance k0_chk107.dec : ∀ (v1455 : BitVec 32), Decidable (k0_chk107 v1455) := fun v1455 => decidable_of_iff' _ (Iff.of_eq (k0_chk107.eq_1 v1455))
theorem k0_off304_inb : ∀ (v1455 : BitVec 32) (k0_hw107 : k0_chk107 v1455), ∀ a, (k0_off304 v1455) a + S1x768.size a ≤ S50257x768.size a := fun v1455 k0_hw107 => k0_hw107.1
theorem k0_off325_inb : ∀ (v1455 : BitVec 32) (k0_hw107 : k0_chk107 v1455), ∀ a, (k0_off325 v1455) a + S1x768.size a ≤ S50257x768.size a := fun v1455 k0_hw107 => k0_hw107.2

def k0_off326 (v1463 : BitVec 32) : Fin 2 → Nat :=
  let c0_i32_893 : BitVec 32 := 0#32
  ![v1463.toNat, 0]

def k0_chk108 (v1463 : BitVec 32) : Prop :=
  (∀ a, (k0_off306 v1463) a + S1x768.size a ≤ S50257x768.size a) ∧
  (∀ a, (k0_off326 v1463) a + S1x768.size a ≤ S50257x768.size a)
instance k0_chk108.dec : ∀ (v1463 : BitVec 32), Decidable (k0_chk108 v1463) := fun v1463 => decidable_of_iff' _ (Iff.of_eq (k0_chk108.eq_1 v1463))
theorem k0_off306_inb : ∀ (v1463 : BitVec 32) (k0_hw108 : k0_chk108 v1463), ∀ a, (k0_off306 v1463) a + S1x768.size a ≤ S50257x768.size a := fun v1463 k0_hw108 => k0_hw108.1
theorem k0_off326_inb : ∀ (v1463 : BitVec 32) (k0_hw108 : k0_chk108 v1463), ∀ a, (k0_off326 v1463) a + S1x768.size a ≤ S50257x768.size a := fun v1463 k0_hw108 => k0_hw108.2

def k0_off327 (v1471 : BitVec 32) : Fin 2 → Nat :=
  let c0_i32_897 : BitVec 32 := 0#32
  ![v1471.toNat, 0]

def k0_chk109 (v1471 : BitVec 32) : Prop :=
  (∀ a, (k0_off308 v1471) a + S1x768.size a ≤ S50257x768.size a) ∧
  (∀ a, (k0_off327 v1471) a + S1x768.size a ≤ S50257x768.size a)
instance k0_chk109.dec : ∀ (v1471 : BitVec 32), Decidable (k0_chk109 v1471) := fun v1471 => decidable_of_iff' _ (Iff.of_eq (k0_chk109.eq_1 v1471))
theorem k0_off308_inb : ∀ (v1471 : BitVec 32) (k0_hw109 : k0_chk109 v1471), ∀ a, (k0_off308 v1471) a + S1x768.size a ≤ S50257x768.size a := fun v1471 k0_hw109 => k0_hw109.1
theorem k0_off327_inb : ∀ (v1471 : BitVec 32) (k0_hw109 : k0_chk109 v1471), ∀ a, (k0_off327 v1471) a + S1x768.size a ≤ S50257x768.size a := fun v1471 k0_hw109 => k0_hw109.2

def k0_off328 (v1479 : BitVec 32) : Fin 2 → Nat :=
  let c0_i32_901 : BitVec 32 := 0#32
  ![v1479.toNat, 0]

def k0_chk110 (v1479 : BitVec 32) : Prop :=
  (∀ a, (k0_off310 v1479) a + S1x768.size a ≤ S50257x768.size a) ∧
  (∀ a, (k0_off328 v1479) a + S1x768.size a ≤ S50257x768.size a)
instance k0_chk110.dec : ∀ (v1479 : BitVec 32), Decidable (k0_chk110 v1479) := fun v1479 => decidable_of_iff' _ (Iff.of_eq (k0_chk110.eq_1 v1479))
theorem k0_off310_inb : ∀ (v1479 : BitVec 32) (k0_hw110 : k0_chk110 v1479), ∀ a, (k0_off310 v1479) a + S1x768.size a ≤ S50257x768.size a := fun v1479 k0_hw110 => k0_hw110.1
theorem k0_off328_inb : ∀ (v1479 : BitVec 32) (k0_hw110 : k0_chk110 v1479), ∀ a, (k0_off328 v1479) a + S1x768.size a ≤ S50257x768.size a := fun v1479 k0_hw110 => k0_hw110.2

def k0_off329 (v1487 : BitVec 32) : Fin 2 → Nat :=
  let c0_i32_905 : BitVec 32 := 0#32
  ![v1487.toNat, 0]

def k0_chk111 (v1487 : BitVec 32) : Prop :=
  (∀ a, (k0_off312 v1487) a + S1x768.size a ≤ S50257x768.size a) ∧
  (∀ a, (k0_off329 v1487) a + S1x768.size a ≤ S50257x768.size a)
instance k0_chk111.dec : ∀ (v1487 : BitVec 32), Decidable (k0_chk111 v1487) := fun v1487 => decidable_of_iff' _ (Iff.of_eq (k0_chk111.eq_1 v1487))
theorem k0_off312_inb : ∀ (v1487 : BitVec 32) (k0_hw111 : k0_chk111 v1487), ∀ a, (k0_off312 v1487) a + S1x768.size a ≤ S50257x768.size a := fun v1487 k0_hw111 => k0_hw111.1
theorem k0_off329_inb : ∀ (v1487 : BitVec 32) (k0_hw111 : k0_chk111 v1487), ∀ a, (k0_off329 v1487) a + S1x768.size a ≤ S50257x768.size a := fun v1487 k0_hw111 => k0_hw111.2

def k0_off330 (i : grid0.Coords) : Fin 2 → Nat :=
  let arg0 : BitVec 32 := BitVec.ofNat 32 (i 0).val
  let v1603 : Index := Scalar.indexCast arg0
  let c112 : Index := 112#32
  ![v1603.toNat, 112]
def k0_off331 (v1604 : BitVec 32) : Fin 2 → Nat :=
  let c0_i32_918 : BitVec 32 := 0#32
  ![v1604.toNat, 0]

def k0_off332 (i : grid0.Coords) : Fin 2 → Nat :=
  let arg0 : BitVec 32 := BitVec.ofNat 32 (i 0).val
  let v1611 : Index := Scalar.indexCast arg0
  let c113 : Index := 113#32
  ![v1611.toNat, 113]
def k0_off333 (v1612 : BitVec 32) : Fin 2 → Nat :=
  let c0_i32_922 : BitVec 32 := 0#32
  ![v1612.toNat, 0]

def k0_off334 (i : grid0.Coords) : Fin 2 → Nat :=
  let arg0 : BitVec 32 := BitVec.ofNat 32 (i 0).val
  let v1619 : Index := Scalar.indexCast arg0
  let c114 : Index := 114#32
  ![v1619.toNat, 114]
def k0_off335 (v1620 : BitVec 32) : Fin 2 → Nat :=
  let c0_i32_926 : BitVec 32 := 0#32
  ![v1620.toNat, 0]

def k0_off336 (i : grid0.Coords) : Fin 2 → Nat :=
  let arg0 : BitVec 32 := BitVec.ofNat 32 (i 0).val
  let v1627 : Index := Scalar.indexCast arg0
  let c115 : Index := 115#32
  ![v1627.toNat, 115]
def k0_off337 (v1628 : BitVec 32) : Fin 2 → Nat :=
  let c0_i32_930 : BitVec 32 := 0#32
  ![v1628.toNat, 0]

def k0_off338 (i : grid0.Coords) : Fin 2 → Nat :=
  let arg0 : BitVec 32 := BitVec.ofNat 32 (i 0).val
  let v1635 : Index := Scalar.indexCast arg0
  let c116 : Index := 116#32
  ![v1635.toNat, 116]
def k0_off339 (v1636 : BitVec 32) : Fin 2 → Nat :=
  let c0_i32_934 : BitVec 32 := 0#32
  ![v1636.toNat, 0]

def k0_off340 (i : grid0.Coords) : Fin 2 → Nat :=
  let arg0 : BitVec 32 := BitVec.ofNat 32 (i 0).val
  let v1643 : Index := Scalar.indexCast arg0
  let c117 : Index := 117#32
  ![v1643.toNat, 117]
def k0_off341 (v1644 : BitVec 32) : Fin 2 → Nat :=
  let c0_i32_938 : BitVec 32 := 0#32
  ![v1644.toNat, 0]

def k0_off342 (i : grid0.Coords) : Fin 2 → Nat :=
  let arg0 : BitVec 32 := BitVec.ofNat 32 (i 0).val
  let v1651 : Index := Scalar.indexCast arg0
  let c118 : Index := 118#32
  ![v1651.toNat, 118]
def k0_off343 (v1652 : BitVec 32) : Fin 2 → Nat :=
  let c0_i32_942 : BitVec 32 := 0#32
  ![v1652.toNat, 0]

def k0_off344 (i : grid0.Coords) : Fin 2 → Nat :=
  let arg0 : BitVec 32 := BitVec.ofNat 32 (i 0).val
  let v1659 : Index := Scalar.indexCast arg0
  let c119 : Index := 119#32
  ![v1659.toNat, 119]
def k0_off345 (v1660 : BitVec 32) : Fin 2 → Nat :=
  let c0_i32_946 : BitVec 32 := 0#32
  ![v1660.toNat, 0]

def k0_off346 (i : grid0.Coords) : Fin 2 → Nat :=
  let arg0 : BitVec 32 := BitVec.ofNat 32 (i 0).val
  let v1667 : Index := Scalar.indexCast arg0
  let c120 : Index := 120#32
  ![v1667.toNat, 120]
def k0_off347 (v1668 : BitVec 32) : Fin 2 → Nat :=
  let c0_i32_950 : BitVec 32 := 0#32
  ![v1668.toNat, 0]

def k0_off348 (i : grid0.Coords) : Fin 2 → Nat :=
  let arg0 : BitVec 32 := BitVec.ofNat 32 (i 0).val
  let v1675 : Index := Scalar.indexCast arg0
  let c121 : Index := 121#32
  ![v1675.toNat, 121]
def k0_off349 (v1676 : BitVec 32) : Fin 2 → Nat :=
  let c0_i32_954 : BitVec 32 := 0#32
  ![v1676.toNat, 0]

def k0_off350 (i : grid0.Coords) : Fin 2 → Nat :=
  let arg0 : BitVec 32 := BitVec.ofNat 32 (i 0).val
  let v1683 : Index := Scalar.indexCast arg0
  let c122 : Index := 122#32
  ![v1683.toNat, 122]
def k0_off351 (v1684 : BitVec 32) : Fin 2 → Nat :=
  let c0_i32_958 : BitVec 32 := 0#32
  ![v1684.toNat, 0]

def k0_off352 (i : grid0.Coords) : Fin 2 → Nat :=
  let arg0 : BitVec 32 := BitVec.ofNat 32 (i 0).val
  let v1691 : Index := Scalar.indexCast arg0
  let c123 : Index := 123#32
  ![v1691.toNat, 123]
def k0_off353 (v1692 : BitVec 32) : Fin 2 → Nat :=
  let c0_i32_962 : BitVec 32 := 0#32
  ![v1692.toNat, 0]

def k0_off354 (i : grid0.Coords) : Fin 2 → Nat :=
  let arg0 : BitVec 32 := BitVec.ofNat 32 (i 0).val
  let v1699 : Index := Scalar.indexCast arg0
  let c124 : Index := 124#32
  ![v1699.toNat, 124]
def k0_off355 (v1700 : BitVec 32) : Fin 2 → Nat :=
  let c0_i32_966 : BitVec 32 := 0#32
  ![v1700.toNat, 0]

def k0_off356 (i : grid0.Coords) : Fin 2 → Nat :=
  let arg0 : BitVec 32 := BitVec.ofNat 32 (i 0).val
  let v1707 : Index := Scalar.indexCast arg0
  let c125 : Index := 125#32
  ![v1707.toNat, 125]
def k0_off357 (v1708 : BitVec 32) : Fin 2 → Nat :=
  let c0_i32_970 : BitVec 32 := 0#32
  ![v1708.toNat, 0]

def k0_off358 (i : grid0.Coords) : Fin 2 → Nat :=
  let arg0 : BitVec 32 := BitVec.ofNat 32 (i 0).val
  let v1715 : Index := Scalar.indexCast arg0
  let c126 : Index := 126#32
  ![v1715.toNat, 126]
def k0_off359 (v1716 : BitVec 32) : Fin 2 → Nat :=
  let c0_i32_974 : BitVec 32 := 0#32
  ![v1716.toNat, 0]

def k0_off360 (i : grid0.Coords) : Fin 2 → Nat :=
  let arg0 : BitVec 32 := BitVec.ofNat 32 (i 0).val
  let v1723 : Index := Scalar.indexCast arg0
  let c127 : Index := 127#32
  ![v1723.toNat, 127]
def k0_off361 (v1724 : BitVec 32) : Fin 2 → Nat :=
  let c0_i32_978 : BitVec 32 := 0#32
  ![v1724.toNat, 0]

def k0_chk128 (v1724 : BitVec 32) : Prop :=
  (∀ a, (k0_off361 v1724) a + S1x768.size a ≤ S50257x768.size a)
instance k0_chk128.dec : ∀ (v1724 : BitVec 32), Decidable (k0_chk128 v1724) := fun v1724 => decidable_of_iff' _ (Iff.of_eq (k0_chk128.eq_1 v1724))
theorem k0_off361_inb : ∀ (v1724 : BitVec 32) (k0_hw128 : k0_chk128 v1724), ∀ a, (k0_off361 v1724) a + S1x768.size a ≤ S50257x768.size a := fun v1724 k0_hw128 => k0_hw128

def k0_off362 (v1604 : BitVec 32) : Fin 2 → Nat :=
  let c0_i32_982 : BitVec 32 := 0#32
  ![v1604.toNat, 0]

def k0_chk113 (v1604 : BitVec 32) : Prop :=
  (∀ a, (k0_off331 v1604) a + S1x768.size a ≤ S50257x768.size a) ∧
  (∀ a, (k0_off362 v1604) a + S1x768.size a ≤ S50257x768.size a)
instance k0_chk113.dec : ∀ (v1604 : BitVec 32), Decidable (k0_chk113 v1604) := fun v1604 => decidable_of_iff' _ (Iff.of_eq (k0_chk113.eq_1 v1604))
theorem k0_off331_inb : ∀ (v1604 : BitVec 32) (k0_hw113 : k0_chk113 v1604), ∀ a, (k0_off331 v1604) a + S1x768.size a ≤ S50257x768.size a := fun v1604 k0_hw113 => k0_hw113.1
theorem k0_off362_inb : ∀ (v1604 : BitVec 32) (k0_hw113 : k0_chk113 v1604), ∀ a, (k0_off362 v1604) a + S1x768.size a ≤ S50257x768.size a := fun v1604 k0_hw113 => k0_hw113.2

def k0_off363 (v1612 : BitVec 32) : Fin 2 → Nat :=
  let c0_i32_986 : BitVec 32 := 0#32
  ![v1612.toNat, 0]

def k0_chk114 (v1612 : BitVec 32) : Prop :=
  (∀ a, (k0_off333 v1612) a + S1x768.size a ≤ S50257x768.size a) ∧
  (∀ a, (k0_off363 v1612) a + S1x768.size a ≤ S50257x768.size a)
instance k0_chk114.dec : ∀ (v1612 : BitVec 32), Decidable (k0_chk114 v1612) := fun v1612 => decidable_of_iff' _ (Iff.of_eq (k0_chk114.eq_1 v1612))
theorem k0_off333_inb : ∀ (v1612 : BitVec 32) (k0_hw114 : k0_chk114 v1612), ∀ a, (k0_off333 v1612) a + S1x768.size a ≤ S50257x768.size a := fun v1612 k0_hw114 => k0_hw114.1
theorem k0_off363_inb : ∀ (v1612 : BitVec 32) (k0_hw114 : k0_chk114 v1612), ∀ a, (k0_off363 v1612) a + S1x768.size a ≤ S50257x768.size a := fun v1612 k0_hw114 => k0_hw114.2

def k0_off364 (v1620 : BitVec 32) : Fin 2 → Nat :=
  let c0_i32_990 : BitVec 32 := 0#32
  ![v1620.toNat, 0]

def k0_chk115 (v1620 : BitVec 32) : Prop :=
  (∀ a, (k0_off335 v1620) a + S1x768.size a ≤ S50257x768.size a) ∧
  (∀ a, (k0_off364 v1620) a + S1x768.size a ≤ S50257x768.size a)
instance k0_chk115.dec : ∀ (v1620 : BitVec 32), Decidable (k0_chk115 v1620) := fun v1620 => decidable_of_iff' _ (Iff.of_eq (k0_chk115.eq_1 v1620))
theorem k0_off335_inb : ∀ (v1620 : BitVec 32) (k0_hw115 : k0_chk115 v1620), ∀ a, (k0_off335 v1620) a + S1x768.size a ≤ S50257x768.size a := fun v1620 k0_hw115 => k0_hw115.1
theorem k0_off364_inb : ∀ (v1620 : BitVec 32) (k0_hw115 : k0_chk115 v1620), ∀ a, (k0_off364 v1620) a + S1x768.size a ≤ S50257x768.size a := fun v1620 k0_hw115 => k0_hw115.2

def k0_off365 (v1628 : BitVec 32) : Fin 2 → Nat :=
  let c0_i32_994 : BitVec 32 := 0#32
  ![v1628.toNat, 0]

def k0_chk116 (v1628 : BitVec 32) : Prop :=
  (∀ a, (k0_off337 v1628) a + S1x768.size a ≤ S50257x768.size a) ∧
  (∀ a, (k0_off365 v1628) a + S1x768.size a ≤ S50257x768.size a)
instance k0_chk116.dec : ∀ (v1628 : BitVec 32), Decidable (k0_chk116 v1628) := fun v1628 => decidable_of_iff' _ (Iff.of_eq (k0_chk116.eq_1 v1628))
theorem k0_off337_inb : ∀ (v1628 : BitVec 32) (k0_hw116 : k0_chk116 v1628), ∀ a, (k0_off337 v1628) a + S1x768.size a ≤ S50257x768.size a := fun v1628 k0_hw116 => k0_hw116.1
theorem k0_off365_inb : ∀ (v1628 : BitVec 32) (k0_hw116 : k0_chk116 v1628), ∀ a, (k0_off365 v1628) a + S1x768.size a ≤ S50257x768.size a := fun v1628 k0_hw116 => k0_hw116.2

def k0_off366 (v1636 : BitVec 32) : Fin 2 → Nat :=
  let c0_i32_998 : BitVec 32 := 0#32
  ![v1636.toNat, 0]

def k0_chk117 (v1636 : BitVec 32) : Prop :=
  (∀ a, (k0_off339 v1636) a + S1x768.size a ≤ S50257x768.size a) ∧
  (∀ a, (k0_off366 v1636) a + S1x768.size a ≤ S50257x768.size a)
instance k0_chk117.dec : ∀ (v1636 : BitVec 32), Decidable (k0_chk117 v1636) := fun v1636 => decidable_of_iff' _ (Iff.of_eq (k0_chk117.eq_1 v1636))
theorem k0_off339_inb : ∀ (v1636 : BitVec 32) (k0_hw117 : k0_chk117 v1636), ∀ a, (k0_off339 v1636) a + S1x768.size a ≤ S50257x768.size a := fun v1636 k0_hw117 => k0_hw117.1
theorem k0_off366_inb : ∀ (v1636 : BitVec 32) (k0_hw117 : k0_chk117 v1636), ∀ a, (k0_off366 v1636) a + S1x768.size a ≤ S50257x768.size a := fun v1636 k0_hw117 => k0_hw117.2

def k0_off367 (v1644 : BitVec 32) : Fin 2 → Nat :=
  let c0_i32_1002 : BitVec 32 := 0#32
  ![v1644.toNat, 0]

def k0_chk118 (v1644 : BitVec 32) : Prop :=
  (∀ a, (k0_off341 v1644) a + S1x768.size a ≤ S50257x768.size a) ∧
  (∀ a, (k0_off367 v1644) a + S1x768.size a ≤ S50257x768.size a)
instance k0_chk118.dec : ∀ (v1644 : BitVec 32), Decidable (k0_chk118 v1644) := fun v1644 => decidable_of_iff' _ (Iff.of_eq (k0_chk118.eq_1 v1644))
theorem k0_off341_inb : ∀ (v1644 : BitVec 32) (k0_hw118 : k0_chk118 v1644), ∀ a, (k0_off341 v1644) a + S1x768.size a ≤ S50257x768.size a := fun v1644 k0_hw118 => k0_hw118.1
theorem k0_off367_inb : ∀ (v1644 : BitVec 32) (k0_hw118 : k0_chk118 v1644), ∀ a, (k0_off367 v1644) a + S1x768.size a ≤ S50257x768.size a := fun v1644 k0_hw118 => k0_hw118.2

def k0_off368 (v1652 : BitVec 32) : Fin 2 → Nat :=
  let c0_i32_1006 : BitVec 32 := 0#32
  ![v1652.toNat, 0]

def k0_chk119 (v1652 : BitVec 32) : Prop :=
  (∀ a, (k0_off343 v1652) a + S1x768.size a ≤ S50257x768.size a) ∧
  (∀ a, (k0_off368 v1652) a + S1x768.size a ≤ S50257x768.size a)
instance k0_chk119.dec : ∀ (v1652 : BitVec 32), Decidable (k0_chk119 v1652) := fun v1652 => decidable_of_iff' _ (Iff.of_eq (k0_chk119.eq_1 v1652))
theorem k0_off343_inb : ∀ (v1652 : BitVec 32) (k0_hw119 : k0_chk119 v1652), ∀ a, (k0_off343 v1652) a + S1x768.size a ≤ S50257x768.size a := fun v1652 k0_hw119 => k0_hw119.1
theorem k0_off368_inb : ∀ (v1652 : BitVec 32) (k0_hw119 : k0_chk119 v1652), ∀ a, (k0_off368 v1652) a + S1x768.size a ≤ S50257x768.size a := fun v1652 k0_hw119 => k0_hw119.2

def k0_off369 (v1660 : BitVec 32) : Fin 2 → Nat :=
  let c0_i32_1010 : BitVec 32 := 0#32
  ![v1660.toNat, 0]

def k0_chk120 (v1660 : BitVec 32) : Prop :=
  (∀ a, (k0_off345 v1660) a + S1x768.size a ≤ S50257x768.size a) ∧
  (∀ a, (k0_off369 v1660) a + S1x768.size a ≤ S50257x768.size a)
instance k0_chk120.dec : ∀ (v1660 : BitVec 32), Decidable (k0_chk120 v1660) := fun v1660 => decidable_of_iff' _ (Iff.of_eq (k0_chk120.eq_1 v1660))
theorem k0_off345_inb : ∀ (v1660 : BitVec 32) (k0_hw120 : k0_chk120 v1660), ∀ a, (k0_off345 v1660) a + S1x768.size a ≤ S50257x768.size a := fun v1660 k0_hw120 => k0_hw120.1
theorem k0_off369_inb : ∀ (v1660 : BitVec 32) (k0_hw120 : k0_chk120 v1660), ∀ a, (k0_off369 v1660) a + S1x768.size a ≤ S50257x768.size a := fun v1660 k0_hw120 => k0_hw120.2

def k0_off370 (v1668 : BitVec 32) : Fin 2 → Nat :=
  let c0_i32_1014 : BitVec 32 := 0#32
  ![v1668.toNat, 0]

def k0_chk121 (v1668 : BitVec 32) : Prop :=
  (∀ a, (k0_off347 v1668) a + S1x768.size a ≤ S50257x768.size a) ∧
  (∀ a, (k0_off370 v1668) a + S1x768.size a ≤ S50257x768.size a)
instance k0_chk121.dec : ∀ (v1668 : BitVec 32), Decidable (k0_chk121 v1668) := fun v1668 => decidable_of_iff' _ (Iff.of_eq (k0_chk121.eq_1 v1668))
theorem k0_off347_inb : ∀ (v1668 : BitVec 32) (k0_hw121 : k0_chk121 v1668), ∀ a, (k0_off347 v1668) a + S1x768.size a ≤ S50257x768.size a := fun v1668 k0_hw121 => k0_hw121.1
theorem k0_off370_inb : ∀ (v1668 : BitVec 32) (k0_hw121 : k0_chk121 v1668), ∀ a, (k0_off370 v1668) a + S1x768.size a ≤ S50257x768.size a := fun v1668 k0_hw121 => k0_hw121.2

def k0_off371 (v1676 : BitVec 32) : Fin 2 → Nat :=
  let c0_i32_1018 : BitVec 32 := 0#32
  ![v1676.toNat, 0]

def k0_chk122 (v1676 : BitVec 32) : Prop :=
  (∀ a, (k0_off349 v1676) a + S1x768.size a ≤ S50257x768.size a) ∧
  (∀ a, (k0_off371 v1676) a + S1x768.size a ≤ S50257x768.size a)
instance k0_chk122.dec : ∀ (v1676 : BitVec 32), Decidable (k0_chk122 v1676) := fun v1676 => decidable_of_iff' _ (Iff.of_eq (k0_chk122.eq_1 v1676))
theorem k0_off349_inb : ∀ (v1676 : BitVec 32) (k0_hw122 : k0_chk122 v1676), ∀ a, (k0_off349 v1676) a + S1x768.size a ≤ S50257x768.size a := fun v1676 k0_hw122 => k0_hw122.1
theorem k0_off371_inb : ∀ (v1676 : BitVec 32) (k0_hw122 : k0_chk122 v1676), ∀ a, (k0_off371 v1676) a + S1x768.size a ≤ S50257x768.size a := fun v1676 k0_hw122 => k0_hw122.2

def k0_off372 (v1684 : BitVec 32) : Fin 2 → Nat :=
  let c0_i32_1022 : BitVec 32 := 0#32
  ![v1684.toNat, 0]

def k0_chk123 (v1684 : BitVec 32) : Prop :=
  (∀ a, (k0_off351 v1684) a + S1x768.size a ≤ S50257x768.size a) ∧
  (∀ a, (k0_off372 v1684) a + S1x768.size a ≤ S50257x768.size a)
instance k0_chk123.dec : ∀ (v1684 : BitVec 32), Decidable (k0_chk123 v1684) := fun v1684 => decidable_of_iff' _ (Iff.of_eq (k0_chk123.eq_1 v1684))
theorem k0_off351_inb : ∀ (v1684 : BitVec 32) (k0_hw123 : k0_chk123 v1684), ∀ a, (k0_off351 v1684) a + S1x768.size a ≤ S50257x768.size a := fun v1684 k0_hw123 => k0_hw123.1
theorem k0_off372_inb : ∀ (v1684 : BitVec 32) (k0_hw123 : k0_chk123 v1684), ∀ a, (k0_off372 v1684) a + S1x768.size a ≤ S50257x768.size a := fun v1684 k0_hw123 => k0_hw123.2

def k0_off373 (v1692 : BitVec 32) : Fin 2 → Nat :=
  let c0_i32_1026 : BitVec 32 := 0#32
  ![v1692.toNat, 0]

def k0_chk124 (v1692 : BitVec 32) : Prop :=
  (∀ a, (k0_off353 v1692) a + S1x768.size a ≤ S50257x768.size a) ∧
  (∀ a, (k0_off373 v1692) a + S1x768.size a ≤ S50257x768.size a)
instance k0_chk124.dec : ∀ (v1692 : BitVec 32), Decidable (k0_chk124 v1692) := fun v1692 => decidable_of_iff' _ (Iff.of_eq (k0_chk124.eq_1 v1692))
theorem k0_off353_inb : ∀ (v1692 : BitVec 32) (k0_hw124 : k0_chk124 v1692), ∀ a, (k0_off353 v1692) a + S1x768.size a ≤ S50257x768.size a := fun v1692 k0_hw124 => k0_hw124.1
theorem k0_off373_inb : ∀ (v1692 : BitVec 32) (k0_hw124 : k0_chk124 v1692), ∀ a, (k0_off373 v1692) a + S1x768.size a ≤ S50257x768.size a := fun v1692 k0_hw124 => k0_hw124.2

def k0_off374 (v1700 : BitVec 32) : Fin 2 → Nat :=
  let c0_i32_1030 : BitVec 32 := 0#32
  ![v1700.toNat, 0]

def k0_chk125 (v1700 : BitVec 32) : Prop :=
  (∀ a, (k0_off355 v1700) a + S1x768.size a ≤ S50257x768.size a) ∧
  (∀ a, (k0_off374 v1700) a + S1x768.size a ≤ S50257x768.size a)
instance k0_chk125.dec : ∀ (v1700 : BitVec 32), Decidable (k0_chk125 v1700) := fun v1700 => decidable_of_iff' _ (Iff.of_eq (k0_chk125.eq_1 v1700))
theorem k0_off355_inb : ∀ (v1700 : BitVec 32) (k0_hw125 : k0_chk125 v1700), ∀ a, (k0_off355 v1700) a + S1x768.size a ≤ S50257x768.size a := fun v1700 k0_hw125 => k0_hw125.1
theorem k0_off374_inb : ∀ (v1700 : BitVec 32) (k0_hw125 : k0_chk125 v1700), ∀ a, (k0_off374 v1700) a + S1x768.size a ≤ S50257x768.size a := fun v1700 k0_hw125 => k0_hw125.2

def k0_off375 (v1708 : BitVec 32) : Fin 2 → Nat :=
  let c0_i32_1034 : BitVec 32 := 0#32
  ![v1708.toNat, 0]

def k0_chk126 (v1708 : BitVec 32) : Prop :=
  (∀ a, (k0_off357 v1708) a + S1x768.size a ≤ S50257x768.size a) ∧
  (∀ a, (k0_off375 v1708) a + S1x768.size a ≤ S50257x768.size a)
instance k0_chk126.dec : ∀ (v1708 : BitVec 32), Decidable (k0_chk126 v1708) := fun v1708 => decidable_of_iff' _ (Iff.of_eq (k0_chk126.eq_1 v1708))
theorem k0_off357_inb : ∀ (v1708 : BitVec 32) (k0_hw126 : k0_chk126 v1708), ∀ a, (k0_off357 v1708) a + S1x768.size a ≤ S50257x768.size a := fun v1708 k0_hw126 => k0_hw126.1
theorem k0_off375_inb : ∀ (v1708 : BitVec 32) (k0_hw126 : k0_chk126 v1708), ∀ a, (k0_off375 v1708) a + S1x768.size a ≤ S50257x768.size a := fun v1708 k0_hw126 => k0_hw126.2

def k0_off376 (v1716 : BitVec 32) : Fin 2 → Nat :=
  let c0_i32_1038 : BitVec 32 := 0#32
  ![v1716.toNat, 0]

def k0_chk127 (v1716 : BitVec 32) : Prop :=
  (∀ a, (k0_off359 v1716) a + S1x768.size a ≤ S50257x768.size a) ∧
  (∀ a, (k0_off376 v1716) a + S1x768.size a ≤ S50257x768.size a)
instance k0_chk127.dec : ∀ (v1716 : BitVec 32), Decidable (k0_chk127 v1716) := fun v1716 => decidable_of_iff' _ (Iff.of_eq (k0_chk127.eq_1 v1716))
theorem k0_off359_inb : ∀ (v1716 : BitVec 32) (k0_hw127 : k0_chk127 v1716), ∀ a, (k0_off359 v1716) a + S1x768.size a ≤ S50257x768.size a := fun v1716 k0_hw127 => k0_hw127.1
theorem k0_off376_inb : ∀ (v1716 : BitVec 32) (k0_hw127 : k0_chk127 v1716), ∀ a, (k0_off376 v1716) a + S1x768.size a ≤ S50257x768.size a := fun v1716 k0_hw127 => k0_hw127.2

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![128], ![false]⟩

def k1_cond2 (i : grid1.Coords) : BitVec 1 :=
  let arg0 : BitVec 32 := BitVec.ofNat 32 (i 0).val
  let c127_i32 : BitVec 32 := 127#32
  let v33 : BitVec 1 := Scalar.cmpi .eq arg0 c127_i32
  let v34 : BitVec 32 := Scalar.extui v33
  let c0_i32_20 : BitVec 32 := 0#32
  let v35 : BitVec 1 := Scalar.cmpi .ne v34 c0_i32_20
  v35

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x3x384x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x3x384x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  numel1_S1x1 : S1x1.numel = 1
  inb_S16_S1_0 : ∀ a, (![0] : Fin 1 → Nat) a + S1.size a ≤ S16.size a
  squeezes_S1_S_ : S1.Squeezes S_
  inb_S16x768_S1x768_0_0 : ∀ a, (![0, 0] : Fin 2 → Nat) a + S1x768.size a ≤ S16x768.size a
  squeezes_S1x768_S768 : S1x768.Squeezes S768
  inb_S16_S1_1 : ∀ a, (![1] : Fin 1 → Nat) a + S1.size a ≤ S16.size a
  inb_S16x768_S1x768_1_0 : ∀ a, (![1, 0] : Fin 2 → Nat) a + S1x768.size a ≤ S16x768.size a
  inb_S16_S1_2 : ∀ a, (![2] : Fin 1 → Nat) a + S1.size a ≤ S16.size a
  inb_S16x768_S1x768_2_0 : ∀ a, (![2, 0] : Fin 2 → Nat) a + S1x768.size a ≤ S16x768.size a
  inb_S16_S1_3 : ∀ a, (![3] : Fin 1 → Nat) a + S1.size a ≤ S16.size a
  inb_S16x768_S1x768_3_0 : ∀ a, (![3, 0] : Fin 2 → Nat) a + S1x768.size a ≤ S16x768.size a
  inb_S16_S1_4 : ∀ a, (![4] : Fin 1 → Nat) a + S1.size a ≤ S16.size a
  inb_S16x768_S1x768_4_0 : ∀ a, (![4, 0] : Fin 2 → Nat) a + S1x768.size a ≤ S16x768.size a
  inb_S16_S1_5 : ∀ a, (![5] : Fin 1 → Nat) a + S1.size a ≤ S16.size a
  inb_S16x768_S1x768_5_0 : ∀ a, (![5, 0] : Fin 2 → Nat) a + S1x768.size a ≤ S16x768.size a
  inb_S16_S1_6 : ∀ a, (![6] : Fin 1 → Nat) a + S1.size a ≤ S16.size a
  inb_S16x768_S1x768_6_0 : ∀ a, (![6, 0] : Fin 2 → Nat) a + S1x768.size a ≤ S16x768.size a
  inb_S16_S1_7 : ∀ a, (![7] : Fin 1 → Nat) a + S1.size a ≤ S16.size a
  inb_S16x768_S1x768_7_0 : ∀ a, (![7, 0] : Fin 2 → Nat) a + S1x768.size a ≤ S16x768.size a
  inb_S16_S1_8 : ∀ a, (![8] : Fin 1 → Nat) a + S1.size a ≤ S16.size a
  inb_S16x768_S1x768_8_0 : ∀ a, (![8, 0] : Fin 2 → Nat) a + S1x768.size a ≤ S16x768.size a
  inb_S16_S1_9 : ∀ a, (![9] : Fin 1 → Nat) a + S1.size a ≤ S16.size a
  inb_S16x768_S1x768_9_0 : ∀ a, (![9, 0] : Fin 2 → Nat) a + S1x768.size a ≤ S16x768.size a
  inb_S16_S1_10 : ∀ a, (![10] : Fin 1 → Nat) a + S1.size a ≤ S16.size a
  inb_S16x768_S1x768_10_0 : ∀ a, (![10, 0] : Fin 2 → Nat) a + S1x768.size a ≤ S16x768.size a
  inb_S16_S1_11 : ∀ a, (![11] : Fin 1 → Nat) a + S1.size a ≤ S16.size a
  inb_S16x768_S1x768_11_0 : ∀ a, (![11, 0] : Fin 2 → Nat) a + S1x768.size a ≤ S16x768.size a
  inb_S16_S1_12 : ∀ a, (![12] : Fin 1 → Nat) a + S1.size a ≤ S16.size a
  inb_S16x768_S1x768_12_0 : ∀ a, (![12, 0] : Fin 2 → Nat) a + S1x768.size a ≤ S16x768.size a
  inb_S16_S1_13 : ∀ a, (![13] : Fin 1 → Nat) a + S1.size a ≤ S16.size a
  inb_S16x768_S1x768_13_0 : ∀ a, (![13, 0] : Fin 2 → Nat) a + S1x768.size a ≤ S16x768.size a
  inb_S16_S1_14 : ∀ a, (![14] : Fin 1 → Nat) a + S1.size a ≤ S16.size a
  inb_S16x768_S1x768_14_0 : ∀ a, (![14, 0] : Fin 2 → Nat) a + S1x768.size a ≤ S16x768.size a
  inb_S16_S1_15 : ∀ a, (![15] : Fin 1 → Nat) a + S1.size a ≤ S16.size a
  inb_S16x768_S1x768_15_0 : ∀ a, (![15, 0] : Fin 2 → Nat) a + S1x768.size a ≤ S16x768.size a
  inb_S16x768_S16x768_0_0 : ∀ a, (![0, 0] : Fin 2 → Nat) a + S16x768.size a ≤ S16x768.size a
  h_S16x768 : 0 < S16x768.numel
  inb_S1x128x768_S1x16x768_0_0_0 : ∀ a, (![0, 0, 0] : Fin 3 → Nat) a + S1x16x768.size a ≤ S1x128x768.size a
  h_S1x16x768 : 0 < S1x16x768.numel
  shapeCasts_S1x16x768_S16x768 : S1x16x768.ShapeCasts S16x768
  shapeCasts_S16x768_S1x16x768 : S16x768.ShapeCasts S1x16x768
  inb_S1x128x768_S1x16x768_0_16_0 : ∀ a, (![0, 16, 0] : Fin 3 → Nat) a + S1x16x768.size a ≤ S1x128x768.size a
  inb_S1x128x768_S1x16x768_0_32_0 : ∀ a, (![0, 32, 0] : Fin 3 → Nat) a + S1x16x768.size a ≤ S1x128x768.size a
  inb_S1x128x768_S1x16x768_0_48_0 : ∀ a, (![0, 48, 0] : Fin 3 → Nat) a + S1x16x768.size a ≤ S1x128x768.size a
  inb_S1x128x768_S1x16x768_0_64_0 : ∀ a, (![0, 64, 0] : Fin 3 → Nat) a + S1x16x768.size a ≤ S1x128x768.size a
  inb_S1x128x768_S1x16x768_0_80_0 : ∀ a, (![0, 80, 0] : Fin 3 → Nat) a + S1x16x768.size a ≤ S1x128x768.size a
  inb_S1x128x768_S1x16x768_0_96_0 : ∀ a, (![0, 96, 0] : Fin 3 → Nat) a + S1x16x768.size a ≤ S1x128x768.size a
  inb_S1x128x768_S1x16x768_0_112_0 : ∀ a, (![0, 112, 0] : Fin 3 → Nat) a + S1x16x768.size a ≤ S1x128x768.size a
  slices_S128x128x768_S128x1x768_0_127_0 : S128x128x768.Slices ![0, 127, 0] S128x1x768
  bcast_S128x1x768_S128x448x768_0_1_2 : S128x1x768.BroadcastsInDim S128x448x768 (![0, 1, 2] : Fin 3 → Fin S128x448x768.rank)
  concatenates_S128x128x768_S128x448x768_S128x576x768_d1 : Shape.Concatenates [S128x128x768, S128x448x768] S128x576x768 1
  shapeCasts_S128x576x768_S128x24x24x3x16x16 : S128x576x768.ShapeCasts S128x24x24x3x16x16
  transposes_S128x24x24x3x16x16_S128x3x24x16x24x16_0_3_1_4_2_5 : S128x24x24x3x16x16.Transposes [0, 3, 1, 4, 2, 5] S128x3x24x16x24x16
  shapeCasts_S128x3x24x16x24x16_S128x3x384x384 : S128x3x24x16x24x16.ShapeCasts S128x3x384x384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x3x384x384_S1x3x384x384_0_0_0_0 : ∀ a, (![0, 0, 0, 0] : Fin 4 → Nat) a + S1x3x384x384.size a ≤ S1x3x384x384.size a
  h_S1x3x384x384 : 0 < S1x3x384x384.numel
  shapeCasts_S1x3x384x384_S3x384x384 : S1x3x384x384.ShapeCasts S3x384x384
  reduces_S3x384x384_S3x384 : S3x384x384.Reduces [2] S3x384
  shapeCasts_S3x384_S3x384x1 : S3x384.ShapeCasts S3x384x1
  reduces_S3x384x1_S3x1 : S3x384x1.Reduces [1] S3x1
  shapeCasts_S3x1_S3x1x1 : S3x1.ShapeCasts S3x1x1
  reduces_S3x1x1_S1x1 : S3x1x1.Reduces [0] S1x1
  shapeCasts_S1x1_S1x1x1 : S1x1.ShapeCasts S1x1x1
  shapeCasts_S1x1x1_S1x1 : S1x1x1.ShapeCasts S1x1
  shapeCasts_S3x384x384_S1x3x384x384 : S3x384x384.ShapeCasts S1x3x384x384
  shapeCasts_S1x1_S_ : S1x1.ShapeCasts S_
  hcc0_scratch1 : 2 + S16.numel ≤ 23
  hrank0 : 0 < grid0.rank
  k0_off1_inb : ∀ i : grid0.Coords, ∀ a, (k0_off1 i) a + S1x1.size a ≤ S128x128.size a
  k0_off3_inb : ∀ i : grid0.Coords, ∀ a, (k0_off3 i) a + S1x1.size a ≤ S128x128.size a
  k0_off5_inb : ∀ i : grid0.Coords, ∀ a, (k0_off5 i) a + S1x1.size a ≤ S128x128.size a
  k0_off7_inb : ∀ i : grid0.Coords, ∀ a, (k0_off7 i) a + S1x1.size a ≤ S128x128.size a
  k0_off9_inb : ∀ i : grid0.Coords, ∀ a, (k0_off9 i) a + S1x1.size a ≤ S128x128.size a
  k0_off11_inb : ∀ i : grid0.Coords, ∀ a, (k0_off11 i) a + S1x1.size a ≤ S128x128.size a
  k0_off13_inb : ∀ i : grid0.Coords, ∀ a, (k0_off13 i) a + S1x1.size a ≤ S128x128.size a
  k0_off15_inb : ∀ i : grid0.Coords, ∀ a, (k0_off15 i) a + S1x1.size a ≤ S128x128.size a
  k0_off17_inb : ∀ i : grid0.Coords, ∀ a, (k0_off17 i) a + S1x1.size a ≤ S128x128.size a
  k0_off19_inb : ∀ i : grid0.Coords, ∀ a, (k0_off19 i) a + S1x1.size a ≤ S128x128.size a
  k0_off21_inb : ∀ i : grid0.Coords, ∀ a, (k0_off21 i) a + S1x1.size a ≤ S128x128.size a
  k0_off23_inb : ∀ i : grid0.Coords, ∀ a, (k0_off23 i) a + S1x1.size a ≤ S128x128.size a
  k0_off25_inb : ∀ i : grid0.Coords, ∀ a, (k0_off25 i) a + S1x1.size a ≤ S128x128.size a
  k0_off27_inb : ∀ i : grid0.Coords, ∀ a, (k0_off27 i) a + S1x1.size a ≤ S128x128.size a
  k0_off29_inb : ∀ i : grid0.Coords, ∀ a, (k0_off29 i) a + S1x1.size a ≤ S128x128.size a
  k0_off31_inb : ∀ i : grid0.Coords, ∀ a, (k0_off31 i) a + S1x1.size a ≤ S128x128.size a
  k0_off48_inb : ∀ i : grid0.Coords, ∀ a, (k0_off48 i) a + S1x1.size a ≤ S128x128.size a
  k0_off50_inb : ∀ i : grid0.Coords, ∀ a, (k0_off50 i) a + S1x1.size a ≤ S128x128.size a
  k0_off52_inb : ∀ i : grid0.Coords, ∀ a, (k0_off52 i) a + S1x1.size a ≤ S128x128.size a
  k0_off54_inb : ∀ i : grid0.Coords, ∀ a, (k0_off54 i) a + S1x1.size a ≤ S128x128.size a
  k0_off56_inb : ∀ i : grid0.Coords, ∀ a, (k0_off56 i) a + S1x1.size a ≤ S128x128.size a
  k0_off58_inb : ∀ i : grid0.Coords, ∀ a, (k0_off58 i) a + S1x1.size a ≤ S128x128.size a
  k0_off60_inb : ∀ i : grid0.Coords, ∀ a, (k0_off60 i) a + S1x1.size a ≤ S128x128.size a
  k0_off62_inb : ∀ i : grid0.Coords, ∀ a, (k0_off62 i) a + S1x1.size a ≤ S128x128.size a
  k0_off64_inb : ∀ i : grid0.Coords, ∀ a, (k0_off64 i) a + S1x1.size a ≤ S128x128.size a
  k0_off66_inb : ∀ i : grid0.Coords, ∀ a, (k0_off66 i) a + S1x1.size a ≤ S128x128.size a
  k0_off68_inb : ∀ i : grid0.Coords, ∀ a, (k0_off68 i) a + S1x1.size a ≤ S128x128.size a
  k0_off70_inb : ∀ i : grid0.Coords, ∀ a, (k0_off70 i) a + S1x1.size a ≤ S128x128.size a
  k0_off72_inb : ∀ i : grid0.Coords, ∀ a, (k0_off72 i) a + S1x1.size a ≤ S128x128.size a
  k0_off74_inb : ∀ i : grid0.Coords, ∀ a, (k0_off74 i) a + S1x1.size a ≤ S128x128.size a
  k0_off76_inb : ∀ i : grid0.Coords, ∀ a, (k0_off76 i) a + S1x1.size a ≤ S128x128.size a
  k0_off78_inb : ∀ i : grid0.Coords, ∀ a, (k0_off78 i) a + S1x1.size a ≤ S128x128.size a
  k0_off95_inb : ∀ i : grid0.Coords, ∀ a, (k0_off95 i) a + S1x1.size a ≤ S128x128.size a
  k0_off97_inb : ∀ i : grid0.Coords, ∀ a, (k0_off97 i) a + S1x1.size a ≤ S128x128.size a
  k0_off99_inb : ∀ i : grid0.Coords, ∀ a, (k0_off99 i) a + S1x1.size a ≤ S128x128.size a
  k0_off101_inb : ∀ i : grid0.Coords, ∀ a, (k0_off101 i) a + S1x1.size a ≤ S128x128.size a
  k0_off103_inb : ∀ i : grid0.Coords, ∀ a, (k0_off103 i) a + S1x1.size a ≤ S128x128.size a
  k0_off105_inb : ∀ i : grid0.Coords, ∀ a, (k0_off105 i) a + S1x1.size a ≤ S128x128.size a
  k0_off107_inb : ∀ i : grid0.Coords, ∀ a, (k0_off107 i) a + S1x1.size a ≤ S128x128.size a
  k0_off109_inb : ∀ i : grid0.Coords, ∀ a, (k0_off109 i) a + S1x1.size a ≤ S128x128.size a
  k0_off111_inb : ∀ i : grid0.Coords, ∀ a, (k0_off111 i) a + S1x1.size a ≤ S128x128.size a
  k0_off113_inb : ∀ i : grid0.Coords, ∀ a, (k0_off113 i) a + S1x1.size a ≤ S128x128.size a
  k0_off115_inb : ∀ i : grid0.Coords, ∀ a, (k0_off115 i) a + S1x1.size a ≤ S128x128.size a
  k0_off117_inb : ∀ i : grid0.Coords, ∀ a, (k0_off117 i) a + S1x1.size a ≤ S128x128.size a
  k0_off119_inb : ∀ i : grid0.Coords, ∀ a, (k0_off119 i) a + S1x1.size a ≤ S128x128.size a
  k0_off121_inb : ∀ i : grid0.Coords, ∀ a, (k0_off121 i) a + S1x1.size a ≤ S128x128.size a
  k0_off123_inb : ∀ i : grid0.Coords, ∀ a, (k0_off123 i) a + S1x1.size a ≤ S128x128.size a
  k0_off125_inb : ∀ i : grid0.Coords, ∀ a, (k0_off125 i) a + S1x1.size a ≤ S128x128.size a
  k0_off142_inb : ∀ i : grid0.Coords, ∀ a, (k0_off142 i) a + S1x1.size a ≤ S128x128.size a
  k0_off144_inb : ∀ i : grid0.Coords, ∀ a, (k0_off144 i) a + S1x1.size a ≤ S128x128.size a
  k0_off146_inb : ∀ i : grid0.Coords, ∀ a, (k0_off146 i) a + S1x1.size a ≤ S128x128.size a
  k0_off148_inb : ∀ i : grid0.Coords, ∀ a, (k0_off148 i) a + S1x1.size a ≤ S128x128.size a
  k0_off150_inb : ∀ i : grid0.Coords, ∀ a, (k0_off150 i) a + S1x1.size a ≤ S128x128.size a
  k0_off152_inb : ∀ i : grid0.Coords, ∀ a, (k0_off152 i) a + S1x1.size a ≤ S128x128.size a
  k0_off154_inb : ∀ i : grid0.Coords, ∀ a, (k0_off154 i) a + S1x1.size a ≤ S128x128.size a
  k0_off156_inb : ∀ i : grid0.Coords, ∀ a, (k0_off156 i) a + S1x1.size a ≤ S128x128.size a
  k0_off158_inb : ∀ i : grid0.Coords, ∀ a, (k0_off158 i) a + S1x1.size a ≤ S128x128.size a
  k0_off160_inb : ∀ i : grid0.Coords, ∀ a, (k0_off160 i) a + S1x1.size a ≤ S128x128.size a
  k0_off162_inb : ∀ i : grid0.Coords, ∀ a, (k0_off162 i) a + S1x1.size a ≤ S128x128.size a
  k0_off164_inb : ∀ i : grid0.Coords, ∀ a, (k0_off164 i) a + S1x1.size a ≤ S128x128.size a
  k0_off166_inb : ∀ i : grid0.Coords, ∀ a, (k0_off166 i) a + S1x1.size a ≤ S128x128.size a
  k0_off168_inb : ∀ i : grid0.Coords, ∀ a, (k0_off168 i) a + S1x1.size a ≤ S128x128.size a
  k0_off170_inb : ∀ i : grid0.Coords, ∀ a, (k0_off170 i) a + S1x1.size a ≤ S128x128.size a
  k0_off172_inb : ∀ i : grid0.Coords, ∀ a, (k0_off172 i) a + S1x1.size a ≤ S128x128.size a
  k0_off189_inb : ∀ i : grid0.Coords, ∀ a, (k0_off189 i) a + S1x1.size a ≤ S128x128.size a
  k0_off191_inb : ∀ i : grid0.Coords, ∀ a, (k0_off191 i) a + S1x1.size a ≤ S128x128.size a
  k0_off193_inb : ∀ i : grid0.Coords, ∀ a, (k0_off193 i) a + S1x1.size a ≤ S128x128.size a
  k0_off195_inb : ∀ i : grid0.Coords, ∀ a, (k0_off195 i) a + S1x1.size a ≤ S128x128.size a
  k0_off197_inb : ∀ i : grid0.Coords, ∀ a, (k0_off197 i) a + S1x1.size a ≤ S128x128.size a
  k0_off199_inb : ∀ i : grid0.Coords, ∀ a, (k0_off199 i) a + S1x1.size a ≤ S128x128.size a
  k0_off201_inb : ∀ i : grid0.Coords, ∀ a, (k0_off201 i) a + S1x1.size a ≤ S128x128.size a
  k0_off203_inb : ∀ i : grid0.Coords, ∀ a, (k0_off203 i) a + S1x1.size a ≤ S128x128.size a
  k0_off205_inb : ∀ i : grid0.Coords, ∀ a, (k0_off205 i) a + S1x1.size a ≤ S128x128.size a
  k0_off207_inb : ∀ i : grid0.Coords, ∀ a, (k0_off207 i) a + S1x1.size a ≤ S128x128.size a
  k0_off209_inb : ∀ i : grid0.Coords, ∀ a, (k0_off209 i) a + S1x1.size a ≤ S128x128.size a
  k0_off211_inb : ∀ i : grid0.Coords, ∀ a, (k0_off211 i) a + S1x1.size a ≤ S128x128.size a
  k0_off213_inb : ∀ i : grid0.Coords, ∀ a, (k0_off213 i) a + S1x1.size a ≤ S128x128.size a
  k0_off215_inb : ∀ i : grid0.Coords, ∀ a, (k0_off215 i) a + S1x1.size a ≤ S128x128.size a
  k0_off217_inb : ∀ i : grid0.Coords, ∀ a, (k0_off217 i) a + S1x1.size a ≤ S128x128.size a
  k0_off219_inb : ∀ i : grid0.Coords, ∀ a, (k0_off219 i) a + S1x1.size a ≤ S128x128.size a
  k0_off236_inb : ∀ i : grid0.Coords, ∀ a, (k0_off236 i) a + S1x1.size a ≤ S128x128.size a
  k0_off238_inb : ∀ i : grid0.Coords, ∀ a, (k0_off238 i) a + S1x1.size a ≤ S128x128.size a
  k0_off240_inb : ∀ i : grid0.Coords, ∀ a, (k0_off240 i) a + S1x1.size a ≤ S128x128.size a
  k0_off242_inb : ∀ i : grid0.Coords, ∀ a, (k0_off242 i) a + S1x1.size a ≤ S128x128.size a
  k0_off244_inb : ∀ i : grid0.Coords, ∀ a, (k0_off244 i) a + S1x1.size a ≤ S128x128.size a
  k0_off246_inb : ∀ i : grid0.Coords, ∀ a, (k0_off246 i) a + S1x1.size a ≤ S128x128.size a
  k0_off248_inb : ∀ i : grid0.Coords, ∀ a, (k0_off248 i) a + S1x1.size a ≤ S128x128.size a
  k0_off250_inb : ∀ i : grid0.Coords, ∀ a, (k0_off250 i) a + S1x1.size a ≤ S128x128.size a
  k0_off252_inb : ∀ i : grid0.Coords, ∀ a, (k0_off252 i) a + S1x1.size a ≤ S128x128.size a
  k0_off254_inb : ∀ i : grid0.Coords, ∀ a, (k0_off254 i) a + S1x1.size a ≤ S128x128.size a
  k0_off256_inb : ∀ i : grid0.Coords, ∀ a, (k0_off256 i) a + S1x1.size a ≤ S128x128.size a
  k0_off258_inb : ∀ i : grid0.Coords, ∀ a, (k0_off258 i) a + S1x1.size a ≤ S128x128.size a
  k0_off260_inb : ∀ i : grid0.Coords, ∀ a, (k0_off260 i) a + S1x1.size a ≤ S128x128.size a
  k0_off262_inb : ∀ i : grid0.Coords, ∀ a, (k0_off262 i) a + S1x1.size a ≤ S128x128.size a
  k0_off264_inb : ∀ i : grid0.Coords, ∀ a, (k0_off264 i) a + S1x1.size a ≤ S128x128.size a
  k0_off266_inb : ∀ i : grid0.Coords, ∀ a, (k0_off266 i) a + S1x1.size a ≤ S128x128.size a
  k0_off283_inb : ∀ i : grid0.Coords, ∀ a, (k0_off283 i) a + S1x1.size a ≤ S128x128.size a
  k0_off285_inb : ∀ i : grid0.Coords, ∀ a, (k0_off285 i) a + S1x1.size a ≤ S128x128.size a
  k0_off287_inb : ∀ i : grid0.Coords, ∀ a, (k0_off287 i) a + S1x1.size a ≤ S128x128.size a
  k0_off289_inb : ∀ i : grid0.Coords, ∀ a, (k0_off289 i) a + S1x1.size a ≤ S128x128.size a
  k0_off291_inb : ∀ i : grid0.Coords, ∀ a, (k0_off291 i) a + S1x1.size a ≤ S128x128.size a
  k0_off293_inb : ∀ i : grid0.Coords, ∀ a, (k0_off293 i) a + S1x1.size a ≤ S128x128.size a
  k0_off295_inb : ∀ i : grid0.Coords, ∀ a, (k0_off295 i) a + S1x1.size a ≤ S128x128.size a
  k0_off297_inb : ∀ i : grid0.Coords, ∀ a, (k0_off297 i) a + S1x1.size a ≤ S128x128.size a
  k0_off299_inb : ∀ i : grid0.Coords, ∀ a, (k0_off299 i) a + S1x1.size a ≤ S128x128.size a
  k0_off301_inb : ∀ i : grid0.Coords, ∀ a, (k0_off301 i) a + S1x1.size a ≤ S128x128.size a
  k0_off303_inb : ∀ i : grid0.Coords, ∀ a, (k0_off303 i) a + S1x1.size a ≤ S128x128.size a
  k0_off305_inb : ∀ i : grid0.Coords, ∀ a, (k0_off305 i) a + S1x1.size a ≤ S128x128.size a
  k0_off307_inb : ∀ i : grid0.Coords, ∀ a, (k0_off307 i) a + S1x1.size a ≤ S128x128.size a
  k0_off309_inb : ∀ i : grid0.Coords, ∀ a, (k0_off309 i) a + S1x1.size a ≤ S128x128.size a
  k0_off311_inb : ∀ i : grid0.Coords, ∀ a, (k0_off311 i) a + S1x1.size a ≤ S128x128.size a
  k0_off313_inb : ∀ i : grid0.Coords, ∀ a, (k0_off313 i) a + S1x1.size a ≤ S128x128.size a
  k0_off330_inb : ∀ i : grid0.Coords, ∀ a, (k0_off330 i) a + S1x1.size a ≤ S128x128.size a
  k0_off332_inb : ∀ i : grid0.Coords, ∀ a, (k0_off332 i) a + S1x1.size a ≤ S128x128.size a
  k0_off334_inb : ∀ i : grid0.Coords, ∀ a, (k0_off334 i) a + S1x1.size a ≤ S128x128.size a
  k0_off336_inb : ∀ i : grid0.Coords, ∀ a, (k0_off336 i) a + S1x1.size a ≤ S128x128.size a
  k0_off338_inb : ∀ i : grid0.Coords, ∀ a, (k0_off338 i) a + S1x1.size a ≤ S128x128.size a
  k0_off340_inb : ∀ i : grid0.Coords, ∀ a, (k0_off340 i) a + S1x1.size a ≤ S128x128.size a
  k0_off342_inb : ∀ i : grid0.Coords, ∀ a, (k0_off342 i) a + S1x1.size a ≤ S128x128.size a
  k0_off344_inb : ∀ i : grid0.Coords, ∀ a, (k0_off344 i) a + S1x1.size a ≤ S128x128.size a
  k0_off346_inb : ∀ i : grid0.Coords, ∀ a, (k0_off346 i) a + S1x1.size a ≤ S128x128.size a
  k0_off348_inb : ∀ i : grid0.Coords, ∀ a, (k0_off348 i) a + S1x1.size a ≤ S128x128.size a
  k0_off350_inb : ∀ i : grid0.Coords, ∀ a, (k0_off350 i) a + S1x1.size a ≤ S128x128.size a
  k0_off352_inb : ∀ i : grid0.Coords, ∀ a, (k0_off352 i) a + S1x1.size a ≤ S128x128.size a
  k0_off354_inb : ∀ i : grid0.Coords, ∀ a, (k0_off354 i) a + S1x1.size a ≤ S128x128.size a
  k0_off356_inb : ∀ i : grid0.Coords, ∀ a, (k0_off356 i) a + S1x1.size a ≤ S128x128.size a
  k0_off358_inb : ∀ i : grid0.Coords, ∀ a, (k0_off358 i) a + S1x1.size a ≤ S128x128.size a
  k0_off360_inb : ∀ i : grid0.Coords, ∀ a, (k0_off360 i) a + S1x1.size a ≤ S128x128.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x128x768.size a ≤ S128x128x768.size a
  hwx0_0 : ∀ i : grid0.Coords, EltTy.bits .f32 = 32 ∨ (Rect.block (s := S128x128x768) S1x128x768.size (cc0_transform_1 i) (hinb0_0 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x384x384.size a ≤ S128x3x384x384.size a
  hwx1_0 : ∀ i : grid1.Coords, EltTy.bits .f32 = 32 ∨ (Rect.block (s := S128x3x384x384) S1x3x384x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x384x384.size a ≤ S128x3x384x384.size a
  hwx1_1 : ∀ i : grid1.Coords, EltTy.bits .f32 = 32 ∨ (Rect.block (s := S128x3x384x384) S1x3x384x384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev cc0_scratch1 : DmaSems sig S16 := SemArray.consecutive 2 S16 hcc0_scratch1

abbrev spec0_0 : Pipeline.WinSpec sig grid0.rank :=
  Pipeline.WinSpec.ofSpec (Memref.whole main_v0) S1x128x768.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev win1_0 : Pipeline.Window sig grid1 :=
  Pipeline.Window.ofSpec (Memref.whole main_v6) S1x3x384x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_0) S1x3x384x384.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_1) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S128x128 : Shape := ⟨2, ![128, 128]⟩
abbrev S50257x768 : Shape := ⟨2, ![50257, 768]⟩
abbrev S_ : Shape := ⟨0, ![]⟩
abbrev S128x128x1 : Shape := ⟨3, ![128, 128, 1]⟩
abbrev S128x128x768 : Shape := ⟨3, ![128, 128, 768]⟩
abbrev S128x128x3x16x16 : Shape := ⟨5, ![128, 128, 3, 16, 16]⟩
abbrev S576 : Shape := ⟨1, ![576]⟩
abbrev S576x1 : Shape := ⟨2, ![576, 1]⟩
abbrev S128x576x3x16x16 : Shape := ⟨5, ![128, 576, 3, 16, 16]⟩
abbrev S128x24x24x3x16x16 : Shape := ⟨6, ![128, 24, 24, 3, 16, 16]⟩
abbrev S128x3x24x16x24x16 : Shape := ⟨6, ![128, 3, 24, 16, 24, 16]⟩
abbrev S128x3x384x384 : Shape := ⟨4, ![128, 3, 384, 384]⟩

abbrev nBuf : Space → Nat
  | .hbm => 55
  | .vmem => 0
  | .smem => 0
  | _ => 0

abbrev bufTy : (tb : Table) → Fin (tcTables nBuf tb) → BufTy
  | .hbm, ⟨0, _⟩ => ⟨S128x128, .i32⟩
  | .hbm, ⟨1, _⟩ => ⟨S50257x768, .f32⟩
  | .hbm, ⟨2, _⟩ => ⟨S_, .i32⟩
  | .hbm, ⟨3, _⟩ => ⟨S128x128, .i32⟩
  | .hbm, ⟨4, _⟩ => ⟨S128x128, .i1⟩
  | .hbm, ⟨5, _⟩ => ⟨S_, .i32⟩
  | .hbm, ⟨6, _⟩ => ⟨S128x128, .i32⟩
  | .hbm, ⟨7, _⟩ => ⟨S128x128, .i32⟩
  | .hbm, ⟨8, _⟩ => ⟨S128x128, .i32⟩
  | .hbm, ⟨9, _⟩ => ⟨S128x128x1, .i32⟩
  | .hbm, ⟨10, _⟩ => ⟨S128x128x768, .f32⟩
  | .hbm, ⟨11, _⟩ => ⟨S128x128x768, .f32⟩
  | .hbm, ⟨12, _⟩ => ⟨S128x128x3x16x16, .f32⟩
  | .hbm, ⟨13, _⟩ => ⟨S576, .i32⟩
  | .hbm, ⟨14, _⟩ => ⟨S_, .i32⟩
  | .hbm, ⟨15, _⟩ => ⟨S576, .i32⟩
  | .hbm, ⟨16, _⟩ => ⟨S576, .i32⟩
  | .hbm, ⟨17, _⟩ => ⟨S_, .i32⟩
  | .hbm, ⟨18, _⟩ => ⟨S576, .i32⟩
  | .hbm, ⟨19, _⟩ => ⟨S576, .i1⟩
  | .hbm, ⟨20, _⟩ => ⟨S_, .i32⟩
  | .hbm, ⟨21, _⟩ => ⟨S576, .i32⟩
  | .hbm, ⟨22, _⟩ => ⟨S576, .i32⟩
  | .hbm, ⟨23, _⟩ => ⟨S576, .i32⟩
  | .hbm, ⟨24, _⟩ => ⟨S576x1, .i32⟩
  | .hbm, ⟨25, _⟩ => ⟨S128x576x3x16x16, .f32⟩
  | .hbm, ⟨26, _⟩ => ⟨S128x24x24x3x16x16, .f32⟩
  | .hbm, ⟨27, _⟩ => ⟨S128x3x24x16x24x16, .f32⟩
  | .hbm, ⟨28, _⟩ => ⟨S128x3x384x384, .f32⟩
  | .hbm, ⟨29, _⟩ => ⟨S128x3x384x384, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S128x3x384x384, .f32⟩
  | .hbm, ⟨37, _⟩ => ⟨S128x3x384x384, .f32⟩
  | .hbm, ⟨38, _⟩ => ⟨S_, .f32⟩
  | .hbm, ⟨39, _⟩ => ⟨S128x3x384x384, .f32⟩
  | .hbm, ⟨40, _⟩ => ⟨S128x3x384x384, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S128x3x384x384, .f32⟩
  | .hbm, ⟨45, _⟩ => ⟨S128x3x384x384, .f32⟩
  | .hbm, ⟨46, _⟩ => ⟨S_, .f32⟩
  | .hbm, ⟨47, _⟩ => ⟨S128x3x384x384, .f32⟩
  | .hbm, ⟨48, _⟩ => ⟨S128x3x384x384, .f32⟩
  | .hbm, ⟨49, _⟩ => ⟨S_, .f32⟩
  | .hbm, ⟨50, _⟩ => ⟨S128x3x384x384, .f32⟩
  | .hbm, ⟨51, _⟩ => ⟨S128x3x384x384, .f32⟩
  | .hbm, ⟨52, _⟩ => ⟨S_, .f32⟩
  | .hbm, ⟨53, _⟩ => ⟨S128x3x384x384, .f32⟩
  | .hbm, ⟨54, _⟩ => ⟨S128x3x384x384, .f32⟩
  | _, _ => ⟨S128x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_cst_8 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  shapeCasts_S128x128x768_S128x128x3x16x16 : S128x128x768.ShapeCasts S128x128x3x16x16
  bcast_S_S576 : S_.BroadcastsInDim S576 (![] : Fin 0 → Fin S576.rank)
  bcast_S576_S576x1_0 : S576.BroadcastsInDim S576x1 (![0] : Fin 1 → Fin S576x1.rank)
  shapeCasts_S128x576x3x16x16_S128x24x24x3x16x16 : S128x576x3x16x16.ShapeCasts S128x24x24x3x16x16
  transposes_S128x24x24x3x16x16_S128x3x24x16x24x16_0_3_1_4_2_5 : S128x24x24x3x16x16.Transposes [0, 3, 1, 4, 2, 5] S128x3x24x16x24x16
  shapeCasts_S128x3x24x16x24x16_S128x3x384x384 : S128x3x24x16x24x16.ShapeCasts S128x3x384x384
  reducesTo_S128x3x384x384_S_d0_1_2_3 : S128x3x384x384.ReducesTo [0, 1, 2, 3] S_
  h_S_ : 0 < S_.numel
  bcast_S_S128x3x384x384 : S_.BroadcastsInDim S128x3x384x384 (![] : Fin 0 → Fin S128x3x384x384.rank)
  gather_S50257x768_S128x128x1_S128x128x768_2_0_n_n_0_2_1768_wf : GatherDims.WF S50257x768 S128x128x1 S128x128x768 [2] [0] [] [0] [] 2 ![1, 768]
  gather_S128x128x3x16x16_S576x1_S128x576x3x16x16_0234_1_n_n_1_1_128131616_wf : GatherDims.WF S128x128x3x16x16 S576x1 S128x576x3x16x16 [0, 2, 3, 4] [1] [] [1] [] 1 ![128, 1, 3, 16, 16]

variable [Facts₀]

def gather_S50257x768_S128x128x1_S128x128x768_2_0_n_n_0_2_1768 : GatherDims S50257x768 S128x128x1 S128x128x768 where
  offsetDims := [2]
  collapsedSliceDims := [0]
  operandBatchingDims := []
  startIndicesBatchingDims := []
  startIndexMap := [0]
  indexVectorDim := 2
  sliceSizes := ![1, 768]
  wf := gather_S50257x768_S128x128x1_S128x128x768_2_0_n_n_0_2_1768_wf
def gather_S128x128x3x16x16_S576x1_S128x576x3x16x16_0234_1_n_n_1_1_128131616 : GatherDims S128x128x3x16x16 S576x1 S128x576x3x16x16 where
  offsetDims := [0, 2, 3, 4]
  collapsedSliceDims := [1]
  operandBatchingDims := []
  startIndicesBatchingDims := []
  startIndexMap := [1]
  indexVectorDim := 1
  sliceSizes := ![128, 1, 3, 16, 16]
  wf := gather_S128x128x3x16x16_S576x1_S128x576x3x16x16_0234_1_n_n_1_1_128131616_wf

class Facts : Prop extends Facts₀ where

variable [Facts]
-- ==== Proof.PreDecode.lean ====
import proofs.«422118_j38706245271901_2_alg».proof.Defs
import Idealize.ShloMosaic.Lib.ReduceAll
import Idealize.ShloMosaic.Lib.ValueIdx

noncomputable section

namespace Cert.PreDecode

open Idealize.ShloMosaic Idealize.SL.Sem

instance subsingleton_idx0 : Subsingleton Cert.Pre_finite_inputs.S_.Idx := ⟨fun a b => funext fun d => d.elim0⟩

theorem toNat_lt_of_signed (v : BitVec 32) (h0 : IntOp.cmpi .sge v 0#32 = 1#1) (h1 : IntOp.cmpi .slt v 50257#32 = 1#1) :
    v.toNat < 50257 := by
  rw [IntOp.cmpi_sge, show (0#32 : BitVec 32).toInt = 0 from by decide] at h0
  rw [IntOp.cmpi_slt, show (50257#32 : BitVec 32).toInt = 50257 from by decide] at h1

  have hlt : 2 * v.toNat < 2 ^ 32 := BitVec.toInt_pos_iff.1 h0
  have hmsb : v.msb = false := BitVec.msb_eq_false_iff_two_mul_lt.mpr hlt
  rw [BitVec.toInt_eq_msb_cond, hmsb] at h1
  simp only [Bool.false_eq_true, if_false] at h1
  omega

/-- The precondition's range test on the tokens, decoded: every word is below 50257. -/
theorem inRange_of_fn {F : FTy → Type} [FloatOps F] [Cert.Pre_finite_inputs.Facts]
    (tbl : IVec Cert.Pre_finite_inputs.S128x128 32) (emb : FVec F Cert.Pre_finite_inputs.S50257x768 .f32)
    (h : Cert.Pre_finite_inputs.fn (F := F) tbl emb = fun _ => 1#1) : ∀ x, (tbl x).toNat < 50257 := by
  intro x
  have e := congrFun h ValueIdx.ix0
  dsimp only [Cert.Pre_finite_inputs.fn] at e

  have eT := (IntOp.andi_eq_one.1 e).2

  have ex := Host.reduce_andi_all _ _ _ _ _ eT x

  obtain ⟨h0, h1⟩ := IntOp.andi_eq_one.1 ex
  exact toNat_lt_of_signed (tbl x) h0 h1

theorem inRange_of_Pre_Kernel [hP : Cert.Pre_finite_inputs.Facts]
    (m : (ℓ : Loc Cert.Kernel.nD Cert.Kernel.τ Cert.Kernel.sig) → Buf (Elt Bits) ℓ) (h : Cert.Pre_Kernel m) :
    ∀ (c : Dev Cert.Kernel.nD) x,
      (m ((c.tc : Thread Cert.Kernel.nD Cert.Kernel.τ).loc Cert.Kernel.main_arg0) x).toNat < 50257 :=
  fun c => inRange_of_fn (F := Bits) _ _ (h c)

theorem inRange_of_Pre_KernelIdeal [hP : Cert.Pre_finite_inputs.Facts]
    (m : (ℓ : Loc Cert.KernelIdeal.nD Cert.KernelIdeal.τ Cert.KernelIdeal.sig) → Buf (Elt Ideal) ℓ)
    (h : Cert.Pre_KernelIdeal m) :
    ∀ (c : Dev Cert.KernelIdeal.nD) x,
      (m ((c.tc : Thread Cert.KernelIdeal.nD Cert.KernelIdeal.τ).loc Cert.KernelIdeal.main_arg0) x).toNat < 50257 :=
  fun c => inRange_of_fn (F := Ideal) _ _ (h c)

end Cert.PreDecode

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Tbl : Type := (⟨2, ![128, 128]⟩ : Shape).Idx → BitVec 32

abbrev Emb : Type := (⟨2, ![50257, 768]⟩ : Shape).Idx → EReal

/-- Every token names a row of the embedding table. -/
def InRange (tbl : Tbl) : Prop := ∀ x, (tbl x).toNat < 50257

/-- Lane `d` of the embedding row the word `v` names (row 0 if it names none). -/
def row (emb : Emb) (v : BitVec 32) (d : Fin 768) : EReal :=
  if h : v.toNat < 50257 then emb (ix2 ⟨v.toNat, h⟩ d) else emb (ix2 ⟨0, by decide⟩ d)

/-- The embedded sentence: `tanh` of the row that token `(n, l)` names, at lane `d`. -/
def embT (tbl : Tbl) (emb : Emb) (n l : Fin 128) (d : Fin 768) : EReal :=
  Ideal.tanh (row emb (tbl (ix2 n l)) d)

/-- The token shown at pixel `(y, x)`: patch `(y / 16, x / 16)` in row-major order, the last token repeated from patch 128 on. -/
def tok (y x : Fin 384) : Fin 128 := ⟨min ((y.val / 16) * 24 + x.val / 16) 127, by omega⟩

/-- The lane a pixel reads inside its patch: channel, then row and column within the 16 × 16 patch. -/
def lane (ch : Fin 3) (y x : Fin 384) : Fin 768 := ⟨ch.val * 256 + (y.val % 16) * 16 + x.val % 16, by omega⟩

/-- The assembled image before the clamp. -/
def img (tbl : Tbl) (emb : Emb) (n : Fin 128) (ch : Fin 3) (y x : Fin 384) : EReal :=
  embT tbl emb n (tok y x) (lane ch y x)

/-- Unnormalise by 1/2 and 1/2, clamp to [0, 1], normalise again. -/
def post (v : EReal) : EReal :=
  Ideal.div (min (Ideal.ofBits .f32 0x3F800000#32) (max (Ideal.ofBits .f32 0x00000000#32)
      (v * Ideal.ofBits .f32 0x3F000000#32 + Ideal.ofBits .f32 0x3F000000#32)) - Ideal.ofBits .f32 0x3F000000#32)
    (Ideal.ofBits .f32 0x3F000000#32)

def out (tbl : Tbl) (emb : Emb) (n : Fin 128) (ch : Fin 3) (y x : Fin 384) : EReal := post (img tbl emb n ch y x)

/-- The squared Frobenius norm of the unclamped image. -/
def sumsq (tbl : Tbl) (emb : Emb) : EReal :=
  ∑ n : Fin 128, ∑ ch : Fin 3, ∑ y : Fin 384, ∑ x : Fin 384, img tbl emb n ch y x * img tbl emb n ch y x

/-- The Frobenius norm over the batch size 128. -/
def norm (tbl : Tbl) (emb : Emb) : EReal :=
  Ideal.div (Ideal.sqrt (sumsq tbl emb)) (Ideal.ofBits .f32 0x43000000#32)

def outArr (tbl : Tbl) (emb : Emb) : (⟨4, ![128, 3, 384, 384]⟩ : Shape).Idx → EReal :=
  fun i => out tbl emb (i 0) (i 1) (i 2) (i 3)

def normArr (tbl : Tbl) (emb : Emb) : (⟨0, ![]⟩ : Shape).Idx → EReal := fun _ => norm tbl emb

end Cert.Spec

end
-- ==== Proof.LibGatherAxis.lean ====
import Idealize.ShloMosaic.PureOps.Ideal
import Idealize.ShloMosaic.Lib.ValueIdx

noncomputable section

namespace Cert.LibGatherAxis

open Idealize.ShloMosaic Idealize.ShloMosaic.ValueIdx

variable {α : Type}

abbrev rowsDims (N f R C : Nat)
    (wf : GatherDims.WF ⟨2, ![N, f]⟩ ⟨3, ![R, C, 1]⟩ ⟨3, ![R, C, f]⟩ [2] [0] [] [0] [] 2 ![1, f]) :
    GatherDims ⟨2, ![N, f]⟩ ⟨3, ![R, C, 1]⟩ ⟨3, ![R, C, f]⟩ where
  offsetDims := [2]
  collapsedSliceDims := [0]
  operandBatchingDims := []
  startIndicesBatchingDims := []
  startIndexMap := [0]
  indexVectorDim := 2
  sliceSizes := ![1, f]
  wf := wf

/-- A row gather read at an index: the operand's row named by the start index clamped into range, the lane kept. -/
theorem gather_rows_apply {N f R C w : Nat} (hN : 0 < N)
    (wf : GatherDims.WF ⟨2, ![N, f]⟩ ⟨3, ![R, C, 1]⟩ ⟨3, ![R, C, f]⟩ [2] [0] [] [0] [] 2 ![1, f])
    (x : (⟨2, ![N, f]⟩ : Shape).Idx → α) (idx : IVec ⟨3, ![R, C, 1]⟩ w) (r : Fin R) (c : Fin C) (k : Fin f) :
    Host.gather (rowsDims N f R C wf) x idx (ix3 r c k)
      = x (ix2 (⟨min (idx (ix3 r c (0 : Fin 1))).toInt.toNat (N - 1), by omega⟩ : Fin N) k) := by
  unfold Host.gather
  congr 1
  funext a
  refine Fin.ext ?_
  show (rowsDims N f R C wf).start (ix3 r c k) idx a + (rowsDims N f R C wf).batchCoord (ix3 r c k) a
      + (rowsDims N f R C wf).offCoord (ix3 r c k) a = _
  rw [GatherDims.batchCoord_eq_zero _ _ _ List.not_mem_nil, Nat.add_zero]
  have ha : a = (0 : Fin 2) ∨ a = (1 : Fin 2) := by
    rcases a with ⟨v, hv⟩
    have hv2 : v < 2 := hv
    rcases (by omega : v = 0 ∨ v = 1) with rfl | rfl
    · exact Or.inl rfl
    · exact Or.inr rfl
  rcases ha with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N f R C wf).startIndexMap from List.mem_singleton.mpr rfl)]
    have hsi : (rowsDims N f R C wf).siIdx (ix3 r c k) ⟨List.idxOf (0 : Fin 2) (rowsDims N f R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  · have h10 : ¬ ((1 : Fin 2) = 0) := by decide
    have hm : (1 : Fin 2) ∉ (rowsDims N f R C wf).startIndexMap :=
      fun h => absurd (List.mem_singleton.mp h) h10
    have hk : (1 : Fin 2) ∈ (rowsDims N f R C wf).sKept :=
      (GatherDims.mem_sKept _ _).mpr ⟨fun h => absurd (List.mem_singleton.mp h) h10, List.not_mem_nil⟩
    unfold GatherDims.start GatherDims.offCoord
    rw [dif_neg hm, dif_pos hk, Nat.zero_add]
    rfl

abbrev axis1Dims (A N c u v e : Nat)
    (wf : GatherDims.WF ⟨5, ![A, N, c, u, v]⟩ ⟨2, ![e, 1]⟩ ⟨5, ![A, e, c, u, v]⟩ [0, 2, 3, 4] [1] [] [1] [] 1 ![A, 1, c, u, v]) :
    GatherDims ⟨5, ![A, N, c, u, v]⟩ ⟨2, ![e, 1]⟩ ⟨5, ![A, e, c, u, v]⟩ where
  offsetDims := [0, 2, 3, 4]
  collapsedSliceDims := [1]
  operandBatchingDims := []
  startIndicesBatchingDims := []
  startIndexMap := [1]
  indexVectorDim := 1
  sliceSizes := ![A, 1, c, u, v]
  wf := wf

theorem fin5_cases (g : Fin 5) : g = 0 ∨ g = 1 ∨ g = 2 ∨ g = 3 ∨ g = 4 := by
  rcases g with ⟨n, hn⟩
  rcases (by omega : n = 0 ∨ n = 1 ∨ n = 2 ∨ n = 3 ∨ n = 4) with rfl | rfl | rfl | rfl | rfl
  · exact Or.inl rfl
  · exact Or.inr (Or.inl rfl)
  · exact Or.inr (Or.inr (Or.inl rfl))
  · exact Or.inr (Or.inr (Or.inr (Or.inl rfl)))
  · exact Or.inr (Or.inr (Or.inr (Or.inr rfl)))

/-- A gather along axis 1 of a rank-5 array read at an index: the start index clamped into range, the other coordinates kept. -/
theorem gather_axis1_apply {A N c u v e w : Nat} (hN : 0 < N)
    (wf : GatherDims.WF ⟨5, ![A, N, c, u, v]⟩ ⟨2, ![e, 1]⟩ ⟨5, ![A, e, c, u, v]⟩ [0, 2, 3, 4] [1] [] [1] [] 1 ![A, 1, c, u, v])
    (x : (⟨5, ![A, N, c, u, v]⟩ : Shape).Idx → α) (idx : IVec ⟨2, ![e, 1]⟩ w)
    (a : Fin A) (p : Fin e) (k : Fin c) (y : Fin u) (z : Fin v) :
    Host.gather (axis1Dims A N c u v e wf) x idx (ix5 a p k y z)
      = x (ix5 a (⟨min (idx (ix2 p (0 : Fin 1))).toInt.toNat (N - 1), by omega⟩ : Fin N) k y z) := by
  unfold Host.gather
  congr 1
  funext g
  refine Fin.ext ?_
  show (axis1Dims A N c u v e wf).start (ix5 a p k y z) idx g + (axis1Dims A N c u v e wf).batchCoord (ix5 a p k y z) g
      + (axis1Dims A N c u v e wf).offCoord (ix5 a p k y z) g = _
  rw [GatherDims.batchCoord_eq_zero _ _ _ List.not_mem_nil, Nat.add_zero]
  have h01 : ¬ ((0 : Fin 5) = 1) := by decide
  have h21 : ¬ ((2 : Fin 5) = 1) := by decide
  have h31 : ¬ ((3 : Fin 5) = 1) := by decide
  have h41 : ¬ ((4 : Fin 5) = 1) := by decide

  have hoff : ∀ g : Fin 5, ¬ (g = 1) →
      (axis1Dims A N c u v e wf).start (ix5 a p k y z) idx g + (axis1Dims A N c u v e wf).offCoord (ix5 a p k y z) g
        = (axis1Dims A N c u v e wf).offCoord (ix5 a p k y z) g := by
    intro g hg
    have hm : g ∉ (axis1Dims A N c u v e wf).startIndexMap := fun h => hg (List.mem_singleton.mp h)
    unfold GatherDims.start
    rw [dif_neg hm, Nat.zero_add]
  have hk : ∀ g : Fin 5, ¬ (g = 1) → g ∈ (axis1Dims A N c u v e wf).sKept := fun g hg =>
    (GatherDims.mem_sKept _ _).mpr ⟨fun h => hg (List.mem_singleton.mp h), List.not_mem_nil⟩
  rcases fin5_cases g with rfl | rfl | rfl | rfl | rfl
  · rw [hoff 0 h01]; unfold GatherDims.offCoord; rw [dif_pos (hk 0 h01)]; rfl
  · rw [GatherDims.offCoord_eq_zero _ _ _ (fun h => ((GatherDims.mem_sKept _ _).mp h).1 (List.mem_singleton.mpr rfl)),
      Nat.add_zero]
    unfold GatherDims.start
    rw [dif_pos (show (1 : Fin 5) ∈ (axis1Dims A N c u v e wf).startIndexMap from List.mem_singleton.mpr rfl)]
    have hsi : (axis1Dims A N c u v e wf).siIdx (ix5 a p k y z) ⟨List.idxOf (1 : Fin 5) (axis1Dims A N c u v e wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  · rw [hoff 2 h21]; unfold GatherDims.offCoord; rw [dif_pos (hk 2 h21)]; rfl
  · rw [hoff 3 h31]; unfold GatherDims.offCoord; rw [dif_pos (hk 3 h31)]; rfl
  · rw [hoff 4 h41]; unfold GatherDims.offCoord; rw [dif_pos (hk 4 h41)]; rfl

end Cert.LibGatherAxis

end
-- ==== Proof.LibPatchLayout.lean ====
import Idealize.ShloMosaic.PureOps
import Idealize.ShloMosaic.Lib.ValueIdx
import Idealize.ShloMosaic.Lib.ValueLayout
import Idealize.ShloMosaic.Lib.Pipeline.Value

namespace Cert.LibPatchLayout

open Idealize.ShloMosaic Idealize.ShloMosaic.ValueIdx

variable {α : Type}

/-- The patch a pixel coordinate lies in. -/
def patchOf (y : Fin 384) : Fin 24 := ⟨y.val / 16, by omega⟩

def inPatch (y : Fin 384) : Fin 16 := ⟨y.val % 16, by omega⟩

def patchIdx (a b : Fin 24) : Fin 576 := ⟨a.val * 24 + b.val, by omega⟩

def laneIdx (ch : Fin 3) (u v : Fin 16) : Fin 768 := ⟨ch.val * 256 + u.val * 16 + v.val, by omega⟩

@[simp] theorem patchOf_val (y : Fin 384) : (patchOf y).val = y.val / 16 := rfl
@[simp] theorem inPatch_val (y : Fin 384) : (inPatch y).val = y.val % 16 := rfl
@[simp] theorem patchIdx_val (a b : Fin 24) : (patchIdx a b).val = a.val * 24 + b.val := rfl
@[simp] theorem laneIdx_val (ch : Fin 3) (u v : Fin 16) : (laneIdx ch u v).val = ch.val * 256 + u.val * 16 + v.val := rfl

/-- The (0, 3, 1, 4, 2, 5) transpose of the patch grid read at an index. -/
theorem transpose_patches_apply (X : (⟨6, ![128, 24, 24, 3, 16, 16]⟩ : Shape).Idx → α)
    (hT : (⟨6, ![128, 24, 24, 3, 16, 16]⟩ : Shape).Transposes [0, 3, 1, 4, 2, 5] ⟨6, ![128, 3, 24, 16, 24, 16]⟩)
    (n : Fin 128) (ch : Fin 3) (a : Fin 24) (u : Fin 16) (b : Fin 24) (v : Fin 16) :
    transpose ⟨6, ![128, 3, 24, 16, 24, 16]⟩ [0, 3, 1, 4, 2, 5] X hT (ix6 n ch a u b v) = X (ix6 n a b ch u v) :=
  transpose_apply _ X hT _ _ fun c => match c with
    | ⟨0, _⟩ => rfl
    | ⟨1, _⟩ => rfl
    | ⟨2, _⟩ => rfl
    | ⟨3, _⟩ => rfl
    | ⟨4, _⟩ => rfl
    | ⟨5, _⟩ => rfl

theorem shapeCast_image_apply (Y : (⟨6, ![128, 3, 24, 16, 24, 16]⟩ : Shape).Idx → α)
    (hC : (⟨6, ![128, 3, 24, 16, 24, 16]⟩ : Shape).ShapeCasts ⟨4, ![128, 3, 384, 384]⟩)
    (n : Fin 128) (ch : Fin 3) (y x : Fin 384) :
    shapeCast ⟨4, ![128, 3, 384, 384]⟩ Y hC (ix4 n ch y x)
      = Y (ix6 n ch (patchOf y) (inPatch y) (patchOf x) (inPatch x)) :=
  shapeCast_apply Y hC _ _ (by
    rw [Shape.rowMajor_val_six, Shape.rowMajor_val_four]
    show ((((n.val * 3 + ch.val) * 24 + y.val / 16) * 16 + y.val % 16) * 24 + x.val / 16) * 16 + x.val % 16
        = ((n.val * 3 + ch.val) * 384 + y.val) * 384 + x.val
    omega)

theorem shapeCast_rows_apply (Z : (⟨3, ![128, 576, 768]⟩ : Shape).Idx → α)
    (hR : (⟨3, ![128, 576, 768]⟩ : Shape).ShapeCasts ⟨6, ![128, 24, 24, 3, 16, 16]⟩)
    (n : Fin 128) (a b : Fin 24) (ch : Fin 3) (u v : Fin 16) :
    shapeCast ⟨6, ![128, 24, 24, 3, 16, 16]⟩ Z hR (ix6 n a b ch u v) = Z (ix3 n (patchIdx a b) (laneIdx ch u v)) :=
  shapeCast_apply Z hR _ _ (by
    rw [Shape.rowMajor_val_six, Shape.rowMajor_val_three]
    show (n.val * 576 + (a.val * 24 + b.val)) * 768 + (ch.val * 256 + u.val * 16 + v.val)
        = ((((n.val * 24 + a.val) * 24 + b.val) * 3 + ch.val) * 16 + u.val) * 16 + v.val
    omega)

theorem shapeCast_cells_apply (W : (⟨5, ![128, 576, 3, 16, 16]⟩ : Shape).Idx → α)
    (hR : (⟨5, ![128, 576, 3, 16, 16]⟩ : Shape).ShapeCasts ⟨6, ![128, 24, 24, 3, 16, 16]⟩)
    (n : Fin 128) (a b : Fin 24) (ch : Fin 3) (u v : Fin 16) :
    shapeCast ⟨6, ![128, 24, 24, 3, 16, 16]⟩ W hR (ix6 n a b ch u v) = W (ix5 n (patchIdx a b) ch u v) :=
  shapeCast_apply W hR _ _ (by
    rw [Shape.rowMajor_val_six, Shape.rowMajor_val_five]
    show (((n.val * 576 + (a.val * 24 + b.val)) * 3 + ch.val) * 16 + u.val) * 16 + v.val
        = ((((n.val * 24 + a.val) * 24 + b.val) * 3 + ch.val) * 16 + u.val) * 16 + v.val
    omega)

/-- Reshape, transpose and reshape again: pixel `(ch, y, x)` reads patch `(y / 16, x / 16)` at `(ch, y % 16, x % 16)`. -/
theorem image_of_grid_apply (X : (⟨6, ![128, 24, 24, 3, 16, 16]⟩ : Shape).Idx → α)
    (hT : (⟨6, ![128, 24, 24, 3, 16, 16]⟩ : Shape).Transposes [0, 3, 1, 4, 2, 5] ⟨6, ![128, 3, 24, 16, 24, 16]⟩)
    (hC : (⟨6, ![128, 3, 24, 16, 24, 16]⟩ : Shape).ShapeCasts ⟨4, ![128, 3, 384, 384]⟩)
    (n : Fin 128) (ch : Fin 3) (y x : Fin 384) :
    shapeCast ⟨4, ![128, 3, 384, 384]⟩ (transpose ⟨6, ![128, 3, 24, 16, 24, 16]⟩ [0, 3, 1, 4, 2, 5] X hT) hC (ix4 n ch y x)
      = X (ix6 n (patchOf y) (patchOf x) ch (inPatch y) (inPatch x)) :=
  (shapeCast_image_apply _ hC n ch y x).trans (transpose_patches_apply X hT n ch _ _ _ _)

theorem image_of_rows_apply (Z : (⟨3, ![128, 576, 768]⟩ : Shape).Idx → α)
    (hR : (⟨3, ![128, 576, 768]⟩ : Shape).ShapeCasts ⟨6, ![128, 24, 24, 3, 16, 16]⟩)
    (hT : (⟨6, ![128, 24, 24, 3, 16, 16]⟩ : Shape).Transposes [0, 3, 1, 4, 2, 5] ⟨6, ![128, 3, 24, 16, 24, 16]⟩)
    (hC : (⟨6, ![128, 3, 24, 16, 24, 16]⟩ : Shape).ShapeCasts ⟨4, ![128, 3, 384, 384]⟩)
    (n : Fin 128) (ch : Fin 3) (y x : Fin 384) :
    shapeCast ⟨4, ![128, 3, 384, 384]⟩
        (transpose ⟨6, ![128, 3, 24, 16, 24, 16]⟩ [0, 3, 1, 4, 2, 5] (shapeCast ⟨6, ![128, 24, 24, 3, 16, 16]⟩ Z hR) hT) hC
        (ix4 n ch y x)
      = Z (ix3 n (patchIdx (patchOf y) (patchOf x)) (laneIdx ch (inPatch y) (inPatch x))) :=
  (image_of_grid_apply _ hT hC n ch y x).trans (shapeCast_rows_apply Z hR n _ _ ch _ _)

theorem image_of_cells_apply (W : (⟨5, ![128, 576, 3, 16, 16]⟩ : Shape).Idx → α)
    (hR : (⟨5, ![128, 576, 3, 16, 16]⟩ : Shape).ShapeCasts ⟨6, ![128, 24, 24, 3, 16, 16]⟩)
    (hT : (⟨6, ![128, 24, 24, 3, 16, 16]⟩ : Shape).Transposes [0, 3, 1, 4, 2, 5] ⟨6, ![128, 3, 24, 16, 24, 16]⟩)
    (hC : (⟨6, ![128, 3, 24, 16, 24, 16]⟩ : Shape).ShapeCasts ⟨4, ![128, 3, 384, 384]⟩)
    (n : Fin 128) (ch : Fin 3) (y x : Fin 384) :
    shapeCast ⟨4, ![128, 3, 384, 384]⟩
        (transpose ⟨6, ![128, 3, 24, 16, 24, 16]⟩ [0, 3, 1, 4, 2, 5] (shapeCast ⟨6, ![128, 24, 24, 3, 16, 16]⟩ W hR) hT) hC
        (ix4 n ch y x)
      = W (ix5 n (patchIdx (patchOf y) (patchOf x)) ch (inPatch y) (inPatch x)) :=
  (image_of_grid_apply _ hT hC n ch y x).trans (shapeCast_cells_apply W hR n _ _ ch _ _)

end Cert.LibPatchLayout
-- ==== Proof.RefImg.lean ====
import proofs.«422118_j38706245271901_2_alg».proof.Proof.Spec
import proofs.«422118_j38706245271901_2_alg».proof.Proof.Gen.ReferenceIdeal.Read
import proofs.«422118_j38706245271901_2_alg».proof.Proof.LibGatherAxis
import proofs.«422118_j38706245271901_2_alg».proof.Proof.LibPatchLayout
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.ValueIdx
open Idealize.ShloMosaic.StableHlo.Predicate (slt_iff_toNat slt_bool_iff_toNat ofBool_eq_one_iff toInt_eq_toNat_of_lt toInt_ofNat_small)
open Cert.LibGatherAxis Cert.LibPatchLayout

theorem select_neg_fix (w m : BitVec 32) (hw : w.toNat < 2 ^ 31) :
    Scalar.select (IntOp.cmpi .slt w 0#32) (IntOp.addi w m) w = w := by
  have hc : ¬ (IntOp.cmpi .slt w 0#32 = 1#1) := by
    rw [slt_iff_toNat hw (by decide)]
    exact Nat.not_lt_zero _
  rw [eq_zero_of_ne_one hc]
  exact select_zero _ _

theorem minsi_iota (p : ℕ) (hp : p < 576) :
    IntOp.minsi (BitVec.ofNat 32 p) 127#32 = BitVec.ofNat 32 (min p 127) := by
  have h1 : (BitVec.ofNat 32 p).toNat = p := by rw [BitVec.toNat_ofNat]; omega
  have hp31 : (BitVec.ofNat 32 p).toNat < 2 ^ 31 := by rw [h1]; omega
  have h127 : (127#32 : BitVec 32).toNat = 127 := by decide
  have hiff := slt_bool_iff_toNat hp31 (by decide : (127#32 : BitVec 32).toNat < 2 ^ 31)
  rw [ofBool_eq_one_iff, h1, h127] at hiff
  unfold IntOp.minsi
  by_cases hlt : p < 127
  · rw [if_pos (hiff.mpr hlt), Nat.min_eq_left (by omega)]
  · rw [if_neg (fun h => hlt (hiff.mp h)), Nat.min_eq_right (by omega)]

theorem v5_at (tbl : Cert.Spec.Tbl) (h : Cert.Spec.InRange tbl) (n l : Fin 128) :
    val_main_v5 (F := Ideal) tbl (ix3 n l (0 : Fin 1)) = tbl (ix2 n l) := by
  rw [val_main_v5_apply]
  have hi : idx_main_v5 (ix3 n l (0 : Fin 1)) = ix2 n l := by
    funext a; match a with | ⟨0, _⟩ => rfl | ⟨1, _⟩ => rfl
  rw [hi, val_main_v4_apply, val_main_v1_apply, val_main_v3_apply, val_main_v0_apply, val_main_c_apply]
  exact select_neg_fix _ _ (by have := h (ix2 n l); omega)

theorem row_of_clamp (emb : Cert.Spec.Emb) (v : BitVec 32) (hv : v.toNat < 50257) (d : Fin 768)
    {hlt : min v.toInt.toNat (50257 - 1) < 50257} :
    emb (ix2 (⟨min v.toInt.toNat (50257 - 1), hlt⟩ : Fin 50257) d) = Cert.Spec.row emb v d := by
  unfold Cert.Spec.row
  rw [dif_pos hv]
  have hval : min v.toInt.toNat (50257 - 1) = v.toNat := by
    rw [toInt_eq_toNat_of_lt (by omega), Int.toNat_natCast]; omega
  have hf : (⟨min v.toInt.toNat (50257 - 1), hlt⟩ : Fin 50257) = ⟨v.toNat, hv⟩ := Fin.ext hval
  rw [hf]

theorem v6_at (tbl : Cert.Spec.Tbl) (emb : Cert.Spec.Emb) (h : Cert.Spec.InRange tbl) (n l : Fin 128) (d : Fin 768) :
    val_main_v6 (F := Ideal) tbl emb (ix3 n l d) = Cert.Spec.row emb (tbl (ix2 n l)) d := by
  unfold val_main_v6
  have hd : gather_S50257x768_S128x128x1_S128x128x768_2_0_n_n_0_2_1768
      = rowsDims 50257 768 128 128 gather_S50257x768_S128x128x1_S128x128x768_2_0_n_n_0_2_1768_wf := rfl
  have hv5 := v5_at tbl h n l
  have hv : (val_main_v5 (F := Ideal) tbl (ix3 n l (0 : Fin 1))).toNat < 50257 := by rw [hv5]; exact h _
  rw [hd, gather_rows_apply (by decide)]
  exact (row_of_clamp emb _ hv d).trans (by rw [hv5])

theorem v7_at (tbl : Cert.Spec.Tbl) (emb : Cert.Spec.Emb) (h : Cert.Spec.InRange tbl) (n l : Fin 128) (d : Fin 768) :
    val_main_v7 (F := Ideal) tbl emb (ix3 n l d) = Cert.Spec.embT tbl emb n l d := by
  rw [val_main_v7_apply, v6_at tbl emb h]
  rfl

theorem v8_at (tbl : Cert.Spec.Tbl) (emb : Cert.Spec.Emb) (h : Cert.Spec.InRange tbl) (n l : Fin 128) (ch : Fin 3) (u v : Fin 16) :
    val_main_v8 (F := Ideal) tbl emb (ix5 n l ch u v) = Cert.Spec.embT tbl emb n l (laneIdx ch u v) := by
  rw [val_main_v8_apply]
  have hn := n.isLt; have hl := l.isLt; have hch := ch.isLt; have hu := u.isLt; have hv := v.isLt
  have hi : idx_main_v8 (ix5 n l ch u v) = ix3 n l (laneIdx ch u v) := by
    funext a
    match a with
    | ⟨0, _⟩ =>
      exact Fin.ext (show ((((n.val * 128 + l.val) * 3 + ch.val) * 16 + u.val) * 16 + v.val) / 98304 = n.val by omega)
    | ⟨1, _⟩ =>
      exact Fin.ext (show ((((n.val * 128 + l.val) * 3 + ch.val) * 16 + u.val) * 16 + v.val) / 768 % 128 = l.val by omega)
    | ⟨2, _⟩ =>
      exact Fin.ext (show ((((n.val * 128 + l.val) * 3 + ch.val) * 16 + u.val) * 16 + v.val) % 768
        = ch.val * 256 + u.val * 16 + v.val by omega)
  rw [hi, v7_at tbl emb h]

def tokOf (p : Fin 576) : Fin 128 := ⟨min p.val 127, by omega⟩

theorem v17_at (p : Fin 576) : val_main_v17 (F := Ideal) (ix2 p (0 : Fin 1)) = BitVec.ofNat 32 (min p.val 127) := by
  rw [val_main_v17_apply]
  have hi : idx_main_v17 (ix2 p (0 : Fin 1)) = ix1 p := by
    funext a; match a with | ⟨0, _⟩ => rfl
  have h11 : val_main_v11 (F := Ideal) (ix1 p) = BitVec.ofNat 32 (min p.val 127) := by
    rw [val_main_v11_apply, val_main_v9_apply, val_main_v10_apply, val_main_c_1_apply]
    exact minsi_iota p.val p.isLt
  rw [hi, val_main_v16_apply, val_main_v13_apply, val_main_v15_apply, val_main_v12_apply, val_main_c_2_apply, h11]
  exact select_neg_fix _ _ (by rw [BitVec.toNat_ofNat]; omega)

theorem v18_at (tbl : Cert.Spec.Tbl) (emb : Cert.Spec.Emb) (h : Cert.Spec.InRange tbl) (n : Fin 128) (p : Fin 576) (ch : Fin 3) (u v : Fin 16) :
    val_main_v18 (F := Ideal) tbl emb (ix5 n p ch u v) = Cert.Spec.embT tbl emb n (tokOf p) (laneIdx ch u v) := by
  unfold val_main_v18
  have hd : gather_S128x128x3x16x16_S576x1_S128x576x3x16x16_0234_1_n_n_1_1_128131616
      = axis1Dims 128 128 3 16 16 576 gather_S128x128x3x16x16_S576x1_S128x576x3x16x16_0234_1_n_n_1_1_128131616_wf := rfl
  have hp := p.isLt
  have hf : ∀ hlt, (⟨min (val_main_v17 (F := Ideal) (ix2 p (0 : Fin 1))).toInt.toNat (128 - 1), hlt⟩ : Fin 128) = tokOf p :=
    fun hlt => Fin.ext (by
      show min (val_main_v17 (F := Ideal) (ix2 p (0 : Fin 1))).toInt.toNat (128 - 1) = min p.val 127
      rw [v17_at, toInt_ofNat_small _ (by omega), Int.toNat_natCast]; omega)
  rw [hd, gather_axis1_apply (by decide), hf, v8_at tbl emb h]

/-- The reference's gathers and layout operations compose to the specification's image: in range, index wrapping and clamping are the identity. -/
theorem v21_eq (tbl : Cert.Spec.Tbl) (emb : Cert.Spec.Emb) (h : Cert.Spec.InRange tbl) :
    val_main_v21 (F := Ideal) tbl emb = fun i => Cert.Spec.img tbl emb (i 0) (i 1) (i 2) (i 3) := by
  funext i
  obtain ⟨n, ch, y, x, rfl⟩ : ∃ n ch y x, i = ix4 n ch y x := ⟨_, _, _, _, eq_ix4 i⟩
  show val_main_v21 (F := Ideal) tbl emb (ix4 n ch y x) = Cert.Spec.img tbl emb n ch y x
  unfold val_main_v21 val_main_v20 val_main_v19
  refine (image_of_cells_apply _ _ _ _ n ch y x).trans ?_
  rw [v18_at tbl emb h]
  rfl

end Cert.ReferenceIdeal.RefValue

end
-- ==== Proof.RefTail.lean ====
import proofs.«422118_j38706245271901_2_alg».proof.Proof.Spec
import proofs.«422118_j38706245271901_2_alg».proof.Proof.Gen.ReferenceIdeal.Run
import proofs.«422118_j38706245271901_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

theorem v34_eq (tbl : Cert.Spec.Tbl) (emb : Cert.Spec.Emb)
    (h21 : val_main_v21 (F := Ideal) tbl emb = fun i => Cert.Spec.img tbl emb (i 0) (i 1) (i 2) (i 3)) :
    val_main_v34 (F := Ideal) tbl emb = Cert.Spec.outArr tbl emb := by
  funext i
  rw [val_main_v34_apply, val_main_v32_apply, val_main_v30_apply, val_main_call0_v2_apply, val_main_v29_apply,
    val_main_v27_apply, h21, val_main_v33_apply, val_main_cst_10_apply, val_main_v31_apply, val_main_cst_9_apply,
    val_main_call0_v4_apply, val_main_call0_v3_apply, val_main_cst_8_apply, val_main_call0_v1_apply,
    val_main_call0_v0_apply, val_main_cst_7_apply, val_main_v28_apply, val_main_cst_6_apply, val_main_v26_apply,
    val_main_cst_5_apply]
  simp only [Ideal.hostDivf_def, Ideal.subf_def, Ideal.minimumf_def, Ideal.maximumf_def, Ideal.addf_def, Ideal.mulf_def,
    Ideal.ofBits_def, Cert.Spec.outArr, Cert.Spec.out, Cert.Spec.post]

theorem v25_eq (tbl : Cert.Spec.Tbl) (emb : Cert.Spec.Emb)
    (h21 : val_main_v21 (F := Ideal) tbl emb = fun i => Cert.Spec.img tbl emb (i 0) (i 1) (i 2) (i 3)) :
    val_main_v25 (F := Ideal) tbl emb = Cert.Spec.normArr tbl emb := by
  funext i
  rw [val_main_v25_apply, val_main_v24_apply, val_main_v23_apply, val_main_cst_4_apply, val_main_cst_apply]
  simp only [val_main_v22_apply, h21]
  rw [sum_idx4]
  simp only [Ideal.hostDivf_def, Ideal.hostUnary_sqrt_def, Ideal.mulf_def, Ideal.ofBits_def, Ideal.ofBits_zero_f32, zero_add,
    Cert.Spec.normArr, Cert.Spec.norm, Cert.Spec.sumsq]

/-- The reference's run ends at the specification's clamped image and norm. -/
theorem ref_run (m' : (ℓ : Loc nD τ sig) → Buf (Elt Ideal) ℓ) (ρ' : Dev nD → PrngReg)
    (hr : ∀ c : Dev nD, Cert.Spec.InRange (m' ((c.tc : Thread nD τ).loc main_arg0)))
    (h21 : ∀ (tbl : Cert.Spec.Tbl) (emb : Cert.Spec.Emb), Cert.Spec.InRange tbl →
      val_main_v21 (F := Ideal) tbl emb = fun i => Cert.Spec.img tbl emb (i 0) (i 1) (i 2) (i 3)) :
    θ_run (defs (F := Ideal)) (onTc (τ := τ) (main (F := Ideal))) ⟨m', fun _ => 0, ρ'⟩ fun r => ∀ c : Dev nD,
      r.2.mem ((c.tc : Thread nD τ).loc main_v34)
          = Cert.Spec.outArr (m' ((c.tc : Thread nD τ).loc main_arg0)) (m' ((c.tc : Thread nD τ).loc main_arg1))
      ∧ r.2.mem ((c.tc : Thread nD τ).loc main_v25)
          = Cert.Spec.normArr (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1) := by
  refine (θ_run (defs (F := Ideal)) _ _).mono (fun _ h c => ?_) (Cert.ReferenceIdeal.Value.run (F := Ideal) m' ρ')
  obtain ⟨h34, h25, h0, h1⟩ := h c
  refine ⟨?_, ?_, h0, h1⟩
  · rw [h34, val_main_v34_eq]
    exact v34_eq _ _ (h21 _ _ (hr c))
  · rw [h25, val_main_v25_eq]
    exact v25_eq _ _ (h21 _ _ (hr c))

end Cert.ReferenceIdeal.RefValue

end
-- ==== Proof.KI.R0Def.lean ====
import proofs.«422118_j38706245271901_2_alg».proof.Proof.Gen.KernelIdeal
import proofs.«422118_j38706245271901_2_alg».proof.Proof.Gen.KernelIdeal.Launch
import Idealize.ShloMosaic.Lib.Transfers
import Idealize.ShloMosaic.Lib.Pipeline.Kit
import Idealize.ShloMosaic.Lib.ValueIdx

noncomputable section

namespace Cert.KernelIdeal.R0

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.Sem

variable {F : FTy → Type} [FloatOps F]

abbrev UC : Type := UR sig nD τ × Counters
local notation "𝕄" => MT nD τ sig Unit (Elt F) ℕ UC ℕ

abbrev osem0 : Fin 16 → SemLoc sig := fun k => .dma ⟨k.val + 2, by have := k.isLt; show k.val + 2 < 23; omega⟩

/-- Lane `d` of the embedding row the word `v` names (row 0 if it names none), over any float type. -/
def rowAt (emb : (⟨S50257x768, .f32⟩ : BufTy).Contents (Elt F)) (v : BitVec 32) (d : Fin 768) : Elt F .f32 :=
  if h : v.toNat < 50257 then emb (ix2 ⟨v.toNat, h⟩ d) else emb (ix2 ⟨0, by decide⟩ d)

/-- What the gather leaves for sentence `t` at position `l`, lane `d`: `tanh` of the named row's lane. -/
def gathAt (tbl : (⟨S128x128, .i32⟩ : BufTy).Contents (Elt F)) (emb : (⟨S50257x768, .f32⟩ : BufTy).Contents (Elt F))
    (t : Fin 128) (l : Fin 128) (d : Fin 768) : Elt F .f32 :=
  FloatOps.tanh (rowAt emb (tbl (ix2 t l)) d)

def gath (tbl : (⟨S128x128, .i32⟩ : BufTy).Contents (Elt F)) (emb : (⟨S50257x768, .f32⟩ : BufTy).Contents (Elt F))
    (t : Fin 128) : S1x128x768.Idx → Elt F .f32 :=
  fun j => gathAt tbl emb t (j 1) (j 2)

section Data

variable (a0 : (pcfg0 (F := F)).Adm) (c : Dev nD) (V : (b : Ref sig .tc) → Buf (Elt F) ((c : Thread nD τ).loc b))

/-- Held between grid points: the sixteen semaphores at zero, both tables whole, and the buffers no window stages. -/
def Phi0 : sProp 𝕄 :=
  iprop((Pipeline.ownSems0 osem0 c ∗ (((c : Thread nD τ).loc main_arg1) ↦{fullShare} V main_arg1))
    ∗ Pipeline.prefHeld pre0 c (fun _ => fullShare) a0.1 ∗ Pipeline.scopedRest spec0 c)

/-- The proof data of the gather: after point `t` the output block is sentence `t`'s gathered rows. -/
def dat0 : Pipeline.Dat τ (Elt F) Unit ℕ UC ℕ (cfg0 a0) c where
  A w := V (Pipeline.arrRef spec0 w)
  after w t := match w with
    | ⟨0, _⟩ => gath (a0.1 0) (V main_arg1) ⟨t.val, lt_of_lt_of_eq t.isLt N_0⟩
  Φ _ := Phi0 a0 c V
  q _ := fullShare
  owed _ := 0

end Data

end Cert.KernelIdeal.R0

end
-- ==== Proof.KI.R1Def.lean ====
import proofs.«422118_j38706245271901_2_alg».proof.Proof.Gen.KernelIdeal.Skeleton
import proofs.«422118_j38706245271901_2_alg».proof.Proof.KI.R0Def

noncomputable section

namespace Cert.KernelIdeal.R1

open Cert.KernelIdeal Cert.KernelIdeal.Gen Cert.KernelIdeal.R0
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ UC ℕ

abbrev accM : Memref sig .tc .vmem S1x1 .f32 := Memref.whole cc1_scratch0

abbrev zero1 : Vec F S1x1 .f32 := k1_pay1 (F := F)

/-- The accumulator after a step: its contents plus the sum of the squares of the slab. -/
abbrev sqAcc (x : Vec F S1x3x384x384 .f32) (a : Vec F S1x1 .f32) : Vec F S1x1 .f32 := k1_pay3 x a

/-- The slab a step stores: unnormalised, clamped to [0, 1], normalised again, pixel by pixel. -/
abbrev clampBlk (x : Vec F S1x3x384x384 .f32) : Vec F S1x3x384x384 .f32 := k1_pay4 x

section Data

variable (c : Dev nD) (V : (b : Ref sig .tc) → Buf (Elt F) ((c : Thread nD τ).loc b))

/-- The slab handed to point `t`: block `(t, 0, 0, 0)` of the image. -/
def xblk (t : Fin cfg1.N) : Vec F S1x3x384x384 .f32 :=
  ((cfg1.win 0).blk t).view.read (Elt F) (V (Pipeline.arrRef spec1 0))

/-- The accumulator after point `k`: the running sum of the squares of slabs `0 … k`. -/
def accAt : (k : ℕ) → k < cfg1.N → Vec F S1x1 .f32
  | 0, hk => sqAcc (xblk c V ⟨0, hk⟩) zero1
  | k + 1, hk => sqAcc (xblk c V ⟨k + 1, hk⟩) (accAt k (Nat.lt_of_succ_lt hk))

def accPart (t : Fin (cfg1.N + 1)) : sProp 𝕄 :=
  if h : t.val = 0 then iprop(∃ a, owns (c : Thread nD τ) accM fullShare a)
  else iprop(owns (c : Thread nD τ) accM fullShare (accAt c V (t.val - 1) (by have := t.isLt; omega)))

/-- Held between grid points: the first region's buffers at any contents, and the accumulator at what the previous point left. -/
def Phi1 (t : Fin (cfg1.N + 1)) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_scratch0), ((c : Thread nD τ).loc cc0_scratch0) ↦{fullShare} f)
    ∗ accPart c V t)

/-- The proof data of the clamp region: the clamped slab after each point, the accumulator at the last. -/
def dat1 : Pipeline.Dat τ (Elt F) Unit ℕ UC ℕ cfg1 c where
  A w := V (Pipeline.arrRef spec1 w)
  after w t := match w with
    | ⟨0, _⟩ => xblk c V t
    | ⟨1, _⟩ => clampBlk (xblk c V t)
    | ⟨2, _⟩ => accAt c V t.val t.isLt
  Φ t := Phi1 c V t
  q _ := fullShare
  owed _ := 0

end Data

end Cert.KernelIdeal.R1

end
-- ==== Proof.KI.Vals.lean ====
import proofs.«422118_j38706245271901_2_alg».proof.Proof.KI.R0Def
import proofs.«422118_j38706245271901_2_alg».proof.Proof.KI.R1Def
import proofs.«422118_j38706245271901_2_alg».proof.Proof.Gen.KernelIdeal.Regions
import Idealize.ShloMosaic.Lib.Pipeline.FrameSuffix
import Idealize.ShloMosaic.Lib.Pipeline.RegionsLoop

noncomputable section

namespace Cert.KernelIdeal.Launch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ R0.UC ℕ

variable (m : (ℓ : Loc nD τ sig) → Buf (Elt F) ℓ)

/-- The token table as launched: nothing before the gather writes it. -/
def tbl : pre0.Contents (Elt F) := fun k => m ((0 : Dev nD).tc.loc (pre0.ref k))

abbrev a0 : (pcfg0 (F := F)).Adm := ⟨tbl m, trivial⟩

abbrev adm : (p : Fin 2) → (pcfgs (F := F) p).Adm
  | ⟨0, _⟩ => a0 m
  | ⟨1, _⟩ => cfg1.toPCfg_adm

section Fold

abbrev W0 : Dev nD → Valuation τ sig (Elt F) := fun c b => m ((c : Dev nD), b)

abbrev B0 : (c : Dev nD) → (b : Ref sig .tc) → Buf (Elt F) ((c : Thread nD τ).loc b) := fun c b => W0 m c b

/-- Contents after the gather: its output array at what the write-backs fold to, every other buffer as entered. -/
def W1 (c : Dev nD) : Valuation τ sig (Elt F) :=
  Pipeline.withArrays spec0 c (W0 m c) fun w => (R0.dat0 (a0 m) c (B0 m c)).arrAt w (cfg0 (a0 m)).N
theorem W1_arr (c : Dev nD) (w : Fin (cfg0 (a0 m)).W) :
    W1 m c (Proc.devRef .tc (Pipeline.arrRef spec0 w)) = (R0.dat0 (a0 m) c (B0 m c)).arrAt w (cfg0 (a0 m)).N := by
  unfold W1; exact Pipeline.withArrays_arr spec0 (launch0 (F := F)).win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

abbrev B1 : (c : Dev nD) → (b : Ref sig .tc) → Buf (Elt F) ((c : Thread nD τ).loc b) := fun c b => W1 m c b

theorem hF0 (c : Dev nD) (w : Fin (cfg0 (a0 m)).W) : (R0.dat0 (a0 m) c (B0 m c)).arrAt w (cfg0 (a0 m)).N = B1 m c (Pipeline.arrRef spec0 w) :=
  (W1_arr m c w).symm
theorem hrest0 (c : Dev nD) : ∀ b, b ∉ Finset.univ.image (Pipeline.arrRef spec0) → B1 m c b = B0 m c b :=
  fun b hb => W1_of_ne m c b fun w e => hb (Finset.mem_image.mpr ⟨w, Finset.mem_univ _, e⟩)

abbrev W2 : Dev nD → Valuation τ sig (Elt F) := fun c => StableHlo.after hostOps1 (W1 m c)

abbrev B2 : (c : Dev nD) → (b : Ref sig .tc) → Buf (Elt F) ((c : Thread nD τ).loc b) := fun c b => W2 m c b

/-- Contents after the clamp region, likewise. -/
def W3 (c : Dev nD) : Valuation τ sig (Elt F) :=
  Pipeline.withArrays spec1 c (W2 m c) fun w => (R1.dat1 c (B2 m c)).arrAt w cfg1.N
theorem W3_arr (c : Dev nD) (w : Fin cfg1.W) :
    W3 m c (Proc.devRef .tc (Pipeline.arrRef spec1 w)) = (R1.dat1 c (B2 m c)).arrAt w cfg1.N := by
  unfold W3; exact Pipeline.withArrays_arr spec1 (launch1 (F := F)).win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

abbrev B3 : (c : Dev nD) → (b : Ref sig .tc) → Buf (Elt F) ((c : Thread nD τ).loc b) := fun c b => W3 m c b
theorem hF1 (c : Dev nD) (w : Fin cfg1.W) : (R1.dat1 c (B2 m c)).arrAt w cfg1.N = B3 m c (Pipeline.arrRef spec1 w) :=
  (W3_arr m c w).symm
theorem hrest1 (c : Dev nD) : ∀ b, b ∉ Finset.univ.image (Pipeline.arrRef spec1) → B3 m c b = B2 m c b :=
  fun b hb => W3_of_ne m c b fun w e => hb (Finset.mem_image.mpr ⟨w, Finset.mem_univ _, e⟩)

abbrev W4 : Dev nD → Valuation τ sig (Elt F) := fun c => StableHlo.after hostOps2 (W3 m c)

end Fold

section Reads

theorem W4_main_v7_0 (c : Dev nD) : W4 m c (Proc.devRef .tc main_v7_0) = (R1.dat1 c (B2 m c)).arrAt 1 cfg1.N :=
  (StableHlo.after_of_writes_sub hostOps2 _ hostOps2_writes (by decide : main_v7_0 ∉ hostOps2_W)).trans (W3_arr m c 1)

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl

theorem B0_pre (c : Dev nD) : (fun k => B0 m c (pre0.ref k)) = tbl m := by
  obtain rfl : c = 0 := Subsingleton.elim _ _; rfl

end Reads

section Data

def pdats : (p : Fin 2) → (c : Dev nD) → Dat τ (Elt F) Unit ℕ R0.UC ℕ (Pipeline.pin (pcfgs (F := F)) (adm m) p) c
  | ⟨0, _⟩ => fun c => R0.dat0 (a0 m) c (B0 m c)
  | ⟨1, _⟩ => fun c => R1.dat1 c (B2 m c)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

/-- Between two items of the program: every unscoped buffer at the boundary's contents, nothing owed. -/
abbrev T (W : Dev nD → Valuation τ sig (Elt F)) (c : Dev nD) : sProp 𝕄 :=
  iprop(StableHlo.held (c : Thread nD τ) (Pipeline.ucRefs τ sig) (W c) ∗ R c)

abbrev Tₙ (c : Dev nD) : sProp 𝕄 :=
  iprop(StableHlo.held (c : Thread nD τ) (Pipeline.ucRefs τ sig) (W4 m c) ∗ ∃ r, prngReg c r)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := R0.UC) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev hseg1 : Pipeline.HostSeg (Name := ℕ) (U := R0.UC) (pcfgs (F := F)) defs₀ 𝒱₀ L lv := hseg hostOps1 hostOps1_sub hostOps1_fresh (W1 m)
abbrev hseg3 : Pipeline.HostSeg (Name := ℕ) (U := R0.UC) (pcfgs (F := F)) defs₀ 𝒱₀ L lv := hseg hostOps2 hostOps2_sub hostOps2_fresh (W3 m)

theorem T_last (c : Dev nD) : T (W4 m) c ⊢ iprop(Tₙ m c ∗ ∃ W, owes (c : Thread nD τ) (0 : CellTallies nD τ sig Unit) W) := by
  iintro ⟨Hh, Hp, HO⟩
  isplitl [Hh Hp]
  · isplitl [Hh] <;> iassumption
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Data

end Cert.KernelIdeal.Launch

end
-- ==== Proof.KI.Launch.lean ====
import proofs.«422118_j38706245271901_2_alg».proof.Proof.KI.Vals
import Idealize.ShloMosaic.Lib.Pipeline.Kit

noncomputable section

namespace Cert.KernelIdeal.Launch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ R0.UC ℕ

variable (m : (ℓ : Loc nD τ sig) → Buf (Elt F) ℓ) (ρ : Dev nD → PrngReg)

abbrev segs (reg0 : RegionSeg (pcfgs (F := F)) (adm m) (pdats m) () defs₀ 𝒱₀ L lv 0)
    (reg1 : RegionSeg (pcfgs (F := F)) (adm m) (pdats m) () defs₀ 𝒱₀ L lv 1) :
    List (Seg (pcfgs (F := F)) (adm m) (pdats m) () defs₀ 𝒱₀ L lv) :=
  [.region reg0, .host (hseg1 m), .region reg1, .host (hseg3 m)]

set_option backward.isDefEq.respectTransparency.types false in

/-- Given both regions as segments, every weakly fair execution of the program ends with each buffer at its folded contents. -/
theorem run_main
    (reg0 : RegionSeg (pcfgs (F := F)) (adm m) (pdats m) () defs₀ 𝒱₀ L lv 0)
    (hpre0 : ∀ c : Dev nD, T (W0 m) c ⊢ reg0.pre c) (hpost0 : ∀ c : Dev nD, reg0.post c ⊢ T (W1 m) c)
    (reg1 : RegionSeg (pcfgs (F := F)) (adm m) (pdats m) () defs₀ 𝒱₀ L lv 1)
    (hpre1 : ∀ c : Dev nD, T (W2 m) c ⊢ reg1.pre c) (hpost1 : ∀ c : Dev nD, reg1.post c ⊢ T (W3 m) c) :
    θ_run defs (onTc (τ := τ) (main (F := F))) ⟨m, fun _ => 0, ρ⟩
      (fun r => ∀ c : Dev nD, ∀ b ∈ Pipeline.ucRefs τ sig, r.2.mem ((c : Thread nD τ).1, b) = W4 m c b) := by
  refine Pipeline.θ_run_regions_kit (pcfgs (F := F)) (adm m) (pdats m) () (cellOf_inj (adm m)) embL defs₀ 𝒱₀ L lv m ρ main
    (segs m reg0 reg1)
    (fun c Q => by
      rewrite [main_chain c, Seg.run_eq_chain,
        show (segs m reg0 reg1).map Seg.prog = [
          Prog.lift (.customCall (Pipeline.entry 0) ()),
          StableHlo.seq hostOps1,
          Prog.lift (.customCall (Pipeline.entry 1) ()),
          StableHlo.seq hostOps2 ] from rfl]
      exact .rfl)
    (by simp only [segs, Seg.pipes_host, Seg.pipes_region, Seg.pipes_nil]; decide)
    (O₀ := 0) (hL := fun _ _ => rfl) (G := fun _ => iprop(emp))
    (u₀ := (initOf (Pipeline.cells (Pipeline.pin (pcfgs (F := F)) (adm m)) (cellOf_inj (adm m)))
      (Pipeline.launchToks (Pipeline.pin (pcfgs (F := F)) (adm m)) (cellOf_inj (adm m))), 1))
    (hu₀ := ?_)
    (T₀ := T (W0 m)) (Tₙ := Tₙ m)
    (hch := ⟨hpre0, hpost0, hpre1, hpost1, T_last m⟩)
    (hinit := ?_)
    (QY := fun c s => ∀ b ∈ Pipeline.ucRefs τ sig, s.mem ((c : Thread nD τ).1, b) = W4 m c b)
    (hfin := fun c s' => ?_) (hQ := fun _ h => h)
  ·

    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  ·
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  ·
    iintro ⟨⟨Hh, -⟩, HSI⟩
    unfold StableHlo.held
    imodintro
    iapply (pointsTo_read_all (Pipeline.ucRefs τ sig) (fun b => ((c : Thread nD τ).1, b)) (W4 m c) s')
    isplitl [Hh] <;> iassumption

end Cert.KernelIdeal.Launch

end
-- ==== Proof.KI.Seg0.lean ====
import proofs.«422118_j38706245271901_2_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ R0.UC ℕ

variable (m : (ℓ : Loc nD τ sig) → Buf (Elt F) ℓ)

def rest0 (c : Dev nD) (V : (b : Ref sig .tc) → Buf (Elt F) ((c : Thread nD τ).loc b)) : sProp 𝕄 :=
  iprop((((c : Thread nD τ).loc main_v1) ↦{fullShare} V main_v1) ∗ (((c : Thread nD τ).loc main_v2) ↦{fullShare} V main_v2) ∗ (((c : Thread nD τ).loc main_v3) ↦{fullShare} V main_v3) ∗ (((c : Thread nD τ).loc main_v4) ↦{fullShare} V main_v4) ∗ (((c : Thread nD τ).loc main_v5) ↦{fullShare} V main_v5) ∗ (((c : Thread nD τ).loc main_v6) ↦{fullShare} V main_v6) ∗ (((c : Thread nD τ).loc main_v7_0) ↦{fullShare} V main_v7_0) ∗ (((c : Thread nD τ).loc main_v7_1) ↦{fullShare} V main_v7_1) ∗ (((c : Thread nD τ).loc main_v8) ↦{fullShare} V main_v8) ∗ (((c : Thread nD τ).loc main_v9) ↦{fullShare} V main_v9) ∗ (((c : Thread nD τ).loc main_cst) ↦{fullShare} V main_cst) ∗ (((c : Thread nD τ).loc main_v10) ↦{fullShare} V main_v10))

theorem unscopedRest0_split (c : Dev nD) :
    (Pipeline.unscopedRest (Ix := Unit) (Val := Elt F) (Name := ℕ) (U := R0.UC) (Lvl := ℕ) spec0 c (B0 m c) : sProp 𝕄)
      = iprop(Pipeline.prefHeld pre0 c (fun _ => fullShare) (tbl m)
          ∗ (((c : Thread nD τ).loc main_arg1) ↦{fullShare} B0 m c main_arg1) ∗ rest0 c (B0 m c)) := by
  rw [Pipeline.unscopedRest_split preFacts0, B0_pre, unscopedRestP0_eq]
  rfl

theorem ownSemFacts0 : Pipeline.OwnSemFacts spec0 R0.osem0 := by decide

set_option backward.isDefEq.respectTransparency.types false in

/-- The gather as one segment of the run: entered from the launch contents, left at `W1`. -/
def reg0
    (hb0 : ∀ c : Dev nD, Pipeline.BodyObligation (R0.dat0 (a0 m) c (B0 m c)) (defs₀ (F := F)) Variants.none () Set.univ) :
    Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := Fin 16
  osem := R0.osem0
  ho := ownSemFacts0
  hbody c := (hb0 c).loose
  hwaits := Pipeline.hwaits_of_owed_zero _ _ _ _ L lv 0 fun _ _ => rfl
  pre c := T (W0 m) c
  post c := T (W1 m) c
  X c := iprop(Pipeline.ownSems0 R0.osem0 c ∗ (((c : Thread nD τ).loc main_arg1) ↦{fullShare} B0 m c main_arg1))
  Y c := iprop((((c : Thread nD τ).loc main_arg1) ↦{fullShare} B0 m c main_arg1) ∗ Pipeline.prefHeld pre0 c (fun _ => fullShare) (tbl m))
  Z c := iprop(rest0 c (B0 m c) ∗ ∃ r, prngReg c r)
  hentry c := by
    have hsplit := Pipeline.arrays_of_unscopedBufs (p := 0) (pcfgs (F := F)) (adm m) (pdats m) (launch0 (F := F)).win (launch0 (F := F)).arr_whole c
      ((pdats m 0 c).share_full fun _ => rfl) (B0 m c) fun _ => rfl
    rw [Pipeline.unscopedBufs_held] at hsplit
    iintro ⟨⟨Hub, Hp, HO⟩, HS, -⟩
    ihave H := hsplit $$ Hub
    icases H with ⟨Ha, Hrest⟩
    ihave Hrest' := (Entails.of_eq (unscopedRest0_split m c)) $$ Hrest
    icases Hrest' with ⟨Hpre, Harg1, Hr12⟩
    imodintro
    isplitl [Ha]; · iexact Ha
    isplitl [Hpre]; · iexact Hpre
    isplitl [HO]
    · unfold Pipeline.Dat.owesAt Pipeline.owesWithin
      icases HO with ⟨%W, HO⟩; iexists W; isplitr; · ipureintro; exact fun _ _ => Or.inl trivial
      iexact HO
    isplitl [HS Harg1]; · isplitl [HS] <;> iassumption
    isplitl [Hr12] <;> iassumption
  hin c := by
    rw [show (pdats m 0 c).Φ 0 = R0.Phi0 (a0 m) c (B0 m c) from rfl]; unfold R0.Phi0
    iintro ⟨⟨HS, HA⟩, HP, HSc⟩
    isplitl [HS HA]; · isplitl [HS] <;> iassumption
    isplitl [HP] <;> iassumption
  hout c := by
    rw [show (pdats m 0 c).Φ (Fin.last _) = R0.Phi0 (a0 m) c (B0 m c) from rfl]; unfold R0.Phi0
    iintro ⟨⟨HS, HA⟩, HP, HSc⟩
    isplitl [HA HP]; · isplitl [HA] <;> iassumption
    isplitl [HS] <;> iassumption
  hexit c := by
    have hjoin := Pipeline.unscopedBufs_of_arrays (p := 0) (pcfgs (F := F)) (adm m) (Ix := Unit) (Name := ℕ) (U := R0.UC) (Lvl := ℕ)
      (launch0 (F := F)).win (launch0 (F := F)).arr_whole c (pdats m) ((pdats m 0 c).share_full fun _ => rfl)
      (B0 m c) (B1 m c) ((pdats m 0 c).arrAt · (cfg0 (a0 m)).N) (hF0 m c) (hrest0 m c)
    rw [Pipeline.unscopedBufs_held] at hjoin
    iintro ⟨Ha, HO, ⟨HA, HP⟩, Hr12, Hp⟩
    imodintro
    isplitl [Ha HA HP Hr12]
    · iapply hjoin
      isplitl [Ha]; · iexact Ha
      iapply (Entails.of_eq (unscopedRest0_split m c).symm)
      isplitl [HP]; · iexact HP
      isplitl [HA] <;> iassumption
    isplitl [Hp]; · iexact Hp
    unfold Pipeline.Dat.owesAt Pipeline.owesWithin
    icases HO with ⟨%W, -, HO⟩; iexists W; iexact HO

end Cert.KernelIdeal.Launch

end
-- ==== Proof.KI.R1Run.lean ====
import proofs.«422118_j38706245271901_2_alg».proof.Proof.KI.R1Def
import Idealize.ShloMosaic.Lib.Writes
import Idealize.ShloMosaic.Lib.Pipeline.FrameBody
import Idealize.ShloMosaic.Lib.Pipeline.Value
import Idealize.ShloMosaic.Lib.Tactic

noncomputable section

namespace Cert.KernelIdeal.R1

open Cert.KernelIdeal Cert.KernelIdeal.Gen Cert.KernelIdeal.R0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UC ℕ

abbrev rBlk : Rect S1x3x384x384 := Rect.unit (s := S1x3x384x384) ![0, 0, 0, 0] S1x3x384x384.size inb_S1x3x384x384_S1x3x384x384_0_0_0_0
abbrev rAcc : Rect S1x1 := Rect.unit (s := S1x1) ![0, 0] S1x1.size inb_S1x1_S1x1_0_0

theorem zeroOff4 : (![0, 0, 0, 0] : Fin 4 → Nat) = fun _ => 0 :=
  funext fun a => by match a with | ⟨0, _⟩ => rfl | ⟨1, _⟩ => rfl | ⟨2, _⟩ => rfl | ⟨3, _⟩ => rfl
theorem zeroOff2 : (![0, 0] : Fin 2 → Nat) = fun _ => 0 :=
  funext fun a => by match a with | ⟨0, _⟩ => rfl | ⟨1, _⟩ => rfl

abbrev IsFirst (t : Fin cfg1.N) : Prop :=
  Scalar.cmpi .ne (Scalar.extui (Scalar.cmpi .eq (BitVec.ofNat 32 ((grid1.coords t) 0).val) 0#32)) 0#32 = 1#1
abbrev IsLast (t : Fin cfg1.N) : Prop := k1_cond2 (grid1.coords t) = 1#1

/-- The last store through the whole-shape rectangle leaves its payload, whatever was stored before. -/
theorem read_store_whole {sp : Space} {S : Shape} (v : View sig .tc sp S .f32) (f : v.ty.Contents (Elt F))
    {off : Fin S.rank → Nat} (h : off = fun _ => 0) (inb : ∀ a, off a + S.size a ≤ S.size a)
    (w : S.Idx → Elt F .f32) (L : List (View.Piece (Elt F) S .f32)) :
    v.read (Elt F) (v.writes (Elt F) f ((⟨Rect.unit off S.size inb, w⟩ : View.Piece (Elt F) S .f32) :: L)) = w :=
  (View.read_writes_eq_canon v f _ (fun y => ⟨_, List.mem_cons_self .., View.mem_set_unit_zero h inb y⟩)).trans
    (View.canon_cons_unit_zero h inb w L)

theorem load_blk (v : View sig .tc .vmem S1x3x384x384 .f32) (f : v.ty.Contents (Elt F)) :
    v.readAt (Elt F) rBlk.toLoadRect f = v.read (Elt F) f :=
  (View.readAt_eq_ld v f rBlk).trans (View.ld_unit_zero zeroOff4 _ _)

theorem load_acc (v : View sig .tc .vmem S1x1 .f32) (f : v.ty.Contents (Elt F)) :
    v.readAt (Elt F) rAcc.toLoadRect f = v.read (Elt F) f :=
  (View.readAt_eq_ld v f rAcc).trans (View.ld_unit_zero zeroOff2 _ _)

theorem read_store_blk (v : View sig .tc .vmem S1x3x384x384 .f32) (f : v.ty.Contents (Elt F)) (w : Vec F S1x3x384x384 .f32) :
    v.read (Elt F) (v.writes (Elt F) f ([⟨rBlk, w⟩] : List (View.Piece (Elt F) S1x3x384x384 .f32))) = w :=
  read_store_whole v f zeroOff4 inb_S1x3x384x384_S1x3x384x384_0_0_0_0 w []

theorem read_store_acc (v : View sig .tc .vmem S1x1 .f32) (f : v.ty.Contents (Elt F)) (w : Vec F S1x1 .f32)
    (L : List (View.Piece (Elt F) S1x1 .f32)) :
    v.read (Elt F) (v.writes (Elt F) f ((⟨rAcc, w⟩ : View.Piece (Elt F) S1x1 .f32) :: L)) = w :=
  read_store_whole v f zeroOff2 inb_S1x1_S1x1_0_0 w L

theorem load_acc_stored (v : View sig .tc .vmem S1x1 .f32) (w : Vec F S1x1 .f32) :
    v.readCov ([⟨rAcc, w⟩] : List (View.Piece (Elt F) S1x1 .f32)) rAcc.toLoadRect = w :=
  View.readCov_unit_zero v zeroOff2 _ w

section Runs

variable (c : Dev nD) (t : Fin cfg1.N)
  (M0 : Memref sig .tc .vmem S1x3x384x384 .f32) (h0 : M0.IsWhole)
  (M1 : Memref sig .tc .vmem S1x3x384x384 .f32) (h1 : M1.IsWhole)
  (M2 : Memref sig .tc .vmem S1x1 .f32) (h2 : M2.IsWhole)
  (x0 : Vec F S1x3x384x384 .f32) (a : Vec F S1x1 .f32)

local notation "ASM" => cc1_assemble_kernel (grid1.coords t) M0 h0 M1 h1 M2 h2 (Memref.whole cc1_scratch0) (Memref.isWhole_whole _)

/-- The first point: the accumulator, whatever it held, ends at the slab's sum of squares over zero. -/
theorem run_first (hF : IsFirst t) (hL : ¬ IsLast t) (O : sProp 𝕄) (Q : PUnit → sProp 𝕄) :
    iprop(owns (c : Thread nD τ) M0 fullShare x0 ∗ (∃ d, owns (c : Thread nD τ) M1 fullShare d) ∗ O
      ∗ (∃ a, owns (c : Thread nD τ) accM fullShare a)
      ∗ (iprop(owns (c : Thread nD τ) M0 fullShare x0 ∗ owns (c : Thread nD τ) M1 fullShare (clampBlk x0) ∗ O
          ∗ owns (c : Thread nD τ) accM fullShare (sqAcc x0 zero1)) -∗ Q ⟨⟩))
      ⊢ wp frame (wpE (defs₀ (F := F)) Variants.none c none) Set.univ ASM Q := by
  unfold owns
  iintro ⟨⟨%f0, %hf0, H0⟩, ⟨%d1, %f1, %hf1, H1⟩, HO, ⟨%a', %fa, %hfa, Ha⟩, Hk⟩
  subst hf0
  sl_exec! (disch := assumption)
  sl_step
  iapply Hk
  isplitl [H0]; · iexists f0; isplitr; (· ipureintro; rfl); iexact H0
  isplitl [H1]
  · iexists _; isplitr; swap; (· iexact H1); ipureintro
    sl_unfold_words
    rw [read_store_blk, load_blk]
  isplitl [HO]; · iexact HO
  iexists _; isplitr; swap; (· iexact Ha); ipureintro
  sl_unfold_words
  rw [read_store_acc, load_blk, load_acc_stored]

/-- A middle point: the accumulator gains the slab's sum of squares. -/
theorem run_mid (hF : ¬ IsFirst t) (hL : ¬ IsLast t) (O : sProp 𝕄) (Q : PUnit → sProp 𝕄) :
    iprop(owns (c : Thread nD τ) M0 fullShare x0 ∗ (∃ d, owns (c : Thread nD τ) M1 fullShare d) ∗ O
      ∗ owns (c : Thread nD τ) accM fullShare a
      ∗ (iprop(owns (c : Thread nD τ) M0 fullShare x0 ∗ owns (c : Thread nD τ) M1 fullShare (clampBlk x0) ∗ O
          ∗ owns (c : Thread nD τ) accM fullShare (sqAcc x0 a)) -∗ Q ⟨⟩))
      ⊢ wp frame (wpE (defs₀ (F := F)) Variants.none c none) Set.univ ASM Q := by
  unfold owns
  iintro ⟨⟨%f0, %hf0, H0⟩, ⟨%d1, %f1, %hf1, H1⟩, HO, ⟨%fa, %hfa, Ha⟩, Hk⟩
  subst hf0 hfa
  sl_exec! (disch := assumption)
  sl_step
  iapply Hk
  isplitl [H0]; · iexists f0; isplitr; (· ipureintro; rfl); iexact H0
  isplitl [H1]
  · iexists _; isplitr; swap; (· iexact H1); ipureintro
    sl_unfold_words
    rw [read_store_blk, load_blk]
  isplitl [HO]; · iexact HO
  iexists _; isplitr; swap; (· iexact Ha); ipureintro
  sl_unfold_words
  rw [read_store_acc, load_blk, load_acc]

/-- The last point: as a middle point, and the second output receives the accumulator. -/
theorem run_last (hF : ¬ IsFirst t) (hL : IsLast t) (Q : PUnit → sProp 𝕄) :
    iprop(owns (c : Thread nD τ) M0 fullShare x0 ∗ (∃ d, owns (c : Thread nD τ) M1 fullShare d)
      ∗ (∃ d, owns (c : Thread nD τ) M2 fullShare d) ∗ owns (c : Thread nD τ) accM fullShare a
      ∗ (iprop(owns (c : Thread nD τ) M0 fullShare x0 ∗ owns (c : Thread nD τ) M1 fullShare (clampBlk x0)
          ∗ owns (c : Thread nD τ) M2 fullShare (sqAcc x0 a) ∗ owns (c : Thread nD τ) accM fullShare (sqAcc x0 a)) -∗ Q ⟨⟩))
      ⊢ wp frame (wpE (defs₀ (F := F)) Variants.none c none) Set.univ ASM Q := by
  unfold owns
  iintro ⟨⟨%f0, %hf0, H0⟩, ⟨%d1, %f1, %hf1, H1⟩, ⟨%d2, %f2, %hf2, H2⟩, ⟨%fa, %hfa, Ha⟩, Hk⟩
  subst hf0 hfa
  sl_exec! (disch := assumption)
  sl_step
  iapply Hk
  isplitl [H0]; · iexists f0; isplitr; (· ipureintro; rfl); iexact H0
  isplitl [H1]
  · iexists _; isplitr; swap; (· iexact H1); ipureintro
    sl_unfold_words
    rw [read_store_blk, load_blk]
  isplitl [H2]
  · iexists _; isplitr; swap; (· iexact H2); ipureintro
    sl_unfold_words
    rw [read_store_acc, load_acc_stored, load_blk, load_acc]
  iexists _; isplitr; swap; (· iexact Ha); ipureintro
  sl_unfold_words
  rw [read_store_acc, load_blk, load_acc]

end Runs

end Cert.KernelIdeal.R1

end
-- ==== Proof.KI.R1Dat.lean ====
import proofs.«422118_j38706245271901_2_alg».proof.Proof.KI.R1Run
import proofs.«422118_j38706245271901_2_alg».proof.Proof.Gen.KernelIdeal.Points
import Idealize.ShloMosaic.Lib.Pipeline.Frame

noncomputable section

namespace Cert.KernelIdeal.R1

open Cert.KernelIdeal Cert.KernelIdeal.Gen Cert.KernelIdeal.R0
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

theorem N_128 : cfg1.N = 128 := N_1

theorem isFirst_iff : ∀ t : Fin cfg1.N, IsFirst t ↔ t.val = 0 :=
  (by decide +kernel : ∀ t : Fin grid1.N,
    (Scalar.cmpi .ne (Scalar.extui (Scalar.cmpi .eq (BitVec.ofNat 32 ((grid1.coords t) 0).val) 0#32)) 0#32 = 1#1) ↔ t.val = 0)
theorem isLast_iff : ∀ t : Fin cfg1.N, IsLast t ↔ t.val = 127 :=
  (by decide +kernel : ∀ t : Fin grid1.N, k1_cond2 (grid1.coords t) = 1#1 ↔ t.val = 127)

theorem idle0_eq (t : Fin cfg1.N) : idle1 0 (grid1.coords t) = false := rfl
theorem idle1_eq (t : Fin cfg1.N) : idle1 1 (grid1.coords t) = false := rfl
theorem idle2_of_last (t : Fin cfg1.N) (h : IsLast t) : idle1 2 (grid1.coords t) = false := by
  show (!(k1_cond2 (grid1.coords t) == 1#1)) = false
  rw [show (k1_cond2 (grid1.coords t) == 1#1) = true from beq_iff_eq.mpr h]; rfl
theorem idle2_of_not_last (t : Fin cfg1.N) (h : ¬ IsLast t) : idle1 2 (grid1.coords t) = true := by
  show (!(k1_cond2 (grid1.coords t) == 1#1)) = true
  rw [show (k1_cond2 (grid1.coords t) == 1#1) = false from beq_eq_false_iff_ne.mpr h]; rfl
theorem flush2_of_last (t : Fin cfg1.N) (h : IsLast t) : (cfg1.win 2).flush t = true :=
  (flush1_2 t).mpr (by have := (isLast_iff t).mp h; omega)
theorem flush2_of_not_last (t : Fin cfg1.N) (h : ¬ IsLast t) : (cfg1.win 2).flush t = false :=
  Bool.eq_false_iff.mpr fun hf => h ((isLast_iff t).mpr (by
    have h1 := (flush1_2 t).mp hf; have h2 := t.isLt; have h3 := N_128; omega))

section Data

variable (c : Dev nD) (V : (b : Ref sig .tc) → Buf (Elt F) ((c : Thread nD τ).loc b))

theorem after_0 (t : Fin cfg1.N) : (dat1 c V).after 0 t = xblk c V t := by dsimp only [dat1]
theorem after_1 (t : Fin cfg1.N) : (dat1 c V).after 1 t = clampBlk (xblk c V t) := by dsimp only [dat1]
theorem after_2 (t : Fin cfg1.N) : (dat1 c V).after 2 t = accAt c V t.val t.isLt := by dsimp only [dat1]

theorem before_0 (t : Fin cfg1.N) (d) : (dat1 c V).before 0 t d = xblk c V t := by
  rw [(dat1 c V).before_fetched 0 t (fetch1_0 t)]; unfold Dat.fetched Dat.blockOf xblk; dsimp only [dat1]; rfl

theorem accAt_first (t : Fin cfg1.N) (h : t.val = 0) : accAt c V t.val t.isLt = sqAcc (xblk c V t) zero1 := by
  obtain ⟨k, hk⟩ := t
  cases k with
  | zero => rfl
  | succ k => exact absurd h (Nat.succ_ne_zero k)

theorem accAt_later (t : Fin cfg1.N) (h : t.val ≠ 0) (hp : t.val - 1 < cfg1.N) :
    accAt c V t.val t.isLt = sqAcc (xblk c V t) (accAt c V (t.val - 1) hp) := by
  obtain ⟨k, hk⟩ := t
  cases k with
  | zero => exact absurd rfl h
  | succ k => rfl

abbrev accBefore (t : Fin cfg1.N) (h : t.val ≠ 0) : Vec F S1x1 .f32 :=
  accAt c V (t.val - 1) (by have := t.isLt; omega)

theorem accPart_first (t : Fin cfg1.N) (h : t.val = 0) :
    accPart c V t.castSucc = iprop(∃ a, owns (c : Thread nD τ) accM fullShare a) := by
  unfold accPart; rw [dif_pos (by exact h)]
theorem accPart_later (t : Fin cfg1.N) (h : t.val ≠ 0) :
    accPart c V t.castSucc = owns (c : Thread nD τ) accM fullShare (accBefore c V t h) := by
  unfold accPart; rw [dif_neg (by exact h)]; rfl
theorem accPart_succ (t : Fin cfg1.N) :
    accPart c V t.succ = owns (c : Thread nD τ) accM fullShare (accAt c V t.val t.isLt) := by
  unfold accPart; rw [dif_neg (by show ¬ t.val + 1 = 0; omega)]; rfl

theorem owesAt_intro (t : Fin (cfg1.N + 1)) (W' : Waits sig Unit) :
    owes (c : Thread nD τ) 0 W' ⊢ ((dat1 c V).owesAt () t : sProp 𝕄) := by
  unfold Dat.owesAt Pipeline.owesWithin
  rw [show (dat1 c V).owed t = 0 from rfl]
  iintro HO; iexists W'; isplitr; · ipureintro; exact fun _ _ => Or.inl trivial
  iexact HO

theorem body_obligation1 : BodyObligation (dat1 (F := F) c V) (defs₀ (F := F)) Variants.none () Set.univ := fun t => by
  rw [bigSep_W1, bigSep_W1]
  unfold Dat.owesAt Pipeline.owesWithin
  rw [show (dat1 c V).owed t.castSucc = 0 from rfl]
  have hN := N_128
  rw [show (dat1 c V).Φ t.castSucc = Phi1 c V t.castSucc from rfl, show (dat1 c V).Φ t.succ = Phi1 c V t.succ from rfl]
  unfold Phi1
  rw [accPart_succ]
  by_cases hL : IsLast t
  ·
    have h127 : t.val = 127 := (isLast_iff t).mp hL
    have h0 : t.val ≠ 0 := by omega
    have hF : ¬ IsFirst t := fun h => h0 ((isFirst_iff t).mp h)
    simp only [idle0_eq, idle1_eq, idle2_of_last t hL, flush2_of_last t hL, before_0, after_0, after_1, after_2]
    rw [accPart_later c V t h0, accAt_later c V t h0 (by omega)]
    iintro ⟨⟨Hr1, Hr2, Hr3, Ha⟩, ⟨%Wt, %hW, HO⟩, ⟨%d0, H0⟩, ⟨%d1, H1⟩, ⟨%d2, H2⟩⟩
    iapply (run_last c t (st1_0 t) (hstage1_0 ((cfg1.slots t 0).cast nbuf1_0)) (st1_1 t) (hstage1_1 ((cfg1.slots t 1).cast nbuf1_1))
      (st1_2 t) (hstage1_2 ((cfg1.slots t 2).cast nbuf1_2)) (xblk c V t) (accBefore c V t h0) hF hL)
    isplitl [H0]; · iexact H0
    isplitl [H1]; · iexists _; iexact H1
    isplitl [H2]; · iexists _; iexact H2
    isplitl [Ha]; · iexact Ha
    iintro ⟨H0, H1, H2, Ha⟩
    isplitl [Hr1 Hr2 Hr3 Ha]
    · iframe Hr1 Hr2 Hr3 Ha
    isplitl [HO]; · iapply (owesAt_intro c V); iexact HO
    iframe H0 H1 H2
  · simp only [idle0_eq, idle1_eq, idle2_of_not_last t hL, flush2_of_not_last t hL, before_0, after_0, after_1]
    by_cases hF : IsFirst t
    ·
      have h0 : t.val = 0 := (isFirst_iff t).mp hF
      rw [accPart_first c V t h0, accAt_first c V t h0]
      iintro ⟨⟨Hr1, Hr2, Hr3, Ha⟩, ⟨%Wt, %hW, HO⟩, ⟨%d0, H0⟩, ⟨%d1, H1⟩, H2⟩
      iapply (run_first c t (st1_0 t) (hstage1_0 ((cfg1.slots t 0).cast nbuf1_0)) (st1_1 t) (hstage1_1 ((cfg1.slots t 1).cast nbuf1_1))
        (st1_2 t) (hstage1_2 ((cfg1.slots t 2).cast nbuf1_2)) (xblk c V t) hF hL _)
      isplitl [H0]; · iexact H0
      isplitl [H1]; · iexists _; iexact H1
      isplitl [H2]; · iexact H2
      isplitl [Ha]; · iexact Ha
      iintro ⟨H0, H1, H2, Ha⟩
      isplitl [Hr1 Hr2 Hr3 Ha]
      · iframe Hr1 Hr2 Hr3 Ha
      isplitl [HO]; · iapply (owesAt_intro c V); iexact HO
      iframe H0 H1 H2
    ·
      have h0 : t.val ≠ 0 := fun h => hF ((isFirst_iff t).mpr h)
      rw [accPart_later c V t h0, accAt_later c V t h0 (by omega)]
      iintro ⟨⟨Hr1, Hr2, Hr3, Ha⟩, ⟨%Wt, %hW, HO⟩, ⟨%d0, H0⟩, ⟨%d1, H1⟩, H2⟩
      iapply (run_mid c t (st1_0 t) (hstage1_0 ((cfg1.slots t 0).cast nbuf1_0)) (st1_1 t) (hstage1_1 ((cfg1.slots t 1).cast nbuf1_1))
        (st1_2 t) (hstage1_2 ((cfg1.slots t 2).cast nbuf1_2)) (xblk c V t) (accBefore c V t h0) hF hL _)
      isplitl [H0]; · iexact H0
      isplitl [H1]; · iexists _; iexact H1
      isplitl [H2]; · iexact H2
      isplitl [Ha]; · iexact Ha
      iintro ⟨H0, H1, H2, Ha⟩
      isplitl [Hr1 Hr2 Hr3 Ha]
      · iframe Hr1 Hr2 Hr3 Ha
      isplitl [HO]; · iapply (owesAt_intro c V); iexact HO
      iframe H0 H1 H2

theorem accPart_zero : accPart c V 0 = iprop(∃ a, owns (c : Thread nD τ) accM fullShare a) := by
  unfold accPart; exact dif_pos (by decide)

theorem accPart_end :
    accPart c V (Fin.last cfg1.N) = owns (c : Thread nD τ) accM fullShare (accAt c V 127 (by decide)) := by
  unfold accPart; rw [dif_neg (by decide)]; rfl

theorem Phi1_zero : Pipeline.scopedRest (Ix := Unit) (Name := ℕ) (U := UC) (Lvl := ℕ) (Val := Elt F) spec1 c ⊢ (dat1 c V).Φ 0 := by
  rw [scopedRest1_eq, show (dat1 c V).Φ 0 = Phi1 c V 0 from rfl]
  unfold Phi1; rw [accPart_zero]
  iintro ⟨Hr1, Hr2, Hr3, ⟨%f, Hf⟩⟩
  iframe Hr1 Hr2 Hr3
  iexists f; rw [owns_whole_eq]; iexists f; isplitr; (· ipureintro; rfl); iexact Hf

theorem Phi1_last : (dat1 c V).Φ (Fin.last cfg1.N) ⊢ Pipeline.scopedRest (Ix := Unit) (Name := ℕ) (U := UC) (Lvl := ℕ) (Val := Elt F) spec1 c := by
  rw [scopedRest1_eq, show (dat1 c V).Φ (Fin.last cfg1.N) = Phi1 c V (Fin.last cfg1.N) from rfl]
  unfold Phi1; rw [accPart_end, owns_whole_eq]
  iintro ⟨Hr1, Hr2, Hr3, ⟨%f, %hf, Hf⟩⟩
  iframe Hr1 Hr2 Hr3
  iexists f; iexact Hf

end Data

end Cert.KernelIdeal.R1

end
-- ==== Proof.KI.Seg1.lean ====
import proofs.«422118_j38706245271901_2_alg».proof.Proof.KI.Vals
import proofs.«422118_j38706245271901_2_alg».proof.Proof.KI.R1Dat
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ R0.UC ℕ

variable (m : (ℓ : Loc nD τ sig) → Buf (Elt F) ℓ)

set_option backward.isDefEq.respectTransparency.types false in

/-- The clamp region as one segment of the run: entered from `W2`, left at `W3`. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (R1.body_obligation1 c (B2 m c)).loose
  hwaits := Pipeline.hwaits_of_owed_zero _ _ _ _ L lv 1 fun _ _ => rfl
  pre c := T (W2 m) c
  post c := T (W3 m) c
  X c := BI.emp
  Y c := BI.emp
  Z c := iprop((Pipeline.unscopedRest (Ix := Unit) (Val := Elt F) (Name := ℕ) (U := R0.UC) (Lvl := ℕ) spec1 c (B2 m c) : sProp 𝕄) ∗ ∃ r, prngReg c r)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (B2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have h := R1.Phi1_zero (F := F) c (B2 m c)
    rw [show (pdats m 1 c).Φ 0 = (R1.dat1 c (B2 m c)).Φ 0 from rfl]
    iintro ⟨-, -, Hr⟩
    iapply h; iexact Hr
  hout c := by
    have h := R1.Phi1_last (F := F) c (B2 m c)
    rw [Pipeline.ownSems0_none, show (pdats m 1 c).Φ (Fin.last _) = (R1.dat1 c (B2 m c)).Φ (Fin.last cfg1.N) from rfl]
    iintro H
    isplitr; · iempintro
    isplitr; · iempintro
    iapply h; iexact H
  hexit c := by
    have hjoin := Pipeline.unscopedBufs_of_arrays (p := 1) (pcfgs (F := F)) (adm m) (Ix := Unit) (Name := ℕ) (U := R0.UC) (Lvl := ℕ)
      (launch1 (F := F)).win (launch1 (F := F)).arr_whole c (pdats m) ((pdats m 1 c).share_full fun _ => rfl)
      (B2 m c) (B3 m c) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Launch

end
-- ==== Proof.KI.R0Run.lean ====
import proofs.«422118_j38706245271901_2_alg».proof.Proof.Gen.KernelIdeal
import proofs.«422118_j38706245271901_2_alg».proof.Proof.Gen.KernelIdeal.Skeleton
import proofs.«422118_j38706245271901_2_alg».proof.Proof.Gen.KernelIdeal.Launch
import proofs.«422118_j38706245271901_2_alg».proof.Proof.KI.R0Def
import Idealize.ShloMosaic.Lib.Transfers
import Idealize.ShloMosaic.Lib.Writes
import Idealize.ShloMosaic.Lib.Pipeline.FrameBody
import Idealize.ShloMosaic.Lib.Tactic

noncomputable section

namespace Cert.KernelIdeal.R0Run

open Cert.KernelIdeal Cert.KernelIdeal.Gen Cert.KernelIdeal.R0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UC ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev tok (c : Dev nD) (i : Fin 18) (emb : Bf (F := F) c (Memref.whole main_arg1)) : sProp 𝕄 :=
  (Memref.whole main_arg1).view.loc (c : Thread nD τ) ↦{Transfers.shareTok fullShare 18 i} emb

abbrev sem0 (c : Dev nD) (k : DmaSem sig) : sProp 𝕄 := semVal ((c : Thread nD τ), SemLoc.dma k) 0

/-- A word below 50257 names a row inside the table. -/
theorem row_inb (v : BitVec 32) (h : v.toNat < 50257) :
    ∀ a : Fin 2, (![v.toNat, 0] : Fin 2 → Nat) a + S1x768.size a ≤ S50257x768.size a := by
  intro a; fin_cases a
  · show v.toNat + 1 ≤ 50257; omega
  · show 0 + 768 ≤ 768; omega

/-- A one-word load reads an entry of the token table, so the bound on every entry bounds it. -/
theorem word_lt (c : Dev nD) (tbl : Bf (F := F) c (Memref.whole main_arg0)) (hidx : ∀ x : S128x128.Idx, (tbl x : BitVec 32).toNat < 50257)
    (r : LoadRect S128x128) (y : r.shape.Idx) :
    (View.readAt (Elt F) (Memref.whole main_arg0).view r tbl y : BitVec 32).toNat < 50257 := hidx _

set_option sl_exec.dmaWindow true in
set_option maxHeartbeats 4000000 in

/-- The gather body at a symbolic grid point runs to its end and gives every resource back; its witness is what it leaves in the output block. -/
noncomputable def kernelRun (c : Dev nD) (t : Fin grid0.N)
    (M3 : Memref sig .tc .vmem S1x128x768 .f32) (h3 : M3.IsWhole)
    (tbl : Bf (F := F) c (Memref.whole main_arg0)) (hidx : ∀ x : S128x128.Idx, (tbl x : BitVec 32).toNat < 50257)
    (emb : Bf (F := F) c (Memref.whole main_arg1)) (g : Bf (F := F) c (Memref.whole cc0_scratch0)) :
    { W : Bf (F := F) c M3 //
      ∀ (f3 : Bf (F := F) c M3) (W0 : Waits sig Unit) (Q : PUnit → sProp 𝕄),
        iprop(pt c (Memref.whole main_arg0) tbl ∗ tok c 2 emb ∗ tok c 3 emb ∗ tok c 4 emb ∗ tok c 5 emb ∗ tok c 6 emb ∗ tok c 7 emb ∗ tok c 8 emb ∗ tok c 9 emb ∗ tok c 10 emb ∗ tok c 11 emb ∗ tok c 12 emb ∗ tok c 13 emb ∗ tok c 14 emb ∗ tok c 15 emb ∗ tok c 16 emb ∗ tok c 17 emb ∗ pt c M3 f3 ∗ pt c (Memref.whole cc0_scratch0) g
          ∗ sem0 c 2 ∗ sem0 c 3 ∗ sem0 c 4 ∗ sem0 c 5 ∗ sem0 c 6 ∗ sem0 c 7 ∗ sem0 c 8 ∗ sem0 c 9 ∗ sem0 c 10 ∗ sem0 c 11 ∗ sem0 c 12 ∗ sem0 c 13 ∗ sem0 c 14 ∗ sem0 c 15 ∗ sem0 c 16 ∗ sem0 c 17
          ∗ owes (c : Thread nD τ) 0 W0
          ∗ (iprop(pt c (Memref.whole main_arg0) tbl ∗ tok c 2 emb ∗ tok c 3 emb ∗ tok c 4 emb ∗ tok c 5 emb ∗ tok c 6 emb ∗ tok c 7 emb ∗ tok c 8 emb ∗ tok c 9 emb ∗ tok c 10 emb ∗ tok c 11 emb ∗ tok c 12 emb ∗ tok c 13 emb ∗ tok c 14 emb ∗ tok c 15 emb ∗ tok c 16 emb ∗ tok c 17 emb ∗ pt c M3 W ∗ (∃ g', pt c (Memref.whole cc0_scratch0) g')
              ∗ sem0 c 2 ∗ sem0 c 3 ∗ sem0 c 4 ∗ sem0 c 5 ∗ sem0 c 6 ∗ sem0 c 7 ∗ sem0 c 8 ∗ sem0 c 9 ∗ sem0 c 10 ∗ sem0 c 11 ∗ sem0 c 12 ∗ sem0 c 13 ∗ sem0 c 14 ∗ sem0 c 15 ∗ sem0 c 16 ∗ sem0 c 17
              ∗ (∃ W', owes (c : Thread nD τ) 0 W')) -∗ Q ⟨⟩))
        ⊢ wp frame (wpE (defs₀ (F := F)) Variants.none c none) Set.univ
            (cc0_gather_kernel (grid0.coords t) (Memref.whole main_arg0) (Memref.isWhole_whole _) (Memref.whole main_arg1) (Memref.isWhole_whole _)
              M3 h3 (Memref.whole cc0_scratch0) (Memref.isWhole_whole _) cc0_scratch1) Q } := by
  refine ⟨?_, fun f3 W0 Q => ?run⟩
  case run =>
    iintro ⟨Ht, T2, T3, T4, T5, T6, T7, T8, T9, T10, T11, T12, T13, T14, T15, T16, T17, H3, Hg, S2, S3, S4, S5, S6, S7, S8, S9, S10, S11, S12, S13, S14, S15, S16, S17, HO, Hk⟩
    sl_exec_parts! (disch := first
      | exact ⟨row_inb _ (word_lt c tbl hidx _ _), row_inb _ (word_lt c tbl hidx _ _)⟩
      | exact row_inb _ (word_lt c tbl hidx _ _))
    sl_step
    iapply Hk
    iframe Ht T2 T3 T4 T5 T6 T7 T8 T9 T10 T11 T12 T13 T14 T15 T16 T17 H3
    isplitl [Hg]; · iexists _; iexact Hg
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    iexists _; iexact HO

/-- The block the body leaves at point `t`, read through the staging buffer's view. -/
def out0 (c : Dev nD) (t : Fin grid0.N)
    (M3 : Memref sig .tc .vmem S1x128x768 .f32) (h3 : M3.IsWhole)
    (tbl : Bf (F := F) c (Memref.whole main_arg0)) (hidx : ∀ x : S128x128.Idx, (tbl x : BitVec 32).toNat < 50257)
    (emb : Bf (F := F) c (Memref.whole main_arg1)) (g : Bf (F := F) c (Memref.whole cc0_scratch0)) :
    S1x128x768.Idx → Elt F .f32 :=
  M3.view.read (Elt F) (kernelRun c t M3 h3 tbl hidx emb g).1

end Cert.KernelIdeal.R0Run

end
-- ==== Proof.KI.R0Dat.lean ====
import proofs.«422118_j38706245271901_2_alg».proof.Proof.Gen.KernelIdeal
import proofs.«422118_j38706245271901_2_alg».proof.Proof.Gen.KernelIdeal.Launch
import proofs.«422118_j38706245271901_2_alg».proof.Proof.KI.R0Def
import proofs.«422118_j38706245271901_2_alg».proof.Proof.KI.R0Run
import Idealize.ShloMosaic.Lib.Transfers
import Idealize.ShloMosaic.Lib.Pipeline.Kit
import Idealize.ShloMosaic.Lib.Tactic

noncomputable section

namespace Cert.KernelIdeal.R0

open Cert.KernelIdeal Cert.KernelIdeal.Gen Cert.KernelIdeal.R0Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ UC ℕ

theorem ownSems0_eq (c : Dev nD) :
    (Pipeline.ownSems0 (Ix := Unit) (Name := ℕ) (U := UC) (Lvl := ℕ) (Val := Elt F) (τ := τ) osem0 c : sProp 𝕄)
      = iprop(sem0 c 2 ∗ sem0 c 3 ∗ sem0 c 4 ∗ sem0 c 5 ∗ sem0 c 6 ∗ sem0 c 7 ∗ sem0 c 8 ∗ sem0 c 9 ∗ sem0 c 10 ∗ sem0 c 11 ∗ sem0 c 12 ∗ sem0 c 13 ∗ sem0 c 14 ∗ sem0 c 15 ∗ sem0 c 16 ∗ sem0 c 17) :=
  Pipeline.ownSems0_eq_of_list c osem0 [0, 1, 2, 3, 4, 5, 6, 7, 8, 9, 10, 11, 12, 13, 14, 15] (by decide) (by decide)

theorem bigSep_toks {M : Type} [URA M] (Φ : Fin 18 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

/-- The embedding table held whole is a remainder share and eighteen read tokens, and back. -/
theorem emb_toks (c : Dev nD) (emb : Bf (F := F) c (Memref.whole main_arg1)) :
    (pt c (Memref.whole main_arg1) emb : sProp 𝕄)
      ⊣⊢ iprop(((Memref.whole main_arg1).view.loc (c : Thread nD τ) ↦{Transfers.shareDrop fullShare 18} emb)
          ∗ tok c 0 emb ∗ tok c 1 emb ∗ tok c 2 emb ∗ tok c 3 emb ∗ tok c 4 emb ∗ tok c 5 emb ∗ tok c 6 emb ∗ tok c 7 emb ∗ tok c 8 emb ∗ tok c 9 emb ∗ tok c 10 emb ∗ tok c 11 emb ∗ tok c 12 emb ∗ tok c 13 emb ∗ tok c 14 emb ∗ tok c 15 emb ∗ tok c 16 emb ∗ tok c 17 emb) := by
  have h := Transfers.pointsTo_toks (nD := nD) (τ := τ) (sig := sig) (Ix := Unit) (Val := Elt F) (Name := ℕ) (U := UC) (Lvl := ℕ)
    (ℓ := (Memref.whole main_arg1).view.loc (c : Thread nD τ)) (S := Finset.univ) (f := emb) fullShare 18
  rw [bigSep_toks] at h
  exact h

theorem prefHeld_eq (a0 : (pcfg0 (F := F)).Adm) (c : Dev nD) :
    (Pipeline.prefHeld (Ix := Unit) (Name := ℕ) (U := UC) (Lvl := ℕ) (τ := τ) pre0 c (fun _ => fullShare) a0.1 : sProp 𝕄)
      = pt c (Memref.whole main_arg0) (a0.1 0) := by
  unfold Pipeline.prefHeld
  exact bigSep_W0 _

section Body

variable (a0 : (pcfg0 (F := F)).Adm) (c : Dev nD) (V : (b : Ref sig .tc) → Buf (Elt F) ((c : Thread nD τ).loc b))

abbrev bodyAt0 (t : Fin (cfg0 a0).N) : Prog (TpuEff nD τ sig (Elt F) Λ₀ .tc) PUnit :=
  cc0_gather_kernel (grid0.coords t) (Memref.whole main_arg0) (Memref.isWhole_whole _) (Memref.whole main_arg1) (Memref.isWhole_whole _)
    (spec0_0.stage ((cfg0 a0).slots t 0)) (hstage0_0 (((cfg0 a0).slots t 0).cast nbuf0_0)) (Memref.whole cc0_scratch0) (Memref.isWhole_whole _) cc0_scratch1

/-- The gather's body obligation: take the invariant apart, lend each copy in flight a read token, run the body, put the invariant back. -/
theorem body_obligation0_of (hidx : ∀ x, (a0.1 0 x).toNat < 50257)
    (hval : ∀ (t : Fin grid0.N) (M3 : Memref sig .tc .vmem S1x128x768 .f32) (h3 : M3.IsWhole) (g : Bf (F := F) c (Memref.whole cc0_scratch0)),
      out0 c t M3 h3 (a0.1 0) hidx (V main_arg1) g = gath (a0.1 0) (V main_arg1) ⟨t.val, lt_of_lt_of_eq t.isLt N_0⟩) :
    BodyObligation (dat0 a0 c V) (defs₀ (F := F)) Variants.none () Set.univ := fun t => by
  rw [bigSep_W0, bigSep_W0,
    show defs₀ (F := F) .tc (cfg0 a0).body ((cfg0 a0).bodyArgs t ((cfg0 a0).slots t)) = bodyAt0 a0 t from rfl,
    show (cfg0 a0).idle 0 ((cfg0 a0).grid.coords t) = false from rfl]
  dsimp only
  rw [show (dat0 a0 c V).Φ t.castSucc = Phi0 a0 c V from rfl, show (dat0 a0 c V).Φ t.succ = Phi0 a0 c V from rfl,
    show (dat0 a0 c V).after 0 t = gath (a0.1 0) (V main_arg1) ⟨t.val, lt_of_lt_of_eq t.isLt N_0⟩ from rfl]
  unfold Phi0 Dat.owesAt Pipeline.owesWithin owns
  have hw : (stage0_0 ((cfg0 a0).slots t 0)).IsWhole := hstage0_0 _
  rw [ownSems0_eq, prefHeld_eq, scopedRest0_eq, hw.set_eq_univ]
  iintro ⟨⟨⟨⟨S2, S3, S4, S5, S6, S7, S8, S9, S10, S11, S12, S13, S14, S15, S16, S17⟩, Hemb⟩, Htbl, ⟨%g, Hg⟩, Hrest⟩, ⟨%W, %hW, HO⟩, ⟨%d, %f3, %hf3, H3⟩⟩
  ihave ⟨Hd, T0, T1, T2, T3, T4, T5, T6, T7, T8, T9, T10, T11, T12, T13, T14, T15, T16, T17⟩ := (emb_toks c (V main_arg1)).1 $$ Hemb
  iapply ((kernelRun c t (stage0_0 ((cfg0 a0).slots t 0)) hw (a0.1 0) hidx (V main_arg1) g).2 f3 W _)
  iframe Htbl T2 T3 T4 T5 T6 T7 T8 T9 T10 T11 T12 T13 T14 T15 T16 T17 H3 Hg S2 S3 S4 S5 S6 S7 S8 S9 S10 S11 S12 S13 S14 S15 S16 S17
  isplitl [HO]; · iexact HO
  iintro ⟨Htbl, T2, T3, T4, T5, T6, T7, T8, T9, T10, T11, T12, T13, T14, T15, T16, T17, H3, ⟨%g', Hg⟩, S2, S3, S4, S5, S6, S7, S8, S9, S10, S11, S12, S13, S14, S15, S16, S17, ⟨%W', HO⟩⟩
  isplitr [HO H3]
  · isplitr [Htbl Hg Hrest]
    · isplitr [Hd T0 T1 T2 T3 T4 T5 T6 T7 T8 T9 T10 T11 T12 T13 T14 T15 T16 T17]
      · iframe S2 S3 S4 S5 S6 S7 S8 S9 S10 S11 S12 S13 S14 S15 S16 S17
      · iapply (emb_toks c (V main_arg1)).2
        iframe Hd T0 T1 T2 T3 T4 T5 T6 T7 T8 T9 T10 T11 T12 T13 T14 T15 T16 T17
    isplitl [Htbl]; · iexact Htbl
    isplitl [Hg]; · iexists g'; iexact Hg
    iexact Hrest
  isplitl [HO]
  · iexists W'; isplitr; · ipureintro; exact fun _ _ => Or.inl trivial
    iexact HO
  iexists _; isplitr
  swap; · iexact H3
  ipureintro
  exact hval t _ hw g

end Body

end Cert.KernelIdeal.R0

end
-- ==== Proof.LibRows.lean ====
import Idealize.ShloMosaic.Lib.ValueIdx
import Idealize.ShloMosaic.Lib.Writes
import Idealize.ShloMosaic.Lib.Pipeline.Value

noncomputable section

namespace Cert.Rows

open Idealize.ShloMosaic Idealize.ShloMosaic.ValueIdx Idealize.SL.Sem

variable {Val : EltTy → Type}

/-- An array of `R` rows of 768 lanes; one such row as a one-row array and as a vector. -/
abbrev Srows (R : Nat) : Shape := ⟨2, ![R, 768]⟩
abbrev S1x768 : Shape := ⟨2, ![1, 768]⟩
abbrev S768 : Shape := ⟨1, ![768]⟩

/-- Lane `d` of an `[a]` vector is position `(0, d)` of `[1, a]`. -/
theorem reshapeEquiv_ix1_1a {a : ℕ} (h : (⟨1, ![a]⟩ : Shape).numel = (⟨2, ![1, a]⟩ : Shape).numel) (d : Fin a) :
    Shape.reshapeEquiv h (ix1 d) = ix2 (⟨0, Nat.one_pos⟩ : Fin 1) d :=
  Shape.reshapeEquiv_eq_of_rowMajor h (by
    rw [Shape.rowMajor_val_two, Shape.rowMajor_val_one]
    show 0 * a + d.val = d.val
    simp only [Nat.zero_mul, Nat.zero_add])

section Rows

variable {sg : RefSig} {κ : Kind} {sp : Space} {R : Nat} {e : EltTy}

/-- Row `j`'s rectangle places `(0, d)` at `(j, d)`. -/
theorem row_emb (j : Nat) (hj : j < R) (off : Fin 2 → Nat) (h : off = ![j, 0])
    (inb : ∀ a, off a + S1x768.size a ≤ (Srows R).size a) (d : Fin 768) :
    (Rect.unit (s := Srows R) off S1x768.size inb).emb (ix2 ⟨0, Nat.one_pos⟩ d) = ix2 ⟨j, hj⟩ d := by
  subst h
  funext a
  apply Fin.ext
  rw [Rect.emb_apply]
  match a with
  | ⟨0, _⟩ => show j + 1 * 0 = j; omega
  | ⟨1, _⟩ => show 0 + 1 * d.val = d.val; omega

/-- An index lies in row `j`'s rectangle exactly when its row coordinate is `j`. -/
theorem mem_row_iff (j : Nat) (off : Fin 2 → Nat) (h : off = ![j, 0])
    (inb : ∀ a, off a + S1x768.size a ≤ (Srows R).size a) (y : (Srows R).Idx) :
    y ∈ (Rect.unit (s := Srows R) off S1x768.size inb).set ↔ (y 0).val = j := by
  subst h
  rw [Rect.mem_set_unit]
  constructor
  · intro hy
    have := hy 0
    simp at this
    omega
  · intro hy a
    match a with
    | ⟨0, _⟩ => show j ≤ (y 0).val ∧ (y 0).val < j + 1; omega
    | ⟨1, _⟩ => have := (y 1).isLt; show 0 ≤ (y 1).val ∧ (y 1).val < 0 + 768; simp at this; omega

theorem reshape_lane (off : Fin 2 → Nat) (inb : ∀ a, off a + S1x768.size a ≤ (Srows R).size a)
    (h : S768.numel = (Rect.unit (s := Srows R) off S1x768.size inb).shape.numel) (d : Fin 768) :
    Shape.reshapeEquiv h (ix1 d) = ix2 ⟨0, Nat.one_pos⟩ d :=
  Shape.reshapeEquiv_eq_of_rowMajor h (by
    rw [Shape.rowMajor_val_two, Shape.rowMajor_val_one]
    show 0 * 768 + d.val = d.val
    omega)

variable (M : Memref sg κ sp (Srows R) e)

/-- Through the squeezed one-row slice at row `j`, lane `d` is the array's entry `(j, d)`. -/
theorem rowView_read (j : Nat) (hj : j < R) (off : Fin 2 → Nat) (h : off = ![j, 0])
    (inb : ∀ a, off a + S1x768.size a ≤ (Srows R).size a) (hr)
    (hq : (Rect.unit (s := Srows R) off S1x768.size inb).shape.Squeezes S768) (f : M.view.ty.Contents Val) (d : Fin 768) :
    ((M.slice (Rect.unit (s := Srows R) off S1x768.size inb) hr).squeeze S768 hq).view.read Val f (ix1 d)
      = M.view.read Val f (ix2 ⟨j, hj⟩ d) := by
  have h1 : ((M.slice (Rect.unit (s := Srows R) off S1x768.size inb) hr).squeeze S768 hq).view.read Val f (ix1 d)
      = M.view.read Val f ((Rect.unit (s := Srows R) off S1x768.size inb).emb (Shape.reshapeEquiv hq.numel_eq (ix1 d))) := rfl
  rw [h1, reshape_lane, row_emb j hj off h inb d]

/-- A whole-row write read back on its own row gives the written vector. -/
theorem read_rowWrite_hit (j : Nat) (hj : j < R) (off : Fin 2 → Nat) (h : off = ![j, 0])
    (inb : ∀ a, off a + S1x768.size a ≤ (Srows R).size a) (hr)
    (hq : (Rect.unit (s := Srows R) off S1x768.size inb).shape.Squeezes S768) (f : M.view.ty.Contents Val)
    (p : S768.Idx → Val e) (d : Fin 768) :
    M.view.read Val (View.write Val ((M.slice (Rect.unit (s := Srows R) off S1x768.size inb) hr).squeeze S768 hq).view f p Finset.univ)
        (ix2 ⟨j, hj⟩ d) = p (ix1 d) := by
  rw [← rowView_read M j hj off h inb hr hq _ d, View.read_write_univ]

/-- Read back on another row `j'`: the write leaves that row as it was. -/
theorem read_rowWrite_miss (j j' : Nat) (hj' : j' < R) (hne : j' ≠ j) (off : Fin 2 → Nat) (h : off = ![j, 0])
    (inb : ∀ a, off a + S1x768.size a ≤ (Srows R).size a) (hr)
    (hq : (Rect.unit (s := Srows R) off S1x768.size inb).shape.Squeezes S768) (f : M.view.ty.Contents Val)
    (p : S768.Idx → Val e) (d : Fin 768) :
    M.view.read Val (View.write Val ((M.slice (Rect.unit (s := Srows R) off S1x768.size inb) hr).squeeze S768 hq).view f p Finset.univ)
        (ix2 ⟨j', hj'⟩ d) = M.view.read Val f (ix2 ⟨j', hj'⟩ d) := by
  show M.view.read Val (View.write Val ((M.view.slice (Rect.unit (s := Srows R) off S1x768.size inb)).reshape S768 hq.numel_eq) f p Finset.univ)
      (ix2 ⟨j', hj'⟩ d) = _
  rw [View.write_reshape_univ]
  apply View.read_slice_write_of_not_mem
  rw [Rect.map_emb_univ, mem_row_iff j off h inb]
  exact hne

/-- A load through the whole-array rectangle reads the array. -/
theorem readAt_wholeRect (off : Fin 2 → Nat) (h : off = ![0, 0]) (inb : ∀ a, off a + (Srows R).size a ≤ (Srows R).size a)
    (f : M.view.ty.Contents Val) :
    M.view.readAt Val (Rect.unit (s := Srows R) off (Srows R).size inb).toLoadRect f = M.view.read Val f := by
  rw [View.readAt_eq_ld, View.ld_unit_zero (by subst h; funext a; match a with | ⟨0, _⟩ => rfl | ⟨1, _⟩ => rfl)]

theorem row_inb (j : Nat) (hj : j < R) : ∀ a, (![j, 0] : Fin 2 → Nat) a + S1x768.size a ≤ (Srows R).size a := by
  intro a
  match a with
  | ⟨0, _⟩ => show j + 1 ≤ R; omega
  | ⟨1, _⟩ => show 0 + 768 ≤ 768; omega

abbrev rowM (j : Nat) (hj : j < R) (hq : S1x768.Squeezes S768) : Memref sg κ sp S768 e :=
  (M.slice (Rect.unit (s := Srows R) ![j, 0] S1x768.size (row_inb j hj)) (fun _ => rfl)).squeeze S768 hq

end Rows

section Sixteen

variable {sg : RefSig} {κ : Kind} {sp : Space} {e : EltTy}

/-- Sixteen whole-row writes, row `j` taking `pj`, then a load of the whole array: row `u` reads `pu`, every later write falling on another row. -/
theorem load_rows16 (M : Memref sg κ sp (Srows 16) e) (hq : S1x768.Squeezes S768) (off : Fin 2 → Nat) (h : off = ![0, 0])
    (inb : ∀ a, off a + (Srows 16).size a ≤ (Srows 16).size a) (g : M.view.ty.Contents Val)
    (p0 p1 p2 p3 p4 p5 p6 p7 p8 p9 p10 p11 p12 p13 p14 p15 : S768.Idx → Val e) (R : Fin 16 → Fin 768 → Val e)
    (hp : ∀ d, p0 (ix1 d) = R 0 d ∧ p1 (ix1 d) = R 1 d ∧ p2 (ix1 d) = R 2 d ∧ p3 (ix1 d) = R 3 d ∧ p4 (ix1 d) = R 4 d ∧ p5 (ix1 d) = R 5 d ∧ p6 (ix1 d) = R 6 d ∧ p7 (ix1 d) = R 7 d ∧ p8 (ix1 d) = R 8 d ∧ p9 (ix1 d) = R 9 d ∧ p10 (ix1 d) = R 10 d ∧ p11 (ix1 d) = R 11 d ∧ p12 (ix1 d) = R 12 d ∧ p13 (ix1 d) = R 13 d ∧ p14 (ix1 d) = R 14 d ∧ p15 (ix1 d) = R 15 d) :
    ∀ (u : Fin 16) (d : Fin 768), M.view.readAt Val (Rect.unit (s := Srows 16) off (Srows 16).size inb).toLoadRect
      (View.write Val (rowM M 15 (of_decide_eq_true rfl) hq).view (View.write Val (rowM M 14 (of_decide_eq_true rfl) hq).view (View.write Val (rowM M 13 (of_decide_eq_true rfl) hq).view (View.write Val (rowM M 12 (of_decide_eq_true rfl) hq).view (View.write Val (rowM M 11 (of_decide_eq_true rfl) hq).view (View.write Val (rowM M 10 (of_decide_eq_true rfl) hq).view (View.write Val (rowM M 9 (of_decide_eq_true rfl) hq).view (View.write Val (rowM M 8 (of_decide_eq_true rfl) hq).view (View.write Val (rowM M 7 (of_decide_eq_true rfl) hq).view (View.write Val (rowM M 6 (of_decide_eq_true rfl) hq).view (View.write Val (rowM M 5 (of_decide_eq_true rfl) hq).view (View.write Val (rowM M 4 (of_decide_eq_true rfl) hq).view (View.write Val (rowM M 3 (of_decide_eq_true rfl) hq).view (View.write Val (rowM M 2 (of_decide_eq_true rfl) hq).view (View.write Val (rowM M 1 (of_decide_eq_true rfl) hq).view (View.write Val (rowM M 0 (of_decide_eq_true rfl) hq).view g p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ) (ix2 u d) = R u d := by
  intro u d
  rw [readAt_wholeRect M off h inb]
  obtain ⟨h0, h1, h2, h3, h4, h5, h6, h7, h8, h9, h10, h11, h12, h13, h14, h15⟩ := hp d
  obtain ⟨u, hu⟩ := u
  interval_cases u <;>
    (repeat refine (read_rowWrite_miss M _ _ hu (by decide) _ rfl _ _ hq _ _ d).trans ?_) <;>
    exact (read_rowWrite_hit M _ hu _ rfl _ _ hq _ _ d).trans (by assumption)

end Sixteen

section Slabs

abbrev S1x128x768 : Shape := ⟨3, ![1, 128, 768]⟩
abbrev S1x16x768 : Shape := ⟨3, ![1, 16, 768]⟩

variable [∀ e, Nonempty (Val e)]

/-- Row `l` of the block lies in slab `l / 16` at row `l % 16`. -/
def slabAt (P : Fin 8 → S1x16x768.Idx → Val .f32) (l : Fin 128) (d : Fin 768) : Val .f32 :=
  P ⟨l.val / 16, by have := l.isLt; omega⟩ (ix3 (0 : Fin 1) ⟨l.val % 16, Nat.mod_lt _ (by decide)⟩ d)

def slabs (P : Fin 8 → S1x16x768.Idx → Val .f32) : S1x128x768.Idx → Val .f32 := fun y => slabAt P (y 1) (y 2)

abbrev pieces (P : Fin 8 → S1x16x768.Idx → Val .f32) : List (View.Piece Val S1x128x768 .f32) :=
  [⟨Rect.unit (s := S1x128x768) ![0, 112, 0] S1x16x768.size (by decide), P 7⟩,
   ⟨Rect.unit (s := S1x128x768) ![0, 96, 0] S1x16x768.size (by decide), P 6⟩,
   ⟨Rect.unit (s := S1x128x768) ![0, 80, 0] S1x16x768.size (by decide), P 5⟩,
   ⟨Rect.unit (s := S1x128x768) ![0, 64, 0] S1x16x768.size (by decide), P 4⟩,
   ⟨Rect.unit (s := S1x128x768) ![0, 48, 0] S1x16x768.size (by decide), P 3⟩,
   ⟨Rect.unit (s := S1x128x768) ![0, 32, 0] S1x16x768.size (by decide), P 2⟩,
   ⟨Rect.unit (s := S1x128x768) ![0, 16, 0] S1x16x768.size (by decide), P 1⟩,
   ⟨Rect.unit (s := S1x128x768) ![0, 0, 0] S1x16x768.size (by decide), P 0⟩]

/-- Slab `k` is the block's contents under rows `16 k … 16 k + 15`. -/
theorem piece_ok (P : Fin 8 → S1x16x768.Idx → Val .f32) (k : Fin 8) (r : ℕ) (hr : r = 16 * k.val)
    (inb : ∀ a, (![0, r, 0] : Fin 3 → Nat) a + S1x16x768.size a ≤ S1x128x768.size a) (x : S1x16x768.Idx) :
    P k x = slabs P ((Rect.unit (s := S1x128x768) ![0, r, 0] S1x16x768.size inb).emb x) := by
  subst hr
  have hk : k.val < 8 := k.isLt
  have hx0 : (x 0).val = 0 := by have : (x 0).val < 1 := (x 0).isLt; omega
  have hx1 : (x 1).val < 16 := (x 1).isLt
  have e1 : ((Rect.unit (s := S1x128x768) ![0, 16 * k.val, 0] S1x16x768.size inb).emb x 1).val = 16 * k.val + (x 1).val := by
    show 16 * k.val + 1 * (x 1).val = _; omega
  have e2 : ((Rect.unit (s := S1x128x768) ![0, 16 * k.val, 0] S1x16x768.size inb).emb x 2).val = (x 2).val := by
    show 0 + 1 * (x 2).val = _; omega
  unfold slabs slabAt
  refine congrArg₂ P (Fin.ext ?_) (funext fun a => ?_)
  · show k.val = ((Rect.unit (s := S1x128x768) ![0, 16 * k.val, 0] S1x16x768.size inb).emb x 1).val / 16
    rw [e1]; omega
  · match a with
    | ⟨0, _⟩ => exact Fin.ext hx0
    | ⟨1, _⟩ =>
      refine Fin.ext ?_
      show (x 1).val = ((Rect.unit (s := S1x128x768) ![0, 16 * k.val, 0] S1x16x768.size inb).emb x 1).val % 16
      rw [e1]; omega
    | ⟨2, _⟩ => exact Fin.ext e2.symm

theorem pieces_ok (P : Fin 8 → S1x16x768.Idx → Val .f32) :
    ∀ p ∈ pieces P, ∀ x : p.1.shape.Idx, p.2 x = slabs P (p.1.emb x) := by
  intro p hp
  simp only [List.mem_cons, List.not_mem_nil, or_false] at hp
  rcases hp with rfl | rfl | rfl | rfl | rfl | rfl | rfl | rfl <;> exact piece_ok P _ _ rfl (by decide)

/-- The eight slabs tile the block, so whatever it held before, it ends at the slabs' entries. -/
theorem read_pieces {sg : RefSig} {κ : Kind} {sp : Space} (v : View sg κ sp S1x128x768 .f32) (P : Fin 8 → S1x16x768.Idx → Val .f32) (l : Fin 128) (d : Fin 768) :
    v.read Val (v.writes Val v.junk (pieces P)) (ix3 (0 : Fin 1) l d) = slabAt P l d := by
  rw [View.read_writes_junk_eq_canon]
  exact View.canon_apply_of_pieces (slabs P) (pieces P) (pieces_ok P) (ix3 (0 : Fin 1) l d)
    (View.cover_of_tiled (pieces P) S1x16x768.size (by rfl) _)

end Slabs

end Cert.Rows

end
-- ==== Proof.KI.R0Pieces.lean ====
import proofs.«422118_j38706245271901_2_alg».proof.Proof.KI.R0Run
import proofs.«422118_j38706245271901_2_alg».proof.Proof.LibRows
import Idealize.ShloMosaic.Lib.Writes
import Idealize.ShloMosaic.Lib.Pipeline.FrameBody
import Idealize.ShloMosaic.Lib.Pipeline.Value
import Idealize.ShloMosaic.Lib.ValueLayout

noncomputable section

namespace Cert.KernelIdeal.R0Run

open Cert.KernelIdeal Cert.KernelIdeal.Gen Cert.KernelIdeal.R0
open Idealize.ShloMosaic Idealize.ShloMosaic.TcCoe Idealize.ShloMosaic.ValueIdx
open Idealize.SL Idealize.SL.Sem

variable {F : FTy → Type} [FloatOps F]

/-- The `tanh` of a (16, 768) vector viewed as a (1, 16, 768) slab, entry by entry. -/
theorem tanhSlab_apply (v : Vec F S16x768 .f32) (u : Fin 16) (d : Fin 768) :
    shapeCast S1x16x768 (tanh v) shapeCasts_S16x768_S1x16x768 (ix3 (0 : Fin 1) u d) = FloatOps.tanh (v (ix2 u d)) :=
  (shapeCast_addUnit_apply ![16, 768] (tanh v) shapeCasts_S16x768_S1x16x768 (ix3 (0 : Fin 1) u d)).trans
    (congrArg (fun i => FloatOps.tanh (v i)) (funext fun a => by match a with | ⟨0, _⟩ => rfl | ⟨1, _⟩ => rfl))

section Witness

variable (c : Dev nD) (t : Fin grid0.N)
    (tbl : Bf (F := F) c (Memref.whole main_arg0)) (hidx : ∀ x : S128x128.Idx, (tbl x : BitVec 32).toNat < 50257)
    (emb : Bf (F := F) c (Memref.whole main_arg1)) (g : Bf (F := F) c (Memref.whole cc0_scratch0))

/-- The row scratch as chunk `k` loads it. -/
def loads : Fin 8 → Vec F S16x768 .f32 := fun k => match k with
  | ⟨0, _⟩ => kernelRun.sl.v c t tbl hidx emb g
  | ⟨1, _⟩ => kernelRun.sl.v453 c t tbl hidx emb g
  | ⟨2, _⟩ => kernelRun.sl.v682 c t tbl hidx emb g
  | ⟨3, _⟩ => kernelRun.sl.v911 c t tbl hidx emb g
  | ⟨4, _⟩ => kernelRun.sl.v1140 c t tbl hidx emb g
  | ⟨5, _⟩ => kernelRun.sl.v1369 c t tbl hidx emb g
  | ⟨6, _⟩ => kernelRun.sl.v1598 c t tbl hidx emb g
  | ⟨7, _⟩ => kernelRun.sl.v1827 c t tbl hidx emb g

/-- The slab chunk `k` stores: the `tanh` of that load. -/
def stored : Fin 8 → S1x16x768.Idx → Elt F .f32 := fun k => match k with
  | ⟨0, _⟩ => k0_pay2 (loads c t tbl hidx emb g 0)
  | ⟨1, _⟩ => k0_pay3 (loads c t tbl hidx emb g 1)
  | ⟨2, _⟩ => k0_pay4 (loads c t tbl hidx emb g 2)
  | ⟨3, _⟩ => k0_pay5 (loads c t tbl hidx emb g 3)
  | ⟨4, _⟩ => k0_pay6 (loads c t tbl hidx emb g 4)
  | ⟨5, _⟩ => k0_pay7 (loads c t tbl hidx emb g 5)
  | ⟨6, _⟩ => k0_pay8 (loads c t tbl hidx emb g 6)
  | ⟨7, _⟩ => k0_pay1 (loads c t tbl hidx emb g 7)

theorem stored_apply (k : Fin 8) (u : Fin 16) (d : Fin 768) :
    stored c t tbl hidx emb g k (ix3 (0 : Fin 1) u d) = FloatOps.tanh (loads c t tbl hidx emb g k (ix2 u d)) := by
  obtain ⟨k, hk⟩ := k
  interval_cases k <;> exact tanhSlab_apply _ u d

theorem witness_pieces : kernelRun.sl.H3_8 c t tbl hidx emb g = Cert.Rows.pieces (stored c t tbl hidx emb g) := by
  unfold kernelRun.sl.H3_8 kernelRun.sl.H3_7 kernelRun.sl.H3_6 kernelRun.sl.H3_5 kernelRun.sl.H3_4 kernelRun.sl.H3_3
    kernelRun.sl.H3_2 kernelRun.sl.H3_1
  rfl

variable (M3 : Memref sig .tc .vmem S1x128x768 .f32) (h3 : M3.IsWhole)

theorem out0_witness :
    out0 c t M3 h3 tbl hidx emb g
      = M3.view.read (Elt F) (M3.view.writes (Elt F) M3.view.junk (kernelRun.sl.H3_8 c t tbl hidx emb g)) := by
  unfold out0 kernelRun; dsimp only

/-- Row `l`, lane `d` of the block: `tanh` of entry `(l % 16, d)` of the load of chunk `l / 16`. -/
theorem out0_apply (l : Fin 128) (d : Fin 768) :
    out0 c t M3 h3 tbl hidx emb g (ix3 (0 : Fin 1) l d)
      = FloatOps.tanh (loads c t tbl hidx emb g ⟨l.val / 16, by have := l.isLt; omega⟩ (ix2 (⟨l.val % 16, Nat.mod_lt _ (by decide)⟩ : Fin 16) d)) := by
  rw [out0_witness, witness_pieces, Cert.Rows.read_pieces]
  exact stored_apply c t tbl hidx emb g _ _ d

theorem out0_of_loads (R : Fin 8 → Fin 16 → Fin 768 → Elt F .f32)
    (hR : ∀ (k : Fin 8) (u : Fin 16) (d : Fin 768), loads c t tbl hidx emb g k (ix2 u d) = R k u d) (l : Fin 128) (d : Fin 768) :
    out0 c t M3 h3 tbl hidx emb g (ix3 (0 : Fin 1) l d)
      = FloatOps.tanh (R ⟨l.val / 16, by have := l.isLt; omega⟩ ⟨l.val % 16, Nat.mod_lt _ (by decide)⟩ d) := by
  rw [out0_apply, hR]

end Witness

end Cert.KernelIdeal.R0Run

end
-- ==== Proof.KI.R0Payload.lean ====
import proofs.«422118_j38706245271901_2_alg».proof.Proof.Gen.KernelIdeal
import proofs.«422118_j38706245271901_2_alg».proof.Proof.KI.R0Def
import proofs.«422118_j38706245271901_2_alg».proof.Proof.KI.R0Run
import proofs.«422118_j38706245271901_2_alg».proof.Proof.LibRows
import Idealize.ShloMosaic.Lib.ValueIdx

noncomputable section

namespace Cert.KernelIdeal.R0Run

open Cert.KernelIdeal Cert.KernelIdeal.R0
open Idealize.ShloMosaic Idealize.ShloMosaic.TcCoe Idealize.ShloMosaic.ValueIdx

variable {F : FTy → Type} [FloatOps F]

/-- The table sliced to row `v` and squeezed to a vector reads, at lane `d`, entry `(v, d)`. -/
theorem row_payload (c : Dev nD) (emb : Bf (F := F) c (Memref.whole main_arg1)) (v : BitVec 32) (h : v.toNat < 50257)
    (off : Fin 2 → Nat) (hoff : off = ![v.toNat, 0]) (hinb : ∀ a, off a + S1x768.size a ≤ S50257x768.size a)
    (hs : ∀ a, (Rect.unit (s := S50257x768) off S1x768.size hinb).stride a = 1) (hsq : S1x768.Squeezes S768) (d : Fin 768) :
    ReadAs.same.apply (View.read (Elt F)
        (((Memref.whole main_arg1).slice (Rect.unit (s := S50257x768) off S1x768.size hinb) hs).squeeze S768 hsq).view emb) (ix1 d)
      = emb (ix2 ⟨v.toNat, h⟩ d) := by
  subst hoff
  show emb ((Rect.unit (s := S50257x768) ![v.toNat, 0] S1x768.size hinb).emb (Shape.reshapeEquiv hsq.numel_eq (ix1 d)))
    = emb (ix2 ⟨v.toNat, h⟩ d)
  rw [Cert.Rows.reshapeEquiv_ix1_1a]
  congr 1
  funext a
  match a with
  | ⟨0, _⟩ => exact Fin.ext (by show v.toNat + 1 * 0 = v.toNat; omega)
  | ⟨1, _⟩ => exact Fin.ext (by show 0 + 1 * d.val = d.val; omega)

theorem row_payload_rowAt (c : Dev nD) (emb : Bf (F := F) c (Memref.whole main_arg1)) (v : BitVec 32) (h : v.toNat < 50257)
    (off : Fin 2 → Nat) (hoff : off = ![v.toNat, 0]) (hinb : ∀ a, off a + S1x768.size a ≤ S50257x768.size a)
    (hs : ∀ a, (Rect.unit (s := S50257x768) off S1x768.size hinb).stride a = 1) (hsq : S1x768.Squeezes S768) (d : Fin 768) :
    ReadAs.same.apply (View.read (Elt F)
        (((Memref.whole main_arg1).slice (Rect.unit (s := S50257x768) off S1x768.size hinb) hs).squeeze S768 hsq).view emb) (ix1 d)
      = rowAt emb v d := by
  rw [row_payload c emb v h off hoff hinb hs hsq d]
  unfold rowAt
  rw [dif_pos h]

/-- The grid coordinate the body computes from a point is the point's number. -/
theorem coord0 : ∀ t : Fin grid0.N, (Scalar.indexCast (BitVec.ofNat 32 ((grid0.coords t) 0).val)).toNat = t.val := by
  decide +kernel

/-- A one-word load at offsets `(t, l)` reads entry `(t, l)` of the token table. -/
theorem word_at (c : Dev nD) (tbl : Bf (F := F) c (Memref.whole main_arg0)) (t l : Fin 128)
    (off : Fin 2 → Nat) (h0 : off 0 = t.val) (h1 : off 1 = l.val) (inb : ∀ a, off a + S1x1.size a ≤ S128x128.size a)
    (hn : 0 < (Rect.unit (s := S128x128) off S1x1.size inb).toLoadRect.shape.numel) :
    View.readAt (Elt F) (Memref.whole main_arg0).view (Rect.unit (s := S128x128) off S1x1.size inb).toLoadRect tbl (Shape.Idx.first hn)
      = tbl (ix2 t l) := by
  show tbl ((Rect.unit (s := S128x128) off S1x1.size inb).emb (Shape.Idx.first hn)) = tbl (ix2 t l)
  congr 1
  funext a
  match a with
  | ⟨0, _⟩ => exact Fin.ext (by show off 0 + 1 * 0 = t.val; omega)
  | ⟨1, _⟩ => exact Fin.ext (by show off 1 + 1 * 0 = l.val; omega)

/-- The same at the body's own offsets: the coordinate of grid point `t` and the literal position `l`. -/
theorem word_at_point (c : Dev nD) (tbl : Bf (F := F) c (Memref.whole main_arg0)) (t : Fin grid0.N) (l : Nat) (hl : l < 128)
    (off : Fin 2 → Nat) (hoff : off = ![(Scalar.indexCast (BitVec.ofNat 32 ((grid0.coords t) 0).val)).toNat, l])
    (inb : ∀ a, off a + S1x1.size a ≤ S128x128.size a)
    (hn : 0 < (Rect.unit (s := S128x128) off S1x1.size inb).toLoadRect.shape.numel) :
    View.readAt (Elt F) (Memref.whole main_arg0).view (Rect.unit (s := S128x128) off S1x1.size inb).toLoadRect tbl (Shape.Idx.first hn)
      = tbl (ix2 ⟨t.val, lt_of_lt_of_eq t.isLt Gen.N_0⟩ ⟨l, hl⟩) :=
  word_at c tbl ⟨t.val, lt_of_lt_of_eq t.isLt Gen.N_0⟩ ⟨l, hl⟩ off (by rw [hoff]; exact coord0 t) (by rw [hoff]; rfl) inb hn

end Cert.KernelIdeal.R0Run

end
-- ==== Proof.KI.R0Loads.lean ====
import proofs.«422118_j38706245271901_2_alg».proof.Proof.KI.R0Pieces
import proofs.«422118_j38706245271901_2_alg».proof.Proof.LibRows
import proofs.«422118_j38706245271901_2_alg».proof.Proof.KI.R0Payload

noncomputable section

namespace Cert.KernelIdeal.R0Run

open Cert.KernelIdeal Cert.KernelIdeal.Gen Cert.KernelIdeal.R0
open Idealize.ShloMosaic Idealize.ShloMosaic.TcCoe Idealize.ShloMosaic.ValueIdx
open Idealize.SL Idealize.SL.Sem

variable {F : FTy → Type} [FloatOps F]

abbrev rowOf (t : Fin grid0.N) : Fin 128 := ⟨t.val, lt_of_lt_of_eq t.isLt Gen.N_0⟩

variable (c : Dev nD) (t : Fin grid0.N)
    (tbl : Bf (F := F) c (Memref.whole main_arg0)) (hidx : ∀ x : S128x128.Idx, (tbl x : BitVec 32).toNat < 50257)
    (emb : Bf (F := F) c (Memref.whole main_arg1)) (g : Bf (F := F) c (Memref.whole cc0_scratch0))

/-- Chunk `k`'s load, at row `u`, is the embedding row that word `16 k + u` of sentence `t` names: the sixteen copies
    fill the sixteen rows, and copy `u` carries the row its word names. -/
theorem loads_at (k : Fin 8) : ∀ (u : Fin 16) (d : Fin 768),
    loads c t tbl hidx emb g k (ix2 u d)
      = rowAt emb (tbl (ix2 (rowOf t) (⟨16 * k.val + u.val, by have := k.isLt; have := u.isLt; omega⟩ : Fin 128))) d := by
  obtain ⟨k, hk⟩ := k
  interval_cases k <;>
  · refine Cert.Rows.load_rows16 (Val := Elt F) (Memref.whole cc0_scratch0) _ _ rfl _ _ _ _ _ _ _ _ _ _ _ _ _ _ _ _ _ _ _
      fun d => ⟨?_, ?_, ?_, ?_, ?_, ?_, ?_, ?_, ?_, ?_, ?_, ?_, ?_, ?_, ?_, ?_⟩ <;>
    (refine (row_payload_rowAt c emb _ (word_lt c tbl hidx _ _) _ rfl _ _ _ d).trans ?_
     exact congrArg (fun v => rowAt emb v d) (word_at_point c tbl t _ _ _ rfl _ _))

end Cert.KernelIdeal.R0Run

end
-- ==== Proof.KI.R0Val.lean ====
import proofs.«422118_j38706245271901_2_alg».proof.Proof.KI.R0Loads

noncomputable section

namespace Cert.KernelIdeal.R0Run

open Cert.KernelIdeal Cert.KernelIdeal.Gen Cert.KernelIdeal.R0
open Idealize.ShloMosaic Idealize.ShloMosaic.TcCoe Idealize.ShloMosaic.ValueIdx
open Idealize.SL Idealize.SL.Sem

variable {F : FTy → Type} [FloatOps F]

theorem out0_at (c : Dev nD) (t : Fin grid0.N)
    (tbl : Bf (F := F) c (Memref.whole main_arg0)) (hidx : ∀ x : S128x128.Idx, (tbl x : BitVec 32).toNat < 50257)
    (emb : Bf (F := F) c (Memref.whole main_arg1)) (g : Bf (F := F) c (Memref.whole cc0_scratch0))
    (M3 : Memref sig .tc .vmem S1x128x768 .f32) (h3 : M3.IsWhole) (l : Fin 128) (d : Fin 768) :
    out0 c t M3 h3 tbl hidx emb g (ix3 (0 : Fin 1) l d) = gathAt tbl emb (rowOf t) l d := by
  rw [out0_of_loads c t tbl hidx emb g M3 h3
    (fun k u d => rowAt emb (tbl (ix2 (rowOf t) (⟨16 * k.val + u.val, by have := k.isLt; have := u.isLt; omega⟩ : Fin 128))) d)
    (loads_at c t tbl hidx emb g) l d]
  unfold gathAt
  have e : (⟨16 * (l.val / 16) + l.val % 16, by have := l.isLt; omega⟩ : Fin 128) = l := Fin.ext (by show 16 * (l.val / 16) + l.val % 16 = l.val; omega)
  exact congrArg (fun l' : Fin 128 => FloatOps.tanh (rowAt emb (tbl (ix2 (rowOf t) l')) d)) e

/-- The block the body leaves at point `t` is sentence `t`'s gathered rows. -/
theorem out0_eq (c : Dev nD) (t : Fin grid0.N)
    (tbl : Bf (F := F) c (Memref.whole main_arg0)) (hidx : ∀ x : S128x128.Idx, (tbl x : BitVec 32).toNat < 50257)
    (emb : Bf (F := F) c (Memref.whole main_arg1)) (g : Bf (F := F) c (Memref.whole cc0_scratch0))
    (M3 : Memref sig .tc .vmem S1x128x768 .f32) (h3 : M3.IsWhole) :
    out0 c t M3 h3 tbl hidx emb g = gath tbl emb (rowOf t) := by
  funext j
  obtain ⟨z, l, d, rfl⟩ : ∃ (z : Fin 1) (l : Fin 128) (d : Fin 768), j = ix3 z l d := ⟨j 0, j 1, j 2, eq_ix3 j⟩
  have hz : z = (0 : Fin 1) := Fin.ext (by have := z.isLt; omega)
  subst hz
  exact out0_at c t tbl hidx emb g M3 h3 l d

end Cert.KernelIdeal.R0Run

end
-- ==== Proof.KI.R0Obl.lean ====
import proofs.«422118_j38706245271901_2_alg».proof.Proof.KI.R0Dat
import proofs.«422118_j38706245271901_2_alg».proof.Proof.KI.R0Val

noncomputable section

namespace Cert.KernelIdeal.R0

open Cert.KernelIdeal Cert.KernelIdeal.Gen Cert.KernelIdeal.R0Run
open Idealize.ShloMosaic Idealize.ShloMosaic.TcCoe
open Idealize.SL
open Idealize.ShloMosaic.Pipeline (BodyObligation)

variable {F : FTy → Type} [FloatOps F]

theorem body_obligation0 (a0 : (pcfg0 (F := F)).Adm) (c : Dev nD) (V : (b : Ref sig .tc) → Buf (Elt F) ((c : Thread nD τ).loc b))
    (hidx : ∀ x, (a0.1 0 x).toNat < 50257) :
    BodyObligation (dat0 a0 c V) (defs₀ (F := F)) Variants.none () Set.univ :=
  body_obligation0_of a0 c V hidx fun t M3 h3 g => R0Run.out0_eq c t (a0.1 0) hidx (V main_arg1) g M3 h3

end Cert.KernelIdeal.R0

end
-- ==== Proof.KI.FrameOf.lean ====
import proofs.«422118_j38706245271901_2_alg».proof.Proof.KI.Vals

noncomputable section

namespace Cert.KernelIdeal.Launch

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem frame_of
    (h : θ_run defs (onTc (τ := τ) (main (F := F))) ⟨m, fun _ => 0, ρ⟩
      (fun r => ∀ c : Dev nD, ∀ b ∈ Pipeline.ucRefs τ sig, r.2.mem ((c : Thread nD τ).1, b) = W4 m c b)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c =>
    ⟨(hr c _ (mem_uc main_arg0 (by decide))).trans (W4_main_arg0 m c),
      (hr c _ (mem_uc main_arg1 (by decide))).trans (W4_main_arg1 m c)⟩) h

theorem results_of
    (h : θ_run defs (onTc (τ := τ) (main (F := F))) ⟨m, fun _ => 0, ρ⟩
      (fun r => ∀ c : Dev nD, ∀ b ∈ Pipeline.ucRefs τ sig, r.2.mem ((c : Thread nD τ).1, b) = W4 m c b)) :
    θ_run defs (onTc (τ := τ) (main (F := F))) ⟨m, fun _ => 0, ρ⟩ (fun r => ∀ c : Dev nD,
      r.2.mem ((c.tc : Thread nD τ).loc main_v7_0) = W4 m c (Proc.devRef .tc main_v7_0)
      ∧ r.2.mem ((c.tc : Thread nD τ).loc main_v10) = W4 m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c =>
    ⟨hr c _ (mem_uc main_v7_0 (by decide)), hr c _ (mem_uc main_v10 (by decide)),
      (hr c _ (mem_uc main_arg0 (by decide))).trans (W4_main_arg0 m c),
      (hr c _ (mem_uc main_arg1 (by decide))).trans (W4_main_arg1 m c)⟩) h

end Cert.KernelIdeal.Launch

end
-- ==== Proof.KI.R0Final.lean ====
import proofs.«422118_j38706245271901_2_alg».proof.Proof.KI.R0Def
import proofs.«422118_j38706245271901_2_alg».proof.Proof.Spec
import Idealize.ShloMosaic.Lib.Pipeline.Value

noncomputable section

namespace Cert.KernelIdeal.R0

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

theorem index_eq (a0 : (pcfg0 (F := F)).Adm) : ∀ t : Fin (cfg0 a0).N,
    ((cfg0 a0).win 0).index t (0 : Fin 3) = t.val ∧ ((cfg0 a0).win 0).index t (1 : Fin 3) = 0 ∧ ((cfg0 a0).win 0).index t (2 : Fin 3) = 0 :=
  (by decide +kernel : ∀ t : Fin grid0.N, cc0_transform_1 (grid0.coords t) (0 : Fin 3) = t.val
    ∧ cc0_transform_1 (grid0.coords t) (1 : Fin 3) = 0 ∧ cc0_transform_1 (grid0.coords t) (2 : Fin 3) = 0)

theorem flush_every (a0 : (pcfg0 (F := F)).Adm) : ∀ t : Fin (cfg0 a0).N, ((cfg0 a0).win 0).flush t = true :=
  (by decide +kernel : ∀ t : Fin grid0.N, Pipeline.Window.flushOf grid0 true cc0_transform_1 t = true)

/-- The whole gathered array: sentence `i 0`, position `i 1`, lane `i 2`. -/
def gathArr (tbl : (⟨S128x128, .i32⟩ : BufTy).Contents (Elt F)) (emb : (⟨S50257x768, .f32⟩ : BufTy).Contents (Elt F)) :
    S128x128x768.Idx → Elt F .f32 :=
  fun i => gathAt tbl emb (i 0) (i 1) (i 2)

theorem gathAt_congr (tbl : (⟨S128x128, .i32⟩ : BufTy).Contents (Elt F)) (emb : (⟨S50257x768, .f32⟩ : BufTy).Contents (Elt F))
    {t t' : Fin 128} {l l' : Fin 128} {d d' : Fin 768} (ht : t.val = t'.val) (hl : l.val = l'.val) (hd : d.val = d'.val) :
    gathAt tbl emb t l d = gathAt tbl emb t' l' d' := by
  obtain rfl := Fin.ext ht; obtain rfl := Fin.ext hl; obtain rfl := Fin.ext hd; rfl

section Blocks

variable (a0 : (pcfg0 (F := F)).Adm) (c : Dev nD) (V : (b : Ref sig .tc) → Buf (Elt F) ((c : Thread nD τ).loc b))

/-- What point `t` writes back is block `t` of `gathArr`. -/
theorem flushed_eq (t : Fin (cfg0 a0).N) :
    (dat0 a0 c V).flushed 0 t = (((cfg0 a0).win 0).blk t).view.read (Elt F) (gathArr (a0.1 0) (V main_arg1)) := by
  obtain ⟨e0, e1, e2⟩ := index_eq a0 t
  funext j
  refine (gathAt_congr (a0.1 0) (V main_arg1) (t := ⟨t.val, lt_of_lt_of_eq t.isLt N_0⟩)
    (l := ((cfg0 a0).win 0).xinj ((cfg0 a0).grid.coords t) j (1 : Fin 3)) (d := ((cfg0 a0).win 0).xinj ((cfg0 a0).grid.coords t) j (2 : Fin 3))
    (t' := (((cfg0 a0).win 0).blk t).view.emb j (0 : Fin 3)) (l' := (((cfg0 a0).win 0).blk t).view.emb j (1 : Fin 3))
    (d' := (((cfg0 a0).win 0).blk t).view.emb j (2 : Fin 3)) ?_ ?_ ?_)
  · show t.val = ((cfg0 a0).win 0).index t (0 : Fin 3) * 1 + 1 * (j (0 : Fin 3)).val
    have hj : (j (0 : Fin 3)).val < 1 := (j (0 : Fin 3)).isLt
    omega
  · show (j (1 : Fin 3)).val = ((cfg0 a0).win 0).index t (1 : Fin 3) * 128 + 1 * (j (1 : Fin 3)).val
    omega
  · show (j (2 : Fin 3)).val = ((cfg0 a0).win 0).index t (2 : Fin 3) * 768 + 1 * (j (2 : Fin 3)).val
    omega

theorem mem_blk (t : Fin (cfg0 a0).N) (i : S128x128x768.Idx) :
    i ∈ (((cfg0 a0).win 0).blk t).view.set ↔ ∀ a : Fin 3, ((cfg0 a0).win 0).index t a * S1x128x768.size a ≤ (i a).val
      ∧ (i a).val < ((cfg0 a0).win 0).index t a * S1x128x768.size a + S1x128x768.size a := by
  have h : (((cfg0 a0).win 0).blk t).view.set = (((cfg0 a0).win 0).rect t).set :=
    View.set_slice_whole main_v0 (((cfg0 a0).win 0).rect t)
  exact (Finset.ext_iff.mp h i).trans Rect.mem_set_unit

/-- Every index lies in the block of the point its sentence names. -/
theorem cover (i : S128x128x768.Idx) :
    ∃ t : Fin (cfg0 a0).N, ((cfg0 a0).win 0).flush t = true ∧ i ∈ (((cfg0 a0).win 0).blk t).view.set := by
  have h0 : (i (0 : Fin 3)).val < 128 := (i (0 : Fin 3)).isLt
  have h1 : (i (1 : Fin 3)).val < 128 := (i (1 : Fin 3)).isLt
  have h2 : (i (2 : Fin 3)).val < 768 := (i (2 : Fin 3)).isLt
  refine ⟨⟨(i (0 : Fin 3)).val, lt_of_lt_of_eq h0 N_0.symm⟩, flush_every a0 _, ?_⟩
  obtain ⟨e0, e1, e2⟩ := index_eq a0 ⟨(i (0 : Fin 3)).val, lt_of_lt_of_eq h0 N_0.symm⟩
  have e0' : ((cfg0 a0).win 0).index ⟨(i (0 : Fin 3)).val, lt_of_lt_of_eq h0 N_0.symm⟩ (0 : Fin 3) = (i (0 : Fin 3)).val := e0
  rw [mem_blk]
  intro a
  match a with
  | ⟨0, _⟩ => show ((cfg0 a0).win 0).index _ (0 : Fin 3) * 1 ≤ (i (0 : Fin 3)).val ∧ (i (0 : Fin 3)).val < ((cfg0 a0).win 0).index _ (0 : Fin 3) * 1 + 1; rw [e0']; omega
  | ⟨1, _⟩ => show ((cfg0 a0).win 0).index _ (1 : Fin 3) * 128 ≤ (i (1 : Fin 3)).val ∧ (i (1 : Fin 3)).val < ((cfg0 a0).win 0).index _ (1 : Fin 3) * 128 + 128; rw [e1]; omega
  | ⟨2, _⟩ => show ((cfg0 a0).win 0).index _ (2 : Fin 3) * 768 ≤ (i (2 : Fin 3)).val ∧ (i (2 : Fin 3)).val < ((cfg0 a0).win 0).index _ (2 : Fin 3) * 768 + 768; rw [e2]; omega

/-- The blocks tile the array and each point writes its own, so the array ends at `gathArr`. -/
theorem final_gen : (dat0 a0 c V).arrAt 0 (cfg0 a0).N = gathArr (a0.1 0) (V main_arg1) :=
  (dat0 a0 c V).arrAt_eq_of_cover 0 (gathArr (a0.1 0) (V main_arg1)) (fun t _ => flushed_eq a0 c V t) (cover a0)

end Blocks

theorem gathAt_eq_embT (tbl : (⟨S128x128, .i32⟩ : BufTy).Contents (Elt Ideal)) (emb : (⟨S50257x768, .f32⟩ : BufTy).Contents (Elt Ideal))
    (t l : Fin 128) (d : Fin 768) : gathAt (F := Ideal) tbl emb t l d = Cert.Spec.embT tbl emb t l d := rfl

theorem final0 (a0 : (pcfg0 (F := Ideal)).Adm) (c : Dev nD) (V : (b : Ref sig .tc) → Buf (Elt Ideal) ((c : Thread nD τ).loc b))
    (hidx : ∀ x, (a0.1 0 x).toNat < 50257) :
    (dat0 a0 c V).arrAt 0 (cfg0 a0).N
      = fun i : S128x128x768.Idx => Cert.Spec.embT (a0.1 0) (V main_arg1) (i 0) (i 1) (i 2) :=
  (final_gen a0 c V).trans (funext fun i => gathAt_eq_embT (a0.1 0) (V main_arg1) (i 0) (i 1) (i 2))

end Cert.KernelIdeal.R0

end
-- ==== Proof.KI.Glue.lean ====
import proofs.«422118_j38706245271901_2_alg».proof.Proof.Gen.KernelIdeal.Launch
import proofs.«422118_j38706245271901_2_alg».proof.Proof.Spec
import proofs.«422118_j38706245271901_2_alg».proof.Proof.LibPatchLayout
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Glue

open Cert.KernelIdeal Cert.KernelIdeal.Gen Cert.LibPatchLayout
open Idealize.ShloMosaic Idealize.ShloMosaic.TcCoe Idealize.ShloMosaic.ValueIdx

def tokOf (p : Fin 576) : Fin 128 := ⟨min p.val 127, by omega⟩

@[simp] theorem tokOf_val (p : Fin 576) : (tokOf p).val = min p.val 127 := rfl

theorem padLast_apply {α : Type} (A : (⟨3, ![128, 128, 768]⟩ : Shape).Idx → α)
    (hS : (⟨3, ![128, 128, 768]⟩ : Shape).Slices ![0, 127, 0] ⟨3, ![128, 1, 768]⟩)
    (hB : (⟨3, ![128, 1, 768]⟩ : Shape).BroadcastsInDim ⟨3, ![128, 448, 768]⟩ (![0, 1, 2] : Fin 3 → Fin 3))
    (hK : Shape.Concatenates [(⟨3, ![128, 128, 768]⟩ : Shape), ⟨3, ![128, 448, 768]⟩] ⟨3, ![128, 576, 768]⟩ 1)
    (n : Fin 128) (p : Fin 576) (d : Fin 768) :
    concatenate ⟨3, ![128, 576, 768]⟩ 1
        [⟨⟨3, ![128, 128, 768]⟩, A⟩,
         ⟨⟨3, ![128, 448, 768]⟩, broadcastInDim ⟨3, ![128, 448, 768]⟩ ![0, 1, 2] hB
            (extractStridedSlice ⟨3, ![128, 1, 768]⟩ ![0, 127, 0] A hS)⟩] hK (ix3 n p d)
      = A (ix3 n (tokOf p) d) := by
  by_cases hp : p.val < 128
  ·
    have ht : tokOf p = ⟨p.val, hp⟩ := Fin.ext (by show min p.val 127 = p.val; omega)
    rw [ht]
    exact concatenate_pair_apply_left (t := ⟨3, ![128, 576, 768]⟩) (s₁ := ⟨3, ![128, 128, 768]⟩) (s₂ := ⟨3, ![128, 448, 768]⟩) (1 : Fin 3) A _ hK (ix3 n p d) rfl (ix3 n ⟨p.val, hp⟩ d) (fun b => match b with
      | ⟨0, _⟩ => rfl
      | ⟨1, _⟩ => rfl
      | ⟨2, _⟩ => rfl)
  ·
    have hp' : 128 ≤ p.val := Nat.le_of_not_lt hp
    have ht : tokOf p = ⟨127, by omega⟩ := Fin.ext (by show min p.val 127 = 127; omega)
    rw [ht]
    refine (concatenate_pair_apply_right (t := ⟨3, ![128, 576, 768]⟩) (s₁ := ⟨3, ![128, 128, 768]⟩) (s₂ := ⟨3, ![128, 448, 768]⟩) (1 : Fin 3) A _ hK (ix3 n p d) rfl rfl
      (ix3 n (⟨p.val - 128, by have := p.isLt; omega⟩ : Fin 448) d) (fun b hb => ?_) ?_).trans ?_
    · match b with
      | ⟨0, _⟩ => rfl
      | ⟨1, _⟩ => exact absurd rfl hb
      | ⟨2, _⟩ => rfl
    · show p.val - 128 + 128 = p.val
      omega
    · refine (broadcastInDim_apply _ hB _ _ (ix3 n (0 : Fin 1) d) (fun a => ?_)).trans ?_
      · match a with
        | ⟨0, _⟩ => rfl
        | ⟨1, _⟩ => rfl
        | ⟨2, _⟩ => rfl
      · exact slice3_axis1_apply 127 A hS n (0 : Fin 1) d ⟨127, by omega⟩ rfl

section AnyInstance

variable {F : FTy → Type} [FloatOps F] (V : Valuation τ sig (Elt F))

theorem after_hostOps1_v6 :
    (StableHlo.after (hostOps1 (F := F)) V (Proc.devRef .tc main_v6) : S128x3x384x384.Idx → Elt F .f32)
      = shapeCast S128x3x384x384
          (transpose S128x3x24x16x24x16 [0, 3, 1, 4, 2, 5]
            (shapeCast S128x24x24x3x16x16
              (concatenate S128x576x768 1
                [⟨S128x128x768, (V (Proc.devRef .tc main_v0) : S128x128x768.Idx → Elt F .f32)⟩,
                 ⟨S128x448x768, broadcastInDim S128x448x768 ![0, 1, 2] bcast_S128x1x768_S128x448x768_0_1_2
                    (extractStridedSlice S128x1x768 ![0, 127, 0] (V (Proc.devRef .tc main_v0) : S128x128x768.Idx → Elt F .f32)
                      slices_S128x128x768_S128x1x768_0_127_0)⟩]
                concatenates_S128x128x768_S128x448x768_S128x576x768_d1)
              shapeCasts_S128x576x768_S128x24x24x3x16x16)
            transposes_S128x24x24x3x16x16_S128x3x24x16x24x16_0_3_1_4_2_5)
          shapeCasts_S128x3x24x16x24x16_S128x3x384x384 := by
  dsimp only [hostOps1]
  after_results
  rfl

/-- The host's padding, reshape and transpose place at pixel `(ch, y, x)` the gathered row of the pixel's patch (the last row from patch 128 on), at the pixel's lane. -/
theorem image_apply (n : Fin 128) (ch : Fin 3) (y x : Fin 384) :
    (StableHlo.after (hostOps1 (F := F)) V (Proc.devRef .tc main_v6) : S128x3x384x384.Idx → Elt F .f32) (ix4 n ch y x)
      = (V (Proc.devRef .tc main_v0) : S128x128x768.Idx → Elt F .f32)
          (ix3 n (tokOf (patchIdx (patchOf y) (patchOf x))) (laneIdx ch (inPatch y) (inPatch x))) :=
  (congrFun (after_hostOps1_v6 V) (ix4 n ch y x)).trans
    ((image_of_rows_apply _ shapeCasts_S128x576x768_S128x24x24x3x16x16
        transposes_S128x24x24x3x16x16_S128x3x24x16x24x16_0_3_1_4_2_5 shapeCasts_S128x3x24x16x24x16_S128x3x384x384 n ch y x).trans
      (padLast_apply _ slices_S128x128x768_S128x1x768_0_127_0 bcast_S128x1x768_S128x448x768_0_1_2
        concatenates_S128x128x768_S128x448x768_S128x576x768_d1 n _ _))

end AnyInstance

theorem tokOf_eq_tok (y x : Fin 384) : tokOf (patchIdx (patchOf y) (patchOf x)) = Cert.Spec.tok y x := Fin.ext rfl

theorem laneIdx_eq_lane (ch : Fin 3) (y x : Fin 384) : laneIdx ch (inPatch y) (inPatch x) = Cert.Spec.lane ch y x := Fin.ext rfl

variable (V : Valuation τ sig (Elt Ideal))

theorem glue1 (tbl : Cert.Spec.Tbl) (emb : Cert.Spec.Emb)
    (h0 : (V (Proc.devRef .tc main_v0) : S128x128x768.Idx → EReal) = fun i => Cert.Spec.embT tbl emb (i 0) (i 1) (i 2)) :
    (StableHlo.after (hostOps1 (F := Ideal)) V (Proc.devRef .tc main_v6) : S128x3x384x384.Idx → EReal)
      = fun i => Cert.Spec.img tbl emb (i 0) (i 1) (i 2) (i 3) := by
  funext i
  obtain ⟨n, ch, y, x, rfl⟩ : ∃ (n : Fin 128) (ch : Fin 3) (y x : Fin 384), i = ix4 n ch y x :=
    ⟨i 0, i 1, i 2, i 3, eq_ix4 i⟩
  refine (image_apply V n ch y x).trans ?_
  rw [h0, tokOf_eq_tok, laneIdx_eq_lane]
  rfl

theorem glue2 :
    (StableHlo.after (hostOps2 (F := Ideal)) V (Proc.devRef .tc main_v10) : S_.Idx → EReal)
      = fun _ => Ideal.div (Ideal.sqrt ((V (Proc.devRef .tc main_v7_1) : S1x1.Idx → EReal) (ix2 0 0)))
          (Ideal.ofBits .f32 0x43000000#32) := by
  have e : (StableHlo.after (hostOps2 (F := Ideal)) V (Proc.devRef .tc main_v10) : S_.Idx → EReal)
      = Host.divf (Host.sqrt (shapeCast S_ (V (Proc.devRef .tc main_v7_1) : S1x1.Idx → EReal) shapeCasts_S1x1_S_))
          (constant (F := Ideal) S_ .f32 0x43000000#32) := by
    dsimp only [hostOps2]
    after_results
    rfl
  rw [e]
  funext j
  show Ideal.div (Ideal.sqrt (shapeCast S_ (V (Proc.devRef .tc main_v7_1) : S1x1.Idx → EReal) shapeCasts_S1x1_S_ j))
      (Ideal.ofBits .f32 0x43000000#32) = _
  have hc : shapeCast S_ (V (Proc.devRef .tc main_v7_1) : S1x1.Idx → EReal) shapeCasts_S1x1_S_ j
      = (V (Proc.devRef .tc main_v7_1) : S1x1.Idx → EReal) (ix2 0 0) :=
    shapeCast_apply _ shapeCasts_S1x1_S_ j (ix2 (0 : Fin 1) (0 : Fin 1)) (by
      have hj : (S_.rowMajor j).val < 1 := (S_.rowMajor j).isLt
      rw [Shape.rowMajor_val_two]
      show 0 * 1 + 0 = (S_.rowMajor j).val
      omega)
  rw [hc]

end Cert.KernelIdeal.Glue

end
-- ==== Proof.KI.R1Geom.lean ====
import proofs.«422118_j38706245271901_2_alg».proof.Proof.Gen.KernelIdeal
import proofs.«422118_j38706245271901_2_alg».proof.Proof.Gen.KernelIdeal.Launch
import proofs.«422118_j38706245271901_2_alg».proof.Proof.Gen.KernelIdeal.Points
import Idealize.ShloMosaic.Lib.Pipeline.Value

noncomputable section

namespace Cert.KernelIdeal.R1

open Cert.KernelIdeal Cert.KernelIdeal.Gen
open Idealize.ShloMosaic Idealize.ShloMosaic.TcCoe
open Idealize.SL.Sem

theorem index_eq1_0 : ∀ t : Fin cfg1.N, (cfg1.win 0).index t (0 : Fin 4) = t.val ∧ (cfg1.win 0).index t (1 : Fin 4) = 0
    ∧ (cfg1.win 0).index t (2 : Fin 4) = 0 ∧ (cfg1.win 0).index t (3 : Fin 4) = 0 :=
  (by decide +kernel : ∀ t : Fin grid1.N, win1_0.index t (0 : Fin 4) = t.val ∧ win1_0.index t (1 : Fin 4) = 0
    ∧ win1_0.index t (2 : Fin 4) = 0 ∧ win1_0.index t (3 : Fin 4) = 0)

theorem index_eq1_1 : ∀ t : Fin cfg1.N, (cfg1.win 1).index t (0 : Fin 4) = t.val ∧ (cfg1.win 1).index t (1 : Fin 4) = 0
    ∧ (cfg1.win 1).index t (2 : Fin 4) = 0 ∧ (cfg1.win 1).index t (3 : Fin 4) = 0 :=
  (by decide +kernel : ∀ t : Fin grid1.N, win1_1.index t (0 : Fin 4) = t.val ∧ win1_1.index t (1 : Fin 4) = 0
    ∧ win1_1.index t (2 : Fin 4) = 0 ∧ win1_1.index t (3 : Fin 4) = 0)

theorem index_eq1_2 : ∀ t : Fin cfg1.N, (cfg1.win 2).index t (0 : Fin 2) = 0 ∧ (cfg1.win 2).index t (1 : Fin 2) = 0 :=
  (by decide +kernel : ∀ t : Fin grid1.N, win1_2.index t (0 : Fin 2) = 0 ∧ win1_2.index t (1 : Fin 2) = 0)

theorem flush_every1_1 : ∀ t : Fin cfg1.N, (cfg1.win 1).flush t = true := flush1_1

theorem flush1_2_iff (t : Fin cfg1.N) : (cfg1.win 2).flush t = true ↔ t.val = 127 := by
  have ht : t.val < 128 := lt_of_lt_of_eq t.isLt N_1
  rw [flush1_2 t]
  omega

abbrev tLast : Fin cfg1.N := ⟨127, by rw [show cfg1.N = 128 from N_1]; decide⟩

theorem flush1_2_last : (cfg1.win 2).flush tLast = true := (flush1_2_iff tLast).mpr rfl

theorem emb1_0_val (t : Fin cfg1.N) (y : S1x3x384x384.Idx) :
    ((((cfg1.win 0).blk t).view.emb y : S128x3x384x384.Idx) (0 : Fin 4)).val = t.val
    ∧ ((((cfg1.win 0).blk t).view.emb y : S128x3x384x384.Idx) (1 : Fin 4)).val = (y (1 : Fin 4)).val
    ∧ ((((cfg1.win 0).blk t).view.emb y : S128x3x384x384.Idx) (2 : Fin 4)).val = (y (2 : Fin 4)).val
    ∧ ((((cfg1.win 0).blk t).view.emb y : S128x3x384x384.Idx) (3 : Fin 4)).val = (y (3 : Fin 4)).val := by
  obtain ⟨e0, e1, e2, e3⟩ := index_eq1_0 t
  have hy : (y (0 : Fin 4)).val < 1 := (y (0 : Fin 4)).isLt
  refine ⟨?_, ?_, ?_, ?_⟩
  · show (cfg1.win 0).index t (0 : Fin 4) * 1 + 1 * (y (0 : Fin 4)).val = t.val; omega
  · show (cfg1.win 0).index t (1 : Fin 4) * 3 + 1 * (y (1 : Fin 4)).val = (y (1 : Fin 4)).val; omega
  · show (cfg1.win 0).index t (2 : Fin 4) * 384 + 1 * (y (2 : Fin 4)).val = (y (2 : Fin 4)).val; omega
  · show (cfg1.win 0).index t (3 : Fin 4) * 384 + 1 * (y (3 : Fin 4)).val = (y (3 : Fin 4)).val; omega

theorem emb1_1_val (t : Fin cfg1.N) (y : S1x3x384x384.Idx) :
    ((((cfg1.win 1).blk t).view.emb y : S128x3x384x384.Idx) (0 : Fin 4)).val = t.val
    ∧ ((((cfg1.win 1).blk t).view.emb y : S128x3x384x384.Idx) (1 : Fin 4)).val = (y (1 : Fin 4)).val
    ∧ ((((cfg1.win 1).blk t).view.emb y : S128x3x384x384.Idx) (2 : Fin 4)).val = (y (2 : Fin 4)).val
    ∧ ((((cfg1.win 1).blk t).view.emb y : S128x3x384x384.Idx) (3 : Fin 4)).val = (y (3 : Fin 4)).val := by
  obtain ⟨e0, e1, e2, e3⟩ := index_eq1_1 t
  have hy : (y (0 : Fin 4)).val < 1 := (y (0 : Fin 4)).isLt
  refine ⟨?_, ?_, ?_, ?_⟩
  · show (cfg1.win 1).index t (0 : Fin 4) * 1 + 1 * (y (0 : Fin 4)).val = t.val; omega
  · show (cfg1.win 1).index t (1 : Fin 4) * 3 + 1 * (y (1 : Fin 4)).val = (y (1 : Fin 4)).val; omega
  · show (cfg1.win 1).index t (2 : Fin 4) * 384 + 1 * (y (2 : Fin 4)).val = (y (2 : Fin 4)).val; omega
  · show (cfg1.win 1).index t (3 : Fin 4) * 384 + 1 * (y (3 : Fin 4)).val = (y (3 : Fin 4)).val; omega

theorem emb1_0_eq_emb1_1 (t : Fin cfg1.N) (y : S1x3x384x384.Idx) :
    (((cfg1.win 0).blk t).view.emb y : S128x3x384x384.Idx) = (((cfg1.win 1).blk t).view.emb y : S128x3x384x384.Idx) := by
  obtain ⟨a0, a1, a2, a3⟩ := emb1_0_val t y
  obtain ⟨b0, b1, b2, b3⟩ := emb1_1_val t y
  funext a
  apply Fin.ext
  match a with
  | ⟨0, _⟩ => exact a0.trans b0.symm
  | ⟨1, _⟩ => exact a1.trans b1.symm
  | ⟨2, _⟩ => exact a2.trans b2.symm
  | ⟨3, _⟩ => exact a3.trans b3.symm

theorem mem_blk1_1 (t : Fin cfg1.N) (i : S128x3x384x384.Idx) :
    i ∈ ((cfg1.win 1).blk t).view.set ↔ ∀ a : Fin 4, (cfg1.win 1).index t a * S1x3x384x384.size a ≤ (i a).val
      ∧ (i a).val < (cfg1.win 1).index t a * S1x3x384x384.size a + S1x3x384x384.size a := by
  have h : ((cfg1.win 1).blk t).view.set = ((cfg1.win 1).rect t).set :=
    View.set_slice_whole main_v7_0 ((cfg1.win 1).rect t)
  exact (Finset.ext_iff.mp h i).trans Rect.mem_set_unit

theorem mem_blk1_1_iff (t : Fin cfg1.N) (i : S128x3x384x384.Idx) :
    i ∈ ((cfg1.win 1).blk t).view.set ↔ (i (0 : Fin 4)).val = t.val := by
  obtain ⟨e0, e1, e2, e3⟩ := index_eq1_1 t
  have h1 : (i (1 : Fin 4)).val < 3 := (i (1 : Fin 4)).isLt
  have h2 : (i (2 : Fin 4)).val < 384 := (i (2 : Fin 4)).isLt
  have h3 : (i (3 : Fin 4)).val < 384 := (i (3 : Fin 4)).isLt
  rw [mem_blk1_1]
  constructor
  · intro h
    have b0 : (cfg1.win 1).index t (0 : Fin 4) * 1 ≤ (i (0 : Fin 4)).val ∧ (i (0 : Fin 4)).val < (cfg1.win 1).index t (0 : Fin 4) * 1 + 1 := h 0
    omega
  · intro h a
    match a with
    | ⟨0, _⟩ => show (cfg1.win 1).index t (0 : Fin 4) * 1 ≤ (i (0 : Fin 4)).val ∧ (i (0 : Fin 4)).val < (cfg1.win 1).index t (0 : Fin 4) * 1 + 1; omega
    | ⟨1, _⟩ => show (cfg1.win 1).index t (1 : Fin 4) * 3 ≤ (i (1 : Fin 4)).val ∧ (i (1 : Fin 4)).val < (cfg1.win 1).index t (1 : Fin 4) * 3 + 3; omega
    | ⟨2, _⟩ => show (cfg1.win 1).index t (2 : Fin 4) * 384 ≤ (i (2 : Fin 4)).val ∧ (i (2 : Fin 4)).val < (cfg1.win 1).index t (2 : Fin 4) * 384 + 384; omega
    | ⟨3, _⟩ => show (cfg1.win 1).index t (3 : Fin 4) * 384 ≤ (i (3 : Fin 4)).val ∧ (i (3 : Fin 4)).val < (cfg1.win 1).index t (3 : Fin 4) * 384 + 384; omega

theorem cover1_1 (i : S128x3x384x384.Idx) :
    ∃ t : Fin cfg1.N, (cfg1.win 1).flush t = true ∧ i ∈ ((cfg1.win 1).blk t).view.set := by
  have h0 : (i (0 : Fin 4)).val < 128 := (i (0 : Fin 4)).isLt
  exact ⟨⟨(i (0 : Fin 4)).val, lt_of_lt_of_eq h0 N_1.symm⟩, flush_every1_1 _, (mem_blk1_1_iff _ i).mpr rfl⟩

theorem mem_blk1_2 (t : Fin cfg1.N) (i : S1x1.Idx) : i ∈ ((cfg1.win 2).blk t).view.set := by
  obtain ⟨e0, e1⟩ := index_eq1_2 t
  have h : ((cfg1.win 2).blk t).view.set = ((cfg1.win 2).rect t).set :=
    View.set_slice_whole main_v7_1 ((cfg1.win 2).rect t)
  refine (Finset.ext_iff.mp h i).mpr (Rect.mem_set_unit.mpr fun a => ?_)
  have h0 : (i (0 : Fin 2)).val < 1 := (i (0 : Fin 2)).isLt
  have h1 : (i (1 : Fin 2)).val < 1 := (i (1 : Fin 2)).isLt
  match a with
  | ⟨0, _⟩ => show (cfg1.win 2).index t (0 : Fin 2) * 1 ≤ (i (0 : Fin 2)).val ∧ (i (0 : Fin 2)).val < (cfg1.win 2).index t (0 : Fin 2) * 1 + 1; omega
  | ⟨1, _⟩ => show (cfg1.win 2).index t (1 : Fin 2) * 1 ≤ (i (1 : Fin 2)).val ∧ (i (1 : Fin 2)).val < (cfg1.win 2).index t (1 : Fin 2) * 1 + 1; omega

theorem cover1_2 (i : S1x1.Idx) :
    ∃ t : Fin cfg1.N, (cfg1.win 2).flush t = true ∧ i ∈ ((cfg1.win 2).blk t).view.set :=
  ⟨tLast, flush1_2_last, mem_blk1_2 tLast i⟩

end Cert.KernelIdeal.R1

end
-- ==== Proof.KI.R1FinalOut.lean ====
import proofs.«422118_j38706245271901_2_alg».proof.Proof.KI.R1Def
import proofs.«422118_j38706245271901_2_alg».proof.Proof.KI.R1Geom
import proofs.«422118_j38706245271901_2_alg».proof.Proof.Spec
import Idealize.ShloMosaic.Lib.Pipeline.Value
import Idealize.ShloMosaic.Lib.ValueIdx

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

theorem pay2_apply (x : Vec F S1x3x384x384 .f32) (y : S1x3x384x384.Idx) :
    k1_pay2 x (fun a => y a.succ) = x y := by
  unfold k1_pay2
  refine (shapeCast_dropUnit_apply ![3, 384, 384] x shapeCasts_S1x3x384x384_S3x384x384 _).trans ?_
  congr 1
  funext a
  refine Fin.cases ?_ (fun b => ?_) a
  · exact Fin.ext (by have h : (y (0 : Fin 4)).val < 1 := (y (0 : Fin 4)).isLt; show 0 = (y (0 : Fin 4)).val; omega)
  · rfl

theorem clampBlk_apply (x : Vec Ideal S1x3x384x384 .f32) (y : S1x3x384x384.Idx) :
    clampBlk (F := Ideal) x y = Cert.Spec.post (x y) := by
  unfold clampBlk k1_pay4
  refine (shapeCast_addUnit_apply ![3, 384, 384] _ shapeCasts_S3x384x384_S1x3x384x384 y).trans ?_
  rw [← pay2_apply x y]
  rfl

section Out

theorem xblk_apply (c : Dev nD) (V : (b : Ref sig .tc) → Buf (Elt F) ((c : Thread nD τ).loc b)) (t : Fin cfg1.N)
    (y : S1x3x384x384.Idx) :
    xblk c V t y = (V main_v6 : S128x3x384x384.Idx → Elt F .f32) (((cfg1.win 0).blk t).view.emb y) := rfl

variable (c : Dev nD) (V : (b : Ref sig .tc) → Buf (Elt Ideal) ((c : Thread nD τ).loc b))

theorem flushed1_eq (t : Fin cfg1.N) :
    (dat1 (F := Ideal) c V).flushed 1 t
      = ((cfg1.win 1).blk t).view.read (Elt Ideal) (fun i : S128x3x384x384.Idx => Cert.Spec.post (V main_v6 i)) := by
  funext j
  show clampBlk (xblk c V t) j = Cert.Spec.post ((V main_v6 : S128x3x384x384.Idx → EReal) (((cfg1.win 1).blk t).view.emb j))
  rw [clampBlk_apply, xblk_apply, emb1_0_eq_emb1_1 t j]

/-- The first output ends at the image clamped pixel by pixel: the slabs tile it. -/
theorem final1_out : (dat1 (F := Ideal) c V).arrAt 1 cfg1.N = fun i : S128x3x384x384.Idx => Cert.Spec.post (V main_v6 i) :=
  (dat1 (F := Ideal) c V).arrAt_eq_of_cover 1 (fun i : S128x3x384x384.Idx => Cert.Spec.post (V main_v6 i))
    (fun t _ => flushed1_eq c V t) cover1_1

end Out

end Cert.KernelIdeal.R1

end
-- ==== Proof.KI.R1FinalSum.lean ====
import proofs.«422118_j38706245271901_2_alg».proof.Proof.KI.R1Def
import proofs.«422118_j38706245271901_2_alg».proof.Proof.KI.R1Geom
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

section Reads

variable {φ : FTy} {n0 n1 n2 : ℕ}

theorem sum_axis2_apply (w : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (i : Fin n0) (j : Fin n1) :
    multiReduction .add [2] ⟨2, ![n0, n1]⟩ w acc h hφ hacc (ix2 i j) = ∑ k : Fin n2, w (ix3 i j k) :=
  (Ideal.multiReduction_add_single w acc h hφ hacc (ix2 i j)).trans
    (Finset.sum_congr rfl fun k _ => congrArg w (funext fun a => match a with
      | ⟨0, _⟩ => Fin.ext rfl
      | ⟨1, _⟩ => Fin.ext rfl
      | ⟨2, _⟩ => Fin.ext rfl))

theorem sum_axis1_apply (w : FVec Ideal ⟨3, ![n0, n1, n2]⟩ φ) (acc : BitVec φ.bits)
    (h : (⟨3, ![n0, n1, n2]⟩ : Shape).Reduces [1] ⟨2, ![n0, n2]⟩) (hφ : FKind.Formats φ) (hacc : acc = FKind.add.neutral φ hφ)
    (i : Fin n0) (k : Fin n2) :
    multiReduction .add [1] ⟨2, ![n0, n2]⟩ w acc h hφ hacc (ix2 i k) = ∑ j : Fin n1, w (ix3 i j k) :=
  (Ideal.multiReduction_add_single w acc h hφ hacc (ix2 i k)).trans
    (Finset.sum_congr rfl fun j _ => congrArg w (funext fun a => match a with
      | ⟨0, _⟩ => Fin.ext rfl
      | ⟨1, _⟩ => Fin.ext rfl
      | ⟨2, _⟩ => Fin.ext rfl))

theorem sum_axis0_apply (w : FVec Ideal ⟨3, ![n0, n1, n2]⟩ φ) (acc : BitVec φ.bits)
    (h : (⟨3, ![n0, n1, n2]⟩ : Shape).Reduces [0] ⟨2, ![n1, n2]⟩) (hφ : FKind.Formats φ) (hacc : acc = FKind.add.neutral φ hφ)
    (j : Fin n1) (k : Fin n2) :
    multiReduction .add [0] ⟨2, ![n1, n2]⟩ w acc h hφ hacc (ix2 j k) = ∑ i : Fin n0, w (ix3 i j k) :=
  (Ideal.multiReduction_add_single w acc h hφ hacc (ix2 j k)).trans
    (Finset.sum_congr rfl fun i _ => congrArg w (funext fun a => match a with
      | ⟨0, _⟩ => Fin.ext rfl
      | ⟨1, _⟩ => Fin.ext rfl
      | ⟨2, _⟩ => Fin.ext rfl))

theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

end Reads

theorem zero1_apply (j : S1x1.Idx) : (zero1 (F := Ideal)) j = 0 :=
  show (Ideal.ofBits .f32 0x00000000#32 : EReal) = 0 from Ideal.ofBits_zero_f32

/-- Over the extended reals a step adds the triple sum of the slab's squares: three single-axis sums composed. -/
theorem sqAcc_apply (x : Vec Ideal S1x3x384x384 .f32) (a : Vec Ideal S1x1 .f32) :
    sqAcc x a (ix2 0 0)
      = a (ix2 0 0) + ∑ ch : Fin 3, ∑ y : Fin 384, ∑ x' : Fin 384, x (ix4 0 ch y x') * x (ix4 0 ch y x') := by
  show k1_pay3 x a (ix2 0 0) = _
  unfold k1_pay3 k1_pay2
  dsimp only
  refine (congrFun (shapeCast_self _ shapeCasts_S1x1_S1x1) (ix2 0 0)).trans ?_
  refine congrArg (a (ix2 0 0) + ·) ?_
  refine (shapeCast_1ab_ab_apply _ shapeCasts_S1x1x1_S1x1 (0 : Fin 1) (0 : Fin 1)).trans ?_
  refine (shapeCast_ab_1ab_apply _ shapeCasts_S1x1_S1x1x1 (0 : Fin 1) (0 : Fin 1) (0 : Fin 1)).trans ?_
  refine (sum_axis0_apply _ _ reduces_S3x1x1_S1x1 _ _ (0 : Fin 1) (0 : Fin 1)).trans ?_
  refine Finset.sum_congr rfl fun ch _ => ?_
  refine (shapeCast_ab_ab1_apply _ shapeCasts_S3x1_S3x1x1 ch (0 : Fin 1) (0 : Fin 1)).trans ?_
  refine (sum_axis1_apply _ _ reduces_S3x384x1_S3x1 _ _ ch (0 : Fin 1)).trans ?_
  refine Finset.sum_congr rfl fun y _ => ?_
  refine (shapeCast_ab_ab1_apply _ shapeCasts_S3x384_S3x384x1 ch y (0 : Fin 1)).trans ?_
  refine (sum_axis2_apply _ _ reduces_S3x384x384_S3x384 _ _ ch y).trans ?_
  refine Finset.sum_congr rfl fun x' _ => ?_
  have e : shapeCast S3x384x384 x shapeCasts_S1x3x384x384_S3x384x384 (ix3 ch y x') = x (ix4 (0 : Fin 1) ch y x') :=
    shapeCast_1abc_abc_apply x shapeCasts_S1x3x384x384_S3x384x384 ch y x'
  show shapeCast S3x384x384 x shapeCasts_S1x3x384x384_S3x384x384 (ix3 ch y x')
      * shapeCast S3x384x384 x shapeCasts_S1x3x384x384_S3x384x384 (ix3 ch y x') = _
  rw [e]

section Slab

variable {F : FTy → Type} [FloatOps F]
variable (c : Dev nD) (V : (b : Ref sig .tc) → Buf (Elt F) ((c : Thread nD τ).loc b))

abbrev arr6 : Vec F S128x3x384x384 .f32 := V main_v6

theorem xblk_at (t : Fin cfg1.N) (ch : Fin 3) (y x : Fin 384) :
    xblk c V t (ix4 (0 : Fin 1) ch y x) = arr6 c V (ix4 ⟨t.val, lt_of_lt_of_eq t.isLt N_1⟩ ch y x) := by
  obtain ⟨e0, e1, e2, e3⟩ := emb1_0_val t (ix4 (0 : Fin 1) ch y x)
  show arr6 c V (((cfg1.win 0).blk t).view.emb (ix4 (0 : Fin 1) ch y x)) = _
  refine congrArg (arr6 c V) (funext fun a => Fin.ext ?_)
  match a with
  | ⟨0, _⟩ => exact e0
  | ⟨1, _⟩ => exact e1
  | ⟨2, _⟩ => exact e2
  | ⟨3, _⟩ => exact e3

end Slab

theorem idx11_eq (j : S1x1.Idx) : j = ix2 (0 : Fin 1) (0 : Fin 1) := by
  funext a
  match a with
  | ⟨0, _⟩ => exact Fin.ext (by have h : (j (0 : Fin 2)).val < 1 := (j (0 : Fin 2)).isLt; show (j (0 : Fin 2)).val = 0; omega)
  | ⟨1, _⟩ => exact Fin.ext (by have h : (j (1 : Fin 2)).val < 1 := (j (1 : Fin 2)).isLt; show (j (1 : Fin 2)).val = 0; omega)

section Sum

variable (c : Dev nD) (V : (b : Ref sig .tc) → Buf (Elt Ideal) ((c : Thread nD τ).loc b))

def slabSq (n : ℕ) : EReal :=
  if h : n < 128 then
    ∑ ch : Fin 3, ∑ y : Fin 384, ∑ x : Fin 384, arr6 c V (ix4 ⟨n, h⟩ ch y x) * arr6 c V (ix4 ⟨n, h⟩ ch y x)
  else 0

theorem slab_sum_eq (n : ℕ) (hn : n < cfg1.N) :
    (∑ ch : Fin 3, ∑ y : Fin 384, ∑ x : Fin 384,
        xblk c V ⟨n, hn⟩ (ix4 (0 : Fin 1) ch y x) * xblk c V ⟨n, hn⟩ (ix4 (0 : Fin 1) ch y x)) = slabSq c V n := by
  unfold slabSq
  rw [dif_pos (lt_of_lt_of_eq hn N_1)]
  refine Finset.sum_congr rfl fun ch _ => Finset.sum_congr rfl fun y _ => Finset.sum_congr rfl fun x _ => ?_
  rw [xblk_at c V ⟨n, hn⟩ ch y x]

/-- The accumulator after point `k` is the sum of the first `k + 1` slabs' squares. -/
theorem accAt_apply : ∀ (k : ℕ) (hk : k < cfg1.N),
    accAt (F := Ideal) c V k hk (ix2 0 0) = ∑ n ∈ Finset.range (k + 1), slabSq c V n
  | 0, hk => by
    rw [accAt, sqAcc_apply, zero1_apply, zero_add, slab_sum_eq c V 0 hk, Finset.sum_range_one]
  | k + 1, hk => by
    rw [accAt, sqAcc_apply, accAt_apply k (Nat.lt_of_succ_lt hk), slab_sum_eq c V (k + 1) hk,
      Finset.sum_range_succ (fun n => slabSq c V n) (k + 1)]

def total : EReal :=
  ∑ n : Fin 128, ∑ ch : Fin 3, ∑ y : Fin 384, ∑ x : Fin 384, arr6 c V (ix4 n ch y x) * arr6 c V (ix4 n ch y x)

theorem accLast_apply (j : S1x1.Idx) : accAt (F := Ideal) c V tLast.val tLast.isLt j = total c V := by
  rw [idx11_eq j, accAt_apply c V tLast.val tLast.isLt]
  show ∑ n ∈ Finset.range 128, slabSq c V n = _
  rw [Finset.sum_range (fun n => slabSq c V n)]
  refine Finset.sum_congr rfl fun n _ => ?_
  unfold slabSq
  rw [dif_pos n.isLt]

theorem flushed2_eq (t : Fin cfg1.N) (hf : (cfg1.win 2).flush t = true) :
    (dat1 (F := Ideal) c V).flushed 2 t
      = ((cfg1.win 2).blk t).view.read (Elt Ideal) (fun _ => total c V : S1x1.Idx → EReal) := by
  obtain rfl : t = tLast := Fin.ext ((flush1_2_iff t).mp hf)
  funext j
  show accAt (F := Ideal) c V tLast.val tLast.isLt _ = total c V
  exact accLast_apply c V _

/-- The second output ends at the sum over the whole image, in any order of summation. -/
theorem final1_sum :
    (dat1 (F := Ideal) c V).arrAt 2 cfg1.N
      = (fun _ => ∑ n : Fin 128, ∑ ch : Fin 3, ∑ y : Fin 384, ∑ x : Fin 384,
          arr6 c V (ix4 n ch y x) * arr6 c V (ix4 n ch y x) : S1x1.Idx → EReal) :=
  (dat1 (F := Ideal) c V).arrAt_eq_of_cover 2 (fun _ => total c V : S1x1.Idx → EReal) (flushed2_eq c V) cover1_2

end Sum

end Cert.KernelIdeal.R1

end
-- ==== Proof.KI.KernelValue.lean ====
import proofs.«422118_j38706245271901_2_alg».proof.Proof.KI.Vals
import proofs.«422118_j38706245271901_2_alg».proof.Proof.KI.R0Final
import proofs.«422118_j38706245271901_2_alg».proof.Proof.KI.Glue
import proofs.«422118_j38706245271901_2_alg».proof.Proof.KI.R1FinalOut
import proofs.«422118_j38706245271901_2_alg».proof.Proof.KI.R1FinalSum
import proofs.«422118_j38706245271901_2_alg».proof.Proof.Spec

noncomputable section

namespace Cert.KernelIdeal.Launch

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

abbrev tblOf (c : Dev nD) : Cert.Spec.Tbl := m ((c.tc : Thread nD τ).loc main_arg0)
abbrev embOf (c : Dev nD) : Cert.Spec.Emb := m ((c.tc : Thread nD τ).loc main_arg1)

theorem core_eq (c : Dev nD) : c = (0 : Dev nD) := Subsingleton.elim _ _

theorem tbl_eq (c : Dev nD) : (a0 m).1 0 = tblOf m c := by
  rw [core_eq c]; rfl

theorem W1_main_v0 (c : Dev nD) (hidx : ∀ x, (tblOf m c x).toNat < 50257) :
    (W1 m c (Proc.devRef .tc main_v0) : S128x128x768.Idx → EReal) = fun i => Cert.Spec.embT (tblOf m c) (embOf m c) (i 0) (i 1) (i 2) := by
  have h : W1 m c (Proc.devRef .tc main_v0) = (R0.dat0 (a0 m) c (B0 m c)).arrAt 0 (cfg0 (a0 m)).N := W1_arr m c 0
  rw [h, R0.final0 (a0 m) c (B0 m c) (by rw [tbl_eq m c]; exact hidx), tbl_eq m c]
  rfl

theorem W2_main_v6 (c : Dev nD) (hidx : ∀ x, (tblOf m c x).toNat < 50257) :
    (W2 m c (Proc.devRef .tc main_v6) : S128x3x384x384.Idx → EReal) = fun i => Cert.Spec.img (tblOf m c) (embOf m c) (i 0) (i 1) (i 2) (i 3) :=
  Glue.glue1 (W1 m c) (tblOf m c) (embOf m c) (W1_main_v0 m c hidx)

/-- The first result over the extended reals is the specification's clamped image. -/
theorem W4_v7_0 (c : Dev nD) (hidx : ∀ x, (tblOf m c x).toNat < 50257) :
    (W4 m c (Proc.devRef .tc main_v7_0) : S128x3x384x384.Idx → EReal) = Cert.Spec.outArr (tblOf m c) (embOf m c) := by
  rw [W4_main_v7_0 m c, R1.final1_out c (B2 m c)]
  show (fun i : S128x3x384x384.Idx => Cert.Spec.post ((W2 m c (Proc.devRef .tc main_v6) : S128x3x384x384.Idx → EReal) i)) = _
  rw [W2_main_v6 m c hidx]
  rfl

theorem W3_main_v7_1 (c : Dev nD) (hidx : ∀ x, (tblOf m c x).toNat < 50257) :
    (W3 m c (Proc.devRef .tc main_v7_1) : S1x1.Idx → EReal) = fun _ => Cert.Spec.sumsq (tblOf m c) (embOf m c) := by
  have h : W3 m c (Proc.devRef .tc main_v7_1) = (R1.dat1 c (B2 m c)).arrAt 2 cfg1.N := W3_arr m c 2
  rw [h, R1.final1_sum c (B2 m c)]
  have h6 : R1.arr6 c (B2 m c) = fun i => Cert.Spec.img (tblOf m c) (embOf m c) (i 0) (i 1) (i 2) (i 3) := W2_main_v6 m c hidx
  rw [h6]
  rfl

/-- The second result is the specification's norm. -/
theorem W4_v10 (c : Dev nD) (hidx : ∀ x, (tblOf m c x).toNat < 50257) :
    (W4 m c (Proc.devRef .tc main_v10) : S_.Idx → EReal) = Cert.Spec.normArr (tblOf m c) (embOf m c) := by
  show (StableHlo.after (hostOps2 (F := Ideal)) (W3 m c) (Proc.devRef .tc main_v10) : S_.Idx → EReal) = _
  rw [Glue.glue2 (W3 m c), W3_main_v7_1 m c hidx]
  rfl

end Cert.KernelIdeal.Launch

end
-- ==== Proof.KB.R0Def.lean ====
import proofs.«422118_j38706245271901_2_alg».proof.Proof.Gen.Kernel
import proofs.«422118_j38706245271901_2_alg».proof.Proof.Gen.Kernel.Launch
import Idealize.ShloMosaic.Lib.Transfers
import Idealize.ShloMosaic.Lib.Pipeline.Kit
import Idealize.ShloMosaic.Lib.ValueIdx

noncomputable section

namespace Cert.Kernel.R0

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.Sem

variable {F : FTy → Type} [FloatOps F]

abbrev UC : Type := UR sig nD τ × Counters
local notation "𝕄" => MT nD τ sig Unit (Elt F) ℕ UC ℕ

abbrev osem0 : Fin 16 → SemLoc sig := fun k => .dma ⟨k.val + 2, by have := k.isLt; show k.val + 2 < 23; omega⟩

/-- Lane `d` of the embedding row the word `v` names (row 0 if it names none), over any float type. -/
def rowAt (emb : (⟨S50257x768, .f32⟩ : BufTy).Contents (Elt F)) (v : BitVec 32) (d : Fin 768) : Elt F .f32 :=
  if h : v.toNat < 50257 then emb (ix2 ⟨v.toNat, h⟩ d) else emb (ix2 ⟨0, by decide⟩ d)

/-- What the gather leaves for sentence `t` at position `l`, lane `d`: `tanh` of the named row's lane. -/
def gathAt (tbl : (⟨S128x128, .i32⟩ : BufTy).Contents (Elt F)) (emb : (⟨S50257x768, .f32⟩ : BufTy).Contents (Elt F))
    (t : Fin 128) (l : Fin 128) (d : Fin 768) : Elt F .f32 :=
  FloatOps.tanh (rowAt emb (tbl (ix2 t l)) d)

def gath (tbl : (⟨S128x128, .i32⟩ : BufTy).Contents (Elt F)) (emb : (⟨S50257x768, .f32⟩ : BufTy).Contents (Elt F))
    (t : Fin 128) : S1x128x768.Idx → Elt F .f32 :=
  fun j => gathAt tbl emb t (j 1) (j 2)

section Data

variable (a0 : (pcfg0 (F := F)).Adm) (c : Dev nD) (V : (b : Ref sig .tc) → Buf (Elt F) ((c : Thread nD τ).loc b))

/-- Held between grid points: the sixteen semaphores at zero, both tables whole, and the buffers no window stages. -/
def Phi0 : sProp 𝕄 :=
  iprop((Pipeline.ownSems0 osem0 c ∗ (((c : Thread nD τ).loc main_arg1) ↦{fullShare} V main_arg1))
    ∗ Pipeline.prefHeld pre0 c (fun _ => fullShare) a0.1 ∗ Pipeline.scopedRest spec0 c)

/-- The proof data of the gather: after point `t` the output block is sentence `t`'s gathered rows. -/
def dat0 : Pipeline.Dat τ (Elt F) Unit ℕ UC ℕ (cfg0 a0) c where
  A w := V (Pipeline.arrRef spec0 w)
  after w t := match w with
    | ⟨0, _⟩ => gath (a0.1 0) (V main_arg1) ⟨t.val, lt_of_lt_of_eq t.isLt N_0⟩
  Φ _ := Phi0 a0 c V
  q _ := fullShare
  owed _ := 0

end Data

end Cert.Kernel.R0

end
-- ==== Proof.KB.R1Def.lean ====
import proofs.«422118_j38706245271901_2_alg».proof.Proof.Gen.Kernel.Skeleton
import proofs.«422118_j38706245271901_2_alg».proof.Proof.KB.R0Def

noncomputable section

namespace Cert.Kernel.R1

open Cert.Kernel Cert.Kernel.Gen Cert.Kernel.R0
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ UC ℕ

abbrev accM : Memref sig .tc .vmem S1x1 .f32 := Memref.whole cc1_scratch0

abbrev zero1 : Vec F S1x1 .f32 := k1_pay1 (F := F)

/-- The accumulator after a step: its contents plus the sum of the squares of the slab. -/
abbrev sqAcc (x : Vec F S1x3x384x384 .f32) (a : Vec F S1x1 .f32) : Vec F S1x1 .f32 := k1_pay3 x a

/-- The slab a step stores: unnormalised, clamped to [0, 1], normalised again, pixel by pixel. -/
abbrev clampBlk (x : Vec F S1x3x384x384 .f32) : Vec F S1x3x384x384 .f32 := k1_pay4 x

section Data

variable (c : Dev nD) (V : (b : Ref sig .tc) → Buf (Elt F) ((c : Thread nD τ).loc b))

/-- The slab handed to point `t`: block `(t, 0, 0, 0)` of the image. -/
def xblk (t : Fin cfg1.N) : Vec F S1x3x384x384 .f32 :=
  ((cfg1.win 0).blk t).view.read (Elt F) (V (Pipeline.arrRef spec1 0))

/-- The accumulator after point `k`: the running sum of the squares of slabs `0 … k`. -/
def accAt : (k : ℕ) → k < cfg1.N → Vec F S1x1 .f32
  | 0, hk => sqAcc (xblk c V ⟨0, hk⟩) zero1
  | k + 1, hk => sqAcc (xblk c V ⟨k + 1, hk⟩) (accAt k (Nat.lt_of_succ_lt hk))

def accPart (t : Fin (cfg1.N + 1)) : sProp 𝕄 :=
  if h : t.val = 0 then iprop(∃ a, owns (c : Thread nD τ) accM fullShare a)
  else iprop(owns (c : Thread nD τ) accM fullShare (accAt c V (t.val - 1) (by have := t.isLt; omega)))

/-- Held between grid points: the first region's buffers at any contents, and the accumulator at what the previous point left. -/
def Phi1 (t : Fin (cfg1.N + 1)) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_scratch0), ((c : Thread nD τ).loc cc0_scratch0) ↦{fullShare} f)
    ∗ accPart c V t)

/-- The proof data of the clamp region: the clamped slab after each point, the accumulator at the last. -/
def dat1 : Pipeline.Dat τ (Elt F) Unit ℕ UC ℕ cfg1 c where
  A w := V (Pipeline.arrRef spec1 w)
  after w t := match w with
    | ⟨0, _⟩ => xblk c V t
    | ⟨1, _⟩ => clampBlk (xblk c V t)
    | ⟨2, _⟩ => accAt c V t.val t.isLt
  Φ t := Phi1 c V t
  q _ := fullShare
  owed _ := 0

end Data

end Cert.Kernel.R1

end
-- ==== Proof.KB.Vals.lean ====
import proofs.«422118_j38706245271901_2_alg».proof.Proof.KB.R0Def
import proofs.«422118_j38706245271901_2_alg».proof.Proof.KB.R1Def
import proofs.«422118_j38706245271901_2_alg».proof.Proof.Gen.Kernel.Regions
import Idealize.ShloMosaic.Lib.Pipeline.FrameSuffix
import Idealize.ShloMosaic.Lib.Pipeline.RegionsLoop

noncomputable section

namespace Cert.Kernel.Launch

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ R0.UC ℕ

variable (m : (ℓ : Loc nD τ sig) → Buf (Elt F) ℓ)

/-- The token table as launched: nothing before the gather writes it. -/
def tbl : pre0.Contents (Elt F) := fun k => m ((0 : Dev nD).tc.loc (pre0.ref k))

abbrev a0 : (pcfg0 (F := F)).Adm := ⟨tbl m, trivial⟩

abbrev adm : (p : Fin 2) → (pcfgs (F := F) p).Adm
  | ⟨0, _⟩ => a0 m
  | ⟨1, _⟩ => cfg1.toPCfg_adm

section Fold

abbrev W0 : Dev nD → Valuation τ sig (Elt F) := fun c b => m ((c : Dev nD), b)

abbrev B0 : (c : Dev nD) → (b : Ref sig .tc) → Buf (Elt F) ((c : Thread nD τ).loc b) := fun c b => W0 m c b

/-- Contents after the gather: its output array at what the write-backs fold to, every other buffer as entered. -/
def W1 (c : Dev nD) : Valuation τ sig (Elt F) :=
  Pipeline.withArrays spec0 c (W0 m c) fun w => (R0.dat0 (a0 m) c (B0 m c)).arrAt w (cfg0 (a0 m)).N
theorem W1_arr (c : Dev nD) (w : Fin (cfg0 (a0 m)).W) :
    W1 m c (Proc.devRef .tc (Pipeline.arrRef spec0 w)) = (R0.dat0 (a0 m) c (B0 m c)).arrAt w (cfg0 (a0 m)).N := by
  unfold W1; exact Pipeline.withArrays_arr spec0 (launch0 (F := F)).win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

abbrev B1 : (c : Dev nD) → (b : Ref sig .tc) → Buf (Elt F) ((c : Thread nD τ).loc b) := fun c b => W1 m c b

theorem hF0 (c : Dev nD) (w : Fin (cfg0 (a0 m)).W) : (R0.dat0 (a0 m) c (B0 m c)).arrAt w (cfg0 (a0 m)).N = B1 m c (Pipeline.arrRef spec0 w) :=
  (W1_arr m c w).symm
theorem hrest0 (c : Dev nD) : ∀ b, b ∉ Finset.univ.image (Pipeline.arrRef spec0) → B1 m c b = B0 m c b :=
  fun b hb => W1_of_ne m c b fun w e => hb (Finset.mem_image.mpr ⟨w, Finset.mem_univ _, e⟩)

abbrev W2 : Dev nD → Valuation τ sig (Elt F) := fun c => StableHlo.after hostOps1 (W1 m c)

abbrev B2 : (c : Dev nD) → (b : Ref sig .tc) → Buf (Elt F) ((c : Thread nD τ).loc b) := fun c b => W2 m c b

/-- Contents after the clamp region, likewise. -/
def W3 (c : Dev nD) : Valuation τ sig (Elt F) :=
  Pipeline.withArrays spec1 c (W2 m c) fun w => (R1.dat1 c (B2 m c)).arrAt w cfg1.N
theorem W3_arr (c : Dev nD) (w : Fin cfg1.W) :
    W3 m c (Proc.devRef .tc (Pipeline.arrRef spec1 w)) = (R1.dat1 c (B2 m c)).arrAt w cfg1.N := by
  unfold W3; exact Pipeline.withArrays_arr spec1 (launch1 (F := F)).win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

abbrev B3 : (c : Dev nD) → (b : Ref sig .tc) → Buf (Elt F) ((c : Thread nD τ).loc b) := fun c b => W3 m c b
theorem hF1 (c : Dev nD) (w : Fin cfg1.W) : (R1.dat1 c (B2 m c)).arrAt w cfg1.N = B3 m c (Pipeline.arrRef spec1 w) :=
  (W3_arr m c w).symm
theorem hrest1 (c : Dev nD) : ∀ b, b ∉ Finset.univ.image (Pipeline.arrRef spec1) → B3 m c b = B2 m c b :=
  fun b hb => W3_of_ne m c b fun w e => hb (Finset.mem_image.mpr ⟨w, Finset.mem_univ _, e⟩)

abbrev W4 : Dev nD → Valuation τ sig (Elt F) := fun c => StableHlo.after hostOps2 (W3 m c)

end Fold

section Reads

theorem W4_main_v7_0 (c : Dev nD) : W4 m c (Proc.devRef .tc main_v7_0) = (R1.dat1 c (B2 m c)).arrAt 1 cfg1.N :=
  (StableHlo.after_of_writes_sub hostOps2 _ hostOps2_writes (by decide : main_v7_0 ∉ hostOps2_W)).trans (W3_arr m c 1)

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl

theorem B0_pre (c : Dev nD) : (fun k => B0 m c (pre0.ref k)) = tbl m := by
  obtain rfl : c = 0 := Subsingleton.elim _ _; rfl

end Reads

section Data

def pdats : (p : Fin 2) → (c : Dev nD) → Dat τ (Elt F) Unit ℕ R0.UC ℕ (Pipeline.pin (pcfgs (F := F)) (adm m) p) c
  | ⟨0, _⟩ => fun c => R0.dat0 (a0 m) c (B0 m c)
  | ⟨1, _⟩ => fun c => R1.dat1 c (B2 m c)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

/-- Between two items of the program: every unscoped buffer at the boundary's contents, nothing owed. -/
abbrev T (W : Dev nD → Valuation τ sig (Elt F)) (c : Dev nD) : sProp 𝕄 :=
  iprop(StableHlo.held (c : Thread nD τ) (Pipeline.ucRefs τ sig) (W c) ∗ R c)

abbrev Tₙ (c : Dev nD) : sProp 𝕄 :=
  iprop(StableHlo.held (c : Thread nD τ) (Pipeline.ucRefs τ sig) (W4 m c) ∗ ∃ r, prngReg c r)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := R0.UC) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev hseg1 : Pipeline.HostSeg (Name := ℕ) (U := R0.UC) (pcfgs (F := F)) defs₀ 𝒱₀ L lv := hseg hostOps1 hostOps1_sub hostOps1_fresh (W1 m)
abbrev hseg3 : Pipeline.HostSeg (Name := ℕ) (U := R0.UC) (pcfgs (F := F)) defs₀ 𝒱₀ L lv := hseg hostOps2 hostOps2_sub hostOps2_fresh (W3 m)

theorem T_last (c : Dev nD) : T (W4 m) c ⊢ iprop(Tₙ m c ∗ ∃ W, owes (c : Thread nD τ) (0 : CellTallies nD τ sig Unit) W) := by
  iintro ⟨Hh, Hp, HO⟩
  isplitl [Hh Hp]
  · isplitl [Hh] <;> iassumption
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Data

end Cert.Kernel.Launch

end
-- ==== Proof.KB.Launch.lean ====
import proofs.«422118_j38706245271901_2_alg».proof.Proof.KB.Vals
import Idealize.ShloMosaic.Lib.Pipeline.Kit

noncomputable section

namespace Cert.Kernel.Launch

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ R0.UC ℕ

variable (m : (ℓ : Loc nD τ sig) → Buf (Elt F) ℓ) (ρ : Dev nD → PrngReg)

abbrev segs (reg0 : RegionSeg (pcfgs (F := F)) (adm m) (pdats m) () defs₀ 𝒱₀ L lv 0)
    (reg1 : RegionSeg (pcfgs (F := F)) (adm m) (pdats m) () defs₀ 𝒱₀ L lv 1) :
    List (Seg (pcfgs (F := F)) (adm m) (pdats m) () defs₀ 𝒱₀ L lv) :=
  [.region reg0, .host (hseg1 m), .region reg1, .host (hseg3 m)]

set_option backward.isDefEq.respectTransparency.types false in

/-- Given both regions as segments, every weakly fair execution of the program ends with each buffer at its folded contents. -/
theorem run_main
    (reg0 : RegionSeg (pcfgs (F := F)) (adm m) (pdats m) () defs₀ 𝒱₀ L lv 0)
    (hpre0 : ∀ c : Dev nD, T (W0 m) c ⊢ reg0.pre c) (hpost0 : ∀ c : Dev nD, reg0.post c ⊢ T (W1 m) c)
    (reg1 : RegionSeg (pcfgs (F := F)) (adm m) (pdats m) () defs₀ 𝒱₀ L lv 1)
    (hpre1 : ∀ c : Dev nD, T (W2 m) c ⊢ reg1.pre c) (hpost1 : ∀ c : Dev nD, reg1.post c ⊢ T (W3 m) c) :
    θ_run defs (onTc (τ := τ) (main (F := F))) ⟨m, fun _ => 0, ρ⟩
      (fun r => ∀ c : Dev nD, ∀ b ∈ Pipeline.ucRefs τ sig, r.2.mem ((c : Thread nD τ).1, b) = W4 m c b) := by
  refine Pipeline.θ_run_regions_kit (pcfgs (F := F)) (adm m) (pdats m) () (cellOf_inj (adm m)) embL defs₀ 𝒱₀ L lv m ρ main
    (segs m reg0 reg1)
    (fun c Q => by
      rewrite [main_chain c, Seg.run_eq_chain,
        show (segs m reg0 reg1).map Seg.prog = [
          Prog.lift (.customCall (Pipeline.entry 0) ()),
          StableHlo.seq hostOps1,
          Prog.lift (.customCall (Pipeline.entry 1) ()),
          StableHlo.seq hostOps2 ] from rfl]
      exact .rfl)
    (by simp only [segs, Seg.pipes_host, Seg.pipes_region, Seg.pipes_nil]; decide)
    (O₀ := 0) (hL := fun _ _ => rfl) (G := fun _ => iprop(emp))
    (u₀ := (initOf (Pipeline.cells (Pipeline.pin (pcfgs (F := F)) (adm m)) (cellOf_inj (adm m)))
      (Pipeline.launchToks (Pipeline.pin (pcfgs (F := F)) (adm m)) (cellOf_inj (adm m))), 1))
    (hu₀ := ?_)
    (T₀ := T (W0 m)) (Tₙ := Tₙ m)
    (hch := ⟨hpre0, hpost0, hpre1, hpost1, T_last m⟩)
    (hinit := ?_)
    (QY := fun c s => ∀ b ∈ Pipeline.ucRefs τ sig, s.mem ((c : Thread nD τ).1, b) = W4 m c b)
    (hfin := fun c s' => ?_) (hQ := fun _ h => h)
  ·

    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  ·
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  ·
    iintro ⟨⟨Hh, -⟩, HSI⟩
    unfold StableHlo.held
    imodintro
    iapply (pointsTo_read_all (Pipeline.ucRefs τ sig) (fun b => ((c : Thread nD τ).1, b)) (W4 m c) s')
    isplitl [Hh] <;> iassumption

end Cert.Kernel.Launch

end
-- ==== Proof.KB.Seg0.lean ====
import proofs.«422118_j38706245271901_2_alg».proof.Proof.KB.Vals
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ R0.UC ℕ

variable (m : (ℓ : Loc nD τ sig) → Buf (Elt F) ℓ)

def rest0 (c : Dev nD) (V : (b : Ref sig .tc) → Buf (Elt F) ((c : Thread nD τ).loc b)) : sProp 𝕄 :=
  iprop((((c : Thread nD τ).loc main_v1) ↦{fullShare} V main_v1) ∗ (((c : Thread nD τ).loc main_v2) ↦{fullShare} V main_v2) ∗ (((c : Thread nD τ).loc main_v3) ↦{fullShare} V main_v3) ∗ (((c : Thread nD τ).loc main_v4) ↦{fullShare} V main_v4) ∗ (((c : Thread nD τ).loc main_v5) ↦{fullShare} V main_v5) ∗ (((c : Thread nD τ).loc main_v6) ↦{fullShare} V main_v6) ∗ (((c : Thread nD τ).loc main_v7_0) ↦{fullShare} V main_v7_0) ∗ (((c : Thread nD τ).loc main_v7_1) ↦{fullShare} V main_v7_1) ∗ (((c : Thread nD τ).loc main_v8) ↦{fullShare} V main_v8) ∗ (((c : Thread nD τ).loc main_v9) ↦{fullShare} V main_v9) ∗ (((c : Thread nD τ).loc main_cst) ↦{fullShare} V main_cst) ∗ (((c : Thread nD τ).loc main_v10) ↦{fullShare} V main_v10))

theorem unscopedRest0_split (c : Dev nD) :
    (Pipeline.unscopedRest (Ix := Unit) (Val := Elt F) (Name := ℕ) (U := R0.UC) (Lvl := ℕ) spec0 c (B0 m c) : sProp 𝕄)
      = iprop(Pipeline.prefHeld pre0 c (fun _ => fullShare) (tbl m)
          ∗ (((c : Thread nD τ).loc main_arg1) ↦{fullShare} B0 m c main_arg1) ∗ rest0 c (B0 m c)) := by
  rw [Pipeline.unscopedRest_split preFacts0, B0_pre, unscopedRestP0_eq]
  rfl

theorem ownSemFacts0 : Pipeline.OwnSemFacts spec0 R0.osem0 := by decide

set_option backward.isDefEq.respectTransparency.types false in

/-- The gather as one segment of the run: entered from the launch contents, left at `W1`. -/
def reg0
    (hb0 : ∀ c : Dev nD, Pipeline.BodyObligation (R0.dat0 (a0 m) c (B0 m c)) (defs₀ (F := F)) Variants.none () Set.univ) :
    Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := Fin 16
  osem := R0.osem0
  ho := ownSemFacts0
  hbody c := (hb0 c).loose
  hwaits := Pipeline.hwaits_of_owed_zero _ _ _ _ L lv 0 fun _ _ => rfl
  pre c := T (W0 m) c
  post c := T (W1 m) c
  X c := iprop(Pipeline.ownSems0 R0.osem0 c ∗ (((c : Thread nD τ).loc main_arg1) ↦{fullShare} B0 m c main_arg1))
  Y c := iprop((((c : Thread nD τ).loc main_arg1) ↦{fullShare} B0 m c main_arg1) ∗ Pipeline.prefHeld pre0 c (fun _ => fullShare) (tbl m))
  Z c := iprop(rest0 c (B0 m c) ∗ ∃ r, prngReg c r)
  hentry c := by
    have hsplit := Pipeline.arrays_of_unscopedBufs (p := 0) (pcfgs (F := F)) (adm m) (pdats m) (launch0 (F := F)).win (launch0 (F := F)).arr_whole c
      ((pdats m 0 c).share_full fun _ => rfl) (B0 m c) fun _ => rfl
    rw [Pipeline.unscopedBufs_held] at hsplit
    iintro ⟨⟨Hub, Hp, HO⟩, HS, -⟩
    ihave H := hsplit $$ Hub
    icases H with ⟨Ha, Hrest⟩
    ihave Hrest' := (Entails.of_eq (unscopedRest0_split m c)) $$ Hrest
    icases Hrest' with ⟨Hpre, Harg1, Hr12⟩
    imodintro
    isplitl [Ha]; · iexact Ha
    isplitl [Hpre]; · iexact Hpre
    isplitl [HO]
    · unfold Pipeline.Dat.owesAt Pipeline.owesWithin
      icases HO with ⟨%W, HO⟩; iexists W; isplitr; · ipureintro; exact fun _ _ => Or.inl trivial
      iexact HO
    isplitl [HS Harg1]; · isplitl [HS] <;> iassumption
    isplitl [Hr12] <;> iassumption
  hin c := by
    rw [show (pdats m 0 c).Φ 0 = R0.Phi0 (a0 m) c (B0 m c) from rfl]; unfold R0.Phi0
    iintro ⟨⟨HS, HA⟩, HP, HSc⟩
    isplitl [HS HA]; · isplitl [HS] <;> iassumption
    isplitl [HP] <;> iassumption
  hout c := by
    rw [show (pdats m 0 c).Φ (Fin.last _) = R0.Phi0 (a0 m) c (B0 m c) from rfl]; unfold R0.Phi0
    iintro ⟨⟨HS, HA⟩, HP, HSc⟩
    isplitl [HA HP]; · isplitl [HA] <;> iassumption
    isplitl [HS] <;> iassumption
  hexit c := by
    have hjoin := Pipeline.unscopedBufs_of_arrays (p := 0) (pcfgs (F := F)) (adm m) (Ix := Unit) (Name := ℕ) (U := R0.UC) (Lvl := ℕ)
      (launch0 (F := F)).win (launch0 (F := F)).arr_whole c (pdats m) ((pdats m 0 c).share_full fun _ => rfl)
      (B0 m c) (B1 m c) ((pdats m 0 c).arrAt · (cfg0 (a0 m)).N) (hF0 m c) (hrest0 m c)
    rw [Pipeline.unscopedBufs_held] at hjoin
    iintro ⟨Ha, HO, ⟨HA, HP⟩, Hr12, Hp⟩
    imodintro
    isplitl [Ha HA HP Hr12]
    · iapply hjoin
      isplitl [Ha]; · iexact Ha
      iapply (Entails.of_eq (unscopedRest0_split m c).symm)
      isplitl [HP]; · iexact HP
      isplitl [HA] <;> iassumption
    isplitl [Hp]; · iexact Hp
    unfold Pipeline.Dat.owesAt Pipeline.owesWithin
    icases HO with ⟨%W, -, HO⟩; iexists W; iexact HO

end Cert.Kernel.Launch

end
-- ==== Proof.KB.R1Run.lean ====
import proofs.«422118_j38706245271901_2_alg».proof.Proof.KB.R1Def
import Idealize.ShloMosaic.Lib.Writes
import Idealize.ShloMosaic.Lib.Pipeline.FrameBody
import Idealize.ShloMosaic.Lib.Pipeline.Value
import Idealize.ShloMosaic.Lib.Tactic

noncomputable section

namespace Cert.Kernel.R1

open Cert.Kernel Cert.Kernel.Gen Cert.Kernel.R0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UC ℕ

abbrev rBlk : Rect S1x3x384x384 := Rect.unit (s := S1x3x384x384) ![0, 0, 0, 0] S1x3x384x384.size inb_S1x3x384x384_S1x3x384x384_0_0_0_0
abbrev rAcc : Rect S1x1 := Rect.unit (s := S1x1) ![0, 0] S1x1.size inb_S1x1_S1x1_0_0

theorem zeroOff4 : (![0, 0, 0, 0] : Fin 4 → Nat) = fun _ => 0 :=
  funext fun a => by match a with | ⟨0, _⟩ => rfl | ⟨1, _⟩ => rfl | ⟨2, _⟩ => rfl | ⟨3, _⟩ => rfl
theorem zeroOff2 : (![0, 0] : Fin 2 → Nat) = fun _ => 0 :=
  funext fun a => by match a with | ⟨0, _⟩ => rfl | ⟨1, _⟩ => rfl

abbrev IsFirst (t : Fin cfg1.N) : Prop :=
  Scalar.cmpi .ne (Scalar.extui (Scalar.cmpi .eq (BitVec.ofNat 32 ((grid1.coords t) 0).val) 0#32)) 0#32 = 1#1
abbrev IsLast (t : Fin cfg1.N) : Prop := k1_cond2 (grid1.coords t) = 1#1

/-- The last store through the whole-shape rectangle leaves its payload, whatever was stored before. -/
theorem read_store_whole {sp : Space} {S : Shape} (v : View sig .tc sp S .f32) (f : v.ty.Contents (Elt F))
    {off : Fin S.rank → Nat} (h : off = fun _ => 0) (inb : ∀ a, off a + S.size a ≤ S.size a)
    (w : S.Idx → Elt F .f32) (L : List (View.Piece (Elt F) S .f32)) :
    v.read (Elt F) (v.writes (Elt F) f ((⟨Rect.unit off S.size inb, w⟩ : View.Piece (Elt F) S .f32) :: L)) = w :=
  (View.read_writes_eq_canon v f _ (fun y => ⟨_, List.mem_cons_self .., View.mem_set_unit_zero h inb y⟩)).trans
    (View.canon_cons_unit_zero h inb w L)

theorem load_blk (v : View sig .tc .vmem S1x3x384x384 .f32) (f : v.ty.Contents (Elt F)) :
    v.readAt (Elt F) rBlk.toLoadRect f = v.read (Elt F) f :=
  (View.readAt_eq_ld v f rBlk).trans (View.ld_unit_zero zeroOff4 _ _)

theorem load_acc (v : View sig .tc .vmem S1x1 .f32) (f : v.ty.Contents (Elt F)) :
    v.readAt (Elt F) rAcc.toLoadRect f = v.read (Elt F) f :=
  (View.readAt_eq_ld v f rAcc).trans (View.ld_unit_zero zeroOff2 _ _)

theorem read_store_blk (v : View sig .tc .vmem S1x3x384x384 .f32) (f : v.ty.Contents (Elt F)) (w : Vec F S1x3x384x384 .f32) :
    v.read (Elt F) (v.writes (Elt F) f ([⟨rBlk, w⟩] : List (View.Piece (Elt F) S1x3x384x384 .f32))) = w :=
  read_store_whole v f zeroOff4 inb_S1x3x384x384_S1x3x384x384_0_0_0_0 w []

theorem read_store_acc (v : View sig .tc .vmem S1x1 .f32) (f : v.ty.Contents (Elt F)) (w : Vec F S1x1 .f32)
    (L : List (View.Piece (Elt F) S1x1 .f32)) :
    v.read (Elt F) (v.writes (Elt F) f ((⟨rAcc, w⟩ : View.Piece (Elt F) S1x1 .f32) :: L)) = w :=
  read_store_whole v f zeroOff2 inb_S1x1_S1x1_0_0 w L

theorem load_acc_stored (v : View sig .tc .vmem S1x1 .f32) (w : Vec F S1x1 .f32) :
    v.readCov ([⟨rAcc, w⟩] : List (View.Piece (Elt F) S1x1 .f32)) rAcc.toLoadRect = w :=
  View.readCov_unit_zero v zeroOff2 _ w

section Runs

variable (c : Dev nD) (t : Fin cfg1.N)
  (M0 : Memref sig .tc .vmem S1x3x384x384 .f32) (h0 : M0.IsWhole)
  (M1 : Memref sig .tc .vmem S1x3x384x384 .f32) (h1 : M1.IsWhole)
  (M2 : Memref sig .tc .vmem S1x1 .f32) (h2 : M2.IsWhole)
  (x0 : Vec F S1x3x384x384 .f32) (a : Vec F S1x1 .f32)

local notation "ASM" => cc1_assemble_kernel (grid1.coords t) M0 h0 M1 h1 M2 h2 (Memref.whole cc1_scratch0) (Memref.isWhole_whole _)

/-- The first point: the accumulator, whatever it held, ends at the slab's sum of squares over zero. -/
theorem run_first (hF : IsFirst t) (hL : ¬ IsLast t) (O : sProp 𝕄) (Q : PUnit → sProp 𝕄) :
    iprop(owns (c : Thread nD τ) M0 fullShare x0 ∗ (∃ d, owns (c : Thread nD τ) M1 fullShare d) ∗ O
      ∗ (∃ a, owns (c : Thread nD τ) accM fullShare a)
      ∗ (iprop(owns (c : Thread nD τ) M0 fullShare x0 ∗ owns (c : Thread nD τ) M1 fullShare (clampBlk x0) ∗ O
          ∗ owns (c : Thread nD τ) accM fullShare (sqAcc x0 zero1)) -∗ Q ⟨⟩))
      ⊢ wp frame (wpE (defs₀ (F := F)) Variants.none c none) Set.univ ASM Q := by
  unfold owns
  iintro ⟨⟨%f0, %hf0, H0⟩, ⟨%d1, %f1, %hf1, H1⟩, HO, ⟨%a', %fa, %hfa, Ha⟩, Hk⟩
  subst hf0
  sl_exec! (disch := assumption)
  sl_step
  iapply Hk
  isplitl [H0]; · iexists f0; isplitr; (· ipureintro; rfl); iexact H0
  isplitl [H1]
  · iexists _; isplitr; swap; (· iexact H1); ipureintro
    sl_unfold_words
    rw [read_store_blk, load_blk]
  isplitl [HO]; · iexact HO
  iexists _; isplitr; swap; (· iexact Ha); ipureintro
  sl_unfold_words
  rw [read_store_acc, load_blk, load_acc_stored]

/-- A middle point: the accumulator gains the slab's sum of squares. -/
theorem run_mid (hF : ¬ IsFirst t) (hL : ¬ IsLast t) (O : sProp 𝕄) (Q : PUnit → sProp 𝕄) :
    iprop(owns (c : Thread nD τ) M0 fullShare x0 ∗ (∃ d, owns (c : Thread nD τ) M1 fullShare d) ∗ O
      ∗ owns (c : Thread nD τ) accM fullShare a
      ∗ (iprop(owns (c : Thread nD τ) M0 fullShare x0 ∗ owns (c : Thread nD τ) M1 fullShare (clampBlk x0) ∗ O
          ∗ owns (c : Thread nD τ) accM fullShare (sqAcc x0 a)) -∗ Q ⟨⟩))
      ⊢ wp frame (wpE (defs₀ (F := F)) Variants.none c none) Set.univ ASM Q := by
  unfold owns
  iintro ⟨⟨%f0, %hf0, H0⟩, ⟨%d1, %f1, %hf1, H1⟩, HO, ⟨%fa, %hfa, Ha⟩, Hk⟩
  subst hf0 hfa
  sl_exec! (disch := assumption)
  sl_step
  iapply Hk
  isplitl [H0]; · iexists f0; isplitr; (· ipureintro; rfl); iexact H0
  isplitl [H1]
  · iexists _; isplitr; swap; (· iexact H1); ipureintro
    sl_unfold_words
    rw [read_store_blk, load_blk]
  isplitl [HO]; · iexact HO
  iexists _; isplitr; swap; (· iexact Ha); ipureintro
  sl_unfold_words
  rw [read_store_acc, load_blk, load_acc]

/-- The last point: as a middle point, and the second output receives the accumulator. -/
theorem run_last (hF : ¬ IsFirst t) (hL : IsLast t) (Q : PUnit → sProp 𝕄) :
    iprop(owns (c : Thread nD τ) M0 fullShare x0 ∗ (∃ d, owns (c : Thread nD τ) M1 fullShare d)
      ∗ (∃ d, owns (c : Thread nD τ) M2 fullShare d) ∗ owns (c : Thread nD τ) accM fullShare a
      ∗ (iprop(owns (c : Thread nD τ) M0 fullShare x0 ∗ owns (c : Thread nD τ) M1 fullShare (clampBlk x0)
          ∗ owns (c : Thread nD τ) M2 fullShare (sqAcc x0 a) ∗ owns (c : Thread nD τ) accM fullShare (sqAcc x0 a)) -∗ Q ⟨⟩))
      ⊢ wp frame (wpE (defs₀ (F := F)) Variants.none c none) Set.univ ASM Q := by
  unfold owns
  iintro ⟨⟨%f0, %hf0, H0⟩, ⟨%d1, %f1, %hf1, H1⟩, ⟨%d2, %f2, %hf2, H2⟩, ⟨%fa, %hfa, Ha⟩, Hk⟩
  subst hf0 hfa
  sl_exec! (disch := assumption)
  sl_step
  iapply Hk
  isplitl [H0]; · iexists f0; isplitr; (· ipureintro; rfl); iexact H0
  isplitl [H1]
  · iexists _; isplitr; swap; (· iexact H1); ipureintro
    sl_unfold_words
    rw [read_store_blk, load_blk]
  isplitl [H2]
  · iexists _; isplitr; swap; (· iexact H2); ipureintro
    sl_unfold_words
    rw [read_store_acc, load_acc_stored, load_blk, load_acc]
  iexists _; isplitr; swap; (· iexact Ha); ipureintro
  sl_unfold_words
  rw [read_store_acc, load_blk, load_acc]

end Runs

end Cert.Kernel.R1

end
-- ==== Proof.KB.R1Dat.lean ====
import proofs.«422118_j38706245271901_2_alg».proof.Proof.KB.R1Run
import proofs.«422118_j38706245271901_2_alg».proof.Proof.Gen.Kernel.Points
import Idealize.ShloMosaic.Lib.Pipeline.Frame

noncomputable section

namespace Cert.Kernel.R1

open Cert.Kernel Cert.Kernel.Gen Cert.Kernel.R0
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

theorem N_128 : cfg1.N = 128 := N_1

theorem isFirst_iff : ∀ t : Fin cfg1.N, IsFirst t ↔ t.val = 0 :=
  (by decide +kernel : ∀ t : Fin grid1.N,
    (Scalar.cmpi .ne (Scalar.extui (Scalar.cmpi .eq (BitVec.ofNat 32 ((grid1.coords t) 0).val) 0#32)) 0#32 = 1#1) ↔ t.val = 0)
theorem isLast_iff : ∀ t : Fin cfg1.N, IsLast t ↔ t.val = 127 :=
  (by decide +kernel : ∀ t : Fin grid1.N, k1_cond2 (grid1.coords t) = 1#1 ↔ t.val = 127)

theorem idle0_eq (t : Fin cfg1.N) : idle1 0 (grid1.coords t) = false := rfl
theorem idle1_eq (t : Fin cfg1.N) : idle1 1 (grid1.coords t) = false := rfl
theorem idle2_of_last (t : Fin cfg1.N) (h : IsLast t) : idle1 2 (grid1.coords t) = false := by
  show (!(k1_cond2 (grid1.coords t) == 1#1)) = false
  rw [show (k1_cond2 (grid1.coords t) == 1#1) = true from beq_iff_eq.mpr h]; rfl
theorem idle2_of_not_last (t : Fin cfg1.N) (h : ¬ IsLast t) : idle1 2 (grid1.coords t) = true := by
  show (!(k1_cond2 (grid1.coords t) == 1#1)) = true
  rw [show (k1_cond2 (grid1.coords t) == 1#1) = false from beq_eq_false_iff_ne.mpr h]; rfl
theorem flush2_of_last (t : Fin cfg1.N) (h : IsLast t) : (cfg1.win 2).flush t = true :=
  (flush1_2 t).mpr (by have := (isLast_iff t).mp h; omega)
theorem flush2_of_not_last (t : Fin cfg1.N) (h : ¬ IsLast t) : (cfg1.win 2).flush t = false :=
  Bool.eq_false_iff.mpr fun hf => h ((isLast_iff t).mpr (by
    have h1 := (flush1_2 t).mp hf; have h2 := t.isLt; have h3 := N_128; omega))

section Data

variable (c : Dev nD) (V : (b : Ref sig .tc) → Buf (Elt F) ((c : Thread nD τ).loc b))

theorem after_0 (t : Fin cfg1.N) : (dat1 c V).after 0 t = xblk c V t := by dsimp only [dat1]
theorem after_1 (t : Fin cfg1.N) : (dat1 c V).after 1 t = clampBlk (xblk c V t) := by dsimp only [dat1]
theorem after_2 (t : Fin cfg1.N) : (dat1 c V).after 2 t = accAt c V t.val t.isLt := by dsimp only [dat1]

theorem before_0 (t : Fin cfg1.N) (d) : (dat1 c V).before 0 t d = xblk c V t := by
  rw [(dat1 c V).before_fetched 0 t (fetch1_0 t)]; unfold Dat.fetched Dat.blockOf xblk; dsimp only [dat1]; rfl

theorem accAt_first (t : Fin cfg1.N) (h : t.val = 0) : accAt c V t.val t.isLt = sqAcc (xblk c V t) zero1 := by
  obtain ⟨k, hk⟩ := t
  cases k with
  | zero => rfl
  | succ k => exact absurd h (Nat.succ_ne_zero k)

theorem accAt_later (t : Fin cfg1.N) (h : t.val ≠ 0) (hp : t.val - 1 < cfg1.N) :
    accAt c V t.val t.isLt = sqAcc (xblk c V t) (accAt c V (t.val - 1) hp) := by
  obtain ⟨k, hk⟩ := t
  cases k with
  | zero => exact absurd rfl h
  | succ k => rfl

abbrev accBefore (t : Fin cfg1.N) (h : t.val ≠ 0) : Vec F S1x1 .f32 :=
  accAt c V (t.val - 1) (by have := t.isLt; omega)

theorem accPart_first (t : Fin cfg1.N) (h : t.val = 0) :
    accPart c V t.castSucc = iprop(∃ a, owns (c : Thread nD τ) accM fullShare a) := by
  unfold accPart; rw [dif_pos (by exact h)]
theorem accPart_later (t : Fin cfg1.N) (h : t.val ≠ 0) :
    accPart c V t.castSucc = owns (c : Thread nD τ) accM fullShare (accBefore c V t h) := by
  unfold accPart; rw [dif_neg (by exact h)]; rfl
theorem accPart_succ (t : Fin cfg1.N) :
    accPart c V t.succ = owns (c : Thread nD τ) accM fullShare (accAt c V t.val t.isLt) := by
  unfold accPart; rw [dif_neg (by show ¬ t.val + 1 = 0; omega)]; rfl

theorem owesAt_intro (t : Fin (cfg1.N + 1)) (W' : Waits sig Unit) :
    owes (c : Thread nD τ) 0 W' ⊢ ((dat1 c V).owesAt () t : sProp 𝕄) := by
  unfold Dat.owesAt Pipeline.owesWithin
  rw [show (dat1 c V).owed t = 0 from rfl]
  iintro HO; iexists W'; isplitr; · ipureintro; exact fun _ _ => Or.inl trivial
  iexact HO

theorem body_obligation1 : BodyObligation (dat1 (F := F) c V) (defs₀ (F := F)) Variants.none () Set.univ := fun t => by
  rw [bigSep_W1, bigSep_W1]
  unfold Dat.owesAt Pipeline.owesWithin
  rw [show (dat1 c V).owed t.castSucc = 0 from rfl]
  have hN := N_128
  rw [show (dat1 c V).Φ t.castSucc = Phi1 c V t.castSucc from rfl, show (dat1 c V).Φ t.succ = Phi1 c V t.succ from rfl]
  unfold Phi1
  rw [accPart_succ]
  by_cases hL : IsLast t
  ·
    have h127 : t.val = 127 := (isLast_iff t).mp hL
    have h0 : t.val ≠ 0 := by omega
    have hF : ¬ IsFirst t := fun h => h0 ((isFirst_iff t).mp h)
    simp only [idle0_eq, idle1_eq, idle2_of_last t hL, flush2_of_last t hL, before_0, after_0, after_1, after_2]
    rw [accPart_later c V t h0, accAt_later c V t h0 (by omega)]
    iintro ⟨⟨Hr1, Hr2, Hr3, Ha⟩, ⟨%Wt, %hW, HO⟩, ⟨%d0, H0⟩, ⟨%d1, H1⟩, ⟨%d2, H2⟩⟩
    iapply (run_last c t (st1_0 t) (hstage1_0 ((cfg1.slots t 0).cast nbuf1_0)) (st1_1 t) (hstage1_1 ((cfg1.slots t 1).cast nbuf1_1))
      (st1_2 t) (hstage1_2 ((cfg1.slots t 2).cast nbuf1_2)) (xblk c V t) (accBefore c V t h0) hF hL)
    isplitl [H0]; · iexact H0
    isplitl [H1]; · iexists _; iexact H1
    isplitl [H2]; · iexists _; iexact H2
    isplitl [Ha]; · iexact Ha
    iintro ⟨H0, H1, H2, Ha⟩
    isplitl [Hr1 Hr2 Hr3 Ha]
    · iframe Hr1 Hr2 Hr3 Ha
    isplitl [HO]; · iapply (owesAt_intro c V); iexact HO
    iframe H0 H1 H2
  · simp only [idle0_eq, idle1_eq, idle2_of_not_last t hL, flush2_of_not_last t hL, before_0, after_0, after_1]
    by_cases hF : IsFirst t
    ·
      have h0 : t.val = 0 := (isFirst_iff t).mp hF
      rw [accPart_first c V t h0, accAt_first c V t h0]
      iintro ⟨⟨Hr1, Hr2, Hr3, Ha⟩, ⟨%Wt, %hW, HO⟩, ⟨%d0, H0⟩, ⟨%d1, H1⟩, H2⟩
      iapply (run_first c t (st1_0 t) (hstage1_0 ((cfg1.slots t 0).cast nbuf1_0)) (st1_1 t) (hstage1_1 ((cfg1.slots t 1).cast nbuf1_1))
        (st1_2 t) (hstage1_2 ((cfg1.slots t 2).cast nbuf1_2)) (xblk c V t) hF hL _)
      isplitl [H0]; · iexact H0
      isplitl [H1]; · iexists _; iexact H1
      isplitl [H2]; · iexact H2
      isplitl [Ha]; · iexact Ha
      iintro ⟨H0, H1, H2, Ha⟩
      isplitl [Hr1 Hr2 Hr3 Ha]
      · iframe Hr1 Hr2 Hr3 Ha
      isplitl [HO]; · iapply (owesAt_intro c V); iexact HO
      iframe H0 H1 H2
    ·
      have h0 : t.val ≠ 0 := fun h => hF ((isFirst_iff t).mpr h)
      rw [accPart_later c V t h0, accAt_later c V t h0 (by omega)]
      iintro ⟨⟨Hr1, Hr2, Hr3, Ha⟩, ⟨%Wt, %hW, HO⟩, ⟨%d0, H0⟩, ⟨%d1, H1⟩, H2⟩
      iapply (run_mid c t (st1_0 t) (hstage1_0 ((cfg1.slots t 0).cast nbuf1_0)) (st1_1 t) (hstage1_1 ((cfg1.slots t 1).cast nbuf1_1))
        (st1_2 t) (hstage1_2 ((cfg1.slots t 2).cast nbuf1_2)) (xblk c V t) (accBefore c V t h0) hF hL _)
      isplitl [H0]; · iexact H0
      isplitl [H1]; · iexists _; iexact H1
      isplitl [H2]; · iexact H2
      isplitl [Ha]; · iexact Ha
      iintro ⟨H0, H1, H2, Ha⟩
      isplitl [Hr1 Hr2 Hr3 Ha]
      · iframe Hr1 Hr2 Hr3 Ha
      isplitl [HO]; · iapply (owesAt_intro c V); iexact HO
      iframe H0 H1 H2

theorem accPart_zero : accPart c V 0 = iprop(∃ a, owns (c : Thread nD τ) accM fullShare a) := by
  unfold accPart; exact dif_pos (by decide)

theorem accPart_end :
    accPart c V (Fin.last cfg1.N) = owns (c : Thread nD τ) accM fullShare (accAt c V 127 (by decide)) := by
  unfold accPart; rw [dif_neg (by decide)]; rfl

theorem Phi1_zero : Pipeline.scopedRest (Ix := Unit) (Name := ℕ) (U := UC) (Lvl := ℕ) (Val := Elt F) spec1 c ⊢ (dat1 c V).Φ 0 := by
  rw [scopedRest1_eq, show (dat1 c V).Φ 0 = Phi1 c V 0 from rfl]
  unfold Phi1; rw [accPart_zero]
  iintro ⟨Hr1, Hr2, Hr3, ⟨%f, Hf⟩⟩
  iframe Hr1 Hr2 Hr3
  iexists f; rw [owns_whole_eq]; iexists f; isplitr; (· ipureintro; rfl); iexact Hf

theorem Phi1_last : (dat1 c V).Φ (Fin.last cfg1.N) ⊢ Pipeline.scopedRest (Ix := Unit) (Name := ℕ) (U := UC) (Lvl := ℕ) (Val := Elt F) spec1 c := by
  rw [scopedRest1_eq, show (dat1 c V).Φ (Fin.last cfg1.N) = Phi1 c V (Fin.last cfg1.N) from rfl]
  unfold Phi1; rw [accPart_end, owns_whole_eq]
  iintro ⟨Hr1, Hr2, Hr3, ⟨%f, %hf, Hf⟩⟩
  iframe Hr1 Hr2 Hr3
  iexists f; iexact Hf

end Data

end Cert.Kernel.R1

end
-- ==== Proof.KB.Seg1.lean ====
import proofs.«422118_j38706245271901_2_alg».proof.Proof.KB.Vals
import proofs.«422118_j38706245271901_2_alg».proof.Proof.KB.R1Dat
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ R0.UC ℕ

variable (m : (ℓ : Loc nD τ sig) → Buf (Elt F) ℓ)

set_option backward.isDefEq.respectTransparency.types false in

/-- The clamp region as one segment of the run: entered from `W2`, left at `W3`. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (R1.body_obligation1 c (B2 m c)).loose
  hwaits := Pipeline.hwaits_of_owed_zero _ _ _ _ L lv 1 fun _ _ => rfl
  pre c := T (W2 m) c
  post c := T (W3 m) c
  X c := BI.emp
  Y c := BI.emp
  Z c := iprop((Pipeline.unscopedRest (Ix := Unit) (Val := Elt F) (Name := ℕ) (U := R0.UC) (Lvl := ℕ) spec1 c (B2 m c) : sProp 𝕄) ∗ ∃ r, prngReg c r)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (B2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have h := R1.Phi1_zero (F := F) c (B2 m c)
    rw [show (pdats m 1 c).Φ 0 = (R1.dat1 c (B2 m c)).Φ 0 from rfl]
    iintro ⟨-, -, Hr⟩
    iapply h; iexact Hr
  hout c := by
    have h := R1.Phi1_last (F := F) c (B2 m c)
    rw [Pipeline.ownSems0_none, show (pdats m 1 c).Φ (Fin.last _) = (R1.dat1 c (B2 m c)).Φ (Fin.last cfg1.N) from rfl]
    iintro H
    isplitr; · iempintro
    isplitr; · iempintro
    iapply h; iexact H
  hexit c := by
    have hjoin := Pipeline.unscopedBufs_of_arrays (p := 1) (pcfgs (F := F)) (adm m) (Ix := Unit) (Name := ℕ) (U := R0.UC) (Lvl := ℕ)
      (launch1 (F := F)).win (launch1 (F := F)).arr_whole c (pdats m) ((pdats m 1 c).share_full fun _ => rfl)
      (B2 m c) (B3 m c) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Launch

end
-- ==== Proof.KB.R0Run.lean ====
import proofs.«422118_j38706245271901_2_alg».proof.Proof.Gen.Kernel
import proofs.«422118_j38706245271901_2_alg».proof.Proof.Gen.Kernel.Skeleton
import proofs.«422118_j38706245271901_2_alg».proof.Proof.Gen.Kernel.Launch
import proofs.«422118_j38706245271901_2_alg».proof.Proof.KB.R0Def
import Idealize.ShloMosaic.Lib.Transfers
import Idealize.ShloMosaic.Lib.Writes
import Idealize.ShloMosaic.Lib.Pipeline.FrameBody
import Idealize.ShloMosaic.Lib.Tactic

noncomputable section

namespace Cert.Kernel.R0Run

open Cert.Kernel Cert.Kernel.Gen Cert.Kernel.R0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UC ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev tok (c : Dev nD) (i : Fin 18) (emb : Bf (F := F) c (Memref.whole main_arg1)) : sProp 𝕄 :=
  (Memref.whole main_arg1).view.loc (c : Thread nD τ) ↦{Transfers.shareTok fullShare 18 i} emb

abbrev sem0 (c : Dev nD) (k : DmaSem sig) : sProp 𝕄 := semVal ((c : Thread nD τ), SemLoc.dma k) 0

/-- A word below 50257 names a row inside the table. -/
theorem row_inb (v : BitVec 32) (h : v.toNat < 50257) :
    ∀ a : Fin 2, (![v.toNat, 0] : Fin 2 → Nat) a + S1x768.size a ≤ S50257x768.size a := by
  intro a; fin_cases a
  · show v.toNat + 1 ≤ 50257; omega
  · show 0 + 768 ≤ 768; omega

/-- A one-word load reads an entry of the token table, so the bound on every entry bounds it. -/
theorem word_lt (c : Dev nD) (tbl : Bf (F := F) c (Memref.whole main_arg0)) (hidx : ∀ x : S128x128.Idx, (tbl x : BitVec 32).toNat < 50257)
    (r : LoadRect S128x128) (y : r.shape.Idx) :
    (View.readAt (Elt F) (Memref.whole main_arg0).view r tbl y : BitVec 32).toNat < 50257 := hidx _

set_option sl_exec.dmaWindow true in
set_option maxHeartbeats 4000000 in

/-- The gather body at a symbolic grid point runs to its end and gives every resource back; its witness is what it leaves in the output block. -/
noncomputable def kernelRun (c : Dev nD) (t : Fin grid0.N)
    (M3 : Memref sig .tc .vmem S1x128x768 .f32) (h3 : M3.IsWhole)
    (tbl : Bf (F := F) c (Memref.whole main_arg0)) (hidx : ∀ x : S128x128.Idx, (tbl x : BitVec 32).toNat < 50257)
    (emb : Bf (F := F) c (Memref.whole main_arg1)) (g : Bf (F := F) c (Memref.whole cc0_scratch0)) :
    { W : Bf (F := F) c M3 //
      ∀ (f3 : Bf (F := F) c M3) (W0 : Waits sig Unit) (Q : PUnit → sProp 𝕄),
        iprop(pt c (Memref.whole main_arg0) tbl ∗ tok c 2 emb ∗ tok c 3 emb ∗ tok c 4 emb ∗ tok c 5 emb ∗ tok c 6 emb ∗ tok c 7 emb ∗ tok c 8 emb ∗ tok c 9 emb ∗ tok c 10 emb ∗ tok c 11 emb ∗ tok c 12 emb ∗ tok c 13 emb ∗ tok c 14 emb ∗ tok c 15 emb ∗ tok c 16 emb ∗ tok c 17 emb ∗ pt c M3 f3 ∗ pt c (Memref.whole cc0_scratch0) g
          ∗ sem0 c 2 ∗ sem0 c 3 ∗ sem0 c 4 ∗ sem0 c 5 ∗ sem0 c 6 ∗ sem0 c 7 ∗ sem0 c 8 ∗ sem0 c 9 ∗ sem0 c 10 ∗ sem0 c 11 ∗ sem0 c 12 ∗ sem0 c 13 ∗ sem0 c 14 ∗ sem0 c 15 ∗ sem0 c 16 ∗ sem0 c 17
          ∗ owes (c : Thread nD τ) 0 W0
          ∗ (iprop(pt c (Memref.whole main_arg0) tbl ∗ tok c 2 emb ∗ tok c 3 emb ∗ tok c 4 emb ∗ tok c 5 emb ∗ tok c 6 emb ∗ tok c 7 emb ∗ tok c 8 emb ∗ tok c 9 emb ∗ tok c 10 emb ∗ tok c 11 emb ∗ tok c 12 emb ∗ tok c 13 emb ∗ tok c 14 emb ∗ tok c 15 emb ∗ tok c 16 emb ∗ tok c 17 emb ∗ pt c M3 W ∗ (∃ g', pt c (Memref.whole cc0_scratch0) g')
              ∗ sem0 c 2 ∗ sem0 c 3 ∗ sem0 c 4 ∗ sem0 c 5 ∗ sem0 c 6 ∗ sem0 c 7 ∗ sem0 c 8 ∗ sem0 c 9 ∗ sem0 c 10 ∗ sem0 c 11 ∗ sem0 c 12 ∗ sem0 c 13 ∗ sem0 c 14 ∗ sem0 c 15 ∗ sem0 c 16 ∗ sem0 c 17
              ∗ (∃ W', owes (c : Thread nD τ) 0 W')) -∗ Q ⟨⟩))
        ⊢ wp frame (wpE (defs₀ (F := F)) Variants.none c none) Set.univ
            (cc0_gather_kernel (grid0.coords t) (Memref.whole main_arg0) (Memref.isWhole_whole _) (Memref.whole main_arg1) (Memref.isWhole_whole _)
              M3 h3 (Memref.whole cc0_scratch0) (Memref.isWhole_whole _) cc0_scratch1) Q } := by
  refine ⟨?_, fun f3 W0 Q => ?run⟩
  case run =>
    iintro ⟨Ht, T2, T3, T4, T5, T6, T7, T8, T9, T10, T11, T12, T13, T14, T15, T16, T17, H3, Hg, S2, S3, S4, S5, S6, S7, S8, S9, S10, S11, S12, S13, S14, S15, S16, S17, HO, Hk⟩
    sl_exec_parts! (disch := first
      | exact ⟨row_inb _ (word_lt c tbl hidx _ _), row_inb _ (word_lt c tbl hidx _ _)⟩
      | exact row_inb _ (word_lt c tbl hidx _ _))
    sl_step
    iapply Hk
    iframe Ht T2 T3 T4 T5 T6 T7 T8 T9 T10 T11 T12 T13 T14 T15 T16 T17 H3
    isplitl [Hg]; · iexists _; iexact Hg
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    iexists _; iexact HO

/-- The block the body leaves at point `t`, read through the staging buffer's view. -/
def out0 (c : Dev nD) (t : Fin grid0.N)
    (M3 : Memref sig .tc .vmem S1x128x768 .f32) (h3 : M3.IsWhole)
    (tbl : Bf (F := F) c (Memref.whole main_arg0)) (hidx : ∀ x : S128x128.Idx, (tbl x : BitVec 32).toNat < 50257)
    (emb : Bf (F := F) c (Memref.whole main_arg1)) (g : Bf (F := F) c (Memref.whole cc0_scratch0)) :
    S1x128x768.Idx → Elt F .f32 :=
  M3.view.read (Elt F) (kernelRun c t M3 h3 tbl hidx emb g).1

end Cert.Kernel.R0Run

end
-- ==== Proof.KB.R0Dat.lean ====
import proofs.«422118_j38706245271901_2_alg».proof.Proof.Gen.Kernel
import proofs.«422118_j38706245271901_2_alg».proof.Proof.Gen.Kernel.Launch
import proofs.«422118_j38706245271901_2_alg».proof.Proof.KB.R0Def
import proofs.«422118_j38706245271901_2_alg».proof.Proof.KB.R0Run
import Idealize.ShloMosaic.Lib.Transfers
import Idealize.ShloMosaic.Lib.Pipeline.Kit
import Idealize.ShloMosaic.Lib.Tactic

noncomputable section

namespace Cert.Kernel.R0

open Cert.Kernel Cert.Kernel.Gen Cert.Kernel.R0Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ UC ℕ

theorem ownSems0_eq (c : Dev nD) :
    (Pipeline.ownSems0 (Ix := Unit) (Name := ℕ) (U := UC) (Lvl := ℕ) (Val := Elt F) (τ := τ) osem0 c : sProp 𝕄)
      = iprop(sem0 c 2 ∗ sem0 c 3 ∗ sem0 c 4 ∗ sem0 c 5 ∗ sem0 c 6 ∗ sem0 c 7 ∗ sem0 c 8 ∗ sem0 c 9 ∗ sem0 c 10 ∗ sem0 c 11 ∗ sem0 c 12 ∗ sem0 c 13 ∗ sem0 c 14 ∗ sem0 c 15 ∗ sem0 c 16 ∗ sem0 c 17) :=
  Pipeline.ownSems0_eq_of_list c osem0 [0, 1, 2, 3, 4, 5, 6, 7, 8, 9, 10, 11, 12, 13, 14, 15] (by decide) (by decide)

theorem bigSep_toks {M : Type} [URA M] (Φ : Fin 18 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

/-- The embedding table held whole is a remainder share and eighteen read tokens, and back. -/
theorem emb_toks (c : Dev nD) (emb : Bf (F := F) c (Memref.whole main_arg1)) :
    (pt c (Memref.whole main_arg1) emb : sProp 𝕄)
      ⊣⊢ iprop(((Memref.whole main_arg1).view.loc (c : Thread nD τ) ↦{Transfers.shareDrop fullShare 18} emb)
          ∗ tok c 0 emb ∗ tok c 1 emb ∗ tok c 2 emb ∗ tok c 3 emb ∗ tok c 4 emb ∗ tok c 5 emb ∗ tok c 6 emb ∗ tok c 7 emb ∗ tok c 8 emb ∗ tok c 9 emb ∗ tok c 10 emb ∗ tok c 11 emb ∗ tok c 12 emb ∗ tok c 13 emb ∗ tok c 14 emb ∗ tok c 15 emb ∗ tok c 16 emb ∗ tok c 17 emb) := by
  have h := Transfers.pointsTo_toks (nD := nD) (τ := τ) (sig := sig) (Ix := Unit) (Val := Elt F) (Name := ℕ) (U := UC) (Lvl := ℕ)
    (ℓ := (Memref.whole main_arg1).view.loc (c : Thread nD τ)) (S := Finset.univ) (f := emb) fullShare 18
  rw [bigSep_toks] at h
  exact h

theorem prefHeld_eq (a0 : (pcfg0 (F := F)).Adm) (c : Dev nD) :
    (Pipeline.prefHeld (Ix := Unit) (Name := ℕ) (U := UC) (Lvl := ℕ) (τ := τ) pre0 c (fun _ => fullShare) a0.1 : sProp 𝕄)
      = pt c (Memref.whole main_arg0) (a0.1 0) := by
  unfold Pipeline.prefHeld
  exact bigSep_W0 _

section Body

variable (a0 : (pcfg0 (F := F)).Adm) (c : Dev nD) (V : (b : Ref sig .tc) → Buf (Elt F) ((c : Thread nD τ).loc b))

abbrev bodyAt0 (t : Fin (cfg0 a0).N) : Prog (TpuEff nD τ sig (Elt F) Λ₀ .tc) PUnit :=
  cc0_gather_kernel (grid0.coords t) (Memref.whole main_arg0) (Memref.isWhole_whole _) (Memref.whole main_arg1) (Memref.isWhole_whole _)
    (spec0_0.stage ((cfg0 a0).slots t 0)) (hstage0_0 (((cfg0 a0).slots t 0).cast nbuf0_0)) (Memref.whole cc0_scratch0) (Memref.isWhole_whole _) cc0_scratch1

/-- The gather's body obligation: take the invariant apart, lend each copy in flight a read token, run the body, put the invariant back. -/
theorem body_obligation0_of (hidx : ∀ x, (a0.1 0 x).toNat < 50257)
    (hval : ∀ (t : Fin grid0.N) (M3 : Memref sig .tc .vmem S1x128x768 .f32) (h3 : M3.IsWhole) (g : Bf (F := F) c (Memref.whole cc0_scratch0)),
      out0 c t M3 h3 (a0.1 0) hidx (V main_arg1) g = gath (a0.1 0) (V main_arg1) ⟨t.val, lt_of_lt_of_eq t.isLt N_0⟩) :
    BodyObligation (dat0 a0 c V) (defs₀ (F := F)) Variants.none () Set.univ := fun t => by
  rw [bigSep_W0, bigSep_W0,
    show defs₀ (F := F) .tc (cfg0 a0).body ((cfg0 a0).bodyArgs t ((cfg0 a0).slots t)) = bodyAt0 a0 t from rfl,
    show (cfg0 a0).idle 0 ((cfg0 a0).grid.coords t) = false from rfl]
  dsimp only
  rw [show (dat0 a0 c V).Φ t.castSucc = Phi0 a0 c V from rfl, show (dat0 a0 c V).Φ t.succ = Phi0 a0 c V from rfl,
    show (dat0 a0 c V).after 0 t = gath (a0.1 0) (V main_arg1) ⟨t.val, lt_of_lt_of_eq t.isLt N_0⟩ from rfl]
  unfold Phi0 Dat.owesAt Pipeline.owesWithin owns
  have hw : (stage0_0 ((cfg0 a0).slots t 0)).IsWhole := hstage0_0 _
  rw [ownSems0_eq, prefHeld_eq, scopedRest0_eq, hw.set_eq_univ]
  iintro ⟨⟨⟨⟨S2, S3, S4, S5, S6, S7, S8, S9, S10, S11, S12, S13, S14, S15, S16, S17⟩, Hemb⟩, Htbl, ⟨%g, Hg⟩, Hrest⟩, ⟨%W, %hW, HO⟩, ⟨%d, %f3, %hf3, H3⟩⟩
  ihave ⟨Hd, T0, T1, T2, T3, T4, T5, T6, T7, T8, T9, T10, T11, T12, T13, T14, T15, T16, T17⟩ := (emb_toks c (V main_arg1)).1 $$ Hemb
  iapply ((kernelRun c t (stage0_0 ((cfg0 a0).slots t 0)) hw (a0.1 0) hidx (V main_arg1) g).2 f3 W _)
  iframe Htbl T2 T3 T4 T5 T6 T7 T8 T9 T10 T11 T12 T13 T14 T15 T16 T17 H3 Hg S2 S3 S4 S5 S6 S7 S8 S9 S10 S11 S12 S13 S14 S15 S16 S17
  isplitl [HO]; · iexact HO
  iintro ⟨Htbl, T2, T3, T4, T5, T6, T7, T8, T9, T10, T11, T12, T13, T14, T15, T16, T17, H3, ⟨%g', Hg⟩, S2, S3, S4, S5, S6, S7, S8, S9, S10, S11, S12, S13, S14, S15, S16, S17, ⟨%W', HO⟩⟩
  isplitr [HO H3]
  · isplitr [Htbl Hg Hrest]
    · isplitr [Hd T0 T1 T2 T3 T4 T5 T6 T7 T8 T9 T10 T11 T12 T13 T14 T15 T16 T17]
      · iframe S2 S3 S4 S5 S6 S7 S8 S9 S10 S11 S12 S13 S14 S15 S16 S17
      · iapply (emb_toks c (V main_arg1)).2
        iframe Hd T0 T1 T2 T3 T4 T5 T6 T7 T8 T9 T10 T11 T12 T13 T14 T15 T16 T17
    isplitl [Htbl]; · iexact Htbl
    isplitl [Hg]; · iexists g'; iexact Hg
    iexact Hrest
  isplitl [HO]
  · iexists W'; isplitr; · ipureintro; exact fun _ _ => Or.inl trivial
    iexact HO
  iexists _; isplitr
  swap; · iexact H3
  ipureintro
  exact hval t _ hw g

end Body

end Cert.Kernel.R0

end
-- ==== Proof.KB.R0Pieces.lean ====
import proofs.«422118_j38706245271901_2_alg».proof.Proof.KB.R0Run
import proofs.«422118_j38706245271901_2_alg».proof.Proof.LibRows
import Idealize.ShloMosaic.Lib.Writes
import Idealize.ShloMosaic.Lib.Pipeline.FrameBody
import Idealize.ShloMosaic.Lib.Pipeline.Value
import Idealize.ShloMosaic.Lib.ValueLayout

noncomputable section

namespace Cert.Kernel.R0Run

open Cert.Kernel Cert.Kernel.Gen Cert.Kernel.R0
open Idealize.ShloMosaic Idealize.ShloMosaic.TcCoe Idealize.ShloMosaic.ValueIdx
open Idealize.SL Idealize.SL.Sem

variable {F : FTy → Type} [FloatOps F]

/-- The `tanh` of a (16, 768) vector viewed as a (1, 16, 768) slab, entry by entry. -/
theorem tanhSlab_apply (v : Vec F S16x768 .f32) (u : Fin 16) (d : Fin 768) :
    shapeCast S1x16x768 (tanh v) shapeCasts_S16x768_S1x16x768 (ix3 (0 : Fin 1) u d) = FloatOps.tanh (v (ix2 u d)) :=
  (shapeCast_addUnit_apply ![16, 768] (tanh v) shapeCasts_S16x768_S1x16x768 (ix3 (0 : Fin 1) u d)).trans
    (congrArg (fun i => FloatOps.tanh (v i)) (funext fun a => by match a with | ⟨0, _⟩ => rfl | ⟨1, _⟩ => rfl))

section Witness

variable (c : Dev nD) (t : Fin grid0.N)
    (tbl : Bf (F := F) c (Memref.whole main_arg0)) (hidx : ∀ x : S128x128.Idx, (tbl x : BitVec 32).toNat < 50257)
    (emb : Bf (F := F) c (Memref.whole main_arg1)) (g : Bf (F := F) c (Memref.whole cc0_scratch0))

/-- The row scratch as chunk `k` loads it. -/
def loads : Fin 8 → Vec F S16x768 .f32 := fun k => match k with
  | ⟨0, _⟩ => kernelRun.sl.v c t tbl hidx emb g
  | ⟨1, _⟩ => kernelRun.sl.v453 c t tbl hidx emb g
  | ⟨2, _⟩ => kernelRun.sl.v682 c t tbl hidx emb g
  | ⟨3, _⟩ => kernelRun.sl.v911 c t tbl hidx emb g
  | ⟨4, _⟩ => kernelRun.sl.v1140 c t tbl hidx emb g
  | ⟨5, _⟩ => kernelRun.sl.v1369 c t tbl hidx emb g
  | ⟨6, _⟩ => kernelRun.sl.v1598 c t tbl hidx emb g
  | ⟨7, _⟩ => kernelRun.sl.v1827 c t tbl hidx emb g

/-- The slab chunk `k` stores: the `tanh` of that load. -/
def stored : Fin 8 → S1x16x768.Idx → Elt F .f32 := fun k => match k with
  | ⟨0, _⟩ => k0_pay2 (loads c t tbl hidx emb g 0)
  | ⟨1, _⟩ => k0_pay3 (loads c t tbl hidx emb g 1)
  | ⟨2, _⟩ => k0_pay4 (loads c t tbl hidx emb g 2)
  | ⟨3, _⟩ => k0_pay5 (loads c t tbl hidx emb g 3)
  | ⟨4, _⟩ => k0_pay6 (loads c t tbl hidx emb g 4)
  | ⟨5, _⟩ => k0_pay7 (loads c t tbl hidx emb g 5)
  | ⟨6, _⟩ => k0_pay8 (loads c t tbl hidx emb g 6)
  | ⟨7, _⟩ => k0_pay1 (loads c t tbl hidx emb g 7)

theorem stored_apply (k : Fin 8) (u : Fin 16) (d : Fin 768) :
    stored c t tbl hidx emb g k (ix3 (0 : Fin 1) u d) = FloatOps.tanh (loads c t tbl hidx emb g k (ix2 u d)) := by
  obtain ⟨k, hk⟩ := k
  interval_cases k <;> exact tanhSlab_apply _ u d

theorem witness_pieces : kernelRun.sl.H3_8 c t tbl hidx emb g = Cert.Rows.pieces (stored c t tbl hidx emb g) := by
  unfold kernelRun.sl.H3_8 kernelRun.sl.H3_7 kernelRun.sl.H3_6 kernelRun.sl.H3_5 kernelRun.sl.H3_4 kernelRun.sl.H3_3
    kernelRun.sl.H3_2 kernelRun.sl.H3_1
  rfl

variable (M3 : Memref sig .tc .vmem S1x128x768 .f32) (h3 : M3.IsWhole)

theorem out0_witness :
    out0 c t M3 h3 tbl hidx emb g
      = M3.view.read (Elt F) (M3.view.writes (Elt F) M3.view.junk (kernelRun.sl.H3_8 c t tbl hidx emb g)) := by
  unfold out0 kernelRun; dsimp only

/-- Row `l`, lane `d` of the block: `tanh` of entry `(l % 16, d)` of the load of chunk `l / 16`. -/
theorem out0_apply (l : Fin 128) (d : Fin 768) :
    out0 c t M3 h3 tbl hidx emb g (ix3 (0 : Fin 1) l d)
      = FloatOps.tanh (loads c t tbl hidx emb g ⟨l.val / 16, by have := l.isLt; omega⟩ (ix2 (⟨l.val % 16, Nat.mod_lt _ (by decide)⟩ : Fin 16) d)) := by
  rw [out0_witness, witness_pieces, Cert.Rows.read_pieces]
  exact stored_apply c t tbl hidx emb g _ _ d

theorem out0_of_loads (R : Fin 8 → Fin 16 → Fin 768 → Elt F .f32)
    (hR : ∀ (k : Fin 8) (u : Fin 16) (d : Fin 768), loads c t tbl hidx emb g k (ix2 u d) = R k u d) (l : Fin 128) (d : Fin 768) :
    out0 c t M3 h3 tbl hidx emb g (ix3 (0 : Fin 1) l d)
      = FloatOps.tanh (R ⟨l.val / 16, by have := l.isLt; omega⟩ ⟨l.val % 16, Nat.mod_lt _ (by decide)⟩ d) := by
  rw [out0_apply, hR]

end Witness

end Cert.Kernel.R0Run

end
-- ==== Proof.KB.R0Payload.lean ====
import proofs.«422118_j38706245271901_2_alg».proof.Proof.Gen.Kernel
import proofs.«422118_j38706245271901_2_alg».proof.Proof.KB.R0Def
import proofs.«422118_j38706245271901_2_alg».proof.Proof.KB.R0Run
import proofs.«422118_j38706245271901_2_alg».proof.Proof.LibRows
import Idealize.ShloMosaic.Lib.ValueIdx

noncomputable section

namespace Cert.Kernel.R0Run

open Cert.Kernel Cert.Kernel.R0
open Idealize.ShloMosaic Idealize.ShloMosaic.TcCoe Idealize.ShloMosaic.ValueIdx

variable {F : FTy → Type} [FloatOps F]

/-- The table sliced to row `v` and squeezed to a vector reads, at lane `d`, entry `(v, d)`. -/
theorem row_payload (c : Dev nD) (emb : Bf (F := F) c (Memref.whole main_arg1)) (v : BitVec 32) (h : v.toNat < 50257)
    (off : Fin 2 → Nat) (hoff : off = ![v.toNat, 0]) (hinb : ∀ a, off a + S1x768.size a ≤ S50257x768.size a)
    (hs : ∀ a, (Rect.unit (s := S50257x768) off S1x768.size hinb).stride a = 1) (hsq : S1x768.Squeezes S768) (d : Fin 768) :
    ReadAs.same.apply (View.read (Elt F)
        (((Memref.whole main_arg1).slice (Rect.unit (s := S50257x768) off S1x768.size hinb) hs).squeeze S768 hsq).view emb) (ix1 d)
      = emb (ix2 ⟨v.toNat, h⟩ d) := by
  subst hoff
  show emb ((Rect.unit (s := S50257x768) ![v.toNat, 0] S1x768.size hinb).emb (Shape.reshapeEquiv hsq.numel_eq (ix1 d)))
    = emb (ix2 ⟨v.toNat, h⟩ d)
  rw [Cert.Rows.reshapeEquiv_ix1_1a]
  congr 1
  funext a
  match a with
  | ⟨0, _⟩ => exact Fin.ext (by show v.toNat + 1 * 0 = v.toNat; omega)
  | ⟨1, _⟩ => exact Fin.ext (by show 0 + 1 * d.val = d.val; omega)

theorem row_payload_rowAt (c : Dev nD) (emb : Bf (F := F) c (Memref.whole main_arg1)) (v : BitVec 32) (h : v.toNat < 50257)
    (off : Fin 2 → Nat) (hoff : off = ![v.toNat, 0]) (hinb : ∀ a, off a + S1x768.size a ≤ S50257x768.size a)
    (hs : ∀ a, (Rect.unit (s := S50257x768) off S1x768.size hinb).stride a = 1) (hsq : S1x768.Squeezes S768) (d : Fin 768) :
    ReadAs.same.apply (View.read (Elt F)
        (((Memref.whole main_arg1).slice (Rect.unit (s := S50257x768) off S1x768.size hinb) hs).squeeze S768 hsq).view emb) (ix1 d)
      = rowAt emb v d := by
  rw [row_payload c emb v h off hoff hinb hs hsq d]
  unfold rowAt
  rw [dif_pos h]

/-- The grid coordinate the body computes from a point is the point's number. -/
theorem coord0 : ∀ t : Fin grid0.N, (Scalar.indexCast (BitVec.ofNat 32 ((grid0.coords t) 0).val)).toNat = t.val := by
  decide +kernel

/-- A one-word load at offsets `(t, l)` reads entry `(t, l)` of the token table. -/
theorem word_at (c : Dev nD) (tbl : Bf (F := F) c (Memref.whole main_arg0)) (t l : Fin 128)
    (off : Fin 2 → Nat) (h0 : off 0 = t.val) (h1 : off 1 = l.val) (inb : ∀ a, off a + S1x1.size a ≤ S128x128.size a)
    (hn : 0 < (Rect.unit (s := S128x128) off S1x1.size inb).toLoadRect.shape.numel) :
    View.readAt (Elt F) (Memref.whole main_arg0).view (Rect.unit (s := S128x128) off S1x1.size inb).toLoadRect tbl (Shape.Idx.first hn)
      = tbl (ix2 t l) := by
  show tbl ((Rect.unit (s := S128x128) off S1x1.size inb).emb (Shape.Idx.first hn)) = tbl (ix2 t l)
  congr 1
  funext a
  match a with
  | ⟨0, _⟩ => exact Fin.ext (by show off 0 + 1 * 0 = t.val; omega)
  | ⟨1, _⟩ => exact Fin.ext (by show off 1 + 1 * 0 = l.val; omega)

/-- The same at the body's own offsets: the coordinate of grid point `t` and the literal position `l`. -/
theorem word_at_point (c : Dev nD) (tbl : Bf (F := F) c (Memref.whole main_arg0)) (t : Fin grid0.N) (l : Nat) (hl : l < 128)
    (off : Fin 2 → Nat) (hoff : off = ![(Scalar.indexCast (BitVec.ofNat 32 ((grid0.coords t) 0).val)).toNat, l])
    (inb : ∀ a, off a + S1x1.size a ≤ S128x128.size a)
    (hn : 0 < (Rect.unit (s := S128x128) off S1x1.size inb).toLoadRect.shape.numel) :
    View.readAt (Elt F) (Memref.whole main_arg0).view (Rect.unit (s := S128x128) off S1x1.size inb).toLoadRect tbl (Shape.Idx.first hn)
      = tbl (ix2 ⟨t.val, lt_of_lt_of_eq t.isLt Gen.N_0⟩ ⟨l, hl⟩) :=
  word_at c tbl ⟨t.val, lt_of_lt_of_eq t.isLt Gen.N_0⟩ ⟨l, hl⟩ off (by rw [hoff]; exact coord0 t) (by rw [hoff]; rfl) inb hn

end Cert.Kernel.R0Run

end
-- ==== Proof.KB.R0Loads.lean ====
import proofs.«422118_j38706245271901_2_alg».proof.Proof.KB.R0Pieces
import proofs.«422118_j38706245271901_2_alg».proof.Proof.LibRows
import proofs.«422118_j38706245271901_2_alg».proof.Proof.KB.R0Payload

noncomputable section

namespace Cert.Kernel.R0Run

open Cert.Kernel Cert.Kernel.Gen Cert.Kernel.R0
open Idealize.ShloMosaic Idealize.ShloMosaic.TcCoe Idealize.ShloMosaic.ValueIdx
open Idealize.SL Idealize.SL.Sem

variable {F : FTy → Type} [FloatOps F]

abbrev rowOf (t : Fin grid0.N) : Fin 128 := ⟨t.val, lt_of_lt_of_eq t.isLt Gen.N_0⟩

variable (c : Dev nD) (t : Fin grid0.N)
    (tbl : Bf (F := F) c (Memref.whole main_arg0)) (hidx : ∀ x : S128x128.Idx, (tbl x : BitVec 32).toNat < 50257)
    (emb : Bf (F := F) c (Memref.whole main_arg1)) (g : Bf (F := F) c (Memref.whole cc0_scratch0))

/-- Chunk `k`'s load, at row `u`, is the embedding row that word `16 k + u` of sentence `t` names: the sixteen copies
    fill the sixteen rows, and copy `u` carries the row its word names. -/
theorem loads_at (k : Fin 8) : ∀ (u : Fin 16) (d : Fin 768),
    loads c t tbl hidx emb g k (ix2 u d)
      = rowAt emb (tbl (ix2 (rowOf t) (⟨16 * k.val + u.val, by have := k.isLt; have := u.isLt; omega⟩ : Fin 128))) d := by
  obtain ⟨k, hk⟩ := k
  interval_cases k <;>
  · refine Cert.Rows.load_rows16 (Val := Elt F) (Memref.whole cc0_scratch0) _ _ rfl _ _ _ _ _ _ _ _ _ _ _ _ _ _ _ _ _ _ _
      fun d => ⟨?_, ?_, ?_, ?_, ?_, ?_, ?_, ?_, ?_, ?_, ?_, ?_, ?_, ?_, ?_, ?_⟩ <;>
    (refine (row_payload_rowAt c emb _ (word_lt c tbl hidx _ _) _ rfl _ _ _ d).trans ?_
     exact congrArg (fun v => rowAt emb v d) (word_at_point c tbl t _ _ _ rfl _ _))

end Cert.Kernel.R0Run

end
-- ==== Proof.KB.R0Val.lean ====
import proofs.«422118_j38706245271901_2_alg».proof.Proof.KB.R0Loads

noncomputable section

namespace Cert.Kernel.R0Run

open Cert.Kernel Cert.Kernel.Gen Cert.Kernel.R0
open Idealize.ShloMosaic Idealize.ShloMosaic.TcCoe Idealize.ShloMosaic.ValueIdx
open Idealize.SL Idealize.SL.Sem

variable {F : FTy → Type} [FloatOps F]

theorem out0_at (c : Dev nD) (t : Fin grid0.N)
    (tbl : Bf (F := F) c (Memref.whole main_arg0)) (hidx : ∀ x : S128x128.Idx, (tbl x : BitVec 32).toNat < 50257)
    (emb : Bf (F := F) c (Memref.whole main_arg1)) (g : Bf (F := F) c (Memref.whole cc0_scratch0))
    (M3 : Memref sig .tc .vmem S1x128x768 .f32) (h3 : M3.IsWhole) (l : Fin 128) (d : Fin 768) :
    out0 c t M3 h3 tbl hidx emb g (ix3 (0 : Fin 1) l d) = gathAt tbl emb (rowOf t) l d := by
  rw [out0_of_loads c t tbl hidx emb g M3 h3
    (fun k u d => rowAt emb (tbl (ix2 (rowOf t) (⟨16 * k.val + u.val, by have := k.isLt; have := u.isLt; omega⟩ : Fin 128))) d)
    (loads_at c t tbl hidx emb g) l d]
  unfold gathAt
  have e : (⟨16 * (l.val / 16) + l.val % 16, by have := l.isLt; omega⟩ : Fin 128) = l := Fin.ext (by show 16 * (l.val / 16) + l.val % 16 = l.val; omega)
  exact congrArg (fun l' : Fin 128 => FloatOps.tanh (rowAt emb (tbl (ix2 (rowOf t) l')) d)) e

/-- The block the body leaves at point `t` is sentence `t`'s gathered rows. -/
theorem out0_eq (c : Dev nD) (t : Fin grid0.N)
    (tbl : Bf (F := F) c (Memref.whole main_arg0)) (hidx : ∀ x : S128x128.Idx, (tbl x : BitVec 32).toNat < 50257)
    (emb : Bf (F := F) c (Memref.whole main_arg1)) (g : Bf (F := F) c (Memref.whole cc0_scratch0))
    (M3 : Memref sig .tc .vmem S1x128x768 .f32) (h3 : M3.IsWhole) :
    out0 c t M3 h3 tbl hidx emb g = gath tbl emb (rowOf t) := by
  funext j
  obtain ⟨z, l, d, rfl⟩ : ∃ (z : Fin 1) (l : Fin 128) (d : Fin 768), j = ix3 z l d := ⟨j 0, j 1, j 2, eq_ix3 j⟩
  have hz : z = (0 : Fin 1) := Fin.ext (by have := z.isLt; omega)
  subst hz
  exact out0_at c t tbl hidx emb g M3 h3 l d

end Cert.Kernel.R0Run

end
-- ==== Proof.KB.R0Obl.lean ====
import proofs.«422118_j38706245271901_2_alg».proof.Proof.KB.R0Dat
import proofs.«422118_j38706245271901_2_alg».proof.Proof.KB.R0Val

noncomputable section

namespace Cert.Kernel.R0

open Cert.Kernel Cert.Kernel.Gen Cert.Kernel.R0Run
open Idealize.ShloMosaic Idealize.ShloMosaic.TcCoe
open Idealize.SL
open Idealize.ShloMosaic.Pipeline (BodyObligation)

variable {F : FTy → Type} [FloatOps F]

theorem body_obligation0 (a0 : (pcfg0 (F := F)).Adm) (c : Dev nD) (V : (b : Ref sig .tc) → Buf (Elt F) ((c : Thread nD τ).loc b))
    (hidx : ∀ x, (a0.1 0 x).toNat < 50257) :
    BodyObligation (dat0 a0 c V) (defs₀ (F := F)) Variants.none () Set.univ :=
  body_obligation0_of a0 c V hidx fun t M3 h3 g => R0Run.out0_eq c t (a0.1 0) hidx (V main_arg1) g M3 h3

end Cert.Kernel.R0

end
-- ==== Proof.KB.FrameOf.lean ====
import proofs.«422118_j38706245271901_2_alg».proof.Proof.KB.Vals

noncomputable section

namespace Cert.Kernel.Launch

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem frame_of
    (h : θ_run defs (onTc (τ := τ) (main (F := F))) ⟨m, fun _ => 0, ρ⟩
      (fun r => ∀ c : Dev nD, ∀ b ∈ Pipeline.ucRefs τ sig, r.2.mem ((c : Thread nD τ).1, b) = W4 m c b)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c =>
    ⟨(hr c _ (mem_uc main_arg0 (by decide))).trans (W4_main_arg0 m c),
      (hr c _ (mem_uc main_arg1 (by decide))).trans (W4_main_arg1 m c)⟩) h

theorem results_of
    (h : θ_run defs (onTc (τ := τ) (main (F := F))) ⟨m, fun _ => 0, ρ⟩
      (fun r => ∀ c : Dev nD, ∀ b ∈ Pipeline.ucRefs τ sig, r.2.mem ((c : Thread nD τ).1, b) = W4 m c b)) :
    θ_run defs (onTc (τ := τ) (main (F := F))) ⟨m, fun _ => 0, ρ⟩ (fun r => ∀ c : Dev nD,
      r.2.mem ((c.tc : Thread nD τ).loc main_v7_0) = W4 m c (Proc.devRef .tc main_v7_0)
      ∧ r.2.mem ((c.tc : Thread nD τ).loc main_v10) = W4 m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c =>
    ⟨hr c _ (mem_uc main_v7_0 (by decide)), hr c _ (mem_uc main_v10 (by decide)),
      (hr c _ (mem_uc main_arg0 (by decide))).trans (W4_main_arg0 m c),
      (hr c _ (mem_uc main_arg1 (by decide))).trans (W4_main_arg1 m c)⟩) h

end Cert.Kernel.Launch

end
-- ==== Proof.lean ====
import proofs.«422118_j38706245271901_2_alg».proof.Defs
import proofs.«422118_j38706245271901_2_alg».proof.Proof.Gen.Kernel
import proofs.«422118_j38706245271901_2_alg».proof.Proof.Gen.KernelIdeal
import proofs.«422118_j38706245271901_2_alg».proof.Proof.Gen.ReferenceIdeal
import proofs.«422118_j38706245271901_2_alg».proof.Proof.Gen.Pre_finite_inputs
import proofs.«422118_j38706245271901_2_alg».proof.Proof.PreDecode
import proofs.«422118_j38706245271901_2_alg».proof.Proof.RefImg
import proofs.«422118_j38706245271901_2_alg».proof.Proof.RefTail
import proofs.«422118_j38706245271901_2_alg».proof.Proof.KI.Launch
import proofs.«422118_j38706245271901_2_alg».proof.Proof.KI.Seg0
import proofs.«422118_j38706245271901_2_alg».proof.Proof.KI.Seg1
import proofs.«422118_j38706245271901_2_alg».proof.Proof.KI.R0Obl
import proofs.«422118_j38706245271901_2_alg».proof.Proof.KI.FrameOf
import proofs.«422118_j38706245271901_2_alg».proof.Proof.KI.KernelValue
import proofs.«422118_j38706245271901_2_alg».proof.Proof.KB.Launch
import proofs.«422118_j38706245271901_2_alg».proof.Proof.KB.Seg0
import proofs.«422118_j38706245271901_2_alg».proof.Proof.KB.Seg1
import proofs.«422118_j38706245271901_2_alg».proof.Proof.KB.R0Obl
import proofs.«422118_j38706245271901_2_alg».proof.Proof.KB.FrameOf

noncomputable section

namespace Cert.Proof

open Idealize.ShloMosaic Idealize.ShloMosaic.TcCoe Idealize.SL.Sem

namespace Parts

/-- The word-level program's run, from the range of the tokens. -/
theorem run_k (m : (ℓ : Loc Cert.Kernel.nD Cert.Kernel.τ Cert.Kernel.sig) → Buf (Elt Bits) ℓ) (ρ : Dev Cert.Kernel.nD → PrngReg)
    (hidx : ∀ x, (Cert.Kernel.Launch.tbl m 0 x).toNat < 50257) :
    θ_run (Cert.Kernel.defs (F := Bits)) (onTc (τ := Cert.Kernel.τ) (Cert.Kernel.main (F := Bits))) ⟨m, fun _ => 0, ρ⟩
      (fun r => ∀ c : Dev Cert.Kernel.nD, ∀ b ∈ Pipeline.ucRefs Cert.Kernel.τ Cert.Kernel.sig,
        r.2.mem ((c : Thread Cert.Kernel.nD Cert.Kernel.τ).1, b) = Cert.Kernel.Launch.W4 m c b) :=
  Cert.Kernel.Launch.run_main (F := Bits) m ρ (Cert.Kernel.Launch.reg0 m fun c => Cert.Kernel.R0.body_obligation0 (Cert.Kernel.Launch.a0 m) c (Cert.Kernel.Launch.B0 m c) hidx) (fun _ => .rfl) (fun _ => .rfl)
    (Cert.Kernel.Launch.reg1 m) (fun _ => .rfl) (fun _ => .rfl)

/-- The idealized program's run. -/
theorem run_ki (m : (ℓ : Loc Cert.KernelIdeal.nD Cert.KernelIdeal.τ Cert.KernelIdeal.sig) → Buf (Elt Ideal) ℓ) (ρ : Dev Cert.KernelIdeal.nD → PrngReg)
    (hidx : ∀ x, (Cert.KernelIdeal.Launch.tbl m 0 x).toNat < 50257) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD, ∀ b ∈ Pipeline.ucRefs Cert.KernelIdeal.τ Cert.KernelIdeal.sig,
        r.2.mem ((c : Thread Cert.KernelIdeal.nD Cert.KernelIdeal.τ).1, b) = Cert.KernelIdeal.Launch.W4 m c b) :=
  Cert.KernelIdeal.Launch.run_main (F := Ideal) m ρ (Cert.KernelIdeal.Launch.reg0 m fun c => Cert.KernelIdeal.R0.body_obligation0 (Cert.KernelIdeal.Launch.a0 m) c (Cert.KernelIdeal.Launch.B0 m c) hidx) (fun _ => .rfl) (fun _ => .rfl)
    (Cert.KernelIdeal.Launch.reg1 m) (fun _ => .rfl) (fun _ => .rfl)

theorem frame_k : Cert.frame_Kernel (hKernel := Cert.Kernel.Gen.facts) (hPre_finite_inputs := Cert.Pre_finite_inputs.Gen.facts) :=
  fun m ρ hpre => Cert.Kernel.Launch.frame_of m ρ (run_k m ρ (Cert.PreDecode.inRange_of_Pre_Kernel (hP := Cert.Pre_finite_inputs.Gen.facts) m hpre 0))

theorem frame_ki : Cert.frame_KernelIdeal (hKernelIdeal := Cert.KernelIdeal.Gen.facts) (hPre_finite_inputs := Cert.Pre_finite_inputs.Gen.facts) :=
  fun m ρ hpre => Cert.KernelIdeal.Launch.frame_of m ρ (run_ki m ρ (Cert.PreDecode.inRange_of_Pre_KernelIdeal (hP := Cert.Pre_finite_inputs.Gen.facts) m hpre 0))

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both idealized programs end at the specification's two arrays of arguments that agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hidx : ∀ (c : Dev Cert.KernelIdeal.nD) x, (m ((c.tc : Thread Cert.KernelIdeal.nD Cert.KernelIdeal.τ).loc Cert.KernelIdeal.main_arg0) x).toNat < 50257 :=
    Cert.PreDecode.inRange_of_Pre_KernelIdeal (hP := Cert.Pre_finite_inputs.Gen.facts) m hpre
  refine ⟨fun c => Cert.Spec.outArr (Cert.KernelIdeal.Launch.tblOf m c) (Cert.KernelIdeal.Launch.embOf m c),
    fun c => Cert.Spec.normArr (Cert.KernelIdeal.Launch.tblOf m c) (Cert.KernelIdeal.Launch.embOf m c), ?_, ?_⟩
  · refine (θ_run Cert.KernelIdeal.defs _ _).mono (fun r h c => ?_) (Cert.KernelIdeal.Launch.results_of m ρ (run_ki m ρ (hidx 0)))
    obtain ⟨h0, h1, h2, h3⟩ := h c
    exact ⟨h0.trans (Cert.KernelIdeal.Launch.W4_v7_0 m c (hidx c)), h1.trans (Cert.KernelIdeal.Launch.W4_v10 m c (hidx c)), h2, h3⟩
  · have hr : ∀ c : Dev Cert.ReferenceIdeal.nD, Cert.Spec.InRange (m' ((c.tc : Thread Cert.ReferenceIdeal.nD Cert.ReferenceIdeal.τ).loc Cert.ReferenceIdeal.main_arg0)) := by
      intro c; rw [(hagree c).1]; exact hidx c
    refine (θ_run Cert.ReferenceIdeal.defs _ _).mono (fun r h c => ?_) (Cert.ReferenceIdeal.RefValue.ref_run m' ρ' hr Cert.ReferenceIdeal.RefValue.v21_eq)
    obtain ⟨h0, h1, h2, h3⟩ := h c
    rw [(hagree c).1, (hagree c).2] at h0 h1
    exact ⟨h0, h1, h2, h3⟩

end Parts

theorem claim : Cert.Claim := ⟨Cert.Kernel.Gen.facts, Cert.KernelIdeal.Gen.facts, Cert.ReferenceIdeal.Gen.facts, Cert.Pre_finite_inputs.Gen.facts,
  Parts.frame_k, Parts.frame_ki, Parts.frame_ri, trivial, Parts.algebraic⟩

end Cert.Proof

end
